-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x256 : Shape := ⟨3, ![2048, 1, 256]⟩
abbrev S256x64 : Shape := ⟨2, ![256, 64]⟩
abbrev S128x64x64 : Shape := ⟨3, ![128, 64, 64]⟩
abbrev S64x64x64 : Shape := ⟨3, ![64, 64, 64]⟩
abbrev S32x64x64 : Shape := ⟨3, ![32, 64, 64]⟩
abbrev S16x64x64 : Shape := ⟨3, ![16, 64, 64]⟩
abbrev S8x64x64 : Shape := ⟨3, ![8, 64, 64]⟩
abbrev S4x64x64 : Shape := ⟨3, ![4, 64, 64]⟩
abbrev S2x64x64 : Shape := ⟨3, ![2, 64, 64]⟩
abbrev S1x64x64 : Shape := ⟨3, ![1, 64, 64]⟩
abbrev S256x1 : Shape := ⟨2, ![256, 1]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S8x2 : Shape := ⟨2, ![8, 2]⟩
abbrev S4x2 : Shape := ⟨2, ![4, 2]⟩
abbrev S2x2 : Shape := ⟨2, ![2, 2]⟩
abbrev S1x2 : Shape := ⟨2, ![1, 2]⟩
abbrev S_ : Shape := ⟨0, ![]⟩

class Facts : Prop where
  bcast_S_S2048x1x256 : S_.BroadcastsInDim S2048x1x256 (![] : Fin 0 → Fin S2048x1x256.rank)
  reducesTo_S2048x1x256_S_d0_1_2 : S2048x1x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S128x64x64 : S_.BroadcastsInDim S128x64x64 (![] : Fin 0 → Fin S128x64x64.rank)
  reducesTo_S128x64x64_S_d0_1_2 : S128x64x64.ReducesTo [0, 1, 2] S_
  bcast_S_S64x64x64 : S_.BroadcastsInDim S64x64x64 (![] : Fin 0 → Fin S64x64x64.rank)
  reducesTo_S64x64x64_S_d0_1_2 : S64x64x64.ReducesTo [0, 1, 2] S_
  bcast_S_S32x64x64 : S_.BroadcastsInDim S32x64x64 (![] : Fin 0 → Fin S32x64x64.rank)
  reducesTo_S32x64x64_S_d0_1_2 : S32x64x64.ReducesTo [0, 1, 2] S_
  bcast_S_S16x64x64 : S_.BroadcastsInDim S16x64x64 (![] : Fin 0 → Fin S16x64x64.rank)
  reducesTo_S16x64x64_S_d0_1_2 : S16x64x64.ReducesTo [0, 1, 2] S_
  bcast_S_S8x64x64 : S_.BroadcastsInDim S8x64x64 (![] : Fin 0 → Fin S8x64x64.rank)
  reducesTo_S8x64x64_S_d0_1_2 : S8x64x64.ReducesTo [0, 1, 2] S_
  bcast_S_S4x64x64 : S_.BroadcastsInDim S4x64x64 (![] : Fin 0 → Fin S4x64x64.rank)
  reducesTo_S4x64x64_S_d0_1_2 : S4x64x64.ReducesTo [0, 1, 2] S_
  bcast_S_S2x64x64 : S_.BroadcastsInDim S2x64x64 (![] : Fin 0 → Fin S2x64x64.rank)
  reducesTo_S2x64x64_S_d0_1_2 : S2x64x64.ReducesTo [0, 1, 2] S_
  bcast_S_S1x64x64 : S_.BroadcastsInDim S1x64x64 (![] : Fin 0 → Fin S1x64x64.rank)
  reducesTo_S1x64x64_S_d0_1_2 : S1x64x64.ReducesTo [0, 1, 2] S_
  bcast_S_S256x1 : S_.BroadcastsInDim S256x1 (![] : Fin 0 → Fin S256x1.rank)
  reducesTo_S256x1_S_d0_1 : S256x1.ReducesTo [0, 1] S_
  bcast_S_S128x2 : S_.BroadcastsInDim S128x2 (![] : Fin 0 → Fin S128x2.rank)
  reducesTo_S128x2_S_d0_1 : S128x2.ReducesTo [0, 1] S_
  bcast_S_S64x2 : S_.BroadcastsInDim S64x2 (![] : Fin 0 → Fin S64x2.rank)
  reducesTo_S64x2_S_d0_1 : S64x2.ReducesTo [0, 1] S_
  bcast_S_S32x2 : S_.BroadcastsInDim S32x2 (![] : Fin 0 → Fin S32x2.rank)
  reducesTo_S32x2_S_d0_1 : S32x2.ReducesTo [0, 1] S_
  bcast_S_S16x2 : S_.BroadcastsInDim S16x2 (![] : Fin 0 → Fin S16x2.rank)
  reducesTo_S16x2_S_d0_1 : S16x2.ReducesTo [0, 1] S_
  bcast_S_S8x2 : S_.BroadcastsInDim S8x2 (![] : Fin 0 → Fin S8x2.rank)
  reducesTo_S8x2_S_d0_1 : S8x2.ReducesTo [0, 1] S_
  bcast_S_S4x2 : S_.BroadcastsInDim S4x2 (![] : Fin 0 → Fin S4x2.rank)
  reducesTo_S4x2_S_d0_1 : S4x2.ReducesTo [0, 1] S_
  bcast_S_S2x2 : S_.BroadcastsInDim S2x2 (![] : Fin 0 → Fin S2x2.rank)
  reducesTo_S2x2_S_d0_1 : S2x2.ReducesTo [0, 1] S_
  bcast_S_S1x2 : S_.BroadcastsInDim S1x2 (![] : Fin 0 → Fin S1x2.rank)
  reducesTo_S1x2_S_d0_1 : S1x2.ReducesTo [0, 1] S_

variable [Facts]

def fn_part5 {F : FTy → Type} [FloatOps F] (main_arg18 : IVec S2x2 32) (main_arg19 : IVec S1x2 32) (main_v81 : IVec S_ 1) (main_v82 : IVec S2x2 32) : IVec S_ 1 :=
  let main_v83 : IVec S2x2 1 := cmpi .sge main_arg18 main_v82
  let main_c_35 : IVec S_ 1 := constantI S_ 1 1#1
  let main_v84 : IVec S_ 1 := (fun x v => Host.reduce IntOp.andi x v reducesTo_S2x2_S_d0_1 h_S_) main_v83 main_c_35
  let main_v85 : IVec S_ 1 := andi main_v81 main_v84
  let main_c_36 : IVec S_ 32 := constantI S_ 32 0#32
  let main_v86 : IVec S1x2 32 := broadcastInDim S1x2 ![] bcast_S_S1x2 main_c_36
  let main_v87 : IVec S1x2 1 := cmpi .sge main_arg19 main_v86
  let main_c_37 : IVec S_ 1 := constantI S_ 1 1#1
  let main_v88 : IVec S_ 1 := (fun x v => Host.reduce IntOp.andi x v reducesTo_S1x2_S_d0_1 h_S_) main_v87 main_c_37
  let main_v89 : IVec S_ 1 := andi main_v85 main_v88
  main_v89

def fn_part4 {F : FTy → Type} [FloatOps F] (main_arg14 : IVec S32x2 32) (main_arg15 : IVec S16x2 32) (main_arg16 : IVec S8x2 32) (main_arg17 : IVec S4x2 32) (main_arg18 : IVec S2x2 32) (main_arg19 : IVec S1x2 32) (main_v65 : IVec S_ 1) (main_v66 : IVec S32x2 32) : IVec S_ 1 :=
  let main_v67 : IVec S32x2 1 := cmpi .sge main_arg14 main_v66
  let main_c_27 : IVec S_ 1 := constantI S_ 1 1#1
  let main_v68 : IVec S_ 1 := (fun x v => Host.reduce IntOp.andi x v reducesTo_S32x2_S_d0_1 h_S_) main_v67 main_c_27
  let main_v69 : IVec S_ 1 := andi main_v65 main_v68
  let main_c_28 : IVec S_ 32 := constantI S_ 32 0#32
  let main_v70 : IVec S16x2 32 := broadcastInDim S16x2 ![] bcast_S_S16x2 main_c_28
  let main_v71 : IVec S16x2 1 := cmpi .sge main_arg15 main_v70
  let main_c_29 : IVec S_ 1 := constantI S_ 1 1#1
  let main_v72 : IVec S_ 1 := (fun x v => Host.reduce IntOp.andi x v reducesTo_S16x2_S_d0_1 h_S_) main_v71 main_c_29
  let main_v73 : IVec S_ 1 := andi main_v69 main_v72
  let main_c_30 : IVec S_ 32 := constantI S_ 32 0#32
  let main_v74 : IVec S8x2 32 := broadcastInDim S8x2 ![] bcast_S_S8x2 main_c_30
  let main_v75 : IVec S8x2 1 := cmpi .sge main_arg16 main_v74
  let main_c_31 : IVec S_ 1 := constantI S_ 1 1#1
  let main_v76 : IVec S_ 1 := (fun x v => Host.reduce IntOp.andi x v reducesTo_S8x2_S_d0_1 h_S_) main_v75 main_c_31
  let main_v77 : IVec S_ 1 := andi main_v73 main_v76
  let main_c_32 : IVec S_ 32 := constantI S_ 32 0#32
  let main_v78 : IVec S4x2 32 := broadcastInDim S4x2 ![] bcast_S_S4x2 main_c_32
  let main_v79 : IVec S4x2 1 := cmpi .sge main_arg17 main_v78
  let main_c_33 : IVec S_ 1 := constantI S_ 1 1#1
  let main_v80 : IVec S_ 1 := (fun x v => Host.reduce IntOp.andi x v reducesTo_S4x2_S_d0_1 h_S_) main_v79 main_c_33
  let main_v81 : IVec S_ 1 := andi main_v77 main_v80
  let main_c_34 : IVec S_ 32 := constantI S_ 32 0#32
  let main_v82 : IVec S2x2 32 := broadcastInDim S2x2 ![] bcast_S_S2x2 main_c_34
  fn_part5 (F := F) main_arg18 main_arg19 main_v81 main_v82

def fn_part3 {F : FTy → Type} [FloatOps F] (main_arg11 : IVec S256x1 32) (main_arg12 : IVec S128x2 32) (main_arg13 : IVec S64x2 32) (main_arg14 : IVec S32x2 32) (main_arg15 : IVec S16x2 32) (main_arg16 : IVec S8x2 32) (main_arg17 : IVec S4x2 32) (main_arg18 : IVec S2x2 32) (main_arg19 : IVec S1x2 32) (main_v48 : IVec S_ 1) (main_v49 : FVec F S1x64x64 .f32) (main_v50 : FVec F S1x64x64 .f32) : IVec S_ 1 :=
  let main_v51 : IVec S1x64x64 1 := cmpf .olt main_v49 main_v50
  let main_c_19 : IVec S_ 1 := constantI S_ 1 1#1
  let main_v52 : IVec S_ 1 := (fun x v => Host.reduce IntOp.andi x v reducesTo_S1x64x64_S_d0_1_2 h_S_) main_v51 main_c_19
  let main_v53 : IVec S_ 1 := andi main_v48 main_v52
  let main_c_20 : IVec S_ 32 := constantI S_ 32 0#32
  let main_v54 : IVec S256x1 32 := broadcastInDim S256x1 ![] bcast_S_S256x1 main_c_20
  let main_v55 : IVec S256x1 1 := cmpi .sge main_arg11 main_v54
  let main_c_21 : IVec S_ 1 := constantI S_ 1 1#1
  let main_v56 : IVec S_ 1 := (fun x v => Host.reduce IntOp.andi x v reducesTo_S256x1_S_d0_1 h_S_) main_v55 main_c_21
  let main_v57 : IVec S_ 1 := andi main_v53 main_v56
  let main_c_22 : IVec S_ 32 := constantI S_ 32 0#32
  let main_v58 : IVec S128x2 32 := broadcastInDim S128x2 ![] bcast_S_S128x2 main_c_22
  let main_v59 : IVec S128x2 1 := cmpi .sge main_arg12 main_v58
  let main_c_23 : IVec S_ 1 := constantI S_ 1 1#1
  let main_v60 : IVec S_ 1 := (fun x v => Host.reduce IntOp.andi x v reducesTo_S128x2_S_d0_1 h_S_) main_v59 main_c_23
  let main_v61 : IVec S_ 1 := andi main_v57 main_v60
  let main_c_24 : IVec S_ 32 := constantI S_ 32 0#32
  let main_v62 : IVec S64x2 32 := broadcastInDim S64x2 ![] bcast_S_S64x2 main_c_24
  let main_v63 : IVec S64x2 1 := cmpi .sge main_arg13 main_v62
  let main_c_25 : IVec S_ 1 := constantI S_ 1 1#1
  let main_v64 : IVec S_ 1 := (fun x v => Host.reduce IntOp.andi x v reducesTo_S64x2_S_d0_1 h_S_) main_v63 main_c_25
  let main_v65 : IVec S_ 1 := andi main_v61 main_v64
  let main_c_26 : IVec S_ 32 := constantI S_ 32 0#32
  let main_v66 : IVec S32x2 32 := broadcastInDim S32x2 ![] bcast_S_S32x2 main_c_26
  fn_part4 (F := F) main_arg14 main_arg15 main_arg16 main_arg17 main_arg18 main_arg19 main_v65 main_v66

def fn_part2 {F : FTy → Type} [FloatOps F] (main_arg7 : FVec F S8x64x64 .f32) (main_arg8 : FVec F S4x64x64 .f32) (main_arg9 : FVec F S2x64x64 .f32) (main_arg10 : FVec F S1x64x64 .f32) (main_arg11 : IVec S256x1 32) (main_arg12 : IVec S128x2 32) (main_arg13 : IVec S64x2 32) (main_arg14 : IVec S32x2 32) (main_arg15 : IVec S16x2 32) (main_arg16 : IVec S8x2 32) (main_arg17 : IVec S4x2 32) (main_arg18 : IVec S2x2 32) (main_arg19 : IVec S1x2 32) (main_v33 : IVec S_ 1) : IVec S_ 1 :=
  let main_v34 : FVec F S8x64x64 .f32 := Host.absf main_arg7
  let main_cst_12 : FVec F S_ .f32 := constant S_ .f32 0x7F800000#32
  let main_v35 : FVec F S8x64x64 .f32 := broadcastInDim S8x64x64 ![] bcast_S_S8x64x64 main_cst_12
  let main_v36 : IVec S8x64x64 1 := cmpf .olt main_v34 main_v35
  let main_c_13 : IVec S_ 1 := constantI S_ 1 1#1
  let main_v37 : IVec S_ 1 := (fun x v => Host.reduce IntOp.andi x v reducesTo_S8x64x64_S_d0_1_2 h_S_) main_v36 main_c_13
  let main_v38 : IVec S_ 1 := andi main_v33 main_v37
  let main_v39 : FVec F S4x64x64 .f32 := Host.absf main_arg8
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S2x64x64 .f32 := Host.absf main_arg9
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S1x64x64 .f32 := Host.absf main_arg10
  let main_cst_18 : FVec F S_ .f32 := constant S_ .f32 0x7F800000#32
  let main_v50 : FVec F S1x64x64 .f32 := broadcastInDim S1x64x64 ![] bcast_S_S1x64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64x64 .f32) (main_arg5 : FVec F S32x64x64 .f32) (main_arg6 : FVec F S16x64x64 .f32) (main_arg7 : FVec F S8x64x64 .f32) (main_arg8 : FVec F S4x64x64 .f32) (main_arg9 : FVec F S2x64x64 .f32) (main_arg10 : FVec F S1x64x64 .f32) (main_arg11 : IVec S256x1 32) (main_arg12 : IVec S128x2 32) (main_arg13 : IVec S64x2 32) (main_arg14 : IVec S32x2 32) (main_arg15 : IVec S16x2 32) (main_arg16 : IVec S8x2 32) (main_arg17 : IVec S4x2 32) (main_arg18 : IVec S2x2 32) (main_arg19 : IVec S1x2 32) (main_v13 : IVec S_ 1) (main_v16 : IVec S128x64x64 1) : IVec S_ 1 :=
  let main_c_5 : IVec S_ 1 := constantI S_ 1 1#1
  let main_v17 : IVec S_ 1 := (fun x v => Host.reduce IntOp.andi x v reducesTo_S128x64x64_S_d0_1_2 h_S_) main_v16 main_c_5
  let main_v18 : IVec S_ 1 := andi main_v13 main_v17
  let main_v19 : FVec F S64x64x64 .f32 := Host.absf main_arg4
  let main_cst_6 : FVec F S_ .f32 := constant S_ .f32 0x7F800000#32
  let main_v20 : FVec F S64x64x64 .f32 := broadcastInDim S64x64x64 ![] bcast_S_S64x64x64 main_cst_6
  let main_v21 : IVec S64x64x64 1 := cmpf .olt main_v19 main_v20
  let main_c_7 : IVec S_ 1 := constantI S_ 1 1#1
  let main_v22 : IVec S_ 1 := (fun x v => Host.reduce IntOp.andi x v reducesTo_S64x64x64_S_d0_1_2 h_S_) main_v21 main_c_7
  let main_v23 : IVec S_ 1 := andi main_v18 main_v22
  let main_v24 : FVec F S32x64x64 .f32 := Host.absf main_arg5
  let main_cst_8 : FVec F S_ .f32 := constant S_ .f32 0x7F800000#32
  let main_v25 : FVec F S32x64x64 .f32 := broadcastInDim S32x64x64 ![] bcast_S_S32x64x64 main_cst_8
  let main_v26 : IVec S32x64x64 1 := cmpf .olt main_v24 main_v25
  let main_c_9 : IVec S_ 1 := constantI S_ 1 1#1
  let main_v27 : IVec S_ 1 := (fun x v => Host.reduce IntOp.andi x v reducesTo_S32x64x64_S_d0_1_2 h_S_) main_v26 main_c_9
  let main_v28 : IVec S_ 1 := andi main_v23 main_v27
  let main_v29 : FVec F S16x64x64 .f32 := Host.absf main_arg6
  let main_cst_10 : FVec F S_ .f32 := constant S_ .f32 0x7F800000#32
  let main_v30 : FVec F S16x64x64 .f32 := broadcastInDim S16x64x64 ![] bcast_S_S16x64x64 main_cst_10
  let main_v31 : IVec S16x64x64 1 := cmpf .olt main_v29 main_v30
  let main_c_11 : IVec S_ 1 := constantI S_ 1 1#1
  let main_v32 : IVec S_ 1 := (fun x v => Host.reduce IntOp.andi x v reducesTo_S16x64x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x1x256 .f32) (main_arg1 : FVec F S256x64 .f32) (main_arg2 : FVec F S256x64 .f32) (main_arg3 : FVec F S128x64x64 .f32) (main_arg4 : FVec F S64x64x64 .f32) (main_arg5 : FVec F S32x64x64 .f32) (main_arg6 : FVec F S16x64x64 .f32) (main_arg7 : FVec F S8x64x64 .f32) (main_arg8 : FVec F S4x64x64 .f32) (main_arg9 : FVec F S2x64x64 .f32) (main_arg10 : FVec F S1x64x64 .f32) (main_arg11 : IVec S256x1 32) (main_arg12 : IVec S128x2 32) (main_arg13 : IVec S64x2 32) (main_arg14 : IVec S32x2 32) (main_arg15 : IVec S16x2 32) (main_arg16 : IVec S8x2 32) (main_arg17 : IVec S4x2 32) (main_arg18 : IVec S2x2 32) (main_arg19 : IVec S1x2 32) : IVec S_ 1 :=
  let main_v0 : FVec F S2048x1x256 .f32 := Host.absf main_arg0
  let main_cst : FVec F S_ .f32 := constant S_ .f32 0x7F800000#32
  let main_v1 : FVec F S2048x1x256 .f32 := broadcastInDim S2048x1x256 ![] bcast_S_S2048x1x256 main_cst
  let main_v2 : IVec S2048x1x256 1 := cmpf .olt main_v0 main_v1
  let main_c : IVec S_ 1 := constantI S_ 1 1#1
  let main_v3 : IVec S_ 1 := (fun x v => Host.reduce IntOp.andi x v reducesTo_S2048x1x256_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S128x64x64 .f32 := Host.absf main_arg3
  let main_cst_4 : FVec F S_ .f32 := constant S_ .f32 0x7F800000#32
  let main_v15 : FVec F S128x64x64 .f32 := broadcastInDim S128x64x64 ![] bcast_S_S128x64x64 main_cst_4
  let main_v16 : IVec S128x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x1x256 : Shape := ⟨3, ![2048, 1, 256]⟩
abbrev S256x64 : Shape := ⟨2, ![256, 64]⟩
abbrev S128x64x64 : Shape := ⟨3, ![128, 64, 64]⟩
abbrev S64x64x64 : Shape := ⟨3, ![64, 64, 64]⟩
abbrev S32x64x64 : Shape := ⟨3, ![32, 64, 64]⟩
abbrev S16x64x64 : Shape := ⟨3, ![16, 64, 64]⟩
abbrev S8x64x64 : Shape := ⟨3, ![8, 64, 64]⟩
abbrev S4x64x64 : Shape := ⟨3, ![4, 64, 64]⟩
abbrev S2x64x64 : Shape := ⟨3, ![2, 64, 64]⟩
abbrev S1x64x64 : Shape := ⟨3, ![1, 64, 64]⟩
abbrev S256x1 : Shape := ⟨2, ![256, 1]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S8x2 : Shape := ⟨2, ![8, 2]⟩
abbrev S4x2 : Shape := ⟨2, ![4, 2]⟩
abbrev S2x2 : Shape := ⟨2, ![2, 2]⟩
abbrev S1x2 : Shape := ⟨2, ![1, 2]⟩
abbrev S2048x256 : Shape := ⟨2, ![2048, 256]⟩
abbrev S256x2048 : Shape := ⟨2, ![256, 2048]⟩
abbrev S256 : Shape := ⟨1, ![256]⟩
abbrev S_ : Shape := ⟨0, ![]⟩
abbrev S1 : Shape := ⟨1, ![1]⟩
abbrev S1x1 : Shape := ⟨2, ![1, 1]⟩
abbrev S2x128 : Shape := ⟨2, ![2, 128]⟩
abbrev S2x64 : Shape := ⟨2, ![2, 64]⟩
abbrev S2x32 : Shape := ⟨2, ![2, 32]⟩
abbrev S2x16 : Shape := ⟨2, ![2, 16]⟩
abbrev S2x8 : Shape := ⟨2, ![2, 8]⟩
abbrev S2x4 : Shape := ⟨2, ![2, 4]⟩
abbrev S2x1 : Shape := ⟨2, ![2, 1]⟩
abbrev S128x64 : Shape := ⟨2, ![128, 64]⟩
abbrev S128x64x1 : Shape := ⟨3, ![128, 64, 1]⟩
abbrev S64x64 : Shape := ⟨2, ![64, 64]⟩
abbrev S64x64x1 : Shape := ⟨3, ![64, 64, 1]⟩
abbrev S32x64 : Shape := ⟨2, ![32, 64]⟩
abbrev S32x64x1 : Shape := ⟨3, ![32, 64, 1]⟩
abbrev S16x64 : Shape := ⟨2, ![16, 64]⟩
abbrev S16x64x1 : Shape := ⟨3, ![16, 64, 1]⟩
abbrev S8x64 : Shape := ⟨2, ![8, 64]⟩
abbrev S8x64x1 : Shape := ⟨3, ![8, 64, 1]⟩
abbrev S4x64 : Shape := ⟨2, ![4, 64]⟩
abbrev S4x64x1 : Shape := ⟨3, ![4, 64, 1]⟩
abbrev S2x64x1 : Shape := ⟨3, ![2, 64, 1]⟩
abbrev S1x64 : Shape := ⟨2, ![1, 64]⟩
abbrev S1x64x1 : Shape := ⟨3, ![1, 64, 1]⟩
abbrev S2048x64 : Shape := ⟨2, ![2048, 64]⟩
abbrev S256x128 : Shape := ⟨2, ![256, 128]⟩
abbrev S256x64x128 : Shape := ⟨3, ![256, 64, 128]⟩
abbrev S128x64x128 : Shape := ⟨3, ![128, 64, 128]⟩
abbrev S64x64x128 : Shape := ⟨3, ![64, 64, 128]⟩
abbrev S32x128 : Shape := ⟨2, ![32, 128]⟩
abbrev S32x1x128 : Shape := ⟨3, ![32, 1, 128]⟩
abbrev S32x64x128 : Shape := ⟨3, ![32, 64, 128]⟩
abbrev S1x64x128 : Shape := ⟨3, ![1, 64, 128]⟩
abbrev S64x128 : Shape := ⟨2, ![64, 128]⟩
abbrev S64x1x128 : Shape := ⟨3, ![64, 1, 128]⟩
abbrev S16x64x128 : Shape := ⟨3, ![16, 64, 128]⟩
abbrev S16x128 : Shape := ⟨2, ![16, 128]⟩
abbrev S16x1x128 : Shape := ⟨3, ![16, 1, 128]⟩
abbrev S8x64x128 : Shape := ⟨3, ![8, 64, 128]⟩
abbrev S8x128 : Shape := ⟨2, ![8, 128]⟩
abbrev S8x1x128 : Shape := ⟨3, ![8, 1, 128]⟩
abbrev S4x64x128 : Shape := ⟨3, ![4, 64, 128]⟩
abbrev S4x128 : Shape := ⟨2, ![4, 128]⟩
abbrev S4x1x128 : Shape := ⟨3, ![4, 1, 128]⟩
abbrev S2x64x128 : Shape := ⟨3, ![2, 64, 128]⟩
abbrev S2x1x128 : Shape := ⟨3, ![2, 1, 128]⟩
abbrev S1x128 : Shape := ⟨2, ![1, 128]⟩
abbrev S1x1x128 : Shape := ⟨3, ![1, 1, 128]⟩
abbrev S2048x1x64 : Shape := ⟨3, ![2048, 1, 64]⟩

abbrev nBuf : Space → Nat
  | .hbm => 232
  | .vmem => 17
  | .smem => 8
  | _ => 0

abbrev hbmTy0_0 (i : Nat) : BufTy := match i % 128 with
  | 0 => ⟨S2048x1x256, .f32⟩
  | 1 => ⟨S256x64, .f32⟩
  | 2 => ⟨S256x64, .f32⟩
  | 3 => ⟨S128x64x64, .f32⟩
  | 4 => ⟨S64x64x64, .f32⟩
  | 5 => ⟨S32x64x64, .f32⟩
  | 6 => ⟨S16x64x64, .f32⟩
  | 7 => ⟨S8x64x64, .f32⟩
  | 8 => ⟨S4x64x64, .f32⟩
  | 9 => ⟨S2x64x64, .f32⟩
  | 10 => ⟨S1x64x64, .f32⟩
  | 11 => ⟨S256x1, .i32⟩
  | 12 => ⟨S128x2, .i32⟩
  | 13 => ⟨S64x2, .i32⟩
  | 14 => ⟨S32x2, .i32⟩
  | 15 => ⟨S16x2, .i32⟩
  | 16 => ⟨S8x2, .i32⟩
  | 17 => ⟨S4x2, .i32⟩
  | 18 => ⟨S2x2, .i32⟩
  | 19 => ⟨S1x2, .i32⟩
  | 20 => ⟨S2048x256, .f32⟩
  | 21 => ⟨S256x2048, .f32⟩
  | 22 => ⟨S256, .i32⟩
  | 23 => ⟨S_, .i32⟩
  | 24 => ⟨S_, .i32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S_, .i32⟩
  | 32 => ⟨S256, .i32⟩
  | 33 => ⟨S256, .i1⟩
  | 34 => ⟨S_, .i32⟩
  | 35 => ⟨S256, .i32⟩
  | 36 => ⟨S256, .i32⟩
  | 37 => ⟨S256, .i32⟩
  | 38 => ⟨S256x1, .i32⟩
  | 39 => ⟨S1, .i32⟩
  | 40 => ⟨S_, .i32⟩
  | 41 => ⟨S256x1, .i32⟩
  | 42 => ⟨S256x1, .i1⟩
  | 43 => ⟨S1x1, .i32⟩
  | 44 => ⟨S256x1, .i32⟩
  | 45 => ⟨S256x1, .i1⟩
  | 46 => ⟨S256x1, .i1⟩
  | 47 => ⟨S_, .i1⟩
  | 48 => ⟨S256, .i1⟩
  | 49 => ⟨S256x2048, .f32⟩
  | 50 => ⟨S256x2048, .i1⟩
  | 51 => ⟨S_, .f32⟩
  | 52 => ⟨S256x2048, .f32⟩
  | 53 => ⟨S256x2048, .f32⟩
  | 54 => ⟨S_, .i32⟩
  | 55 => ⟨S_, .i32⟩
  | 56 => ⟨S_, .i32⟩
  | 57 => ⟨S128x2, .i32⟩
  | 58 => ⟨S128x2, .i32⟩
  | 59 => ⟨S_, .i32⟩
  | 60 => ⟨S128x2, .i32⟩
  | 61 => ⟨S128x2, .i32⟩
  | 62 => ⟨S_, .i32⟩
  | 63 => ⟨S_, .i32⟩
  | 64 => ⟨S_, .i32⟩
  | 65 => ⟨S64x2, .i32⟩
  | 66 => ⟨S64x2, .i32⟩
  | 67 => ⟨S_, .i32⟩
  | 68 => ⟨S64x2, .i32⟩
  | 69 => ⟨S64x2, .i32⟩
  | 70 => ⟨S_, .i32⟩
  | 71 => ⟨S_, .i32⟩
  | 72 => ⟨S_, .i32⟩
  | 73 => ⟨S32x2, .i32⟩
  | 74 => ⟨S32x2, .i32⟩
  | 75 => ⟨S_, .i32⟩
  | 76 => ⟨S32x2, .i32⟩
  | 77 => ⟨S32x2, .i32⟩
  | 78 => ⟨S_, .i32⟩
  | 79 => ⟨S_, .i32⟩
  | 80 => ⟨S_, .i32⟩
  | 81 => ⟨S16x2, .i32⟩
  | 82 => ⟨S16x2, .i32⟩
  | 83 => ⟨S_, .i32⟩
  | 84 => ⟨S16x2, .i32⟩
  | 85 => ⟨S16x2, .i32⟩
  | 86 => ⟨S_, .i32⟩
  | 87 => ⟨S_, .i32⟩
  | 88 => ⟨S_, .i32⟩
  | 89 => ⟨S8x2, .i32⟩
  | 90 => ⟨S8x2, .i32⟩
  | 91 => ⟨S_, .i32⟩
  | 92 => ⟨S8x2, .i32⟩
  | 93 => ⟨S8x2, .i32⟩
  | 94 => ⟨S_, .i32⟩
  | 95 => ⟨S_, .i32⟩
  | 96 => ⟨S_, .i32⟩
  | 97 => ⟨S4x2, .i32⟩
  | 98 => ⟨S4x2, .i32⟩
  | 99 => ⟨S_, .i32⟩
  | 100 => ⟨S4x2, .i32⟩
  | 101 => ⟨S4x2, .i32⟩
  | 102 => ⟨S_, .i32⟩
  | 103 => ⟨S_, .i32⟩
  | 104 => ⟨S_, .i32⟩
  | 105 => ⟨S2x2, .i32⟩
  | 106 => ⟨S2x2, .i32⟩
  | 107 => ⟨S_, .i32⟩
  | 108 => ⟨S2x2, .i32⟩
  | 109 => ⟨S2x2, .i32⟩
  | 110 => ⟨S_, .i32⟩
  | 111 => ⟨S_, .i32⟩
  | 112 => ⟨S_, .i32⟩
  | 113 => ⟨S1x2, .i32⟩
  | 114 => ⟨S1x2, .i32⟩
  | 115 => ⟨S_, .i32⟩
  | 116 => ⟨S1x2, .i32⟩
  | 117 => ⟨S1x2, .i32⟩
  | 118 => ⟨S_, .f32⟩
  | 119 => ⟨S128x64, .f32⟩
  | 120 => ⟨S_, .f32⟩
  | 121 => ⟨S128x64, .f32⟩
  | 122 => ⟨S128x64, .f32⟩
  | 123 => ⟨S128x64x1, .f32⟩
  | 124 => ⟨S128x64x64, .f32⟩
  | 125 => ⟨S128x64x64, .f32⟩
  | 126 => ⟨S128x64x64, .f32⟩
  | 127 => ⟨S_, .f32⟩
  | _ => ⟨S2048x1x256, .f32⟩

abbrev hbmTy0_1 (i : Nat) : BufTy := match i % 128 with
  | 0 => ⟨S128x64, .f32⟩
  | 1 => ⟨S128x64x1, .f32⟩
  | 2 => ⟨S128x64x64, .f32⟩
  | 3 => ⟨S128x64x64, .f32⟩
  | 4 => ⟨S_, .f32⟩
  | 5 => ⟨S64x64, .f32⟩
  | 6 => ⟨S_, .f32⟩
  | 7 => ⟨S64x64, .f32⟩
  | 8 => ⟨S64x64, .f32⟩
  | 9 => ⟨S64x64x1, .f32⟩
  | 10 => ⟨S64x64x64, .f32⟩
  | 11 => ⟨S64x64x64, .f32⟩
  | 12 => ⟨S64x64x64, .f32⟩
  | 13 => ⟨S_, .f32⟩
  | 14 => ⟨S64x64, .f32⟩
  | 15 => ⟨S64x64x1, .f32⟩
  | 16 => ⟨S64x64x64, .f32⟩
  | 17 => ⟨S64x64x64, .f32⟩
  | 18 => ⟨S_, .f32⟩
  | 19 => ⟨S32x64, .f32⟩
  | 20 => ⟨S_, .f32⟩
  | 21 => ⟨S32x64, .f32⟩
  | 22 => ⟨S32x64, .f32⟩
  | 23 => ⟨S32x64x1, .f32⟩
  | 24 => ⟨S32x64x64, .f32⟩
  | 25 => ⟨S32x64x64, .f32⟩
  | 26 => ⟨S32x64x64, .f32⟩
  | 27 => ⟨S_, .f32⟩
  | 28 => ⟨S32x64, .f32⟩
  | 29 => ⟨S32x64x1, .f32⟩
  | 30 => ⟨S32x64x64, .f32⟩
  | 31 => ⟨S32x64x64, .f32⟩
  | 32 => ⟨S_, .f32⟩
  | 33 => ⟨S16x64, .f32⟩
  | 34 => ⟨S_, .f32⟩
  | 35 => ⟨S16x64, .f32⟩
  | 36 => ⟨S16x64, .f32⟩
  | 37 => ⟨S16x64x1, .f32⟩
  | 38 => ⟨S16x64x64, .f32⟩
  | 39 => ⟨S16x64x64, .f32⟩
  | 40 => ⟨S16x64x64, .f32⟩
  | 41 => ⟨S_, .f32⟩
  | 42 => ⟨S16x64, .f32⟩
  | 43 => ⟨S16x64x1, .f32⟩
  | 44 => ⟨S16x64x64, .f32⟩
  | 45 => ⟨S16x64x64, .f32⟩
  | 46 => ⟨S_, .f32⟩
  | 47 => ⟨S8x64, .f32⟩
  | 48 => ⟨S_, .f32⟩
  | 49 => ⟨S8x64, .f32⟩
  | 50 => ⟨S8x64, .f32⟩
  | 51 => ⟨S8x64x1, .f32⟩
  | 52 => ⟨S8x64x64, .f32⟩
  | 53 => ⟨S8x64x64, .f32⟩
  | 54 => ⟨S8x64x64, .f32⟩
  | 55 => ⟨S_, .f32⟩
  | 56 => ⟨S8x64, .f32⟩
  | 57 => ⟨S8x64x1, .f32⟩
  | 58 => ⟨S8x64x64, .f32⟩
  | 59 => ⟨S8x64x64, .f32⟩
  | 60 => ⟨S_, .f32⟩
  | 61 => ⟨S4x64, .f32⟩
  | 62 => ⟨S_, .f32⟩
  | 63 => ⟨S4x64, .f32⟩
  | 64 => ⟨S4x64, .f32⟩
  | 65 => ⟨S4x64x1, .f32⟩
  | 66 => ⟨S4x64x64, .f32⟩
  | 67 => ⟨S4x64x64, .f32⟩
  | 68 => ⟨S4x64x64, .f32⟩
  | 69 => ⟨S_, .f32⟩
  | 70 => ⟨S4x64, .f32⟩
  | 71 => ⟨S4x64x1, .f32⟩
  | 72 => ⟨S4x64x64, .f32⟩
  | 73 => ⟨S4x64x64, .f32⟩
  | 74 => ⟨S_, .f32⟩
  | 75 => ⟨S2x64, .f32⟩
  | 76 => ⟨S_, .f32⟩
  | 77 => ⟨S2x64, .f32⟩
  | 78 => ⟨S2x64, .f32⟩
  | 79 => ⟨S2x64x1, .f32⟩
  | 80 => ⟨S2x64x64, .f32⟩
  | 81 => ⟨S2x64x64, .f32⟩
  | 82 => ⟨S2x64x64, .f32⟩
  | 83 => ⟨S_, .f32⟩
  | 84 => ⟨S2x64, .f32⟩
  | 85 => ⟨S2x64x1, .f32⟩
  | 86 => ⟨S2x64x64, .f32⟩
  | 87 => ⟨S2x64x64, .f32⟩
  | 88 => ⟨S_, .f32⟩
  | 89 => ⟨S1x64, .f32⟩
  | 90 => ⟨S_, .f32⟩
  | 91 => ⟨S1x64, .f32⟩
  | 92 => ⟨S1x64, .f32⟩
  | 93 => ⟨S1x64x1, .f32⟩
  | 94 => ⟨S1x64x64, .f32⟩
  | 95 => ⟨S1x64x64, .f32⟩
  | 96 => ⟨S1x64x64, .f32⟩
  | 97 => ⟨S_, .f32⟩
  | 98 => ⟨S1x64, .f32⟩
  | 99 => ⟨S1x64x1, .f32⟩
  | 100 => ⟨S1x64x64, .f32⟩
  | 101 => ⟨S1x64x64, .f32⟩
  | 102 => ⟨S2048x64, .f32⟩
  | 103 => ⟨S2048x1x64, .f32⟩
  | _ => ⟨S2048x1x256, .f32⟩

abbrev hbmTy (i : Nat) : BufTy := match i / 128 with
  | 0 => hbmTy0_0 i
  | 1 => hbmTy0_1 i
  | _ => ⟨S2048x1x256, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x64, .f32⟩
  | .local _ .vmem, ⟨3, _⟩ => ⟨S256x64, .f32⟩
  | .local _ .vmem, ⟨4, _⟩ => ⟨S128x64x64, .f32⟩
  | .local _ .vmem, ⟨5, _⟩ => ⟨S64x64x64, .f32⟩
  | .local _ .vmem, ⟨6, _⟩ => ⟨S32x64x64, .f32⟩
  | .local _ .vmem, ⟨7, _⟩ => ⟨S16x64x64, .f32⟩
  | .local _ .vmem, ⟨8, _⟩ => ⟨S8x64x64, .f32⟩
  | .local _ .vmem, ⟨9, _⟩ => ⟨S4x64x64, .f32⟩
  | .local _ .vmem, ⟨10, _⟩ => ⟨S2x64x64, .f32⟩
  | .local _ .vmem, ⟨11, _⟩ => ⟨S1x64x64, .f32⟩
  | .local _ .vmem, ⟨12, _⟩ => ⟨S128x64, .f32⟩
  | .local _ .vmem, ⟨13, _⟩ => ⟨S128x64, .f32⟩
  | .local _ .vmem, ⟨14, _⟩ => ⟨S256x64x128, .f32⟩
  | .local _ .vmem, ⟨15, _⟩ => ⟨S128x64x128, .f32⟩
  | .local _ .vmem, ⟨16, _⟩ => ⟨S64x64x128, .f32⟩
  | .local _ .smem, ⟨0, _⟩ => ⟨S2x128, .i32⟩
  | .local _ .smem, ⟨1, _⟩ => ⟨S2x64, .i32⟩
  | .local _ .smem, ⟨2, _⟩ => ⟨S2x32, .i32⟩
  | .local _ .smem, ⟨3, _⟩ => ⟨S2x16, .i32⟩
  | .local _ .smem, ⟨4, _⟩ => ⟨S2x8, .i32⟩
  | .local _ .smem, ⟨5, _⟩ => ⟨S2x4, .i32⟩
  | .local _ .smem, ⟨6, _⟩ => ⟨S2x2, .i32⟩
  | .local _ .smem, ⟨7, _⟩ => ⟨S2x1, .i32⟩
  | _, _ => ⟨S2048x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_c_1 : Ref sig .tc := ⟨.hbm, 54, rfl⟩
abbrev main_c_2 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v5 : Ref sig .tc := ⟨.hbm, 61, rfl⟩
abbrev main_c_3 : Ref sig .tc := ⟨.hbm, 62, rfl⟩
abbrev main_c_4 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v7 : Ref sig .tc := ⟨.hbm, 69, rfl⟩
abbrev main_c_5 : Ref sig .tc := ⟨.hbm, 70, rfl⟩
abbrev main_c_6 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v9 : Ref sig .tc := ⟨.hbm, 77, rfl⟩
abbrev main_c_7 : Ref sig .tc := ⟨.hbm, 78, rfl⟩
abbrev main_c_8 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v11 : Ref sig .tc := ⟨.hbm, 85, rfl⟩
abbrev main_c_9 : Ref sig .tc := ⟨.hbm, 86, rfl⟩
abbrev main_c_10 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_v13 : Ref sig .tc := ⟨.hbm, 93, rfl⟩
abbrev main_c_11 : Ref sig .tc := ⟨.hbm, 94, rfl⟩
abbrev main_c_12 : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_call7_v3 : Ref sig .tc := ⟨.hbm, 99, rfl⟩
abbrev main_call7_v4 : Ref sig .tc := ⟨.hbm, 100, rfl⟩
abbrev main_v15 : Ref sig .tc := ⟨.hbm, 101, rfl⟩
abbrev main_c_13 : Ref sig .tc := ⟨.hbm, 102, rfl⟩
abbrev main_c_14 : Ref sig .tc := ⟨.hbm, 103, rfl⟩
abbrev main_call8_v0 : Ref sig .tc := ⟨.hbm, 104, rfl⟩
abbrev main_call8_v1 : Ref sig .tc := ⟨.hbm, 105, rfl⟩
abbrev main_call8_v2 : Ref sig .tc := ⟨.hbm, 106, rfl⟩
abbrev main_call8_v3 : Ref sig .tc := ⟨.hbm, 107, rfl⟩
abbrev main_call8_v4 : Ref sig .tc := ⟨.hbm, 108, rfl⟩
abbrev main_v17 : Ref sig .tc := ⟨.hbm, 109, rfl⟩
abbrev main_c_15 : Ref sig .tc := ⟨.hbm, 110, rfl⟩
abbrev main_c_16 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_call9_v3 : Ref sig .tc := ⟨.hbm, 115, rfl⟩
abbrev main_call9_v4 : Ref sig .tc := ⟨.hbm, 116, rfl⟩
abbrev main_v19 : Ref sig .tc := ⟨.hbm, 117, rfl⟩
abbrev main_cst : Ref sig .tc := ⟨.hbm, 118, rfl⟩
abbrev main_v21 : Ref sig .tc := ⟨.hbm, 119, rfl⟩
abbrev main_cst_17 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_cst_18 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_19 : Ref sig .tc := ⟨.hbm, 132, rfl⟩
abbrev main_v32 : Ref sig .tc := ⟨.hbm, 133, rfl⟩
abbrev main_cst_20 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_cst_21 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_cst_22 : Ref sig .tc := ⟨.hbm, 146, rfl⟩
abbrev main_v43 : Ref sig .tc := ⟨.hbm, 147, rfl⟩
abbrev main_cst_23 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_cst_24 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_cst_25 : Ref sig .tc := ⟨.hbm, 160, rfl⟩
abbrev main_v54 : Ref sig .tc := ⟨.hbm, 161, rfl⟩
abbrev main_cst_26 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_cst_27 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_cst_28 : Ref sig .tc := ⟨.hbm, 174, rfl⟩
abbrev main_v65 : Ref sig .tc := ⟨.hbm, 175, rfl⟩
abbrev main_cst_29 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_cst_30 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_cst_31 : Ref sig .tc := ⟨.hbm, 188, rfl⟩
abbrev main_v76 : Ref sig .tc := ⟨.hbm, 189, rfl⟩
abbrev main_cst_32 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_cst_33 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_cst_34 : Ref sig .tc := ⟨.hbm, 202, rfl⟩
abbrev main_v87 : Ref sig .tc := ⟨.hbm, 203, rfl⟩
abbrev main_cst_35 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_cst_36 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_cst_37 : Ref sig .tc := ⟨.hbm, 216, rfl⟩
abbrev main_v98 : Ref sig .tc := ⟨.hbm, 217, rfl⟩
abbrev main_cst_38 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_cst_39 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v6 : Ref sig .tc := ⟨.smem, 0, rfl⟩
abbrev main_v8 : Ref sig .tc := ⟨.smem, 1, rfl⟩
abbrev main_v10 : Ref sig .tc := ⟨.smem, 2, rfl⟩
abbrev main_v12 : Ref sig .tc := ⟨.smem, 3, rfl⟩
abbrev main_v14 : Ref sig .tc := ⟨.smem, 4, rfl⟩
abbrev main_v16 : Ref sig .tc := ⟨.smem, 5, rfl⟩
abbrev main_v18 : Ref sig .tc := ⟨.smem, 6, rfl⟩
abbrev main_v20 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

abbrev pre0 : Pipeline.Prefetch sig := ⟨8, ![main_v6.idx, main_v8.idx, main_v10.idx, main_v12.idx, main_v14.idx, main_v16.idx, main_v18.idx, main_v20.idx], fun | 0 => main_v6.names | 1 => main_v8.names | 2 => main_v10.names | 3 => main_v12.names | 4 => main_v14.names | 5 => main_v16.names | 6 => main_v18.names | 7 => main_v20.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

@[reducible] def k0_t1_loop : Scf.Loop 32 :=
  let c0_i32 : BitVec 32 := 0#32
  let c64_i32 : BitVec 32 := 64#32
  let v208 : BitVec 32 := Scalar.addi c0_i32 c64_i32
  let c1_i32 : BitVec 32 := 1#32
  ⟨c0_i32, v208, c1_i32⟩
def k0_off1 (k0_t1 : Fin k0_t1_loop.trips) : Fin 2 → Nat :=
  let c0_232 : Index := 0#32
  let c0_i32_231 : BitVec 32 := 0#32
  let c0_i32_230 : BitVec 32 := 0#32
  let c0_i32 : BitVec 32 := 0#32
  let c1_i32 : BitVec 32 := 1#32
  let arg24 : BitVec 32 := Scf.iv c0_i32 c1_i32 k0_t1
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off2 (k0_t1 : Fin k0_t1_loop.trips) : Fin 2 → Nat :=
  let c1_234 : Index := 1#32
  let c0_i32_233 : BitVec 32 := 0#32
  let c0_i32_230 : BitVec 32 := 0#32
  let c0_i32 : BitVec 32 := 0#32
  let c1_i32 : BitVec 32 := 1#32
  let arg24 : BitVec 32 := Scf.iv c0_i32 c1_i32 k0_t1
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off3 (v379 : BitVec 32) : Fin 3 → Nat :=
  let v383 : Index := Scalar.indexCast v379
  let c0_235 : Index := 0#32
  let c0_236 : Index := 0#32
  ![v383.toNat, 0, 0]

def k0_chk1 (v379 : BitVec 32) : Prop :=
  (∀ a, (k0_off3 v379) a + S1x64x128.size a ≤ S256x64x128.size a)
instance k0_chk1.dec : ∀ (v379 : BitVec 32), Decidable (k0_chk1 v379) := fun v379 => decidable_of_iff' _ (Iff.of_eq (k0_chk1.eq_1 v379))
theorem k0_off3_inb : ∀ (v379 : BitVec 32) (k0_hw1 : k0_chk1 v379), ∀ a, (k0_off3 v379) a + S1x64x128.size a ≤ S256x64x128.size a := fun v379 k0_hw1 => k0_hw1

def k0_off4 (v382 : BitVec 32) : Fin 3 → Nat :=
  let v386 : Index := Scalar.indexCast v382
  let c0_237 : Index := 0#32
  let c0_238 : Index := 0#32
  ![v386.toNat, 0, 0]

def k0_chk2 (v382 : BitVec 32) : Prop :=
  (∀ a, (k0_off4 v382) a + S1x64x128.size a ≤ S256x64x128.size a)
instance k0_chk2.dec : ∀ (v382 : BitVec 32), Decidable (k0_chk2 v382) := fun v382 => decidable_of_iff' _ (Iff.of_eq (k0_chk2.eq_1 v382))
theorem k0_off4_inb : ∀ (v382 : BitVec 32) (k0_hw2 : k0_chk2 v382), ∀ a, (k0_off4 v382) a + S1x64x128.size a ≤ S256x64x128.size a := fun v382 k0_hw2 => k0_hw2

def k0_off5 (k0_t1 : Fin k0_t1_loop.trips) : Fin 3 → Nat :=
  let c0_i32_239 : BitVec 32 := 0#32
  let c0_i32_230 : BitVec 32 := 0#32
  let c0_i32 : BitVec 32 := 0#32
  let c1_i32 : BitVec 32 := 1#32
  let arg24 : BitVec 32 := Scf.iv c0_i32 c1_i32 k0_t1
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t2_loop : Scf.Loop 32 :=
  let c0_i32_99 : BitVec 32 := 0#32
  let c64_i32_100 : BitVec 32 := 64#32
  let v224 : BitVec 32 := Scalar.addi c0_i32_99 c64_i32_100
  let c1_i32_101 : BitVec 32 := 1#32
  ⟨c0_i32_99, v224, c1_i32_101⟩
def k0_off6 (k0_t2 : Fin k0_t2_loop.trips) : Fin 2 → Nat :=
  let c0_232 : Index := 0#32
  let c64_i32_231 : BitVec 32 := 64#32
  let c0_i32_230 : BitVec 32 := 0#32
  let c0_i32_99 : BitVec 32 := 0#32
  let c1_i32_101 : BitVec 32 := 1#32
  let arg24 : BitVec 32 := Scf.iv c0_i32_99 c1_i32_101 k0_t2
  let c1_i32_229 : BitVec 32 := 1#32
  let v375 : BitVec 32 := Scalar.muli arg24 c1_i32_229
  let v376 : BitVec 32 := Scalar.addi c0_i32_230 v375
  let v377 : BitVec 32 := Scalar.addi c64_i32_231 v376
  let v378 : Index := Scalar.indexCast v377
  ![0, v378.toNat]
def k0_off7 (k0_t2 : Fin k0_t2_loop.trips) : Fin 2 → Nat :=
  let c1_234 : Index := 1#32
  let c64_i32_233 : BitVec 32 := 64#32
  let c0_i32_230 : BitVec 32 := 0#32
  let c0_i32_99 : BitVec 32 := 0#32
  let c1_i32_101 : BitVec 32 := 1#32
  let arg24 : BitVec 32 := Scf.iv c0_i32_99 c1_i32_101 k0_t2
  let c1_i32_229 : BitVec 32 := 1#32
  let v375 : BitVec 32 := Scalar.muli arg24 c1_i32_229
  let v376 : BitVec 32 := Scalar.addi c0_i32_230 v375
  let v380 : BitVec 32 := Scalar.addi c64_i32_233 v376
  let v381 : Index := Scalar.indexCast v380
  ![1, v381.toNat]
def k0_off8 (v379 : BitVec 32) : Fin 3 → Nat :=
  let v383 : Index := Scalar.indexCast v379
  let c0_235 : Index := 0#32
  let c0_236 : Index := 0#32
  ![v383.toNat, 0, 0]

def k0_chk3 (v379 : BitVec 32) : Prop :=
  (∀ a, (k0_off8 v379) a + S1x64x128.size a ≤ S256x64x128.size a)
instance k0_chk3.dec : ∀ (v379 : BitVec 32), Decidable (k0_chk3 v379) := fun v379 => decidable_of_iff' _ (Iff.of_eq (k0_chk3.eq_1 v379))
theorem k0_off8_inb : ∀ (v379 : BitVec 32) (k0_hw3 : k0_chk3 v379), ∀ a, (k0_off8 v379) a + S1x64x128.size a ≤ S256x64x128.size a := fun v379 k0_hw3 => k0_hw3

def k0_off9 (v382 : BitVec 32) : Fin 3 → Nat :=
  let v386 : Index := Scalar.indexCast v382
  let c0_237 : Index := 0#32
  let c0_238 : Index := 0#32
  ![v386.toNat, 0, 0]

def k0_chk4 (v382 : BitVec 32) : Prop :=
  (∀ a, (k0_off9 v382) a + S1x64x128.size a ≤ S256x64x128.size a)
instance k0_chk4.dec : ∀ (v382 : BitVec 32), Decidable (k0_chk4 v382) := fun v382 => decidable_of_iff' _ (Iff.of_eq (k0_chk4.eq_1 v382))
theorem k0_off9_inb : ∀ (v382 : BitVec 32) (k0_hw4 : k0_chk4 v382), ∀ a, (k0_off9 v382) a + S1x64x128.size a ≤ S256x64x128.size a := fun v382 k0_hw4 => k0_hw4

def k0_off10 (k0_t2 : Fin k0_t2_loop.trips) : Fin 3 → Nat :=
  let c64_i32_239 : BitVec 32 := 64#32
  let c0_i32_230 : BitVec 32 := 0#32
  let c0_i32_99 : BitVec 32 := 0#32
  let c1_i32_101 : BitVec 32 := 1#32
  let arg24 : BitVec 32 := Scf.iv c0_i32_99 c1_i32_101 k0_t2
  let c1_i32_229 : BitVec 32 := 1#32
  let v375 : BitVec 32 := Scalar.muli arg24 c1_i32_229
  let v376 : BitVec 32 := Scalar.addi c0_i32_230 v375
  let v390 : BitVec 32 := Scalar.addi c64_i32_239 v376
  let v391 : Index := Scalar.indexCast v390
  let c0_240 : Index := 0#32
  let c0_241 : Index := 0#32
  ![v391.toNat, 0, 0]
@[reducible] def k0_t3_loop : Scf.Loop 32 :=
  let c0_i32_114 : BitVec 32 := 0#32
  let c64_i32_115 : BitVec 32 := 64#32
  let v240 : BitVec 32 := Scalar.addi c0_i32_114 c64_i32_115
  let c1_i32_116 : BitVec 32 := 1#32
  ⟨c0_i32_114, v240, c1_i32_116⟩
def k0_off11 (k0_t3 : Fin k0_t3_loop.trips) : Fin 2 → Nat :=
  let c0_232 : Index := 0#32
  let c0_i32_231 : BitVec 32 := 0#32
  let c0_i32_230 : BitVec 32 := 0#32
  let c0_i32_114 : BitVec 32 := 0#32
  let c1_i32_116 : BitVec 32 := 1#32
  let arg24 : BitVec 32 := Scf.iv c0_i32_114 c1_i32_116 k0_t3
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off12 (k0_t3 : Fin k0_t3_loop.trips) : Fin 2 → Nat :=
  let c1_234 : Index := 1#32
  let c0_i32_233 : BitVec 32 := 0#32
  let c0_i32_230 : BitVec 32 := 0#32
  let c0_i32_114 : BitVec 32 := 0#32
  let c1_i32_116 : BitVec 32 := 1#32
  let arg24 : BitVec 32 := Scf.iv c0_i32_114 c1_i32_116 k0_t3
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off13 (v379 : BitVec 32) : Fin 3 → Nat :=
  let v383 : Index := Scalar.indexCast v379
  let c0_235 : Index := 0#32
  let c0_236 : Index := 0#32
  ![v383.toNat, 0, 0]

def k0_chk5 (v379 : BitVec 32) : Prop :=
  (∀ a, (k0_off13 v379) a + S1x64x128.size a ≤ S128x64x128.size a)
instance k0_chk5.dec : ∀ (v379 : BitVec 32), Decidable (k0_chk5 v379) := fun v379 => decidable_of_iff' _ (Iff.of_eq (k0_chk5.eq_1 v379))
theorem k0_off13_inb : ∀ (v379 : BitVec 32) (k0_hw5 : k0_chk5 v379), ∀ a, (k0_off13 v379) a + S1x64x128.size a ≤ S128x64x128.size a := fun v379 k0_hw5 => k0_hw5

def k0_off14 (v382 : BitVec 32) : Fin 3 → Nat :=
  let v386 : Index := Scalar.indexCast v382
  let c0_237 : Index := 0#32
  let c0_238 : Index := 0#32
  ![v386.toNat, 0, 0]

def k0_chk6 (v382 : BitVec 32) : Prop :=
  (∀ a, (k0_off14 v382) a + S1x64x128.size a ≤ S128x64x128.size a)
instance k0_chk6.dec : ∀ (v382 : BitVec 32), Decidable (k0_chk6 v382) := fun v382 => decidable_of_iff' _ (Iff.of_eq (k0_chk6.eq_1 v382))
theorem k0_off14_inb : ∀ (v382 : BitVec 32) (k0_hw6 : k0_chk6 v382), ∀ a, (k0_off14 v382) a + S1x64x128.size a ≤ S128x64x128.size a := fun v382 k0_hw6 => k0_hw6

def k0_off15 (k0_t3 : Fin k0_t3_loop.trips) : Fin 3 → Nat :=
  let c0_i32_239 : BitVec 32 := 0#32
  let c0_i32_230 : BitVec 32 := 0#32
  let c0_i32_114 : BitVec 32 := 0#32
  let c1_i32_116 : BitVec 32 := 1#32
  let arg24 : BitVec 32 := Scf.iv c0_i32_114 c1_i32_116 k0_t3
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t4_loop : Scf.Loop 32 :=
  let c0_i32_129 : BitVec 32 := 0#32
  let c32_i32 : BitVec 32 := 32#32
  let v256 : BitVec 32 := Scalar.addi c0_i32_129 c32_i32
  let c1_i32_130 : BitVec 32 := 1#32
  ⟨c0_i32_129, v256, c1_i32_130⟩
def k0_off16 (k0_t4 : Fin k0_t4_loop.trips) : Fin 2 → Nat :=
  let c0_232 : Index := 0#32
  let c0_i32_231 : BitVec 32 := 0#32
  let c0_i32_230 : BitVec 32 := 0#32
  let c0_i32_129 : BitVec 32 := 0#32
  let c1_i32_130 : BitVec 32 := 1#32
  let arg24 : BitVec 32 := Scf.iv c0_i32_129 c1_i32_130 k0_t4
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off17 (k0_t4 : Fin k0_t4_loop.trips) : Fin 2 → Nat :=
  let c1_234 : Index := 1#32
  let c0_i32_233 : BitVec 32 := 0#32
  let c0_i32_230 : BitVec 32 := 0#32
  let c0_i32_129 : BitVec 32 := 0#32
  let c1_i32_130 : BitVec 32 := 1#32
  let arg24 : BitVec 32 := Scf.iv c0_i32_129 c1_i32_130 k0_t4
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off18 (v379 : BitVec 32) : Fin 3 → Nat :=
  let v383 : Index := Scalar.indexCast v379
  let c0_235 : Index := 0#32
  let c0_236 : Index := 0#32
  ![v383.toNat, 0, 0]

def k0_chk7 (v379 : BitVec 32) : Prop :=
  (∀ a, (k0_off18 v379) a + S1x64x128.size a ≤ S64x64x128.size a)
instance k0_chk7.dec : ∀ (v379 : BitVec 32), Decidable (k0_chk7 v379) := fun v379 => decidable_of_iff' _ (Iff.of_eq (k0_chk7.eq_1 v379))
theorem k0_off18_inb : ∀ (v379 : BitVec 32) (k0_hw7 : k0_chk7 v379), ∀ a, (k0_off18 v379) a + S1x64x128.size a ≤ S64x64x128.size a := fun v379 k0_hw7 => k0_hw7

def k0_off19 (v382 : BitVec 32) : Fin 3 → Nat :=
  let v386 : Index := Scalar.indexCast v382
  let c0_237 : Index := 0#32
  let c0_238 : Index := 0#32
  ![v386.toNat, 0, 0]

def k0_chk8 (v382 : BitVec 32) : Prop :=
  (∀ a, (k0_off19 v382) a + S1x64x128.size a ≤ S64x64x128.size a)
instance k0_chk8.dec : ∀ (v382 : BitVec 32), Decidable (k0_chk8 v382) := fun v382 => decidable_of_iff' _ (Iff.of_eq (k0_chk8.eq_1 v382))
theorem k0_off19_inb : ∀ (v382 : BitVec 32) (k0_hw8 : k0_chk8 v382), ∀ a, (k0_off19 v382) a + S1x64x128.size a ≤ S64x64x128.size a := fun v382 k0_hw8 => k0_hw8

def k0_off20 (k0_t4 : Fin k0_t4_loop.trips) : Fin 3 → Nat :=
  let c0_i32_239 : BitVec 32 := 0#32
  let c0_i32_230 : BitVec 32 := 0#32
  let c0_i32_129 : BitVec 32 := 0#32
  let c1_i32_130 : BitVec 32 := 1#32
  let arg24 : BitVec 32 := Scf.iv c0_i32_129 c1_i32_130 k0_t4
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t5_loop : Scf.Loop 32 :=
  let c0_i32_143 : BitVec 32 := 0#32
  let c16_i32 : BitVec 32 := 16#32
  let v272 : BitVec 32 := Scalar.addi c0_i32_143 c16_i32
  let c1_i32_144 : BitVec 32 := 1#32
  ⟨c0_i32_143, v272, c1_i32_144⟩
def k0_off21 (k0_t5 : Fin k0_t5_loop.trips) : Fin 2 → Nat :=
  let c0_232 : Index := 0#32
  let c0_i32_231 : BitVec 32 := 0#32
  let c0_i32_230 : BitVec 32 := 0#32
  let c0_i32_143 : BitVec 32 := 0#32
  let c1_i32_144 : BitVec 32 := 1#32
  let arg24 : BitVec 32 := Scf.iv c0_i32_143 c1_i32_144 k0_t5
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off22 (k0_t5 : Fin k0_t5_loop.trips) : Fin 2 → Nat :=
  let c1_234 : Index := 1#32
  let c0_i32_233 : BitVec 32 := 0#32
  let c0_i32_230 : BitVec 32 := 0#32
  let c0_i32_143 : BitVec 32 := 0#32
  let c1_i32_144 : BitVec 32 := 1#32
  let arg24 : BitVec 32 := Scf.iv c0_i32_143 c1_i32_144 k0_t5
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off23 (v379 : BitVec 32) : Fin 3 → Nat :=
  let v383 : Index := Scalar.indexCast v379
  let c0_235 : Index := 0#32
  let c0_236 : Index := 0#32
  ![v383.toNat, 0, 0]

def k0_chk9 (v379 : BitVec 32) : Prop :=
  (∀ a, (k0_off23 v379) a + S1x64x128.size a ≤ S128x64x128.size a)
instance k0_chk9.dec : ∀ (v379 : BitVec 32), Decidable (k0_chk9 v379) := fun v379 => decidable_of_iff' _ (Iff.of_eq (k0_chk9.eq_1 v379))
theorem k0_off23_inb : ∀ (v379 : BitVec 32) (k0_hw9 : k0_chk9 v379), ∀ a, (k0_off23 v379) a + S1x64x128.size a ≤ S128x64x128.size a := fun v379 k0_hw9 => k0_hw9

def k0_off24 (v382 : BitVec 32) : Fin 3 → Nat :=
  let v386 : Index := Scalar.indexCast v382
  let c0_237 : Index := 0#32
  let c0_238 : Index := 0#32
  ![v386.toNat, 0, 0]

def k0_chk10 (v382 : BitVec 32) : Prop :=
  (∀ a, (k0_off24 v382) a + S1x64x128.size a ≤ S128x64x128.size a)
instance k0_chk10.dec : ∀ (v382 : BitVec 32), Decidable (k0_chk10 v382) := fun v382 => decidable_of_iff' _ (Iff.of_eq (k0_chk10.eq_1 v382))
theorem k0_off24_inb : ∀ (v382 : BitVec 32) (k0_hw10 : k0_chk10 v382), ∀ a, (k0_off24 v382) a + S1x64x128.size a ≤ S128x64x128.size a := fun v382 k0_hw10 => k0_hw10

def k0_off25 (k0_t5 : Fin k0_t5_loop.trips) : Fin 3 → Nat :=
  let c0_i32_239 : BitVec 32 := 0#32
  let c0_i32_230 : BitVec 32 := 0#32
  let c0_i32_143 : BitVec 32 := 0#32
  let c1_i32_144 : BitVec 32 := 1#32
  let arg24 : BitVec 32 := Scf.iv c0_i32_143 c1_i32_144 k0_t5
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t6_loop : Scf.Loop 32 :=
  let c0_i32_157 : BitVec 32 := 0#32
  let c8_i32 : BitVec 32 := 8#32
  let v288 : BitVec 32 := Scalar.addi c0_i32_157 c8_i32
  let c1_i32_158 : BitVec 32 := 1#32
  ⟨c0_i32_157, v288, c1_i32_158⟩
def k0_off26 (k0_t6 : Fin k0_t6_loop.trips) : Fin 2 → Nat :=
  let c0_232 : Index := 0#32
  let c0_i32_231 : BitVec 32 := 0#32
  let c0_i32_230 : BitVec 32 := 0#32
  let c0_i32_157 : BitVec 32 := 0#32
  let c1_i32_158 : BitVec 32 := 1#32
  let arg24 : BitVec 32 := Scf.iv c0_i32_157 c1_i32_158 k0_t6
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off27 (k0_t6 : Fin k0_t6_loop.trips) : Fin 2 → Nat :=
  let c1_234 : Index := 1#32
  let c0_i32_233 : BitVec 32 := 0#32
  let c0_i32_230 : BitVec 32 := 0#32
  let c0_i32_157 : BitVec 32 := 0#32
  let c1_i32_158 : BitVec 32 := 1#32
  let arg24 : BitVec 32 := Scf.iv c0_i32_157 c1_i32_158 k0_t6
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off28 (v379 : BitVec 32) : Fin 3 → Nat :=
  let v383 : Index := Scalar.indexCast v379
  let c0_235 : Index := 0#32
  let c0_236 : Index := 0#32
  ![v383.toNat, 0, 0]

def k0_chk11 (v379 : BitVec 32) : Prop :=
  (∀ a, (k0_off28 v379) a + S1x64x128.size a ≤ S64x64x128.size a)
instance k0_chk11.dec : ∀ (v379 : BitVec 32), Decidable (k0_chk11 v379) := fun v379 => decidable_of_iff' _ (Iff.of_eq (k0_chk11.eq_1 v379))
theorem k0_off28_inb : ∀ (v379 : BitVec 32) (k0_hw11 : k0_chk11 v379), ∀ a, (k0_off28 v379) a + S1x64x128.size a ≤ S64x64x128.size a := fun v379 k0_hw11 => k0_hw11

def k0_off29 (v382 : BitVec 32) : Fin 3 → Nat :=
  let v386 : Index := Scalar.indexCast v382
  let c0_237 : Index := 0#32
  let c0_238 : Index := 0#32
  ![v386.toNat, 0, 0]

def k0_chk12 (v382 : BitVec 32) : Prop :=
  (∀ a, (k0_off29 v382) a + S1x64x128.size a ≤ S64x64x128.size a)
instance k0_chk12.dec : ∀ (v382 : BitVec 32), Decidable (k0_chk12 v382) := fun v382 => decidable_of_iff' _ (Iff.of_eq (k0_chk12.eq_1 v382))
theorem k0_off29_inb : ∀ (v382 : BitVec 32) (k0_hw12 : k0_chk12 v382), ∀ a, (k0_off29 v382) a + S1x64x128.size a ≤ S64x64x128.size a := fun v382 k0_hw12 => k0_hw12

def k0_off30 (k0_t6 : Fin k0_t6_loop.trips) : Fin 3 → Nat :=
  let c0_i32_239 : BitVec 32 := 0#32
  let c0_i32_230 : BitVec 32 := 0#32
  let c0_i32_157 : BitVec 32 := 0#32
  let c1_i32_158 : BitVec 32 := 1#32
  let arg24 : BitVec 32 := Scf.iv c0_i32_157 c1_i32_158 k0_t6
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t7_loop : Scf.Loop 32 :=
  let c0_i32_171 : BitVec 32 := 0#32
  let c4_i32 : BitVec 32 := 4#32
  let v304 : BitVec 32 := Scalar.addi c0_i32_171 c4_i32
  let c1_i32_172 : BitVec 32 := 1#32
  ⟨c0_i32_171, v304, c1_i32_172⟩
def k0_off31 (k0_t7 : Fin k0_t7_loop.trips) : Fin 2 → Nat :=
  let c0_232 : Index := 0#32
  let c0_i32_231 : BitVec 32 := 0#32
  let c0_i32_230 : BitVec 32 := 0#32
  let c0_i32_171 : BitVec 32 := 0#32
  let c1_i32_172 : BitVec 32 := 1#32
  let arg24 : BitVec 32 := Scf.iv c0_i32_171 c1_i32_172 k0_t7
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off32 (k0_t7 : Fin k0_t7_loop.trips) : Fin 2 → Nat :=
  let c1_234 : Index := 1#32
  let c0_i32_233 : BitVec 32 := 0#32
  let c0_i32_230 : BitVec 32 := 0#32
  let c0_i32_171 : BitVec 32 := 0#32
  let c1_i32_172 : BitVec 32 := 1#32
  let arg24 : BitVec 32 := Scf.iv c0_i32_171 c1_i32_172 k0_t7
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off33 (v379 : BitVec 32) : Fin 3 → Nat :=
  let v383 : Index := Scalar.indexCast v379
  let c0_235 : Index := 0#32
  let c0_236 : Index := 0#32
  ![v383.toNat, 0, 0]

def k0_chk13 (v379 : BitVec 32) : Prop :=
  (∀ a, (k0_off33 v379) a + S1x64x128.size a ≤ S128x64x128.size a)
instance k0_chk13.dec : ∀ (v379 : BitVec 32), Decidable (k0_chk13 v379) := fun v379 => decidable_of_iff' _ (Iff.of_eq (k0_chk13.eq_1 v379))
theorem k0_off33_inb : ∀ (v379 : BitVec 32) (k0_hw13 : k0_chk13 v379), ∀ a, (k0_off33 v379) a + S1x64x128.size a ≤ S128x64x128.size a := fun v379 k0_hw13 => k0_hw13

def k0_off34 (v382 : BitVec 32) : Fin 3 → Nat :=
  let v386 : Index := Scalar.indexCast v382
  let c0_237 : Index := 0#32
  let c0_238 : Index := 0#32
  ![v386.toNat, 0, 0]

def k0_chk14 (v382 : BitVec 32) : Prop :=
  (∀ a, (k0_off34 v382) a + S1x64x128.size a ≤ S128x64x128.size a)
instance k0_chk14.dec : ∀ (v382 : BitVec 32), Decidable (k0_chk14 v382) := fun v382 => decidable_of_iff' _ (Iff.of_eq (k0_chk14.eq_1 v382))
theorem k0_off34_inb : ∀ (v382 : BitVec 32) (k0_hw14 : k0_chk14 v382), ∀ a, (k0_off34 v382) a + S1x64x128.size a ≤ S128x64x128.size a := fun v382 k0_hw14 => k0_hw14

def k0_off35 (k0_t7 : Fin k0_t7_loop.trips) : Fin 3 → Nat :=
  let c0_i32_239 : BitVec 32 := 0#32
  let c0_i32_230 : BitVec 32 := 0#32
  let c0_i32_171 : BitVec 32 := 0#32
  let c1_i32_172 : BitVec 32 := 1#32
  let arg24 : BitVec 32 := Scf.iv c0_i32_171 c1_i32_172 k0_t7
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
@[reducible] def k0_t8_loop : Scf.Loop 32 :=
  let c0_i32_185 : BitVec 32 := 0#32
  let c2_i32 : BitVec 32 := 2#32
  let v320 : BitVec 32 := Scalar.addi c0_i32_185 c2_i32
  let c1_i32_186 : BitVec 32 := 1#32
  ⟨c0_i32_185, v320, c1_i32_186⟩
def k0_off36 (k0_t8 : Fin k0_t8_loop.trips) : Fin 2 → Nat :=
  let c0_232 : Index := 0#32
  let c0_i32_231 : BitVec 32 := 0#32
  let c0_i32_230 : BitVec 32 := 0#32
  let c0_i32_185 : BitVec 32 := 0#32
  let c1_i32_186 : BitVec 32 := 1#32
  let arg24 : BitVec 32 := Scf.iv c0_i32_185 c1_i32_186 k0_t8
  let c1_i32_229 : BitVec 32 := 1#32
  let v375 : BitVec 32 := Scalar.muli arg24 c1_i32_229
  let v376 : BitVec 32 := Scalar.addi c0_i32_230 v375
  let v377 : BitVec 32 := Scalar.addi c0_i32_231 v376
  let v378 : Index := Scalar.indexCast v377
  ![0, v378.toNat]
def k0_off37 (k0_t8 : Fin k0_t8_loop.trips) : Fin 2 → Nat :=
  let c1_234 : Index := 1#32
  let c0_i32_233 : BitVec 32 := 0#32
  let c0_i32_230 : BitVec 32 := 0#32
  let c0_i32_185 : BitVec 32 := 0#32
  let c1_i32_186 : BitVec 32 := 1#32
  let arg24 : BitVec 32 := Scf.iv c0_i32_185 c1_i32_186 k0_t8
  let c1_i32_229 : BitVec 32 := 1#32
  let v375 : BitVec 32 := Scalar.muli arg24 c1_i32_229
  let v376 : BitVec 32 := Scalar.addi c0_i32_230 v375
  let v380 : BitVec 32 := Scalar.addi c0_i32_233 v376
  let v381 : Index := Scalar.indexCast v380
  ![1, v381.toNat]
def k0_off38 (v379 : BitVec 32) : Fin 3 → Nat :=
  let v383 : Index := Scalar.indexCast v379
  let c0_235 : Index := 0#32
  let c0_236 : Index := 0#32
  ![v383.toNat, 0, 0]

def k0_chk15 (v379 : BitVec 32) : Prop :=
  (∀ a, (k0_off38 v379) a + S1x64x128.size a ≤ S64x64x128.size a)
instance k0_chk15.dec : ∀ (v379 : BitVec 32), Decidable (k0_chk15 v379) := fun v379 => decidable_of_iff' _ (Iff.of_eq (k0_chk15.eq_1 v379))
theorem k0_off38_inb : ∀ (v379 : BitVec 32) (k0_hw15 : k0_chk15 v379), ∀ a, (k0_off38 v379) a + S1x64x128.size a ≤ S64x64x128.size a := fun v379 k0_hw15 => k0_hw15

def k0_off39 (v382 : BitVec 32) : Fin 3 → Nat :=
  let v386 : Index := Scalar.indexCast v382
  let c0_237 : Index := 0#32
  let c0_238 : Index := 0#32
  ![v386.toNat, 0, 0]

def k0_chk16 (v382 : BitVec 32) : Prop :=
  (∀ a, (k0_off39 v382) a + S1x64x128.size a ≤ S64x64x128.size a)
instance k0_chk16.dec : ∀ (v382 : BitVec 32), Decidable (k0_chk16 v382) := fun v382 => decidable_of_iff' _ (Iff.of_eq (k0_chk16.eq_1 v382))
theorem k0_off39_inb : ∀ (v382 : BitVec 32) (k0_hw16 : k0_chk16 v382), ∀ a, (k0_off39 v382) a + S1x64x128.size a ≤ S64x64x128.size a := fun v382 k0_hw16 => k0_hw16

def k0_off40 (k0_t8 : Fin k0_t8_loop.trips) : Fin 3 → Nat :=
  let c0_i32_239 : BitVec 32 := 0#32
  let c0_i32_230 : BitVec 32 := 0#32
  let c0_i32_185 : BitVec 32 := 0#32
  let c1_i32_186 : BitVec 32 := 1#32
  let arg24 : BitVec 32 := Scf.iv c0_i32_185 c1_i32_186 k0_t8
  let c1_i32_229 : BitVec 32 := 1#32
  let v375 : BitVec 32 := Scalar.muli arg24 c1_i32_229
  let v376 : BitVec 32 := Scalar.addi c0_i32_230 v375
  let v390 : BitVec 32 := Scalar.addi c0_i32_239 v376
  let v391 : Index := Scalar.indexCast v390
  let c0_240 : Index := 0#32
  let c0_241 : Index := 0#32
  ![v391.toNat, 0, 0]
def k0_off41 : Fin 2 → Nat :=
  let c0_203 : Index := 0#32
  let c0_i32_202 : BitVec 32 := 0#32
  let c0_i32_201 : BitVec 32 := 0#32
  let c0_i32_199 : BitVec 32 := 0#32
  let c1_i32_200 : BitVec 32 := 1#32
  let v336 : BitVec 32 := Scalar.muli c0_i32_199 c1_i32_200
  let v337 : BitVec 32 := Scalar.addi c0_i32_201 v336
  let v338 : BitVec 32 := Scalar.addi c0_i32_202 v337
  let v339 : Index := Scalar.indexCast v338
  ![0, v339.toNat]
def k0_off42 : Fin 2 → Nat :=
  let c1 : Index := 1#32
  let c0_i32_204 : BitVec 32 := 0#32
  let c0_i32_201 : BitVec 32 := 0#32
  let c0_i32_199 : BitVec 32 := 0#32
  let c1_i32_200 : BitVec 32 := 1#32
  let v336 : BitVec 32 := Scalar.muli c0_i32_199 c1_i32_200
  let v337 : BitVec 32 := Scalar.addi c0_i32_201 v336
  let v341 : BitVec 32 := Scalar.addi c0_i32_204 v337
  let v342 : Index := Scalar.indexCast v341
  ![1, v342.toNat]
def k0_off43 (v340 : BitVec 32) : Fin 3 → Nat :=
  let v344 : Index := Scalar.indexCast v340
  let c0_205 : Index := 0#32
  let c0_206 : Index := 0#32
  ![v344.toNat, 0, 0]

def k0_chk17 (v340 : BitVec 32) : Prop :=
  (∀ a, (k0_off43 v340) a + S1x64x128.size a ≤ S128x64x128.size a)
instance k0_chk17.dec : ∀ (v340 : BitVec 32), Decidable (k0_chk17 v340) := fun v340 => decidable_of_iff' _ (Iff.of_eq (k0_chk17.eq_1 v340))
theorem k0_off43_inb : ∀ (v340 : BitVec 32) (k0_hw17 : k0_chk17 v340), ∀ a, (k0_off43 v340) a + S1x64x128.size a ≤ S128x64x128.size a := fun v340 k0_hw17 => k0_hw17

def k0_off44 (v343 : BitVec 32) : Fin 3 → Nat :=
  let v347 : Index := Scalar.indexCast v343
  let c0_207 : Index := 0#32
  let c0_208 : Index := 0#32
  ![v347.toNat, 0, 0]

def k0_chk18 (v343 : BitVec 32) : Prop :=
  (∀ a, (k0_off44 v343) a + S1x64x128.size a ≤ S128x64x128.size a)
instance k0_chk18.dec : ∀ (v343 : BitVec 32), Decidable (k0_chk18 v343) := fun v343 => decidable_of_iff' _ (Iff.of_eq (k0_chk18.eq_1 v343))
theorem k0_off44_inb : ∀ (v343 : BitVec 32) (k0_hw18 : k0_chk18 v343), ∀ a, (k0_off44 v343) a + S1x64x128.size a ≤ S128x64x128.size a := fun v343 k0_hw18 => k0_hw18

def k0_off45 : Fin 3 → Nat :=
  let c0_i32_209 : BitVec 32 := 0#32
  let c0_i32_201 : BitVec 32 := 0#32
  let c0_i32_199 : BitVec 32 := 0#32
  let c1_i32_200 : BitVec 32 := 1#32
  let v336 : BitVec 32 := Scalar.muli c0_i32_199 c1_i32_200
  let v337 : BitVec 32 := Scalar.addi c0_i32_201 v336
  let v351 : BitVec 32 := Scalar.addi c0_i32_209 v337
  let v352 : Index := Scalar.indexCast v351
  let c0_210 : Index := 0#32
  let c0_211 : Index := 0#32
  ![v352.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2048x1x256_S2048x256 : S2048x1x256.ShapeCasts S2048x256
  transposes_S2048x256_S256x2048_1_0 : S2048x256.Transposes [1, 0] S256x2048
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x2048_0 : S256.BroadcastsInDim S256x2048 (![0] : Fin 1 → Fin S256x2048.rank)
  bcast_S_S256x2048 : S_.BroadcastsInDim S256x2048 (![] : Fin 0 → Fin S256x2048.rank)
  bcast_S_S128x2 : S_.BroadcastsInDim S128x2 (![] : Fin 0 → Fin S128x2.rank)
  transposes_S128x2_S2x128_1_0 : S128x2.Transposes [1, 0] S2x128
  bcast_S_S64x2 : S_.BroadcastsInDim S64x2 (![] : Fin 0 → Fin S64x2.rank)
  transposes_S64x2_S2x64_1_0 : S64x2.Transposes [1, 0] S2x64
  bcast_S_S32x2 : S_.BroadcastsInDim S32x2 (![] : Fin 0 → Fin S32x2.rank)
  transposes_S32x2_S2x32_1_0 : S32x2.Transposes [1, 0] S2x32
  bcast_S_S16x2 : S_.BroadcastsInDim S16x2 (![] : Fin 0 → Fin S16x2.rank)
  transposes_S16x2_S2x16_1_0 : S16x2.Transposes [1, 0] S2x16
  bcast_S_S8x2 : S_.BroadcastsInDim S8x2 (![] : Fin 0 → Fin S8x2.rank)
  transposes_S8x2_S2x8_1_0 : S8x2.Transposes [1, 0] S2x8
  bcast_S_S4x2 : S_.BroadcastsInDim S4x2 (![] : Fin 0 → Fin S4x2.rank)
  transposes_S4x2_S2x4_1_0 : S4x2.Transposes [1, 0] S2x4
  bcast_S_S2x2 : S_.BroadcastsInDim S2x2 (![] : Fin 0 → Fin S2x2.rank)
  transposes_S2x2_S2x2_1_0 : S2x2.Transposes [1, 0] S2x2
  bcast_S_S1x2 : S_.BroadcastsInDim S1x2 (![] : Fin 0 → Fin S1x2.rank)
  transposes_S1x2_S2x1_1_0 : S1x2.Transposes [1, 0] S2x1
  reducesTo_S128x64x64_S128x64_d2 : S128x64x64.ReducesTo [2] S128x64
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  bcast_S128x64x1_S128x64x64_0_1_2 : S128x64x1.BroadcastsInDim S128x64x64 (![0, 1, 2] : Fin 3 → Fin S128x64x64.rank)
  reducesTo_S64x64x64_S64x64_d2 : S64x64x64.ReducesTo [2] S64x64
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  reducesTo_S32x64x64_S32x64_d2 : S32x64x64.ReducesTo [2] S32x64
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x64_0_1_2 : S32x64x1.BroadcastsInDim S32x64x64 (![0, 1, 2] : Fin 3 → Fin S32x64x64.rank)
  reducesTo_S16x64x64_S16x64_d2 : S16x64x64.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  reducesTo_S8x64x64_S8x64_d2 : S8x64x64.ReducesTo [2] S8x64
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  reducesTo_S4x64x64_S4x64_d2 : S4x64x64.ReducesTo [2] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x64_0_1_2 : S4x64x1.BroadcastsInDim S4x64x64 (![0, 1, 2] : Fin 3 → Fin S4x64x64.rank)
  reducesTo_S2x64x64_S2x64_d2 : S2x64x64.ReducesTo [2] S2x64
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  bcast_S2x64x1_S2x64x64_0_1_2 : S2x64x1.BroadcastsInDim S2x64x64 (![0, 1, 2] : Fin 3 → Fin S2x64x64.rank)
  reducesTo_S1x64x64_S1x64_d2 : S1x64x64.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x64_0_1_2 : S1x64x1.BroadcastsInDim S1x64x64 (![0, 1, 2] : Fin 3 → Fin S1x64x64.rank)
  inb_S256x128_S32x128_0_0 : ∀ a, (![0, 0] : Fin 2 → Nat) a + S32x128.size a ≤ S256x128.size a
  h_S32x128 : 0 < S32x128.numel
  shapeCasts_S32x128_S32x128 : S32x128.ShapeCasts S32x128
  inb_S256x64_S32x64_0_0 : ∀ a, (![0, 0] : Fin 2 → Nat) a + S32x64.size a ≤ S256x64.size a
  h_S32x64 : 0 < S32x64.numel
  shapeCasts_S32x128_S32x1x128 : S32x128.ShapeCasts S32x1x128
  shapeCasts_S32x64_S32x64x1 : S32x64.ShapeCasts S32x64x1
  broadcasts_S32x1x128_S32x64x128 : S32x1x128.Broadcasts S32x64x128
  broadcasts_S32x64x1_S32x64x128 : S32x64x1.Broadcasts S32x64x128
  inb_S256x64x128_S32x64x128_0_0_0 : ∀ a, (![0, 0, 0] : Fin 3 → Nat) a + S32x64x128.size a ≤ S256x64x128.size a
  h_S32x64x128 : 0 < S32x64x128.numel
  shapeCasts_S32x64x128_S32x64x128 : S32x64x128.ShapeCasts S32x64x128
  inb_S256x128_S32x128_32_0 : ∀ a, (![32, 0] : Fin 2 → Nat) a + S32x128.size a ≤ S256x128.size a
  inb_S256x64_S32x64_32_0 : ∀ a, (![32, 0] : Fin 2 → Nat) a + S32x64.size a ≤ S256x64.size a
  inb_S256x64x128_S32x64x128_32_0_0 : ∀ a, (![32, 0, 0] : Fin 3 → Nat) a + S32x64x128.size a ≤ S256x64x128.size a
  inb_S256x128_S32x128_64_0 : ∀ a, (![64, 0] : Fin 2 → Nat) a + S32x128.size a ≤ S256x128.size a
  inb_S256x64_S32x64_64_0 : ∀ a, (![64, 0] : Fin 2 → Nat) a + S32x64.size a ≤ S256x64.size a
  inb_S256x64x128_S32x64x128_64_0_0 : ∀ a, (![64, 0, 0] : Fin 3 → Nat) a + S32x64x128.size a ≤ S256x64x128.size a
  inb_S256x128_S32x128_96_0 : ∀ a, (![96, 0] : Fin 2 → Nat) a + S32x128.size a ≤ S256x128.size a
  inb_S256x64_S32x64_96_0 : ∀ a, (![96, 0] : Fin 2 → Nat) a + S32x64.size a ≤ S256x64.size a
  inb_S256x64x128_S32x64x128_96_0_0 : ∀ a, (![96, 0, 0] : Fin 3 → Nat) a + S32x64x128.size a ≤ S256x64x128.size a
  inb_S256x128_S32x128_128_0 : ∀ a, (![128, 0] : Fin 2 → Nat) a + S32x128.size a ≤ S256x128.size a
  inb_S256x64_S32x64_128_0 : ∀ a, (![128, 0] : Fin 2 → Nat) a + S32x64.size a ≤ S256x64.size a
  inb_S256x64x128_S32x64x128_128_0_0 : ∀ a, (![128, 0, 0] : Fin 3 → Nat) a + S32x64x128.size a ≤ S256x64x128.size a
  inb_S256x128_S32x128_160_0 : ∀ a, (![160, 0] : Fin 2 → Nat) a + S32x128.size a ≤ S256x128.size a
  inb_S256x64_S32x64_160_0 : ∀ a, (![160, 0] : Fin 2 → Nat) a + S32x64.size a ≤ S256x64.size a
  inb_S256x64x128_S32x64x128_160_0_0 : ∀ a, (![160, 0, 0] : Fin 3 → Nat) a + S32x64x128.size a ≤ S256x64x128.size a
  inb_S256x128_S32x128_192_0 : ∀ a, (![192, 0] : Fin 2 → Nat) a + S32x128.size a ≤ S256x128.size a
  inb_S256x64_S32x64_192_0 : ∀ a, (![192, 0] : Fin 2 → Nat) a + S32x64.size a ≤ S256x64.size a
  inb_S256x64x128_S32x64x128_192_0_0 : ∀ a, (![192, 0, 0] : Fin 3 → Nat) a + S32x64x128.size a ≤ S256x64x128.size a
  inb_S256x128_S32x128_224_0 : ∀ a, (![224, 0] : Fin 2 → Nat) a + S32x128.size a ≤ S256x128.size a
  inb_S256x64_S32x64_224_0 : ∀ a, (![224, 0] : Fin 2 → Nat) a + S32x64.size a ≤ S256x64.size a
  inb_S256x64x128_S32x64x128_224_0_0 : ∀ a, (![224, 0, 0] : Fin 3 → Nat) a + S32x64x128.size a ≤ S256x64x128.size a
  numel1_S1x1 : S1x1.numel = 1
  h_S1x64x128 : 0 < S1x64x128.numel
  shapeCasts_S1x64x128_S64x128 : S1x64x128.ShapeCasts S64x128
  shapeCasts_S64x128_S1x64x128 : S64x128.ShapeCasts S1x64x128
  inb_S128x64x128_S64x64x128_0_0_0 : ∀ a, (![0, 0, 0] : Fin 3 → Nat) a + S64x64x128.size a ≤ S128x64x128.size a
  h_S64x64x128 : 0 < S64x64x128.numel
  reduces_S64x64x128_S64x128 : S64x64x128.Reduces [1] S64x128
  shapeCasts_S64x128_S64x1x128 : S64x128.ShapeCasts S64x1x128
  broadcasts_S64x1x128_S64x64x128 : S64x1x128.Broadcasts S64x64x128
  inb_S128x64x64_S64x64x64_0_0_0 : ∀ a, (![0, 0, 0] : Fin 3 → Nat) a + S64x64x64.size a ≤ S128x64x64.size a
  h_S64x64x64 : 0 < S64x64x64.numel
  shapeCasts_S64x64x64_S64x64x64 : S64x64x64.ShapeCasts S64x64x64
  shapeCasts_S64x64x128_S64x64x128 : S64x64x128.ShapeCasts S64x64x128
  inb_S128x64x128_S64x64x128_64_0_0 : ∀ a, (![64, 0, 0] : Fin 3 → Nat) a + S64x64x128.size a ≤ S128x64x128.size a
  inb_S128x64x64_S64x64x64_64_0_0 : ∀ a, (![64, 0, 0] : Fin 3 → Nat) a + S64x64x64.size a ≤ S128x64x64.size a
  inb_S64x64x128_S64x64x128_0_0_0 : ∀ a, (![0, 0, 0] : Fin 3 → Nat) a + S64x64x128.size a ≤ S64x64x128.size a
  inb_S64x64x64_S64x64x64_0_0_0 : ∀ a, (![0, 0, 0] : Fin 3 → Nat) a + S64x64x64.size a ≤ S64x64x64.size a
  inb_S128x64x128_S32x64x128_0_0_0 : ∀ a, (![0, 0, 0] : Fin 3 → Nat) a + S32x64x128.size a ≤ S128x64x128.size a
  reduces_S32x64x128_S32x128 : S32x64x128.Reduces [1] S32x128
  inb_S32x64x64_S32x64x64_0_0_0 : ∀ a, (![0, 0, 0] : Fin 3 → Nat) a + S32x64x64.size a ≤ S32x64x64.size a
  h_S32x64x64 : 0 < S32x64x64.numel
  shapeCasts_S32x64x64_S32x64x64 : S32x64x64.ShapeCasts S32x64x64
  inb_S64x64x128_S16x64x128_0_0_0 : ∀ a, (![0, 0, 0] : Fin 3 → Nat) a + S16x64x128.size a ≤ S64x64x128.size a
  h_S16x64x128 : 0 < S16x64x128.numel
  reduces_S16x64x128_S16x128 : S16x64x128.Reduces [1] S16x128
  shapeCasts_S16x128_S16x1x128 : S16x128.ShapeCasts S16x1x128
  broadcasts_S16x1x128_S16x64x128 : S16x1x128.Broadcasts S16x64x128
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  shapeCasts_S16x64x128_S16x64x128 : S16x64x128.ShapeCasts S16x64x128
  inb_S128x64x128_S8x64x128_0_0_0 : ∀ a, (![0, 0, 0] : Fin 3 → Nat) a + S8x64x128.size a ≤ S128x64x128.size a
  h_S8x64x128 : 0 < S8x64x128.numel
  reduces_S8x64x128_S8x128 : S8x64x128.Reduces [1] S8x128
  shapeCasts_S8x128_S8x1x128 : S8x128.ShapeCasts S8x1x128
  broadcasts_S8x1x128_S8x64x128 : S8x1x128.Broadcasts S8x64x128
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  shapeCasts_S8x64x128_S8x64x128 : S8x64x128.ShapeCasts S8x64x128
  inb_S64x64x128_S4x64x128_0_0_0 : ∀ a, (![0, 0, 0] : Fin 3 → Nat) a + S4x64x128.size a ≤ S64x64x128.size a
  h_S4x64x128 : 0 < S4x64x128.numel
  reduces_S4x64x128_S4x128 : S4x64x128.Reduces [1] S4x128
  shapeCasts_S4x128_S4x1x128 : S4x128.ShapeCasts S4x1x128
  broadcasts_S4x1x128_S4x64x128 : S4x1x128.Broadcasts S4x64x128
  inb_S4x64x64_S4x64x64_0_0_0 : ∀ a, (![0, 0, 0] : Fin 3 → Nat) a + S4x64x64.size a ≤ S4x64x64.size a
  h_S4x64x64 : 0 < S4x64x64.numel
  shapeCasts_S4x64x64_S4x64x64 : S4x64x64.ShapeCasts S4x64x64
  shapeCasts_S4x64x128_S4x64x128 : S4x64x128.ShapeCasts S4x64x128
  inb_S128x64x128_S2x64x128_0_0_0 : ∀ a, (![0, 0, 0] : Fin 3 → Nat) a + S2x64x128.size a ≤ S128x64x128.size a
  h_S2x64x128 : 0 < S2x64x128.numel
  reduces_S2x64x128_S2x128 : S2x64x128.Reduces [1] S2x128
  shapeCasts_S2x128_S2x1x128 : S2x128.ShapeCasts S2x1x128
  broadcasts_S2x1x128_S2x64x128 : S2x1x128.Broadcasts S2x64x128
  inb_S2x64x64_S2x64x64_0_0_0 : ∀ a, (![0, 0, 0] : Fin 3 → Nat) a + S2x64x64.size a ≤ S2x64x64.size a
  h_S2x64x64 : 0 < S2x64x64.numel
  shapeCasts_S2x64x64_S2x64x64 : S2x64x64.ShapeCasts S2x64x64
  shapeCasts_S2x64x128_S2x64x128 : S2x64x128.ShapeCasts S2x64x128
  inb_S64x64x128_S1x64x128_0_0_0 : ∀ a, (![0, 0, 0] : Fin 3 → Nat) a + S1x64x128.size a ≤ S64x64x128.size a
  reduces_S1x64x128_S1x128 : S1x64x128.Reduces [1] S1x128
  shapeCasts_S1x128_S1x1x128 : S1x128.ShapeCasts S1x1x128
  broadcasts_S1x1x128_S1x64x128 : S1x1x128.Broadcasts S1x64x128
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  shapeCasts_S1x64x128_S1x64x128 : S1x64x128.ShapeCasts S1x64x128
  transposes_S64x128_p1_0_S128x64 : S64x128.Transposes [1, 0] S128x64
  inb_S128x64_S128x64_0_0 : ∀ a, (![0, 0] : Fin 2 → Nat) a + S128x64.size a ≤ S128x64.size a
  h_S128x64 : 0 < S128x64.numel
  bcast_S2048x64_S2048x1x64_0_2 : S2048x64.BroadcastsInDim S2048x1x64 (![0, 2] : Fin 2 → Fin S2048x1x64.rank)
  gather_S256x2048_S256x1_S256x2048_1_0_n_n_0_1_12048_wf : GatherDims.WF S256x2048 S256x1 S256x2048 [1] [0] [] [0] [] 1 ![1, 2048]
  dot_S64x64x64_S64x64x128_S64x64x128_2_1_1_2_0_0_wf : DotDims.WF S64x64x64 S64x64x128 S64x64x128 [2] [1] [1] [2] [0] [0]
  dot_S32x64x64_S32x64x128_S32x64x128_2_1_1_2_0_0_wf : DotDims.WF S32x64x64 S32x64x128 S32x64x128 [2] [1] [1] [2] [0] [0]
  dot_S16x64x64_S16x64x128_S16x64x128_2_1_1_2_0_0_wf : DotDims.WF S16x64x64 S16x64x128 S16x64x128 [2] [1] [1] [2] [0] [0]
  dot_S8x64x64_S8x64x128_S8x64x128_2_1_1_2_0_0_wf : DotDims.WF S8x64x64 S8x64x128 S8x64x128 [2] [1] [1] [2] [0] [0]
  dot_S4x64x64_S4x64x128_S4x64x128_2_1_1_2_0_0_wf : DotDims.WF S4x64x64 S4x64x128 S4x64x128 [2] [1] [1] [2] [0] [0]
  dot_S2x64x64_S2x64x128_S2x64x128_2_1_1_2_0_0_wf : DotDims.WF S2x64x64 S2x64x128 S2x64x128 [2] [1] [1] [2] [0] [0]
  dot_S1x64x64_S1x64x128_S1x64x128_2_1_1_2_0_0_wf : DotDims.WF S1x64x64 S1x64x128 S1x64x128 [2] [1] [1] [2] [0] [0]
  hrank0 : 0 < grid0.rank
  k0_t1_ok : k0_t1_loop.OK
  k0_off1_inb : ∀ k0_t1 : Fin k0_t1_loop.trips, ∀ a, (k0_off1 k0_t1) a + S1x1.size a ≤ S2x128.size a
  k0_off2_inb : ∀ k0_t1 : Fin k0_t1_loop.trips, ∀ a, (k0_off2 k0_t1) a + S1x1.size a ≤ S2x128.size a
  k0_off5_inb : ∀ k0_t1 : Fin k0_t1_loop.trips, ∀ a, (k0_off5 k0_t1) a + S1x64x128.size a ≤ S128x64x128.size a
  k0_t2_ok : k0_t2_loop.OK
  k0_off6_inb : ∀ k0_t2 : Fin k0_t2_loop.trips, ∀ a, (k0_off6 k0_t2) a + S1x1.size a ≤ S2x128.size a
  k0_off7_inb : ∀ k0_t2 : Fin k0_t2_loop.trips, ∀ a, (k0_off7 k0_t2) a + S1x1.size a ≤ S2x128.size a
  k0_off10_inb : ∀ k0_t2 : Fin k0_t2_loop.trips, ∀ a, (k0_off10 k0_t2) a + S1x64x128.size a ≤ S128x64x128.size a
  k0_t3_ok : k0_t3_loop.OK
  k0_off11_inb : ∀ k0_t3 : Fin k0_t3_loop.trips, ∀ a, (k0_off11 k0_t3) a + S1x1.size a ≤ S2x64.size a
  k0_off12_inb : ∀ k0_t3 : Fin k0_t3_loop.trips, ∀ a, (k0_off12 k0_t3) a + S1x1.size a ≤ S2x64.size a
  k0_off15_inb : ∀ k0_t3 : Fin k0_t3_loop.trips, ∀ a, (k0_off15 k0_t3) a + S1x64x128.size a ≤ S64x64x128.size a
  k0_t4_ok : k0_t4_loop.OK
  k0_off16_inb : ∀ k0_t4 : Fin k0_t4_loop.trips, ∀ a, (k0_off16 k0_t4) a + S1x1.size a ≤ S2x32.size a
  k0_off17_inb : ∀ k0_t4 : Fin k0_t4_loop.trips, ∀ a, (k0_off17 k0_t4) a + S1x1.size a ≤ S2x32.size a
  k0_off20_inb : ∀ k0_t4 : Fin k0_t4_loop.trips, ∀ a, (k0_off20 k0_t4) a + S1x64x128.size a ≤ S128x64x128.size a
  k0_t5_ok : k0_t5_loop.OK
  k0_off21_inb : ∀ k0_t5 : Fin k0_t5_loop.trips, ∀ a, (k0_off21 k0_t5) a + S1x1.size a ≤ S2x16.size a
  k0_off22_inb : ∀ k0_t5 : Fin k0_t5_loop.trips, ∀ a, (k0_off22 k0_t5) a + S1x1.size a ≤ S2x16.size a
  k0_off25_inb : ∀ k0_t5 : Fin k0_t5_loop.trips, ∀ a, (k0_off25 k0_t5) a + S1x64x128.size a ≤ S64x64x128.size a
  k0_t6_ok : k0_t6_loop.OK
  k0_off26_inb : ∀ k0_t6 : Fin k0_t6_loop.trips, ∀ a, (k0_off26 k0_t6) a + S1x1.size a ≤ S2x8.size a
  k0_off27_inb : ∀ k0_t6 : Fin k0_t6_loop.trips, ∀ a, (k0_off27 k0_t6) a + S1x1.size a ≤ S2x8.size a
  k0_off30_inb : ∀ k0_t6 : Fin k0_t6_loop.trips, ∀ a, (k0_off30 k0_t6) a + S1x64x128.size a ≤ S128x64x128.size a
  k0_t7_ok : k0_t7_loop.OK
  k0_off31_inb : ∀ k0_t7 : Fin k0_t7_loop.trips, ∀ a, (k0_off31 k0_t7) a + S1x1.size a ≤ S2x4.size a
  k0_off32_inb : ∀ k0_t7 : Fin k0_t7_loop.trips, ∀ a, (k0_off32 k0_t7) a + S1x1.size a ≤ S2x4.size a
  k0_off35_inb : ∀ k0_t7 : Fin k0_t7_loop.trips, ∀ a, (k0_off35 k0_t7) a + S1x64x128.size a ≤ S64x64x128.size a
  k0_t8_ok : k0_t8_loop.OK
  k0_off36_inb : ∀ k0_t8 : Fin k0_t8_loop.trips, ∀ a, (k0_off36 k0_t8) a + S1x1.size a ≤ S2x2.size a
  k0_off37_inb : ∀ k0_t8 : Fin k0_t8_loop.trips, ∀ a, (k0_off37 k0_t8) a + S1x1.size a ≤ S2x2.size a
  k0_off40_inb : ∀ k0_t8 : Fin k0_t8_loop.trips, ∀ a, (k0_off40 k0_t8) a + S1x64x128.size a ≤ S128x64x128.size a
  k0_off41_inb : ∀ a, k0_off41 a + S1x1.size a ≤ S2x1.size a
  k0_off42_inb : ∀ a, k0_off42 a + S1x1.size a ≤ S2x1.size a
  k0_off45_inb : ∀ a, k0_off45 a + S1x64x128.size a ≤ S64x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x2048.size a
  hwx0_0 : ∀ i : grid0.Coords, EltTy.bits .f32 = 32 ∨ (Rect.block (s := S256x2048) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64x64.size a ≤ S128x64x64.size a
  hwx0_3 : ∀ i : grid0.Coords, EltTy.bits .f32 = 32 ∨ (Rect.block (s := S128x64x64) S128x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64x64.size a ≤ S64x64x64.size a
  hwx0_4 : ∀ i : grid0.Coords, EltTy.bits .f32 = 32 ∨ (Rect.block (s := S64x64x64) S64x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64x64.size a ≤ S32x64x64.size a
  hwx0_5 : ∀ i : grid0.Coords, EltTy.bits .f32 = 32 ∨ (Rect.block (s := S32x64x64) S32x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64x64.size a ≤ S16x64x64.size a
  hwx0_6 : ∀ i : grid0.Coords, EltTy.bits .f32 = 32 ∨ (Rect.block (s := S16x64x64) S16x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64x64.size a ≤ S8x64x64.size a
  hwx0_7 : ∀ i : grid0.Coords, EltTy.bits .f32 = 32 ∨ (Rect.block (s := S8x64x64) S8x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x64x64.size a ≤ S4x64x64.size a
  hwx0_8 : ∀ i : grid0.Coords, EltTy.bits .f32 = 32 ∨ (Rect.block (s := S4x64x64) S4x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x64x64.size a ≤ S2x64x64.size a
  hwx0_9 : ∀ i : grid0.Coords, EltTy.bits .f32 = 32 ∨ (Rect.block (s := S2x64x64) S2x64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64x64.size a ≤ S1x64x64.size a
  hwx0_10 : ∀ i : grid0.Coords, EltTy.bits .f32 = 32 ∨ (Rect.block (s := S1x64x64) S1x64x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S2048x64.size a
  hwx0_11 : ∀ i : grid0.Coords, EltTy.bits .f32 = 32 ∨ (Rect.block (s := S2048x64) S128x64.size (cc0_transform_11 i) (hinb0_11 i)).WholeWords (EltTy.packing .f32)

variable [Facts₀]

def gather_S256x2048_S256x1_S256x2048_1_0_n_n_0_1_12048 : GatherDims S256x2048 S256x1 S256x2048 where
  offsetDims := [1]
  collapsedSliceDims := [0]
  operandBatchingDims := []
  startIndicesBatchingDims := []
  startIndexMap := [0]
  indexVectorDim := 1
  sliceSizes := ![1, 2048]
  wf := gather_S256x2048_S256x1_S256x2048_1_0_n_n_0_1_12048_wf
def dot_S64x64x64_S64x64x128_S64x64x128_2_1_1_2_0_0 : DotDims S64x64x64 S64x64x128 S64x64x128 where
  lhsContracting := [2]
  rhsContracting := [1]
  lhsNonContracting := [1]
  rhsNonContracting := [2]
  lhsBatch := [0]
  rhsBatch := [0]
  wf := dot_S64x64x64_S64x64x128_S64x64x128_2_1_1_2_0_0_wf
def dot_S32x64x64_S32x64x128_S32x64x128_2_1_1_2_0_0 : DotDims S32x64x64 S32x64x128 S32x64x128 where
  lhsContracting := [2]
  rhsContracting := [1]
  lhsNonContracting := [1]
  rhsNonContracting := [2]
  lhsBatch := [0]
  rhsBatch := [0]
  wf := dot_S32x64x64_S32x64x128_S32x64x128_2_1_1_2_0_0_wf
def dot_S16x64x64_S16x64x128_S16x64x128_2_1_1_2_0_0 : DotDims S16x64x64 S16x64x128 S16x64x128 where
  lhsContracting := [2]
  rhsContracting := [1]
  lhsNonContracting := [1]
  rhsNonContracting := [2]
  lhsBatch := [0]
  rhsBatch := [0]
  wf := dot_S16x64x64_S16x64x128_S16x64x128_2_1_1_2_0_0_wf
def dot_S8x64x64_S8x64x128_S8x64x128_2_1_1_2_0_0 : DotDims S8x64x64 S8x64x128 S8x64x128 where
  lhsContracting := [2]
  rhsContracting := [1]
  lhsNonContracting := [1]
  rhsNonContracting := [2]
  lhsBatch := [0]
  rhsBatch := [0]
  wf := dot_S8x64x64_S8x64x128_S8x64x128_2_1_1_2_0_0_wf
def dot_S4x64x64_S4x64x128_S4x64x128_2_1_1_2_0_0 : DotDims S4x64x64 S4x64x128 S4x64x128 where
  lhsContracting := [2]
  rhsContracting := [1]
  lhsNonContracting := [1]
  rhsNonContracting := [2]
  lhsBatch := [0]
  rhsBatch := [0]
  wf := dot_S4x64x64_S4x64x128_S4x64x128_2_1_1_2_0_0_wf
def dot_S2x64x64_S2x64x128_S2x64x128_2_1_1_2_0_0 : DotDims S2x64x64 S2x64x128 S2x64x128 where
  lhsContracting := [2]
  rhsContracting := [1]
  lhsNonContracting := [1]
  rhsNonContracting := [2]
  lhsBatch := [0]
  rhsBatch := [0]
  wf := dot_S2x64x64_S2x64x128_S2x64x128_2_1_1_2_0_0_wf
def dot_S1x64x64_S1x64x128_S1x64x128_2_1_1_2_0_0 : DotDims S1x64x64 S1x64x128 S1x64x128 where
  lhsContracting := [2]
  rhsContracting := [1]
  lhsNonContracting := [1]
  rhsNonContracting := [2]
  lhsBatch := [0]
  rhsBatch := [0]
  wf := dot_S1x64x64_S1x64x128_S1x64x128_2_1_1_2_0_0_wf

abbrev spec0_0 : Pipeline.WinSpec sig grid0.rank :=
  Pipeline.WinSpec.ofSpec (Memref.whole main_v4) S256x128.size reads0_0 false false 2 stage0_0 sem0_0 nbuf0_0 hstage0_0

abbrev spec0_1 : Pipeline.WinSpec sig grid0.rank :=
  Pipeline.WinSpec.ofSpec (Memref.whole main_arg1) S256x64.size reads0_1 false true 1 stage0_1 sem0_1 nbuf0_1 hstage0_1

abbrev spec0_2 : Pipeline.WinSpec sig grid0.rank :=
  Pipeline.WinSpec.ofSpec (Memref.whole main_arg2) S256x64.size reads0_2 false true 1 stage0_2 sem0_2 nbuf0_2 hstage0_2

abbrev spec0_3 : Pipeline.WinSpec sig grid0.rank :=
  Pipeline.WinSpec.ofSpec (Memref.whole main_v31) S128x64x64.size reads0_3 false true 1 stage0_3 sem0_3 nbuf0_3 hstage0_3

abbrev spec0_4 : Pipeline.WinSpec sig grid0.rank :=
  Pipeline.WinSpec.ofSpec (Memref.whole main_v42) S64x64x64.size reads0_4 false true 1 stage0_4 sem0_4 nbuf0_4 hstage0_4

abbrev spec0_5 : Pipeline.WinSpec sig grid0.rank :=
  Pipeline.WinSpec.ofSpec (Memref.whole main_v53) S32x64x64.size reads0_5 false true 1 stage0_5 sem0_5 nbuf0_5 hstage0_5

abbrev spec0_6 : Pipeline.WinSpec sig grid0.rank :=
  Pipeline.WinSpec.ofSpec (Memref.whole main_v64) S16x64x64.size reads0_6 false true 1 stage0_6 sem0_6 nbuf0_6 hstage0_6

abbrev spec0_7 : Pipeline.WinSpec sig grid0.rank :=
  Pipeline.WinSpec.ofSpec (Memref.whole main_v75) S8x64x64.size reads0_7 false true 1 stage0_7 sem0_7 nbuf0_7 hstage0_7

abbrev spec0_8 : Pipeline.WinSpec sig grid0.rank :=
  Pipeline.WinSpec.ofSpec (Memref.whole main_v86) S4x64x64.size reads0_8 false true 1 stage0_8 sem0_8 nbuf0_8 hstage0_8

abbrev spec0_9 : Pipeline.WinSpec sig grid0.rank :=
  Pipeline.WinSpec.ofSpec (Memref.whole main_v97) S2x64x64.size reads0_9 false true 1 stage0_9 sem0_9 nbuf0_9 hstage0_9

abbrev spec0_10 : Pipeline.WinSpec sig grid0.rank :=
  Pipeline.WinSpec.ofSpec (Memref.whole main_v108) S1x64x64.size reads0_10 false true 1 stage0_10 sem0_10 nbuf0_10 hstage0_10

abbrev spec0_11 : Pipeline.WinSpec sig grid0.rank :=
  Pipeline.WinSpec.ofSpec (Memref.whole main_v109) S128x64.size reads0_11 true false 2 stage0_11 sem0_11 nbuf0_11 hstage0_11

abbrev spec0 : Fin 12 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | ⟨_ + 12, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | ⟨_ + 12, h⟩ => absurd h (Nat.not_lt.2 (Nat.le_add_left _ _))
abbrev ix0 (pf : pre0.Contents (Elt F)) : (w : Fin 12) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | 11 => cc0_transform_11 | ⟨_ + 12, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | ⟨_ + 12, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | ⟨_ + 12, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | ⟨_ + 12, h⟩ => absurd h (Nat.not_lt.2 (Nat.le_add_left _ _))

class Facts : Prop extends Facts₀ where
  harr0 : ∀ w, (spec0 w).arr.IsWhole

variable [Facts]
-- ==== ReferenceIdeal.lean ====
abbrev S2048x1x256 : Shape := ⟨3, ![2048, 1, 256]⟩
abbrev S256x64 : Shape := ⟨2, ![256, 64]⟩
abbrev S128x64x64 : Shape := ⟨3, ![128, 64, 64]⟩
abbrev S64x64x64 : Shape := ⟨3, ![64, 64, 64]⟩
abbrev S32x64x64 : Shape := ⟨3, ![32, 64, 64]⟩
abbrev S16x64x64 : Shape := ⟨3, ![16, 64, 64]⟩
abbrev S8x64x64 : Shape := ⟨3, ![8, 64, 64]⟩
abbrev S4x64x64 : Shape := ⟨3, ![4, 64, 64]⟩
abbrev S2x64x64 : Shape := ⟨3, ![2, 64, 64]⟩
abbrev S1x64x64 : Shape := ⟨3, ![1, 64, 64]⟩
abbrev S256x1 : Shape := ⟨2, ![256, 1]⟩
abbrev S128x2 : Shape := ⟨2, ![128, 2]⟩
abbrev S64x2 : Shape := ⟨2, ![64, 2]⟩
abbrev S32x2 : Shape := ⟨2, ![32, 2]⟩
abbrev S16x2 : Shape := ⟨2, ![16, 2]⟩
abbrev S8x2 : Shape := ⟨2, ![8, 2]⟩
abbrev S4x2 : Shape := ⟨2, ![4, 2]⟩
abbrev S2x2 : Shape := ⟨2, ![2, 2]⟩
abbrev S1x2 : Shape := ⟨2, ![1, 2]⟩
abbrev S_ : Shape := ⟨0, ![]⟩
abbrev S256x1x1 : Shape := ⟨3, ![256, 1, 1]⟩
abbrev S2048x1x256x1 : Shape := ⟨4, ![2048, 1, 256, 1]⟩
abbrev S256x1x2048x1 : Shape := ⟨4, ![256, 1, 2048, 1]⟩
abbrev S256x2048 : Shape := ⟨2, ![256, 2048]⟩
abbrev S256x2048x1 : Shape := ⟨3, ![256, 2048, 1]⟩
abbrev S256x1x64 : Shape := ⟨3, ![256, 1, 64]⟩
abbrev S256x2048x64 : Shape := ⟨3, ![256, 2048, 64]⟩
abbrev S128x2x1 : Shape := ⟨3, ![128, 2, 1]⟩
abbrev S128x2x2048x64 : Shape := ⟨4, ![128, 2, 2048, 64]⟩
abbrev S128x2048x64 : Shape := ⟨3, ![128, 2048, 64]⟩
abbrev S128x64 : Shape := ⟨2, ![128, 64]⟩
abbrev S128x64x1 : Shape := ⟨3, ![128, 64, 1]⟩
abbrev S128x2048 : Shape := ⟨2, ![128, 2048]⟩
abbrev S128x2048x1 : Shape := ⟨3, ![128, 2048, 1]⟩
abbrev S64x2x1 : Shape := ⟨3, ![64, 2, 1]⟩
abbrev S64x2x2048x64 : Shape := ⟨4, ![64, 2, 2048, 64]⟩
abbrev S64x2048x64 : Shape := ⟨3, ![64, 2048, 64]⟩
abbrev S64x64 : Shape := ⟨2, ![64, 64]⟩
abbrev S64x64x1 : Shape := ⟨3, ![64, 64, 1]⟩
abbrev S64x2048 : Shape := ⟨2, ![64, 2048]⟩
abbrev S64x2048x1 : Shape := ⟨3, ![64, 2048, 1]⟩
abbrev S32x2x1 : Shape := ⟨3, ![32, 2, 1]⟩
abbrev S32x2x2048x64 : Shape := ⟨4, ![32, 2, 2048, 64]⟩
abbrev S32x2048x64 : Shape := ⟨3, ![32, 2048, 64]⟩
abbrev S32x64 : Shape := ⟨2, ![32, 64]⟩
abbrev S32x64x1 : Shape := ⟨3, ![32, 64, 1]⟩
abbrev S32x2048 : Shape := ⟨2, ![32, 2048]⟩
abbrev S32x2048x1 : Shape := ⟨3, ![32, 2048, 1]⟩
abbrev S16x2x1 : Shape := ⟨3, ![16, 2, 1]⟩
abbrev S16x2x2048x64 : Shape := ⟨4, ![16, 2, 2048, 64]⟩
abbrev S16x2048x64 : Shape := ⟨3, ![16, 2048, 64]⟩
abbrev S16x64 : Shape := ⟨2, ![16, 64]⟩
abbrev S16x64x1 : Shape := ⟨3, ![16, 64, 1]⟩
abbrev S16x2048 : Shape := ⟨2, ![16, 2048]⟩
abbrev S16x2048x1 : Shape := ⟨3, ![16, 2048, 1]⟩
abbrev S8x2x1 : Shape := ⟨3, ![8, 2, 1]⟩
abbrev S8x2x2048x64 : Shape := ⟨4, ![8, 2, 2048, 64]⟩
abbrev S8x2048x64 : Shape := ⟨3, ![8, 2048, 64]⟩
abbrev S8x64 : Shape := ⟨2, ![8, 64]⟩
abbrev S8x64x1 : Shape := ⟨3, ![8, 64, 1]⟩
abbrev S8x2048 : Shape := ⟨2, ![8, 2048]⟩
abbrev S8x2048x1 : Shape := ⟨3, ![8, 2048, 1]⟩
abbrev S4x2x1 : Shape := ⟨3, ![4, 2, 1]⟩
abbrev S4x2x2048x64 : Shape := ⟨4, ![4, 2, 2048, 64]⟩
abbrev S4x2048x64 : Shape := ⟨3, ![4, 2048, 64]⟩
abbrev S4x64 : Shape := ⟨2, ![4, 64]⟩
abbrev S4x64x1 : Shape := ⟨3, ![4, 64, 1]⟩
abbrev S4x2048 : Shape := ⟨2, ![4, 2048]⟩
abbrev S4x2048x1 : Shape := ⟨3, ![4, 2048, 1]⟩
abbrev S2x2x1 : Shape := ⟨3, ![2, 2, 1]⟩
abbrev S2x2x2048x64 : Shape := ⟨4, ![2, 2, 2048, 64]⟩
abbrev S2x2048x64 : Shape := ⟨3, ![2, 2048, 64]⟩
abbrev S2x64 : Shape := ⟨2, ![2, 64]⟩
abbrev S2x64x1 : Shape := ⟨3, ![2, 64, 1]⟩
abbrev S2x2048 : Shape := ⟨2, ![2, 2048]⟩
abbrev S2x2048x1 : Shape := ⟨3, ![2, 2048, 1]⟩
abbrev S1x2x1 : Shape := ⟨3, ![1, 2, 1]⟩
abbrev S1x2x2048x64 : Shape := ⟨4, ![1, 2, 2048, 64]⟩
abbrev S1x2048x64 : Shape := ⟨3, ![1, 2048, 64]⟩
abbrev S1x64 : Shape := ⟨2, ![1, 64]⟩
abbrev S1x64x1 : Shape := ⟨3, ![1, 64, 1]⟩
abbrev S1x2048 : Shape := ⟨2, ![1, 2048]⟩
abbrev S1x2048x1 : Shape := ⟨3, ![1, 2048, 1]⟩
abbrev S2048x1x64 : Shape := ⟨3, ![2048, 1, 64]⟩

abbrev nBuf : Space → Nat
  | .hbm => 332
  | .vmem => 0
  | .smem => 0
  | _ => 0

abbrev hbmTy0_0 (i : Nat) : BufTy := match i % 128 with
  | 0 => ⟨S2048x1x256, .f32⟩
  | 1 => ⟨S256x64, .f32⟩
  | 2 => ⟨S256x64, .f32⟩
  | 3 => ⟨S128x64x64, .f32⟩
  | 4 => ⟨S64x64x64, .f32⟩
  | 5 => ⟨S32x64x64, .f32⟩
  | 6 => ⟨S16x64x64, .f32⟩
  | 7 => ⟨S8x64x64, .f32⟩
  | 8 => ⟨S4x64x64, .f32⟩
  | 9 => ⟨S2x64x64, .f32⟩
  | 10 => ⟨S1x64x64, .f32⟩
  | 11 => ⟨S256x1, .i32⟩
  | 12 => ⟨S128x2, .i32⟩
  | 13 => ⟨S64x2, .i32⟩
  | 14 => ⟨S32x2, .i32⟩
  | 15 => ⟨S16x2, .i32⟩
  | 16 => ⟨S8x2, .i32⟩
  | 17 => ⟨S4x2, .i32⟩
  | 18 => ⟨S2x2, .i32⟩
  | 19 => ⟨S1x2, .i32⟩
  | 20 => ⟨S_, .i32⟩
  | 21 => ⟨S256x1, .i32⟩
  | 22 => ⟨S256x1, .i1⟩
  | 23 => ⟨S_, .i32⟩
  | 24 => ⟨S256x1, .i32⟩
  | 25 => ⟨S256x1, .i32⟩
  | 26 => ⟨S256x1, .i32⟩
  | 27 => ⟨S256x1x1, .i32⟩
  | 28 => ⟨S2048x1x256x1, .f32⟩
  | 29 => ⟨S256x1x2048x1, .f32⟩
  | 30 => ⟨S256x2048, .f32⟩
  | 31 => ⟨S256x2048x1, .f32⟩
  | 32 => ⟨S256x1x64, .f32⟩
  | 33 => ⟨S256x2048x64, .f32⟩
  | 34 => ⟨S256x2048x64, .f32⟩
  | 35 => ⟨S256x2048x64, .f32⟩
  | 36 => ⟨S256x64, .f32⟩
  | 37 => ⟨S256x64, .f32⟩
  | 38 => ⟨S256x1x64, .f32⟩
  | 39 => ⟨S256x2048x64, .f32⟩
  | 40 => ⟨S256x2048x64, .f32⟩
  | 41 => ⟨S_, .f32⟩
  | 42 => ⟨S256x2048x64, .f32⟩
  | 43 => ⟨S256x2048x64, .f32⟩
  | 44 => ⟨S256x2048x64, .f32⟩
  | 45 => ⟨S256x1x64, .f32⟩
  | 46 => ⟨S256x2048x64, .f32⟩
  | 47 => ⟨S256x2048x64, .f32⟩
  | 48 => ⟨S_, .f32⟩
  | 49 => ⟨S256x2048x64, .f32⟩
  | 50 => ⟨S256x2048x64, .f32⟩
  | 51 => ⟨S_, .i32⟩
  | 52 => ⟨S128x2, .i32⟩
  | 53 => ⟨S128x2, .i1⟩
  | 54 => ⟨S_, .i32⟩
  | 55 => ⟨S128x2, .i32⟩
  | 56 => ⟨S128x2, .i32⟩
  | 57 => ⟨S128x2, .i32⟩
  | 58 => ⟨S128x2x1, .i32⟩
  | 59 => ⟨S128x2x2048x64, .f32⟩
  | 60 => ⟨S_, .f32⟩
  | 61 => ⟨S128x2048x64, .f32⟩
  | 62 => ⟨S_, .f32⟩
  | 63 => ⟨S128x64, .f32⟩
  | 64 => ⟨S_, .f32⟩
  | 65 => ⟨S128x64, .f32⟩
  | 66 => ⟨S128x64, .f32⟩
  | 67 => ⟨S128x64x1, .f32⟩
  | 68 => ⟨S128x64x64, .f32⟩
  | 69 => ⟨S128x64x64, .f32⟩
  | 70 => ⟨S128x64x64, .f32⟩
  | 71 => ⟨S_, .f32⟩
  | 72 => ⟨S128x64, .f32⟩
  | 73 => ⟨S128x64x1, .f32⟩
  | 74 => ⟨S128x64x64, .f32⟩
  | 75 => ⟨S128x64x64, .f32⟩
  | 76 => ⟨S_, .f32⟩
  | 77 => ⟨S128x2048, .f32⟩
  | 78 => ⟨S128x2048x1, .f32⟩
  | 79 => ⟨S128x2048x64, .f32⟩
  | 80 => ⟨S128x2048x64, .f32⟩
  | 81 => ⟨S128x2048x64, .f32⟩
  | 82 => ⟨S128x2048x64, .f32⟩
  | 83 => ⟨S128x2048x64, .f32⟩
  | 84 => ⟨S128x2048x64, .f32⟩
  | 85 => ⟨S128x2048x64, .f32⟩
  | 86 => ⟨S_, .i32⟩
  | 87 => ⟨S64x2, .i32⟩
  | 88 => ⟨S64x2, .i1⟩
  | 89 => ⟨S_, .i32⟩
  | 90 => ⟨S64x2, .i32⟩
  | 91 => ⟨S64x2, .i32⟩
  | 92 => ⟨S64x2, .i32⟩
  | 93 => ⟨S64x2x1, .i32⟩
  | 94 => ⟨S64x2x2048x64, .f32⟩
  | 95 => ⟨S_, .f32⟩
  | 96 => ⟨S64x2048x64, .f32⟩
  | 97 => ⟨S_, .f32⟩
  | 98 => ⟨S64x64, .f32⟩
  | 99 => ⟨S_, .f32⟩
  | 100 => ⟨S64x64, .f32⟩
  | 101 => ⟨S64x64, .f32⟩
  | 102 => ⟨S64x64x1, .f32⟩
  | 103 => ⟨S64x64x64, .f32⟩
  | 104 => ⟨S64x64x64, .f32⟩
  | 105 => ⟨S64x64x64, .f32⟩
  | 106 => ⟨S_, .f32⟩
  | 107 => ⟨S64x64, .f32⟩
  | 108 => ⟨S64x64x1, .f32⟩
  | 109 => ⟨S64x64x64, .f32⟩
  | 110 => ⟨S64x64x64, .f32⟩
  | 111 => ⟨S_, .f32⟩
  | 112 => ⟨S64x2048, .f32⟩
  | 113 => ⟨S64x2048x1, .f32⟩
  | 114 => ⟨S64x2048x64, .f32⟩
  | 115 => ⟨S64x2048x64, .f32⟩
  | 116 => ⟨S64x2048x64, .f32⟩
  | 117 => ⟨S64x2048x64, .f32⟩
  | 118 => ⟨S64x2048x64, .f32⟩
  | 119 => ⟨S64x2048x64, .f32⟩
  | 120 => ⟨S64x2048x64, .f32⟩
  | 121 => ⟨S_, .i32⟩
  | 122 => ⟨S32x2, .i32⟩
  | 123 => ⟨S32x2, .i1⟩
  | 124 => ⟨S_, .i32⟩
  | 125 => ⟨S32x2, .i32⟩
  | 126 => ⟨S32x2, .i32⟩
  | 127 => ⟨S32x2, .i32⟩
  | _ => ⟨S2048x1x256, .f32⟩

abbrev hbmTy0_1 (i : Nat) : BufTy := match i % 128 with
  | 0 => ⟨S32x2x1, .i32⟩
  | 1 => ⟨S32x2x2048x64, .f32⟩
  | 2 => ⟨S_, .f32⟩
  | 3 => ⟨S32x2048x64, .f32⟩
  | 4 => ⟨S_, .f32⟩
  | 5 => ⟨S32x64, .f32⟩
  | 6 => ⟨S_, .f32⟩
  | 7 => ⟨S32x64, .f32⟩
  | 8 => ⟨S32x64, .f32⟩
  | 9 => ⟨S32x64x1, .f32⟩
  | 10 => ⟨S32x64x64, .f32⟩
  | 11 => ⟨S32x64x64, .f32⟩
  | 12 => ⟨S32x64x64, .f32⟩
  | 13 => ⟨S_, .f32⟩
  | 14 => ⟨S32x64, .f32⟩
  | 15 => ⟨S32x64x1, .f32⟩
  | 16 => ⟨S32x64x64, .f32⟩
  | 17 => ⟨S32x64x64, .f32⟩
  | 18 => ⟨S_, .f32⟩
  | 19 => ⟨S32x2048, .f32⟩
  | 20 => ⟨S32x2048x1, .f32⟩
  | 21 => ⟨S32x2048x64, .f32⟩
  | 22 => ⟨S32x2048x64, .f32⟩
  | 23 => ⟨S32x2048x64, .f32⟩
  | 24 => ⟨S32x2048x64, .f32⟩
  | 25 => ⟨S32x2048x64, .f32⟩
  | 26 => ⟨S32x2048x64, .f32⟩
  | 27 => ⟨S32x2048x64, .f32⟩
  | 28 => ⟨S_, .i32⟩
  | 29 => ⟨S16x2, .i32⟩
  | 30 => ⟨S16x2, .i1⟩
  | 31 => ⟨S_, .i32⟩
  | 32 => ⟨S16x2, .i32⟩
  | 33 => ⟨S16x2, .i32⟩
  | 34 => ⟨S16x2, .i32⟩
  | 35 => ⟨S16x2x1, .i32⟩
  | 36 => ⟨S16x2x2048x64, .f32⟩
  | 37 => ⟨S_, .f32⟩
  | 38 => ⟨S16x2048x64, .f32⟩
  | 39 => ⟨S_, .f32⟩
  | 40 => ⟨S16x64, .f32⟩
  | 41 => ⟨S_, .f32⟩
  | 42 => ⟨S16x64, .f32⟩
  | 43 => ⟨S16x64, .f32⟩
  | 44 => ⟨S16x64x1, .f32⟩
  | 45 => ⟨S16x64x64, .f32⟩
  | 46 => ⟨S16x64x64, .f32⟩
  | 47 => ⟨S16x64x64, .f32⟩
  | 48 => ⟨S_, .f32⟩
  | 49 => ⟨S16x64, .f32⟩
  | 50 => ⟨S16x64x1, .f32⟩
  | 51 => ⟨S16x64x64, .f32⟩
  | 52 => ⟨S16x64x64, .f32⟩
  | 53 => ⟨S_, .f32⟩
  | 54 => ⟨S16x2048, .f32⟩
  | 55 => ⟨S16x2048x1, .f32⟩
  | 56 => ⟨S16x2048x64, .f32⟩
  | 57 => ⟨S16x2048x64, .f32⟩
  | 58 => ⟨S16x2048x64, .f32⟩
  | 59 => ⟨S16x2048x64, .f32⟩
  | 60 => ⟨S16x2048x64, .f32⟩
  | 61 => ⟨S16x2048x64, .f32⟩
  | 62 => ⟨S16x2048x64, .f32⟩
  | 63 => ⟨S_, .i32⟩
  | 64 => ⟨S8x2, .i32⟩
  | 65 => ⟨S8x2, .i1⟩
  | 66 => ⟨S_, .i32⟩
  | 67 => ⟨S8x2, .i32⟩
  | 68 => ⟨S8x2, .i32⟩
  | 69 => ⟨S8x2, .i32⟩
  | 70 => ⟨S8x2x1, .i32⟩
  | 71 => ⟨S8x2x2048x64, .f32⟩
  | 72 => ⟨S_, .f32⟩
  | 73 => ⟨S8x2048x64, .f32⟩
  | 74 => ⟨S_, .f32⟩
  | 75 => ⟨S8x64, .f32⟩
  | 76 => ⟨S_, .f32⟩
  | 77 => ⟨S8x64, .f32⟩
  | 78 => ⟨S8x64, .f32⟩
  | 79 => ⟨S8x64x1, .f32⟩
  | 80 => ⟨S8x64x64, .f32⟩
  | 81 => ⟨S8x64x64, .f32⟩
  | 82 => ⟨S8x64x64, .f32⟩
  | 83 => ⟨S_, .f32⟩
  | 84 => ⟨S8x64, .f32⟩
  | 85 => ⟨S8x64x1, .f32⟩
  | 86 => ⟨S8x64x64, .f32⟩
  | 87 => ⟨S8x64x64, .f32⟩
  | 88 => ⟨S_, .f32⟩
  | 89 => ⟨S8x2048, .f32⟩
  | 90 => ⟨S8x2048x1, .f32⟩
  | 91 => ⟨S8x2048x64, .f32⟩
  | 92 => ⟨S8x2048x64, .f32⟩
  | 93 => ⟨S8x2048x64, .f32⟩
  | 94 => ⟨S8x2048x64, .f32⟩
  | 95 => ⟨S8x2048x64, .f32⟩
  | 96 => ⟨S8x2048x64, .f32⟩
  | 97 => ⟨S8x2048x64, .f32⟩
  | 98 => ⟨S_, .i32⟩
  | 99 => ⟨S4x2, .i32⟩
  | 100 => ⟨S4x2, .i1⟩
  | 101 => ⟨S_, .i32⟩
  | 102 => ⟨S4x2, .i32⟩
  | 103 => ⟨S4x2, .i32⟩
  | 104 => ⟨S4x2, .i32⟩
  | 105 => ⟨S4x2x1, .i32⟩
  | 106 => ⟨S4x2x2048x64, .f32⟩
  | 107 => ⟨S_, .f32⟩
  | 108 => ⟨S4x2048x64, .f32⟩
  | 109 => ⟨S_, .f32⟩
  | 110 => ⟨S4x64, .f32⟩
  | 111 => ⟨S_, .f32⟩
  | 112 => ⟨S4x64, .f32⟩
  | 113 => ⟨S4x64, .f32⟩
  | 114 => ⟨S4x64x1, .f32⟩
  | 115 => ⟨S4x64x64, .f32⟩
  | 116 => ⟨S4x64x64, .f32⟩
  | 117 => ⟨S4x64x64, .f32⟩
  | 118 => ⟨S_, .f32⟩
  | 119 => ⟨S4x64, .f32⟩
  | 120 => ⟨S4x64x1, .f32⟩
  | 121 => ⟨S4x64x64, .f32⟩
  | 122 => ⟨S4x64x64, .f32⟩
  | 123 => ⟨S_, .f32⟩
  | 124 => ⟨S4x2048, .f32⟩
  | 125 => ⟨S4x2048x1, .f32⟩
  | 126 => ⟨S4x2048x64, .f32⟩
  | 127 => ⟨S4x2048x64, .f32⟩
  | _ => ⟨S2048x1x256, .f32⟩

abbrev hbmTy0_2 (i : Nat) : BufTy := match i % 128 with
  | 0 => ⟨S4x2048x64, .f32⟩
  | 1 => ⟨S4x2048x64, .f32⟩
  | 2 => ⟨S4x2048x64, .f32⟩
  | 3 => ⟨S4x2048x64, .f32⟩
  | 4 => ⟨S4x2048x64, .f32⟩
  | 5 => ⟨S_, .i32⟩
  | 6 => ⟨S2x2, .i32⟩
  | 7 => ⟨S2x2, .i1⟩
  | 8 => ⟨S_, .i32⟩
  | 9 => ⟨S2x2, .i32⟩
  | 10 => ⟨S2x2, .i32⟩
  | 11 => ⟨S2x2, .i32⟩
  | 12 => ⟨S2x2x1, .i32⟩
  | 13 => ⟨S2x2x2048x64, .f32⟩
  | 14 => ⟨S_, .f32⟩
  | 15 => ⟨S2x2048x64, .f32⟩
  | 16 => ⟨S_, .f32⟩
  | 17 => ⟨S2x64, .f32⟩
  | 18 => ⟨S_, .f32⟩
  | 19 => ⟨S2x64, .f32⟩
  | 20 => ⟨S2x64, .f32⟩
  | 21 => ⟨S2x64x1, .f32⟩
  | 22 => ⟨S2x64x64, .f32⟩
  | 23 => ⟨S2x64x64, .f32⟩
  | 24 => ⟨S2x64x64, .f32⟩
  | 25 => ⟨S_, .f32⟩
  | 26 => ⟨S2x64, .f32⟩
  | 27 => ⟨S2x64x1, .f32⟩
  | 28 => ⟨S2x64x64, .f32⟩
  | 29 => ⟨S2x64x64, .f32⟩
  | 30 => ⟨S_, .f32⟩
  | 31 => ⟨S2x2048, .f32⟩
  | 32 => ⟨S2x2048x1, .f32⟩
  | 33 => ⟨S2x2048x64, .f32⟩
  | 34 => ⟨S2x2048x64, .f32⟩
  | 35 => ⟨S2x2048x64, .f32⟩
  | 36 => ⟨S2x2048x64, .f32⟩
  | 37 => ⟨S2x2048x64, .f32⟩
  | 38 => ⟨S2x2048x64, .f32⟩
  | 39 => ⟨S2x2048x64, .f32⟩
  | 40 => ⟨S_, .i32⟩
  | 41 => ⟨S1x2, .i32⟩
  | 42 => ⟨S1x2, .i1⟩
  | 43 => ⟨S_, .i32⟩
  | 44 => ⟨S1x2, .i32⟩
  | 45 => ⟨S1x2, .i32⟩
  | 46 => ⟨S1x2, .i32⟩
  | 47 => ⟨S1x2x1, .i32⟩
  | 48 => ⟨S1x2x2048x64, .f32⟩
  | 49 => ⟨S_, .f32⟩
  | 50 => ⟨S1x2048x64, .f32⟩
  | 51 => ⟨S_, .f32⟩
  | 52 => ⟨S1x64, .f32⟩
  | 53 => ⟨S_, .f32⟩
  | 54 => ⟨S1x64, .f32⟩
  | 55 => ⟨S1x64, .f32⟩
  | 56 => ⟨S1x64x1, .f32⟩
  | 57 => ⟨S1x64x64, .f32⟩
  | 58 => ⟨S1x64x64, .f32⟩
  | 59 => ⟨S1x64x64, .f32⟩
  | 60 => ⟨S_, .f32⟩
  | 61 => ⟨S1x64, .f32⟩
  | 62 => ⟨S1x64x1, .f32⟩
  | 63 => ⟨S1x64x64, .f32⟩
  | 64 => ⟨S1x64x64, .f32⟩
  | 65 => ⟨S_, .f32⟩
  | 66 => ⟨S1x2048, .f32⟩
  | 67 => ⟨S1x2048x1, .f32⟩
  | 68 => ⟨S1x2048x64, .f32⟩
  | 69 => ⟨S1x2048x64, .f32⟩
  | 70 => ⟨S1x2048x64, .f32⟩
  | 71 => ⟨S1x2048x64, .f32⟩
  | 72 => ⟨S1x2048x64, .f32⟩
  | 73 => ⟨S1x2048x64, .f32⟩
  | 74 => ⟨S1x2048x64, .f32⟩
  | 75 => ⟨S2048x1x64, .f32⟩
  | _ => ⟨S2048x1x256, .f32⟩

abbrev hbmTy (i : Nat) : BufTy := match i / 128 with
  | 0 => hbmTy0_0 i
  | 1 => hbmTy0_1 i
  | 2 => hbmTy0_2 i
  | _ => ⟨S2048x1x256, .f32⟩

abbrev bufTy : (tb : Table) → Fin (tcTables nBuf tb) → BufTy
  | .hbm, ⟨i, _⟩ => hbmTy i
  | _, _ => ⟨S2048x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_9 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_16 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_23 : Ref sig .tc := ⟨.hbm, 156, rfl⟩
abbrev main_v111 : Ref sig .tc := ⟨.hbm, 157, rfl⟩
abbrev main_v112 : Ref sig .tc := ⟨.hbm, 158, rfl⟩
abbrev main_c_24 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_25 : Ref sig .tc := ⟨.hbm, 165, rfl⟩
abbrev main_v118 : Ref sig .tc := ⟨.hbm, 166, rfl⟩
abbrev main_cst_26 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_28 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_29 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_30 : Ref sig .tc := ⟨.hbm, 191, rfl⟩
abbrev main_v139 : Ref sig .tc := ⟨.hbm, 192, rfl⟩
abbrev main_v140 : Ref sig .tc := ⟨.hbm, 193, rfl⟩
abbrev main_c_31 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_32 : Ref sig .tc := ⟨.hbm, 200, rfl⟩
abbrev main_v146 : Ref sig .tc := ⟨.hbm, 201, rfl⟩
abbrev main_cst_33 : Ref sig .tc := ⟨.hbm, 202, rfl⟩
abbrev main_v147 : Ref sig .tc := ⟨.hbm, 203, rfl⟩
abbrev main_cst_34 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_35 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_36 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_37 : Ref sig .tc := ⟨.hbm, 226, rfl⟩
abbrev main_v167 : Ref sig .tc := ⟨.hbm, 227, rfl⟩
abbrev main_v168 : Ref sig .tc := ⟨.hbm, 228, rfl⟩
abbrev main_c_38 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_39 : Ref sig .tc := ⟨.hbm, 235, rfl⟩
abbrev main_v174 : Ref sig .tc := ⟨.hbm, 236, rfl⟩
abbrev main_cst_40 : Ref sig .tc := ⟨.hbm, 237, rfl⟩
abbrev main_v175 : Ref sig .tc := ⟨.hbm, 238, rfl⟩
abbrev main_cst_41 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_42 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_43 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_c_44 : Ref sig .tc := ⟨.hbm, 261, rfl⟩
abbrev main_v195 : Ref sig .tc := ⟨.hbm, 262, rfl⟩
abbrev main_v196 : Ref sig .tc := ⟨.hbm, 263, rfl⟩
abbrev main_c_45 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_cst_46 : Ref sig .tc := ⟨.hbm, 270, rfl⟩
abbrev main_v202 : Ref sig .tc := ⟨.hbm, 271, rfl⟩
abbrev main_cst_47 : Ref sig .tc := ⟨.hbm, 272, rfl⟩
abbrev main_v203 : Ref sig .tc := ⟨.hbm, 273, rfl⟩
abbrev main_cst_48 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_cst_49 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_50 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_c_51 : Ref sig .tc := ⟨.hbm, 296, rfl⟩
abbrev main_v223 : Ref sig .tc := ⟨.hbm, 297, rfl⟩
abbrev main_v224 : Ref sig .tc := ⟨.hbm, 298, rfl⟩
abbrev main_c_52 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_cst_53 : Ref sig .tc := ⟨.hbm, 305, rfl⟩
abbrev main_v230 : Ref sig .tc := ⟨.hbm, 306, rfl⟩
abbrev main_cst_54 : Ref sig .tc := ⟨.hbm, 307, rfl⟩
abbrev main_v231 : Ref sig .tc := ⟨.hbm, 308, rfl⟩
abbrev main_cst_55 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_cst_56 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_cst_57 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩

abbrev nD : Nat := 1
abbrev τ : Topo := Topo.v7x

variable {F : FTy → Type} [FloatOps F]

class Facts₀ : Prop where
  bcast_S_S256x1 : S_.BroadcastsInDim S256x1 (![] : Fin 0 → Fin S256x1.rank)
  bcast_S256x1_S256x1x1_0_1 : S256x1.BroadcastsInDim S256x1x1 (![0, 1] : Fin 2 → Fin S256x1x1.rank)
  transposes_S2048x1x256x1_S256x1x2048x1_2_1_0_3 : S2048x1x256x1.Transposes [2, 1, 0, 3] S256x1x2048x1
  shapeCasts_S256x1x2048x1_S256x2048 : S256x1x2048x1.ShapeCasts S256x2048
  bcast_S256x2048_S256x2048x1_0_1 : S256x2048.BroadcastsInDim S256x2048x1 (![0, 1] : Fin 2 → Fin S256x2048x1.rank)
  bcast_S256x64_S256x1x64_0_2 : S256x64.BroadcastsInDim S256x1x64 (![0, 2] : Fin 2 → Fin S256x1x64.rank)
  bcast_S256x2048x1_S256x2048x64_0_1_2 : S256x2048x1.BroadcastsInDim S256x2048x64 (![0, 1, 2] : Fin 3 → Fin S256x2048x64.rank)
  bcast_S256x1x64_S256x2048x64_0_1_2 : S256x1x64.BroadcastsInDim S256x2048x64 (![0, 1, 2] : Fin 3 → Fin S256x2048x64.rank)
  bcast_S_S256x2048x64 : S_.BroadcastsInDim S256x2048x64 (![] : Fin 0 → Fin S256x2048x64.rank)
  bcast_S_S128x2 : S_.BroadcastsInDim S128x2 (![] : Fin 0 → Fin S128x2.rank)
  bcast_S128x2_S128x2x1_0_1 : S128x2.BroadcastsInDim S128x2x1 (![0, 1] : Fin 2 → Fin S128x2x1.rank)
  reducesTo_S128x2x2048x64_S128x2048x64_d1 : S128x2x2048x64.ReducesTo [1] S128x2048x64
  h_S_ : 0 < S_.numel
  reducesTo_S128x64x64_S128x64_d2 : S128x64x64.ReducesTo [2] S128x64
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  bcast_S128x64x1_S128x64x64_0_1_2 : S128x64x1.BroadcastsInDim S128x64x64 (![0, 1, 2] : Fin 3 → Fin S128x64x64.rank)
  reducesTo_S128x2048x64_S128x2048_d2 : S128x2048x64.ReducesTo [2] S128x2048
  bcast_S128x2048_S128x2048x1_0_1 : S128x2048.BroadcastsInDim S128x2048x1 (![0, 1] : Fin 2 → Fin S128x2048x1.rank)
  bcast_S128x2048x1_S128x2048x64_0_1_2 : S128x2048x1.BroadcastsInDim S128x2048x64 (![0, 1, 2] : Fin 3 → Fin S128x2048x64.rank)
  bcast_S_S64x2 : S_.BroadcastsInDim S64x2 (![] : Fin 0 → Fin S64x2.rank)
  bcast_S64x2_S64x2x1_0_1 : S64x2.BroadcastsInDim S64x2x1 (![0, 1] : Fin 2 → Fin S64x2x1.rank)
  reducesTo_S64x2x2048x64_S64x2048x64_d1 : S64x2x2048x64.ReducesTo [1] S64x2048x64
  reducesTo_S64x64x64_S64x64_d2 : S64x64x64.ReducesTo [2] S64x64
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  reducesTo_S64x2048x64_S64x2048_d2 : S64x2048x64.ReducesTo [2] S64x2048
  bcast_S64x2048_S64x2048x1_0_1 : S64x2048.BroadcastsInDim S64x2048x1 (![0, 1] : Fin 2 → Fin S64x2048x1.rank)
  bcast_S64x2048x1_S64x2048x64_0_1_2 : S64x2048x1.BroadcastsInDim S64x2048x64 (![0, 1, 2] : Fin 3 → Fin S64x2048x64.rank)
  bcast_S_S32x2 : S_.BroadcastsInDim S32x2 (![] : Fin 0 → Fin S32x2.rank)
  bcast_S32x2_S32x2x1_0_1 : S32x2.BroadcastsInDim S32x2x1 (![0, 1] : Fin 2 → Fin S32x2x1.rank)
  reducesTo_S32x2x2048x64_S32x2048x64_d1 : S32x2x2048x64.ReducesTo [1] S32x2048x64
  reducesTo_S32x64x64_S32x64_d2 : S32x64x64.ReducesTo [2] S32x64
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x64_0_1_2 : S32x64x1.BroadcastsInDim S32x64x64 (![0, 1, 2] : Fin 3 → Fin S32x64x64.rank)
  reducesTo_S32x2048x64_S32x2048_d2 : S32x2048x64.ReducesTo [2] S32x2048
  bcast_S32x2048_S32x2048x1_0_1 : S32x2048.BroadcastsInDim S32x2048x1 (![0, 1] : Fin 2 → Fin S32x2048x1.rank)
  bcast_S32x2048x1_S32x2048x64_0_1_2 : S32x2048x1.BroadcastsInDim S32x2048x64 (![0, 1, 2] : Fin 3 → Fin S32x2048x64.rank)
  bcast_S_S16x2 : S_.BroadcastsInDim S16x2 (![] : Fin 0 → Fin S16x2.rank)
  bcast_S16x2_S16x2x1_0_1 : S16x2.BroadcastsInDim S16x2x1 (![0, 1] : Fin 2 → Fin S16x2x1.rank)
  reducesTo_S16x2x2048x64_S16x2048x64_d1 : S16x2x2048x64.ReducesTo [1] S16x2048x64
  reducesTo_S16x64x64_S16x64_d2 : S16x64x64.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  reducesTo_S16x2048x64_S16x2048_d2 : S16x2048x64.ReducesTo [2] S16x2048
  bcast_S16x2048_S16x2048x1_0_1 : S16x2048.BroadcastsInDim S16x2048x1 (![0, 1] : Fin 2 → Fin S16x2048x1.rank)
  bcast_S16x2048x1_S16x2048x64_0_1_2 : S16x2048x1.BroadcastsInDim S16x2048x64 (![0, 1, 2] : Fin 3 → Fin S16x2048x64.rank)
  bcast_S_S8x2 : S_.BroadcastsInDim S8x2 (![] : Fin 0 → Fin S8x2.rank)
  bcast_S8x2_S8x2x1_0_1 : S8x2.BroadcastsInDim S8x2x1 (![0, 1] : Fin 2 → Fin S8x2x1.rank)
  reducesTo_S8x2x2048x64_S8x2048x64_d1 : S8x2x2048x64.ReducesTo [1] S8x2048x64
  reducesTo_S8x64x64_S8x64_d2 : S8x64x64.ReducesTo [2] S8x64
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  reducesTo_S8x2048x64_S8x2048_d2 : S8x2048x64.ReducesTo [2] S8x2048
  bcast_S8x2048_S8x2048x1_0_1 : S8x2048.BroadcastsInDim S8x2048x1 (![0, 1] : Fin 2 → Fin S8x2048x1.rank)
  bcast_S8x2048x1_S8x2048x64_0_1_2 : S8x2048x1.BroadcastsInDim S8x2048x64 (![0, 1, 2] : Fin 3 → Fin S8x2048x64.rank)
  bcast_S_S4x2 : S_.BroadcastsInDim S4x2 (![] : Fin 0 → Fin S4x2.rank)
  bcast_S4x2_S4x2x1_0_1 : S4x2.BroadcastsInDim S4x2x1 (![0, 1] : Fin 2 → Fin S4x2x1.rank)
  reducesTo_S4x2x2048x64_S4x2048x64_d1 : S4x2x2048x64.ReducesTo [1] S4x2048x64
  reducesTo_S4x64x64_S4x64_d2 : S4x64x64.ReducesTo [2] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x64_0_1_2 : S4x64x1.BroadcastsInDim S4x64x64 (![0, 1, 2] : Fin 3 → Fin S4x64x64.rank)
  reducesTo_S4x2048x64_S4x2048_d2 : S4x2048x64.ReducesTo [2] S4x2048
  bcast_S4x2048_S4x2048x1_0_1 : S4x2048.BroadcastsInDim S4x2048x1 (![0, 1] : Fin 2 → Fin S4x2048x1.rank)
  bcast_S4x2048x1_S4x2048x64_0_1_2 : S4x2048x1.BroadcastsInDim S4x2048x64 (![0, 1, 2] : Fin 3 → Fin S4x2048x64.rank)
  bcast_S_S2x2 : S_.BroadcastsInDim S2x2 (![] : Fin 0 → Fin S2x2.rank)
  bcast_S2x2_S2x2x1_0_1 : S2x2.BroadcastsInDim S2x2x1 (![0, 1] : Fin 2 → Fin S2x2x1.rank)
  reducesTo_S2x2x2048x64_S2x2048x64_d1 : S2x2x2048x64.ReducesTo [1] S2x2048x64
  reducesTo_S2x64x64_S2x64_d2 : S2x64x64.ReducesTo [2] S2x64
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  bcast_S2x64x1_S2x64x64_0_1_2 : S2x64x1.BroadcastsInDim S2x64x64 (![0, 1, 2] : Fin 3 → Fin S2x64x64.rank)
  reducesTo_S2x2048x64_S2x2048_d2 : S2x2048x64.ReducesTo [2] S2x2048
  bcast_S2x2048_S2x2048x1_0_1 : S2x2048.BroadcastsInDim S2x2048x1 (![0, 1] : Fin 2 → Fin S2x2048x1.rank)
  bcast_S2x2048x1_S2x2048x64_0_1_2 : S2x2048x1.BroadcastsInDim S2x2048x64 (![0, 1, 2] : Fin 3 → Fin S2x2048x64.rank)
  bcast_S_S1x2 : S_.BroadcastsInDim S1x2 (![] : Fin 0 → Fin S1x2.rank)
  bcast_S1x2_S1x2x1_0_1 : S1x2.BroadcastsInDim S1x2x1 (![0, 1] : Fin 2 → Fin S1x2x1.rank)
  reducesTo_S1x2x2048x64_S1x2048x64_d1 : S1x2x2048x64.ReducesTo [1] S1x2048x64
  reducesTo_S1x64x64_S1x64_d2 : S1x64x64.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x64_0_1_2 : S1x64x1.BroadcastsInDim S1x64x64 (![0, 1, 2] : Fin 3 → Fin S1x64x64.rank)
  reducesTo_S1x2048x64_S1x2048_d2 : S1x2048x64.ReducesTo [2] S1x2048
  bcast_S1x2048_S1x2048x1_0_1 : S1x2048.BroadcastsInDim S1x2048x1 (![0, 1] : Fin 2 → Fin S1x2048x1.rank)
  bcast_S1x2048x1_S1x2048x64_0_1_2 : S1x2048x1.BroadcastsInDim S1x2048x64 (![0, 1, 2] : Fin 3 → Fin S1x2048x64.rank)
  transposes_S1x2048x64_S2048x1x64_1_0_2 : S1x2048x64.Transposes [1, 0, 2] S2048x1x64
  gather_S2048x1x256_S256x1x1_S2048x1x256x1_01_2_n_n_2_2_204811_wf : GatherDims.WF S2048x1x256 S256x1x1 S2048x1x256x1 [0, 1] [2] [] [2] [] 2 ![2048, 1, 1]
  gather_S256x2048x64_S128x2x1_S128x2x2048x64_23_0_n_n_0_2_1204864_wf : GatherDims.WF S256x2048x64 S128x2x1 S128x2x2048x64 [2, 3] [0] [] [0] [] 2 ![1, 2048, 64]
  dot_S128x2048x64_S128x64x64_S128x2048x64_2_2_1_1_0_0_wf : DotDims.WF S128x2048x64 S128x64x64 S128x2048x64 [2] [2] [1] [1] [0] [0]
  gather_S128x2048x64_S64x2x1_S64x2x2048x64_23_0_n_n_0_2_1204864_wf : GatherDims.WF S128x2048x64 S64x2x1 S64x2x2048x64 [2, 3] [0] [] [0] [] 2 ![1, 2048, 64]
  dot_S64x2048x64_S64x64x64_S64x2048x64_2_2_1_1_0_0_wf : DotDims.WF S64x2048x64 S64x64x64 S64x2048x64 [2] [2] [1] [1] [0] [0]
  gather_S64x2048x64_S32x2x1_S32x2x2048x64_23_0_n_n_0_2_1204864_wf : GatherDims.WF S64x2048x64 S32x2x1 S32x2x2048x64 [2, 3] [0] [] [0] [] 2 ![1, 2048, 64]
  dot_S32x2048x64_S32x64x64_S32x2048x64_2_2_1_1_0_0_wf : DotDims.WF S32x2048x64 S32x64x64 S32x2048x64 [2] [2] [1] [1] [0] [0]
  gather_S32x2048x64_S16x2x1_S16x2x2048x64_23_0_n_n_0_2_1204864_wf : GatherDims.WF S32x2048x64 S16x2x1 S16x2x2048x64 [2, 3] [0] [] [0] [] 2 ![1, 2048, 64]
  dot_S16x2048x64_S16x64x64_S16x2048x64_2_2_1_1_0_0_wf : DotDims.WF S16x2048x64 S16x64x64 S16x2048x64 [2] [2] [1] [1] [0] [0]
  gather_S16x2048x64_S8x2x1_S8x2x2048x64_23_0_n_n_0_2_1204864_wf : GatherDims.WF S16x2048x64 S8x2x1 S8x2x2048x64 [2, 3] [0] [] [0] [] 2 ![1, 2048, 64]
  dot_S8x2048x64_S8x64x64_S8x2048x64_2_2_1_1_0_0_wf : DotDims.WF S8x2048x64 S8x64x64 S8x2048x64 [2] [2] [1] [1] [0] [0]
  gather_S8x2048x64_S4x2x1_S4x2x2048x64_23_0_n_n_0_2_1204864_wf : GatherDims.WF S8x2048x64 S4x2x1 S4x2x2048x64 [2, 3] [0] [] [0] [] 2 ![1, 2048, 64]
  dot_S4x2048x64_S4x64x64_S4x2048x64_2_2_1_1_0_0_wf : DotDims.WF S4x2048x64 S4x64x64 S4x2048x64 [2] [2] [1] [1] [0] [0]
  gather_S4x2048x64_S2x2x1_S2x2x2048x64_23_0_n_n_0_2_1204864_wf : GatherDims.WF S4x2048x64 S2x2x1 S2x2x2048x64 [2, 3] [0] [] [0] [] 2 ![1, 2048, 64]
  dot_S2x2048x64_S2x64x64_S2x2048x64_2_2_1_1_0_0_wf : DotDims.WF S2x2048x64 S2x64x64 S2x2048x64 [2] [2] [1] [1] [0] [0]
  gather_S2x2048x64_S1x2x1_S1x2x2048x64_23_0_n_n_0_2_1204864_wf : GatherDims.WF S2x2048x64 S1x2x1 S1x2x2048x64 [2, 3] [0] [] [0] [] 2 ![1, 2048, 64]
  dot_S1x2048x64_S1x64x64_S1x2048x64_2_2_1_1_0_0_wf : DotDims.WF S1x2048x64 S1x64x64 S1x2048x64 [2] [2] [1] [1] [0] [0]

variable [Facts₀]

def gather_S2048x1x256_S256x1x1_S2048x1x256x1_01_2_n_n_2_2_204811 : GatherDims S2048x1x256 S256x1x1 S2048x1x256x1 where
  offsetDims := [0, 1]
  collapsedSliceDims := [2]
  operandBatchingDims := []
  startIndicesBatchingDims := []
  startIndexMap := [2]
  indexVectorDim := 2
  sliceSizes := ![2048, 1, 1]
  wf := gather_S2048x1x256_S256x1x1_S2048x1x256x1_01_2_n_n_2_2_204811_wf
def gather_S256x2048x64_S128x2x1_S128x2x2048x64_23_0_n_n_0_2_1204864 : GatherDims S256x2048x64 S128x2x1 S128x2x2048x64 where
  offsetDims := [2, 3]
  collapsedSliceDims := [0]
  operandBatchingDims := []
  startIndicesBatchingDims := []
  startIndexMap := [0]
  indexVectorDim := 2
  sliceSizes := ![1, 2048, 64]
  wf := gather_S256x2048x64_S128x2x1_S128x2x2048x64_23_0_n_n_0_2_1204864_wf
def dot_S128x2048x64_S128x64x64_S128x2048x64_2_2_1_1_0_0 : DotDims S128x2048x64 S128x64x64 S128x2048x64 where
  lhsContracting := [2]
  rhsContracting := [2]
  lhsNonContracting := [1]
  rhsNonContracting := [1]
  lhsBatch := [0]
  rhsBatch := [0]
  wf := dot_S128x2048x64_S128x64x64_S128x2048x64_2_2_1_1_0_0_wf
def gather_S128x2048x64_S64x2x1_S64x2x2048x64_23_0_n_n_0_2_1204864 : GatherDims S128x2048x64 S64x2x1 S64x2x2048x64 where
  offsetDims := [2, 3]
  collapsedSliceDims := [0]
  operandBatchingDims := []
  startIndicesBatchingDims := []
  startIndexMap := [0]
  indexVectorDim := 2
  sliceSizes := ![1, 2048, 64]
  wf := gather_S128x2048x64_S64x2x1_S64x2x2048x64_23_0_n_n_0_2_1204864_wf
def dot_S64x2048x64_S64x64x64_S64x2048x64_2_2_1_1_0_0 : DotDims S64x2048x64 S64x64x64 S64x2048x64 where
  lhsContracting := [2]
  rhsContracting := [2]
  lhsNonContracting := [1]
  rhsNonContracting := [1]
  lhsBatch := [0]
  rhsBatch := [0]
  wf := dot_S64x2048x64_S64x64x64_S64x2048x64_2_2_1_1_0_0_wf
def gather_S64x2048x64_S32x2x1_S32x2x2048x64_23_0_n_n_0_2_1204864 : GatherDims S64x2048x64 S32x2x1 S32x2x2048x64 where
  offsetDims := [2, 3]
  collapsedSliceDims := [0]
  operandBatchingDims := []
  startIndicesBatchingDims := []
  startIndexMap := [0]
  indexVectorDim := 2
  sliceSizes := ![1, 2048, 64]
  wf := gather_S64x2048x64_S32x2x1_S32x2x2048x64_23_0_n_n_0_2_1204864_wf
def dot_S32x2048x64_S32x64x64_S32x2048x64_2_2_1_1_0_0 : DotDims S32x2048x64 S32x64x64 S32x2048x64 where
  lhsContracting := [2]
  rhsContracting := [2]
  lhsNonContracting := [1]
  rhsNonContracting := [1]
  lhsBatch := [0]
  rhsBatch := [0]
  wf := dot_S32x2048x64_S32x64x64_S32x2048x64_2_2_1_1_0_0_wf
def gather_S32x2048x64_S16x2x1_S16x2x2048x64_23_0_n_n_0_2_1204864 : GatherDims S32x2048x64 S16x2x1 S16x2x2048x64 where
  offsetDims := [2, 3]
  collapsedSliceDims := [0]
  operandBatchingDims := []
  startIndicesBatchingDims := []
  startIndexMap := [0]
  indexVectorDim := 2
  sliceSizes := ![1, 2048, 64]
  wf := gather_S32x2048x64_S16x2x1_S16x2x2048x64_23_0_n_n_0_2_1204864_wf
def dot_S16x2048x64_S16x64x64_S16x2048x64_2_2_1_1_0_0 : DotDims S16x2048x64 S16x64x64 S16x2048x64 where
  lhsContracting := [2]
  rhsContracting := [2]
  lhsNonContracting := [1]
  rhsNonContracting := [1]
  lhsBatch := [0]
  rhsBatch := [0]
  wf := dot_S16x2048x64_S16x64x64_S16x2048x64_2_2_1_1_0_0_wf
def gather_S16x2048x64_S8x2x1_S8x2x2048x64_23_0_n_n_0_2_1204864 : GatherDims S16x2048x64 S8x2x1 S8x2x2048x64 where
  offsetDims := [2, 3]
  collapsedSliceDims := [0]
  operandBatchingDims := []
  startIndicesBatchingDims := []
  startIndexMap := [0]
  indexVectorDim := 2
  sliceSizes := ![1, 2048, 64]
  wf := gather_S16x2048x64_S8x2x1_S8x2x2048x64_23_0_n_n_0_2_1204864_wf
def dot_S8x2048x64_S8x64x64_S8x2048x64_2_2_1_1_0_0 : DotDims S8x2048x64 S8x64x64 S8x2048x64 where
  lhsContracting := [2]
  rhsContracting := [2]
  lhsNonContracting := [1]
  rhsNonContracting := [1]
  lhsBatch := [0]
  rhsBatch := [0]
  wf := dot_S8x2048x64_S8x64x64_S8x2048x64_2_2_1_1_0_0_wf
def gather_S8x2048x64_S4x2x1_S4x2x2048x64_23_0_n_n_0_2_1204864 : GatherDims S8x2048x64 S4x2x1 S4x2x2048x64 where
  offsetDims := [2, 3]
  collapsedSliceDims := [0]
  operandBatchingDims := []
  startIndicesBatchingDims := []
  startIndexMap := [0]
  indexVectorDim := 2
  sliceSizes := ![1, 2048, 64]
  wf := gather_S8x2048x64_S4x2x1_S4x2x2048x64_23_0_n_n_0_2_1204864_wf
def dot_S4x2048x64_S4x64x64_S4x2048x64_2_2_1_1_0_0 : DotDims S4x2048x64 S4x64x64 S4x2048x64 where
  lhsContracting := [2]
  rhsContracting := [2]
  lhsNonContracting := [1]
  rhsNonContracting := [1]
  lhsBatch := [0]
  rhsBatch := [0]
  wf := dot_S4x2048x64_S4x64x64_S4x2048x64_2_2_1_1_0_0_wf
def gather_S4x2048x64_S2x2x1_S2x2x2048x64_23_0_n_n_0_2_1204864 : GatherDims S4x2048x64 S2x2x1 S2x2x2048x64 where
  offsetDims := [2, 3]
  collapsedSliceDims := [0]
  operandBatchingDims := []
  startIndicesBatchingDims := []
  startIndexMap := [0]
  indexVectorDim := 2
  sliceSizes := ![1, 2048, 64]
  wf := gather_S4x2048x64_S2x2x1_S2x2x2048x64_23_0_n_n_0_2_1204864_wf
def dot_S2x2048x64_S2x64x64_S2x2048x64_2_2_1_1_0_0 : DotDims S2x2048x64 S2x64x64 S2x2048x64 where
  lhsContracting := [2]
  rhsContracting := [2]
  lhsNonContracting := [1]
  rhsNonContracting := [1]
  lhsBatch := [0]
  rhsBatch := [0]
  wf := dot_S2x2048x64_S2x64x64_S2x2048x64_2_2_1_1_0_0_wf
def gather_S2x2048x64_S1x2x1_S1x2x2048x64_23_0_n_n_0_2_1204864 : GatherDims S2x2048x64 S1x2x1 S1x2x2048x64 where
  offsetDims := [2, 3]
  collapsedSliceDims := [0]
  operandBatchingDims := []
  startIndicesBatchingDims := []
  startIndexMap := [0]
  indexVectorDim := 2
  sliceSizes := ![1, 2048, 64]
  wf := gather_S2x2048x64_S1x2x1_S1x2x2048x64_23_0_n_n_0_2_1204864_wf
def dot_S1x2048x64_S1x64x64_S1x2048x64_2_2_1_1_0_0 : DotDims S1x2048x64 S1x64x64 S1x2048x64 where
  lhsContracting := [2]
  rhsContracting := [2]
  lhsNonContracting := [1]
  rhsNonContracting := [1]
  lhsBatch := [0]
  rhsBatch := [0]
  wf := dot_S1x2048x64_S1x64x64_S1x2048x64_2_2_1_1_0_0_wf

class Facts : Prop extends Facts₀ where

variable [Facts]
-- ==== Proof.PreDecode.lean ====
import proofs.«411912_j30219389895125_3_alg».proof.Proof.Gen.Pre_finite_inputs
import Idealize.ShloMosaic.Lib.ReduceAll
import Idealize.ShloMosaic.Lib.ValueIdx

noncomputable section

namespace Cert.PreDecode

open Idealize.ShloMosaic Cert.Pre_finite_inputs

instance : Subsingleton S_.Idx := ⟨fun a b => funext fun d => d.elim0⟩

theorem and_parts {p q : IVec S_ 1} (e : andi p q ValueIdx.ix0 = 1#1) :
    p ValueIdx.ix0 = 1#1 ∧ q ValueIdx.ix0 = 1#1 :=
  IntOp.andi_eq_one.1 e

theorem nonneg_of_all {s : Shape} {axes : List (Fin s.rank)} (x : IVec s 32)
    (hb : S_.BroadcastsInDim s (![] : Fin 0 → Fin s.rank)) (hr : s.ReducesTo axes S_) (hu : 0 < S_.numel)
    (init : IVec S_ 1)
    (e : Host.reduce IntOp.andi (cmpi .sge x (broadcastInDim s ![] hb (constantI S_ 32 0#32))) init hr hu
      ValueIdx.ix0 = 1#1)
    (i : s.Idx) : 0 ≤ (x i).toInt := by
  have hi := Host.reduce_andi_all _ init hr hu ValueIdx.ix0 e i
  have hc : IntOp.cmpi .sge (x i) 0#32 = 1#1 := hi
  rw [IntOp.cmpi_sge] at hc
  have z : (0#32 : BitVec 32).toInt = 0 := by decide
  rw [z] at hc
  exact hc

theorem idx_nonneg {F : FTy → Type} [FloatOps F] [Cert.Pre_finite_inputs.Facts]
    (a0 : FVec F S2048x1x256 .f32) (a1 : FVec F S256x64 .f32) (a2 : FVec F S256x64 .f32)
    (a3 : FVec F S128x64x64 .f32) (a4 : FVec F S64x64x64 .f32) (a5 : FVec F S32x64x64 .f32)
    (a6 : FVec F S16x64x64 .f32) (a7 : FVec F S8x64x64 .f32) (a8 : FVec F S4x64x64 .f32)
    (a9 : FVec F S2x64x64 .f32) (a10 : FVec F S1x64x64 .f32)
    (a11 : IVec S256x1 32) (a12 : IVec S128x2 32) (a13 : IVec S64x2 32) (a14 : IVec S32x2 32)
    (a15 : IVec S16x2 32) (a16 : IVec S8x2 32) (a17 : IVec S4x2 32) (a18 : IVec S2x2 32) (a19 : IVec S1x2 32)
    (h : Cert.Pre_finite_inputs.fn (F := F) a0 a1 a2 a3 a4 a5 a6 a7 a8 a9 a10 a11 a12 a13 a14 a15 a16 a17 a18 a19
      = (fun _ => 1#1)) :
    (∀ i, 0 ≤ (a11 i).toInt) ∧ (∀ i, 0 ≤ (a12 i).toInt) ∧ (∀ i, 0 ≤ (a13 i).toInt) ∧ (∀ i, 0 ≤ (a14 i).toInt)
      ∧ (∀ i, 0 ≤ (a15 i).toInt) ∧ (∀ i, 0 ≤ (a16 i).toInt) ∧ (∀ i, 0 ≤ (a17 i).toInt) ∧ (∀ i, 0 ≤ (a18 i).toInt)
      ∧ (∀ i, 0 ≤ (a19 i).toInt) := by
  have e := congrFun h ValueIdx.ix0
  dsimp only [fn, fn_part1, fn_part2, fn_part3, fn_part4, fn_part5] at e

  obtain ⟨e, h19⟩ := and_parts e
  obtain ⟨e, h18⟩ := and_parts e
  obtain ⟨e, h17⟩ := and_parts e
  obtain ⟨e, h16⟩ := and_parts e
  obtain ⟨e, h15⟩ := and_parts e
  obtain ⟨e, h14⟩ := and_parts e
  obtain ⟨e, h13⟩ := and_parts e
  obtain ⟨e, h12⟩ := and_parts e
  obtain ⟨-, h11⟩ := and_parts e
  exact ⟨nonneg_of_all a11 _ _ _ _ h11, nonneg_of_all a12 _ _ _ _ h12, nonneg_of_all a13 _ _ _ _ h13,
    nonneg_of_all a14 _ _ _ _ h14, nonneg_of_all a15 _ _ _ _ h15, nonneg_of_all a16 _ _ _ _ h16,
    nonneg_of_all a17 _ _ _ _ h17, nonneg_of_all a18 _ _ _ _ h18, nonneg_of_all a19 _ _ _ _ h19⟩

end Cert.PreDecode

end
-- ==== Proof.KI.Tabs.lean ====
import proofs.«411912_j30219389895125_3_alg».proof.Proof.Gen.KernelIdeal.Launch
import proofs.«411912_j30219389895125_3_alg».proof.Proof.Gen.KernelIdeal.Skeleton
import proofs.«411912_j30219389895125_3_alg».proof.Proof.Gen.KernelIdeal.Loops
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

abbrev tbM0_0 : Memref sig .tc .smem S2x128 .i32 := Memref.whole main_v6
abbrev htbM0_0 : tbM0_0.IsWhole := Memref.isWhole_whole _
abbrev tbM0_1 : Memref sig .tc .smem S2x64 .i32 := Memref.whole main_v8
abbrev htbM0_1 : tbM0_1.IsWhole := Memref.isWhole_whole _
abbrev tbM0_2 : Memref sig .tc .smem S2x32 .i32 := Memref.whole main_v10
abbrev htbM0_2 : tbM0_2.IsWhole := Memref.isWhole_whole _
abbrev tbM0_3 : Memref sig .tc .smem S2x16 .i32 := Memref.whole main_v12
abbrev htbM0_3 : tbM0_3.IsWhole := Memref.isWhole_whole _
abbrev tbM0_4 : Memref sig .tc .smem S2x8 .i32 := Memref.whole main_v14
abbrev htbM0_4 : tbM0_4.IsWhole := Memref.isWhole_whole _
abbrev tbM0_5 : Memref sig .tc .smem S2x4 .i32 := Memref.whole main_v16
abbrev htbM0_5 : tbM0_5.IsWhole := Memref.isWhole_whole _
abbrev tbM0_6 : Memref sig .tc .smem S2x2 .i32 := Memref.whole main_v18
abbrev htbM0_6 : tbM0_6.IsWhole := Memref.isWhole_whole _
abbrev tbM0_7 : Memref sig .tc .smem S2x1 .i32 := Memref.whole main_v20
abbrev htbM0_7 : tbM0_7.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

abbrev scM0 : Memref sig .tc .vmem S256x64x128 .f32 := Memref.whole cc0_scratch0
abbrev hscM0 : scM0.IsWhole := Memref.isWhole_whole _
abbrev scM1 : Memref sig .tc .vmem S128x64x128 .f32 := Memref.whole cc0_scratch1
abbrev hscM1 : scM1.IsWhole := Memref.isWhole_whole _
abbrev scM2 : Memref sig .tc .vmem S64x64x128 .f32 := Memref.whole cc0_scratch2
abbrev hscM2 : scM2.IsWhole := Memref.isWhole_whole _

end Cert.KernelIdeal.Hand

end
-- ==== Proof.KI.Points.lean ====
import proofs.«411912_j30219389895125_3_alg».proof.Proof.KI.Tabs

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

abbrev bodyAt0 (a : (pcfg0 (F := F)).Adm) (t : Fin (cfg0 a).N) : Prog (TpuEff nD τ sig (Elt F) Λ₀ .tc) PUnit :=
  cc0__fused_kernel (grid0.coords t) tbM0_0 htbM0_0 tbM0_1 htbM0_1 tbM0_2 htbM0_2 tbM0_3 htbM0_3 tbM0_4 htbM0_4 tbM0_5 htbM0_5 tbM0_6 htbM0_6 tbM0_7 htbM0_7 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) scM0 hscM0 scM1 hscM1 scM2 hscM2

end Cert.KernelIdeal.Hand

end
-- ==== Proof.KI.Kit.lean ====
import proofs.«411912_j30219389895125_3_alg».proof.Proof.KI.Tabs
import proofs.«411912_j30219389895125_3_alg».proof.Proof.KI.Points
import Idealize.ShloMosaic.Lib.Pipeline.FrameSuffix

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b))
abbrev V (c : Dev nD) (b : Ref sig .tc) : Buf (Elt F) ((c : Thread nD τ).loc b) := V0 m c (Proc.devRef .tc b)

theorem hmain (𝒱₀ : Variants) : Pipeline.HMainPK (Ix := Unit) (Name := ℕ) (U := UR sig nD τ) (Lvl := ℕ) pcfgs 0 defs₀ 𝒱₀ m (main (F := F))
      (fun c b => V0 m c (Proc.devRef .tc b)) (fun _ => Pipeline.chain ([hostOps1].map StableHlo.seq)) :=
  Pipeline.hmainP_around pcfgs 0 defs₀ 𝒱₀ m main _ [hostOps1] (by exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩)
    (by simp only [List.Forall]; repeat' constructor) main_chain

theorem sfx_sub : ∀ ops ∈ ([hostOps1] : List (List (HloOp τ sig (Elt F)))), ∀ op ∈ ops,
    op.bufs ⊆ Pipeline.tailRefs sig pre0 spec0 :=
  List.forall_mem_singleton.2 (List.forall_mem_singleton.2 (Pipeline.sub_tailRefs pre0 spec0 _ hostOps1_sub fun j h =>
    (Finset.mem_insert.1 h).elim (StableHlo.devRef_ne_of_ne ((by decide : ∀ j, pre0.ref j ≠ main_v109) j))
      fun h => StableHlo.devRef_ne_of_ne ((by decide : ∀ j, pre0.ref j ≠ main_v110) j) (Finset.mem_singleton.1 h)))
theorem sfx_fresh : ∀ ops ∈ ([hostOps1] : List (List (HloOp τ sig (Elt F)))), ∀ op ∈ ops, op.fresh = ∅ :=
  List.forall_mem_singleton.2 (List.forall_mem_singleton.2 rfl)
theorem sfx_keeps : ∀ ops ∈ ([hostOps1] : List (List (HloOp τ sig (Elt F)))), ∀ op ∈ ops,
    ∀ w, Proc.devRef .tc (Pipeline.arrRef spec0 w) ∉ op.writes :=
  List.forall_mem_singleton.2 (List.forall_mem_singleton.2 fun w h =>
    StableHlo.devRef_ne_of_ne ((by decide : ∀ w, Pipeline.arrRef spec0 w ≠ main_v110) w) (Finset.mem_singleton.1 h))

-- Lines whose operations each write one reference outside `A` leave every reference of `A` as it was.
theorem after_keeps {A : List (Ref sig .tc)} (opss : List (List (HloOp τ sig (Elt F)))) (W : Valuation τ sig (Elt F))
    (h : opss.Forall fun ops => ops.Forall fun op => ∃ y, y ∉ A ∧ op.writes = {Proc.devRef .tc y}) (r : Ref sig .tc) (hr : r ∈ A) :
    StableHlo.after opss.flatten W (Proc.devRef .tc r) = W (Proc.devRef .tc r) :=
  StableHlo.after_of_forall_not_mem _ _ fun op hop hb => by
    obtain ⟨ops, ho, hop⟩ := List.mem_flatten.mp hop
    obtain ⟨y, hy, e⟩ := List.forall_iff_forall_mem.mp (List.forall_iff_forall_mem.mp h ops ho) op hop
    rw [e, Finset.mem_singleton] at hb
    exact hy (Proc.devRef_injective _ hb ▸ hr)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

-- No host operation before the call writes an argument array.
theorem V_arg (c : Dev nD) {b : Ref sig .tc} (hb : b ∈ args := by decide) : V m c b = m ((c : Thread nD τ).loc b) :=
  after_keeps _ _ (by
    simp only [List.Forall]
    repeat' apply And.intro
    all_goals exact ⟨_, by decide, rfl⟩) b hb
theorem V_main_arg1 (c : Dev nD) : V m c main_arg1 = m ((c : Thread nD τ).loc main_arg1) := V_arg m c
theorem V_main_arg2 (c : Dev nD) : V m c main_arg2 = m ((c : Thread nD τ).loc main_arg2) := V_arg m c

def tbl : pre0.Contents (Elt F) := fun j => V m (0 : Dev nD) (pre0.ref j)
theorem V_pre (c : Dev nD) (j : Fin 8) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5) ∗ tbPt0 c tbM0_6 (tbl m 6) ∗ tbPt0 c tbM0_7 (tbl m 7)) :=
  bigSep_univ_eq_bigSepL [0, 1, 2, 3, 4, 5, 6, 7] (by decide) (by decide) _

-- The line after the call writes no argument array, and `withArrays` changes the windows' arrays only.
theorem W_arg (dats : (p : Fin 1) → (c : Dev nD) → Dat τ (Elt F) Unit ℕ (UR sig nD τ) ℕ ((Pipeline.pin pcfgs fun _ => adm m) p) c) (c : Dev nD)
    {b : Ref sig .tc} (hb : b ∈ args := by decide) (hw : ∀ w, Pipeline.arrRef spec0 w ≠ b := by decide) :
    Pipeline.afterTail pcfgs (fun _ => adm m) dats 0 (V0 m) [hostOps1] c b = m ((c.tc : Thread nD τ).loc b) := by
  unfold Pipeline.afterTail
  rw [after_keeps _ _ (by exact ⟨_, by decide, rfl⟩) b hb, Pipeline.withArrays_of_ne _ c (V0 m c) _ b hw]
  exact V_arg m c hb

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

-- `blockOf` reads the data's array; at the entry contents that is `iblk`.
theorem blockOf_eq {c : Dev nD} (dat : Dat τ (Elt F) Unit ℕ (UR sig nD τ) ℕ (cfgM m) c) (w) (hA : dat.A w = V m c (Pipeline.arrRef spec0 w)) (t) :
    dat.blockOf w t = iblk m c w t :=
  congrArg ((((cfgM m).win w).blk t).view.read (Elt F)) hA

theorem before0_of {c : Dev nD} (w : Fin 12) (dat : Dat τ (Elt F) Unit ℕ (UR sig nD τ) ℕ (cfgM m) c) (hA : dat.A w = V m c (Pipeline.arrRef spec0 w))
    (hafter : ∀ t, dat.after w t = iblk m c w t) (t : Fin (cfgM m).N) (d) (hw : w ≠ 11 := by decide) : dat.before w t d = iblk m c w t := by
  fin_cases w
  on_goal 12 => exact absurd rfl hw
  all_goals
    exact (dat.before_in_eq_fetched _ rfl (fun _ => rfl) (fun _ _ _ => rfl) (fun t => by rw [hafter, blockOf_eq m dat _ hA]) t d).trans
      (by unfold Dat.fetched; rw [blockOf_eq m dat _ hA]; rfl)

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    have k : ∀ {b} (hb : b ∈ args := by decide) (hw : ∀ w, Pipeline.arrRef spec0 w ≠ b := by decide), _ = m ((c.tc : Thread nD τ).loc b) := fun {b} hb hw =>
      ((h c).2 b (Pipeline.mem_restRefs_of b ((by decide : ∀ b ∈ args, b.isScoped = false) b hb) hw)).trans (W_arg m dats c hb hw)
    ⟨k, ((h c).1 1).trans (((dats 0 c).arrAt_in 1 rfl _).trans ((hA c 1).trans (V_main_arg1 m c))),
      ((h c).1 2).trans (((dats 0 c).arrAt_in 2 rfl _).trans ((hA c 2).trans (V_main_arg2 m c))),
      k, k, k, k, k, k, k, k, k, k, k, k, k, k, k, k, k⟩) h

abbrev VO0_11 : View sig .tc .vmem S128x64 .f32 := (Memref.whole cc0_stg11_0 : Memref sig .tc .vmem S128x64 .f32).view
abbrev ms0_0 (t : Fin (cfgM m).N) : Memref sig .tc .vmem S256x128 .f32 := spec0_0.stage ((cfgM m).slots t 0)
abbrev hs0_0 (t : Fin (cfgM m).N) : (ms0_0 m t).IsWhole := stage_whole0 0 _
abbrev ms0_1 (t : Fin (cfgM m).N) : Memref sig .tc .vmem S256x64 .f32 := spec0_1.stage ((cfgM m).slots t 1)
abbrev hs0_1 (t : Fin (cfgM m).N) : (ms0_1 m t).IsWhole := stage_whole0 1 _
abbrev ms0_2 (t : Fin (cfgM m).N) : Memref sig .tc .vmem S256x64 .f32 := spec0_2.stage ((cfgM m).slots t 2)
abbrev hs0_2 (t : Fin (cfgM m).N) : (ms0_2 m t).IsWhole := stage_whole0 2 _
abbrev ms0_3 (t : Fin (cfgM m).N) : Memref sig .tc .vmem S128x64x64 .f32 := spec0_3.stage ((cfgM m).slots t 3)
abbrev hs0_3 (t : Fin (cfgM m).N) : (ms0_3 m t).IsWhole := stage_whole0 3 _
abbrev ms0_4 (t : Fin (cfgM m).N) : Memref sig .tc .vmem S64x64x64 .f32 := spec0_4.stage ((cfgM m).slots t 4)
abbrev hs0_4 (t : Fin (cfgM m).N) : (ms0_4 m t).IsWhole := stage_whole0 4 _
abbrev ms0_5 (t : Fin (cfgM m).N) : Memref sig .tc .vmem S32x64x64 .f32 := spec0_5.stage ((cfgM m).slots t 5)
abbrev hs0_5 (t : Fin (cfgM m).N) : (ms0_5 m t).IsWhole := stage_whole0 5 _
abbrev ms0_6 (t : Fin (cfgM m).N) : Memref sig .tc .vmem S16x64x64 .f32 := spec0_6.stage ((cfgM m).slots t 6)
abbrev hs0_6 (t : Fin (cfgM m).N) : (ms0_6 m t).IsWhole := stage_whole0 6 _
abbrev ms0_7 (t : Fin (cfgM m).N) : Memref sig .tc .vmem S8x64x64 .f32 := spec0_7.stage ((cfgM m).slots t 7)
abbrev hs0_7 (t : Fin (cfgM m).N) : (ms0_7 m t).IsWhole := stage_whole0 7 _
abbrev ms0_8 (t : Fin (cfgM m).N) : Memref sig .tc .vmem S4x64x64 .f32 := spec0_8.stage ((cfgM m).slots t 8)
abbrev hs0_8 (t : Fin (cfgM m).N) : (ms0_8 m t).IsWhole := stage_whole0 8 _
abbrev ms0_9 (t : Fin (cfgM m).N) : Memref sig .tc .vmem S2x64x64 .f32 := spec0_9.stage ((cfgM m).slots t 9)
abbrev hs0_9 (t : Fin (cfgM m).N) : (ms0_9 m t).IsWhole := stage_whole0 9 _
abbrev ms0_10 (t : Fin (cfgM m).N) : Memref sig .tc .vmem S1x64x64 .f32 := spec0_10.stage ((cfgM m).slots t 10)
abbrev hs0_10 (t : Fin (cfgM m).N) : (ms0_10 m t).IsWhole := stage_whole0 10 _
abbrev ms0_11 (t : Fin (cfgM m).N) : Memref sig .tc .vmem S128x64 .f32 := spec0_11.stage ((cfgM m).slots t 11)
abbrev hs0_11 (t : Fin (cfgM m).N) : (ms0_11 m t).IsWhole := stage_whole0 11 _

end Cert.KernelIdeal.Hand

end
-- ==== Proof.KI.Assumed.lean ====
import proofs.«411912_j30219389895125_3_alg».proof.Proof.KI.Tabs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

abbrev HW1 (c : Dev nD) (xt : TbBuf0 (F := F) c tbM0_0) : Prop :=
  ∀ (kq : ℕ) (hkq : kq < k0_t1_loop.trips), k0_chk1 (tbM0_0.view.readAt (Elt F) (Rect.unit (s := S2x128) (k0_off1 ⟨kq, hkq⟩) S1x1.size (k0_off1_inb ⟨kq, hkq⟩)).toLoadRect xt (Shape.Idx.first (numel1_S1x1.symm ▸ Nat.one_pos)))

abbrev HW2 (c : Dev nD) (xt : TbBuf0 (F := F) c tbM0_0) : Prop :=
  ∀ (kq : ℕ) (hkq : kq < k0_t1_loop.trips), k0_chk2 (tbM0_0.view.readAt (Elt F) (Rect.unit (s := S2x128) (k0_off2 ⟨kq, hkq⟩) S1x1.size (k0_off2_inb ⟨kq, hkq⟩)).toLoadRect xt (Shape.Idx.first (numel1_S1x1.symm ▸ Nat.one_pos)))

abbrev HW3 (c : Dev nD) (xt : TbBuf0 (F := F) c tbM0_0) : Prop :=
  ∀ (kq : ℕ) (hkq : kq < k0_t2_loop.trips), k0_chk3 (tbM0_0.view.readAt (Elt F) (Rect.unit (s := S2x128) (k0_off6 ⟨kq, hkq⟩) S1x1.size (k0_off6_inb ⟨kq, hkq⟩)).toLoadRect xt (Shape.Idx.first (numel1_S1x1.symm ▸ Nat.one_pos)))

abbrev HW4 (c : Dev nD) (xt : TbBuf0 (F := F) c tbM0_0) : Prop :=
  ∀ (kq : ℕ) (hkq : kq < k0_t2_loop.trips), k0_chk4 (tbM0_0.view.readAt (Elt F) (Rect.unit (s := S2x128) (k0_off7 ⟨kq, hkq⟩) S1x1.size (k0_off7_inb ⟨kq, hkq⟩)).toLoadRect xt (Shape.Idx.first (numel1_S1x1.symm ▸ Nat.one_pos)))

abbrev HW5 (c : Dev nD) (xt : TbBuf0 (F := F) c tbM0_1) : Prop :=
  ∀ (kq : ℕ) (hkq : kq < k0_t3_loop.trips), k0_chk5 (tbM0_1.view.readAt (Elt F) (Rect.unit (s := S2x64) (k0_off11 ⟨kq, hkq⟩) S1x1.size (k0_off11_inb ⟨kq, hkq⟩)).toLoadRect xt (Shape.Idx.first (numel1_S1x1.symm ▸ Nat.one_pos)))

abbrev HW6 (c : Dev nD) (xt : TbBuf0 (F := F) c tbM0_1) : Prop :=
  ∀ (kq : ℕ) (hkq : kq < k0_t3_loop.trips), k0_chk6 (tbM0_1.view.readAt (Elt F) (Rect.unit (s := S2x64) (k0_off12 ⟨kq, hkq⟩) S1x1.size (k0_off12_inb ⟨kq, hkq⟩)).toLoadRect xt (Shape.Idx.first (numel1_S1x1.symm ▸ Nat.one_pos)))

abbrev HW7 (c : Dev nD) (xt : TbBuf0 (F := F) c tbM0_2) : Prop :=
  ∀ (kq : ℕ) (hkq : kq < k0_t4_loop.trips), k0_chk7 (tbM0_2.view.readAt (Elt F) (Rect.unit (s := S2x32) (k0_off16 ⟨kq, hkq⟩) S1x1.size (k0_off16_inb ⟨kq, hkq⟩)).toLoadRect xt (Shape.Idx.first (numel1_S1x1.symm ▸ Nat.one_pos)))

abbrev HW8 (c : Dev nD) (xt : TbBuf0 (F := F) c tbM0_2) : Prop :=
  ∀ (kq : ℕ) (hkq : kq < k0_t4_loop.trips), k0_chk8 (tbM0_2.view.readAt (Elt F) (Rect.unit (s := S2x32) (k0_off17 ⟨kq, hkq⟩) S1x1.size (k0_off17_inb ⟨kq, hkq⟩)).toLoadRect xt (Shape.Idx.first (numel1_S1x1.symm ▸ Nat.one_pos)))

abbrev HW9 (c : Dev nD) (xt : TbBuf0 (F := F) c tbM0_3) : Prop :=
  ∀ (kq : ℕ) (hkq : kq < k0_t5_loop.trips), k0_chk9 (tbM0_3.view.readAt (Elt F) (Rect.unit (s := S2x16) (k0_off21 ⟨kq, hkq⟩) S1x1.size (k0_off21_inb ⟨kq, hkq⟩)).toLoadRect xt (Shape.Idx.first (numel1_S1x1.symm ▸ Nat.one_pos)))

abbrev HW10 (c : Dev nD) (xt : TbBuf0 (F := F) c tbM0_3) : Prop :=
  ∀ (kq : ℕ) (hkq : kq < k0_t5_loop.trips), k0_chk10 (tbM0_3.view.readAt (Elt F) (Rect.unit (s := S2x16) (k0_off22 ⟨kq, hkq⟩) S1x1.size (k0_off22_inb ⟨kq, hkq⟩)).toLoadRect xt (Shape.Idx.first (numel1_S1x1.symm ▸ Nat.one_pos)))

abbrev HW11 (c : Dev nD) (xt : TbBuf0 (F := F) c tbM0_4) : Prop :=
  ∀ (kq : ℕ) (hkq : kq < k0_t6_loop.trips), k0_chk11 (tbM0_4.view.readAt (Elt F) (Rect.unit (s := S2x8) (k0_off26 ⟨kq, hkq⟩) S1x1.size (k0_off26_inb ⟨kq, hkq⟩)).toLoadRect xt (Shape.Idx.first (numel1_S1x1.symm ▸ Nat.one_pos)))

abbrev HW12 (c : Dev nD) (xt : TbBuf0 (F := F) c tbM0_4) : Prop :=
  ∀ (kq : ℕ) (hkq : kq < k0_t6_loop.trips), k0_chk12 (tbM0_4.view.readAt (Elt F) (Rect.unit (s := S2x8) (k0_off27 ⟨kq, hkq⟩) S1x1.size (k0_off27_inb ⟨kq, hkq⟩)).toLoadRect xt (Shape.Idx.first (numel1_S1x1.symm ▸ Nat.one_pos)))

abbrev HW13 (c : Dev nD) (xt : TbBuf0 (F := F) c tbM0_5) : Prop :=
  ∀ (kq : ℕ) (hkq : kq < k0_t7_loop.trips), k0_chk13 (tbM0_5.view.readAt (Elt F) (Rect.unit (s := S2x4) (k0_off31 ⟨kq, hkq⟩) S1x1.size (k0_off31_inb ⟨kq, hkq⟩)).toLoadRect xt (Shape.Idx.first (numel1_S1x1.symm ▸ Nat.one_pos)))

abbrev HW14 (c : Dev nD) (xt : TbBuf0 (F := F) c tbM0_5) : Prop :=
  ∀ (kq : ℕ) (hkq : kq < k0_t7_loop.trips), k0_chk14 (tbM0_5.view.readAt (Elt F) (Rect.unit (s := S2x4) (k0_off32 ⟨kq, hkq⟩) S1x1.size (k0_off32_inb ⟨kq, hkq⟩)).toLoadRect xt (Shape.Idx.first (numel1_S1x1.symm ▸ Nat.one_pos)))

abbrev HW15 (c : Dev nD) (xt : TbBuf0 (F := F) c tbM0_6) : Prop :=
  ∀ (kq : ℕ) (hkq : kq < k0_t8_loop.trips), k0_chk15 (tbM0_6.view.readAt (Elt F) (Rect.unit (s := S2x2) (k0_off36 ⟨kq, hkq⟩) S1x1.size (k0_off36_inb ⟨kq, hkq⟩)).toLoadRect xt (Shape.Idx.first (numel1_S1x1.symm ▸ Nat.one_pos)))

abbrev HW16 (c : Dev nD) (xt : TbBuf0 (F := F) c tbM0_6) : Prop :=
  ∀ (kq : ℕ) (hkq : kq < k0_t8_loop.trips), k0_chk16 (tbM0_6.view.readAt (Elt F) (Rect.unit (s := S2x2) (k0_off37 ⟨kq, hkq⟩) S1x1.size (k0_off37_inb ⟨kq, hkq⟩)).toLoadRect xt (Shape.Idx.first (numel1_S1x1.symm ▸ Nat.one_pos)))

abbrev HW17 (c : Dev nD) (xt : TbBuf0 (F := F) c tbM0_7) : Prop :=
  k0_chk17 (tbM0_7.view.readAt (Elt F) (Rect.unit (s := S2x1) k0_off41 S1x1.size k0_off41_inb).toLoadRect xt (Shape.Idx.first (numel1_S1x1.symm ▸ Nat.one_pos)))

abbrev HW18 (c : Dev nD) (xt : TbBuf0 (F := F) c tbM0_7) : Prop :=
  k0_chk18 (tbM0_7.view.readAt (Elt F) (Rect.unit (s := S2x1) k0_off42 S1x1.size k0_off42_inb).toLoadRect xt (Shape.Idx.first (numel1_S1x1.symm ▸ Nat.one_pos)))

def Hyps (c : Dev nD) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) : Prop :=
  HW1 c xt0 ∧ HW2 c xt0 ∧ HW3 c xt0 ∧ HW4 c xt0 ∧ HW5 c xt1 ∧ HW6 c xt1 ∧ HW7 c xt2 ∧ HW8 c xt2 ∧ HW9 c xt3 ∧ HW10 c xt3 ∧ HW11 c xt4 ∧ HW12 c xt4 ∧ HW13 c xt5 ∧ HW14 c xt5 ∧ HW15 c xt6 ∧ HW16 c xt6 ∧ HW17 c xt7 ∧ HW18 c xt7

section
variable {c : Dev nD} {xt0 : TbBuf0 (F := F) c tbM0_0} {xt1 : TbBuf0 (F := F) c tbM0_1} {xt2 : TbBuf0 (F := F) c tbM0_2} {xt3 : TbBuf0 (F := F) c tbM0_3} {xt4 : TbBuf0 (F := F) c tbM0_4} {xt5 : TbBuf0 (F := F) c tbM0_5} {xt6 : TbBuf0 (F := F) c tbM0_6} {xt7 : TbBuf0 (F := F) c tbM0_7}
theorem Hyps.h1 (h : Hyps c xt0 xt1 xt2 xt3 xt4 xt5 xt6 xt7) : HW1 c xt0 := by unfold Hyps at h; exact h.1
theorem Hyps.h2 (h : Hyps c xt0 xt1 xt2 xt3 xt4 xt5 xt6 xt7) : HW2 c xt0 := by unfold Hyps at h; exact h.2.1
theorem Hyps.h3 (h : Hyps c xt0 xt1 xt2 xt3 xt4 xt5 xt6 xt7) : HW3 c xt0 := by unfold Hyps at h; exact h.2.2.1
theorem Hyps.h4 (h : Hyps c xt0 xt1 xt2 xt3 xt4 xt5 xt6 xt7) : HW4 c xt0 := by unfold Hyps at h; exact h.2.2.2.1
theorem Hyps.h5 (h : Hyps c xt0 xt1 xt2 xt3 xt4 xt5 xt6 xt7) : HW5 c xt1 := by unfold Hyps at h; exact h.2.2.2.2.1
theorem Hyps.h6 (h : Hyps c xt0 xt1 xt2 xt3 xt4 xt5 xt6 xt7) : HW6 c xt1 := by unfold Hyps at h; exact h.2.2.2.2.2.1
theorem Hyps.h7 (h : Hyps c xt0 xt1 xt2 xt3 xt4 xt5 xt6 xt7) : HW7 c xt2 := by unfold Hyps at h; exact h.2.2.2.2.2.2.1
theorem Hyps.h8 (h : Hyps c xt0 xt1 xt2 xt3 xt4 xt5 xt6 xt7) : HW8 c xt2 := by unfold Hyps at h; exact h.2.2.2.2.2.2.2.1
theorem Hyps.h9 (h : Hyps c xt0 xt1 xt2 xt3 xt4 xt5 xt6 xt7) : HW9 c xt3 := by unfold Hyps at h; exact h.2.2.2.2.2.2.2.2.1
theorem Hyps.h10 (h : Hyps c xt0 xt1 xt2 xt3 xt4 xt5 xt6 xt7) : HW10 c xt3 := by unfold Hyps at h; exact h.2.2.2.2.2.2.2.2.2.1
theorem Hyps.h11 (h : Hyps c xt0 xt1 xt2 xt3 xt4 xt5 xt6 xt7) : HW11 c xt4 := by unfold Hyps at h; exact h.2.2.2.2.2.2.2.2.2.2.1
theorem Hyps.h12 (h : Hyps c xt0 xt1 xt2 xt3 xt4 xt5 xt6 xt7) : HW12 c xt4 := by unfold Hyps at h; exact h.2.2.2.2.2.2.2.2.2.2.2.1
theorem Hyps.h13 (h : Hyps c xt0 xt1 xt2 xt3 xt4 xt5 xt6 xt7) : HW13 c xt5 := by unfold Hyps at h; exact h.2.2.2.2.2.2.2.2.2.2.2.2.1
theorem Hyps.h14 (h : Hyps c xt0 xt1 xt2 xt3 xt4 xt5 xt6 xt7) : HW14 c xt5 := by unfold Hyps at h; exact h.2.2.2.2.2.2.2.2.2.2.2.2.2.1
theorem Hyps.h15 (h : Hyps c xt0 xt1 xt2 xt3 xt4 xt5 xt6 xt7) : HW15 c xt6 := by unfold Hyps at h; exact h.2.2.2.2.2.2.2.2.2.2.2.2.2.2.1
theorem Hyps.h16 (h : Hyps c xt0 xt1 xt2 xt3 xt4 xt5 xt6 xt7) : HW16 c xt6 := by unfold Hyps at h; exact h.2.2.2.2.2.2.2.2.2.2.2.2.2.2.2.1
theorem Hyps.h17 (h : Hyps c xt0 xt1 xt2 xt3 xt4 xt5 xt6 xt7) : HW17 c xt7 := by unfold Hyps at h; exact h.2.2.2.2.2.2.2.2.2.2.2.2.2.2.2.2.1
theorem Hyps.h18 (h : Hyps c xt0 xt1 xt2 xt3 xt4 xt5 xt6 xt7) : HW18 c xt7 := by unfold Hyps at h; exact h.2.2.2.2.2.2.2.2.2.2.2.2.2.2.2.2.2
end

end Cert.KernelIdeal.Hand

end
-- ==== Proof.KI.LoopsH.lean ====
import proofs.«411912_j30219389895125_3_alg».proof.Proof.KI.Assumed
import Idealize.ShloMosaic.Lib.Exec
import Idealize.ShloMosaic.Lib.Pipeline.Kit

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)

abbrev TripH_k0_t1 (c : Dev nD) (X_tb : TbBuf0 (F := F) c tbM0_0) (X_src : BufTy.Contents (Elt F) scM0.view.ty) (f_dst : BufTy.Contents (Elt F) scM1.view.ty) : sProp 𝕄 :=
  iprop(tbPt0 c tbM0_0 X_tb ∗ (scM0.view.loc (c : Thread nD τ) ↦[scM0.view.set]{fullShare} X_src) ∗ (scM1.view.loc (c : Thread nD τ) ↦[scM1.view.set]{fullShare} f_dst))

def tripPcH_k0_t1 (c : Dev nD) (X_tb : TbBuf0 (F := F) c tbM0_0) (X_src : BufTy.Contents (Elt F) scM0.view.ty) (k : Fin k0_t1_loop.trips) (k0_hw1 : k0_chk1 (tbM0_0.view.readAt (Elt F) (Rect.unit (s := S2x128) (k0_off1 k) S1x1.size (k0_off1_inb k)).toLoadRect X_tb (Shape.Idx.first (numel1_S1x1.symm ▸ Nat.one_pos)))) (k0_hw2 : k0_chk2 (tbM0_0.view.readAt (Elt F) (Rect.unit (s := S2x128) (k0_off2 k) S1x1.size (k0_off2_inb k)).toLoadRect X_tb (Shape.Idx.first (numel1_S1x1.symm ▸ Nat.one_pos)))) : List (View.Piece (Elt F) S128x64x128 .f32) :=
  [⟨Rect.unit (s := S128x64x128) (k0_off5 k) S1x64x128.size (k0_off5_inb k),
    k0_pay14 (scM0.view.readAt (Elt F) (Rect.unit (s := S256x64x128) (k0_off3 (tbM0_0.view.readAt (Elt F) (Rect.unit (s := S2x128) (k0_off1 k) S1x1.size (k0_off1_inb k)).toLoadRect X_tb (Shape.Idx.first (numel1_S1x1.symm ▸ Nat.one_pos)))) S1x64x128.size (k0_off3_inb (tbM0_0.view.readAt (Elt F) (Rect.unit (s := S2x128) (k0_off1 k) S1x1.size (k0_off1_inb k)).toLoadRect X_tb (Shape.Idx.first (numel1_S1x1.symm ▸ Nat.one_pos))) k0_hw1)).toLoadRect X_src)
      (scM0.view.readAt (Elt F) (Rect.unit (s := S256x64x128) (k0_off4 (tbM0_0.view.readAt (Elt F) (Rect.unit (s := S2x128) (k0_off2 k) S1x1.size (k0_off2_inb k)).toLoadRect X_tb (Shape.Idx.first (numel1_S1x1.symm ▸ Nat.one_pos)))) S1x64x128.size (k0_off4_inb (tbM0_0.view.readAt (Elt F) (Rect.unit (s := S2x128) (k0_off2 k) S1x1.size (k0_off2_inb k)).toLoadRect X_tb (Shape.Idx.first (numel1_S1x1.symm ▸ Nat.one_pos))) k0_hw2)).toLoadRect X_src)⟩]

-- One trip reads the pair's two table words and the two source rows they name, and writes their combination into row k.
theorem tripH_k0_t1 (v185 : Vec F S32x64 .f32) (v199 : FVec F S32x64x128 .f32) (X_tb : TbBuf0 (F := F) c tbM0_0) (X_src : BufTy.Contents (Elt F) scM0.view.ty) (k : Fin k0_t1_loop.trips) (k0_hw1 : k0_chk1 (tbM0_0.view.readAt (Elt F) (Rect.unit (s := S2x128) (k0_off1 k) S1x1.size (k0_off1_inb k)).toLoadRect X_tb (Shape.Idx.first (numel1_S1x1.symm ▸ Nat.one_pos)))) (k0_hw2 : k0_chk2 (tbM0_0.view.readAt (Elt F) (Rect.unit (s := S2x128) (k0_off2 k) S1x1.size (k0_off2_inb k)).toLoadRect X_tb (Shape.Idx.first (numel1_S1x1.symm ▸ Nat.one_pos)))) (f_dst : BufTy.Contents (Elt F) scM1.view.ty) :
    TripH_k0_t1 (F := F) c X_tb X_src f_dst
      ⊢ wp frame (wpE (defs₀ (F := F)) 𝒱 (c : Thread nD τ) bd) E ((k0_t1_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199) k PUnit.unit)
          (fun _ => TripH_k0_t1 (F := F) c X_tb X_src (scM1.view.writes (Elt F) f_dst (tripPcH_k0_t1 (F := F) c X_tb X_src k k0_hw1 k0_hw2))) := by
  have hk : k.val < 64 := Nat.lt_of_lt_of_le k.isLt k0_t1_abs.2.1
  unfold k0_t1_body
  iintro ⟨HR_tb, HR_src, HW_dst⟩
  sl_exec (disch := first | sl_exact k0_hw1 | sl_exact k0_hw2)
  sl_step
  isplitl [HR_tb]; · iexact HR_tb
  isplitl [HR_src]; · iexact HR_src
  iexact HW_dst

def pbH_k0_t1 (c : Dev nD) (X_tb : TbBuf0 (F := F) c tbM0_0) (X_src : BufTy.Contents (Elt F) scM0.view.ty) (k0_hw1L : HW1 c X_tb) (k0_hw2L : HW2 c X_tb) : ℕ → List (View.Piece (Elt F) S128x64x128 .f32)
  | 0 => []
  | k + 1 =>
    if h : k < k0_t1_loop.trips then
      tripPcH_k0_t1 (F := F) c X_tb X_src ⟨k, h⟩ (k0_hw1L k h) (k0_hw2L k h) ++ pbH_k0_t1 c X_tb X_src k0_hw1L k0_hw2L k
    else pbH_k0_t1 c X_tb X_src k0_hw1L k0_hw2L k

theorem pbH_k0_t1_succ (c : Dev nD) (X_tb : TbBuf0 (F := F) c tbM0_0) (X_src : BufTy.Contents (Elt F) scM0.view.ty) (k0_hw1L : HW1 c X_tb) (k0_hw2L : HW2 c X_tb) (k : Fin k0_t1_loop.trips) :
    pbH_k0_t1 (F := F) c X_tb X_src k0_hw1L k0_hw2L (k.val + 1)
      = tripPcH_k0_t1 (F := F) c X_tb X_src k (k0_hw1L k.val k.isLt) (k0_hw2L k.val k.isLt) ++ pbH_k0_t1 (F := F) c X_tb X_src k0_hw1L k0_hw2L k.val := by
  rw [pbH_k0_t1.eq_2]; exact dif_pos k.isLt

abbrev invH_k0_t1 (c : Dev nD) (X_tb : TbBuf0 (F := F) c tbM0_0) (X_src : BufTy.Contents (Elt F) scM0.view.ty) (G_dst : BufTy.Contents (Elt F) scM1.view.ty) (k0_hw1L : HW1 c X_tb) (k0_hw2L : HW2 c X_tb) (k : ℕ) (_u : PUnit) : sProp 𝕄 :=
  iprop(tbPt0 c tbM0_0 X_tb ∗ (scM0.view.loc (c : Thread nD τ) ↦[scM0.view.set]{fullShare} X_src) ∗ (∃ f, (scM1.view.loc (c : Thread nD τ) ↦[scM1.view.set]{fullShare} f) ∗ ⌜f = scM1.view.writes (Elt F) G_dst (pbH_k0_t1 (F := F) c X_tb X_src k0_hw1L k0_hw2L k)⌝))

-- Invariant: the destination holds the pieces of the trips so far over its contents at entry; a trip appends its own piece.
set_option warn.classDefReducibility false in
@[sl_loop] def loopInvH_k0_t1 (v185 : Vec F S32x64 .f32) (v199 : FVec F S32x64x128 .f32) (X_tb : TbBuf0 (F := F) c tbM0_0) (X_src : BufTy.Contents (Elt F) scM0.view.ty) (G_dst : BufTy.Contents (Elt F) scM1.view.ty) (k0_hw1L : HW1 c X_tb) (k0_hw2L : HW2 c X_tb) :
    LoopInvTy_k0_t1 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199 where
  inv := invH_k0_t1 (F := F) c X_tb X_src G_dst k0_hw1L k0_hw2L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t1 (F := F) 𝒱 c bd E i arg9 harg9 arg10 harg10 arg11 harg11 arg12 harg12 arg13 harg13 arg14 harg14 arg15 harg15 arg16 harg16 arg17 harg17 arg18 harg18 arg19 harg19 arg20 harg20 v185 v199 X_tb X_src k (k0_hw1L k.val k.isLt) (k0_hw2L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t1_succ]
      iexists _; isplitl [HW_dst]; · iexact HW_dst
      ipureintro; rw [h_dst, ← View.writes_append]

abbrev TripH_k0_t2 (c : Dev nD) (X_tb : TbBuf0 (F := F) c tbM0_0) (X_src : BufTy.Contents (Elt F) scM0.view.ty) (f_dst : BufTy.Contents (Elt F) scM1.view.ty) : sProp 𝕄 :=
  iprop(tbPt0 c tbM0_0 X_tb ∗ (scM0.view.loc (c : Thread nD τ) ↦[scM0.view.set]{fullShare} X_src) ∗ (scM1.view.loc (c : Thread nD τ) ↦[scM1.view.set]{fullShare} f_dst))

def tripPcH_k0_t2 (c : Dev nD) (X_tb : TbBuf0 (F := F) c tbM0_0) (X_src : BufTy.Contents (Elt F) scM0.view.ty) (k : Fin k0_t2_loop.trips) (k0_hw3 : k0_chk3 (tbM0_0.view.readAt (Elt F) (Rect.unit (s := S2x128) (k0_off6 k) S1x1.size (k0_off6_inb k)).toLoadRect X_tb (Shape.Idx.first (numel1_S1x1.symm ▸ Nat.one_pos)))) (k0_hw4 : k0_chk4 (tbM0_0.view.readAt (Elt F) (Rect.unit (s := S2x128) (k0_off7 k) S1x1.size (k0_off7_inb k)).toLoadRect X_tb (Shape.Idx.first (numel1_S1x1.symm ▸ Nat.one_pos)))) : List (View.Piece (Elt F) S128x64x128 .f32) :=
  [⟨Rect.unit (s := S128x64x128) (k0_off10 k) S1x64x128.size (k0_off10_inb k),
    k0_pay16 (scM0.view.readAt (Elt F) (Rect.unit (s := S256x64x128) (k0_off8 (tbM0_0.view.readAt (Elt F) (Rect.unit (s := S2x128) (k0_off6 k) S1x1.size (k0_off6_inb k)).toLoadRect X_tb (Shape.Idx.first (numel1_S1x1.symm ▸ Nat.one_pos)))) S1x64x128.size (k0_off8_inb (tbM0_0.view.readAt (Elt F) (Rect.unit (s := S2x128) (k0_off6 k) S1x1.size (k0_off6_inb k)).toLoadRect X_tb (Shape.Idx.first (numel1_S1x1.symm ▸ Nat.one_pos))) k0_hw3)).toLoadRect X_src)
      (scM0.view.readAt (Elt F) (Rect.unit (s := S256x64x128) (k0_off9 (tbM0_0.view.readAt (Elt F) (Rect.unit (s := S2x128) (k0_off7 k) S1x1.size (k0_off7_inb k)).toLoadRect X_tb (Shape.Idx.first (numel1_S1x1.symm ▸ Nat.one_pos)))) S1x64x128.size (k0_off9_inb (tbM0_0.view.readAt (Elt F) (Rect.unit (s := S2x128) (k0_off7 k) S1x1.size (k0_off7_inb k)).toLoadRect X_tb (Shape.Idx.first (numel1_S1x1.symm ▸ Nat.one_pos))) k0_hw4)).toLoadRect X_src)⟩]

theorem tripH_k0_t2 (v185 : Vec F S32x64 .f32) (v199 : FVec F S32x64x128 .f32) (X_tb : TbBuf0 (F := F) c tbM0_0) (X_src : BufTy.Contents (Elt F) scM0.view.ty) (k : Fin k0_t2_loop.trips) (k0_hw3 : k0_chk3 (tbM0_0.view.readAt (Elt F) (Rect.unit (s := S2x128) (k0_off6 k) S1x1.size (k0_off6_inb k)).toLoadRect X_tb (Shape.Idx.first (numel1_S1x1.symm ▸ Nat.one_pos)))) (k0_hw4 : k0_chk4 (tbM0_0.view.readAt (Elt F) (Rect.unit (s := S2x128) (k0_off7 k) S1x1.size (k0_off7_inb k)).toLoadRect X_tb (Shape.Idx.first (numel1_S1x1.symm ▸ Nat.one_pos)))) (f_dst : BufTy.Contents (Elt F) scM1.view.ty) :
    TripH_k0_t2 (F := F) c X_tb X_src f_dst
      ⊢ wp frame (wpE (defs₀ (F := F)) 𝒱 (c : Thread nD τ) bd) E ((k0_t2_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199) k PUnit.unit)
          (fun _ => TripH_k0_t2 (F := F) c X_tb X_src (scM1.view.writes (Elt F) f_dst (tripPcH_k0_t2 (F := F) c X_tb X_src k k0_hw3 k0_hw4))) := by
  have hk : k.val < 64 := Nat.lt_of_lt_of_le k.isLt k0_t2_abs.2.1
  unfold k0_t2_body
  iintro ⟨HR_tb, HR_src, HW_dst⟩
  sl_exec (disch := first | sl_exact k0_hw3 | sl_exact k0_hw4)
  sl_step
  isplitl [HR_tb]; · iexact HR_tb
  isplitl [HR_src]; · iexact HR_src
  iexact HW_dst

def pbH_k0_t2 (c : Dev nD) (X_tb : TbBuf0 (F := F) c tbM0_0) (X_src : BufTy.Contents (Elt F) scM0.view.ty) (k0_hw3L : HW3 c X_tb) (k0_hw4L : HW4 c X_tb) : ℕ → List (View.Piece (Elt F) S128x64x128 .f32)
  | 0 => []
  | k + 1 =>
    if h : k < k0_t2_loop.trips then
      tripPcH_k0_t2 (F := F) c X_tb X_src ⟨k, h⟩ (k0_hw3L k h) (k0_hw4L k h) ++ pbH_k0_t2 c X_tb X_src k0_hw3L k0_hw4L k
    else pbH_k0_t2 c X_tb X_src k0_hw3L k0_hw4L k

theorem pbH_k0_t2_succ (c : Dev nD) (X_tb : TbBuf0 (F := F) c tbM0_0) (X_src : BufTy.Contents (Elt F) scM0.view.ty) (k0_hw3L : HW3 c X_tb) (k0_hw4L : HW4 c X_tb) (k : Fin k0_t2_loop.trips) :
    pbH_k0_t2 (F := F) c X_tb X_src k0_hw3L k0_hw4L (k.val + 1)
      = tripPcH_k0_t2 (F := F) c X_tb X_src k (k0_hw3L k.val k.isLt) (k0_hw4L k.val k.isLt) ++ pbH_k0_t2 (F := F) c X_tb X_src k0_hw3L k0_hw4L k.val := by
  rw [pbH_k0_t2.eq_2]; exact dif_pos k.isLt

abbrev invH_k0_t2 (c : Dev nD) (X_tb : TbBuf0 (F := F) c tbM0_0) (X_src : BufTy.Contents (Elt F) scM0.view.ty) (G_dst : BufTy.Contents (Elt F) scM1.view.ty) (k0_hw3L : HW3 c X_tb) (k0_hw4L : HW4 c X_tb) (k : ℕ) (_u : PUnit) : sProp 𝕄 :=
  iprop(tbPt0 c tbM0_0 X_tb ∗ (scM0.view.loc (c : Thread nD τ) ↦[scM0.view.set]{fullShare} X_src) ∗ (∃ f, (scM1.view.loc (c : Thread nD τ) ↦[scM1.view.set]{fullShare} f) ∗ ⌜f = scM1.view.writes (Elt F) G_dst (pbH_k0_t2 (F := F) c X_tb X_src k0_hw3L k0_hw4L k)⌝))

set_option warn.classDefReducibility false in
@[sl_loop] def loopInvH_k0_t2 (v185 : Vec F S32x64 .f32) (v199 : FVec F S32x64x128 .f32) (X_tb : TbBuf0 (F := F) c tbM0_0) (X_src : BufTy.Contents (Elt F) scM0.view.ty) (G_dst : BufTy.Contents (Elt F) scM1.view.ty) (k0_hw3L : HW3 c X_tb) (k0_hw4L : HW4 c X_tb) :
    LoopInvTy_k0_t2 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199 where
  inv := invH_k0_t2 (F := F) c X_tb X_src G_dst k0_hw3L k0_hw4L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t2 (F := F) 𝒱 c bd E i arg9 harg9 arg10 harg10 arg11 harg11 arg12 harg12 arg13 harg13 arg14 harg14 arg15 harg15 arg16 harg16 arg17 harg17 arg18 harg18 arg19 harg19 arg20 harg20 v185 v199 X_tb X_src k (k0_hw3L k.val k.isLt) (k0_hw4L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t2_succ]
      iexists _; isplitl [HW_dst]; · iexact HW_dst
      ipureintro; rw [h_dst, ← View.writes_append]

abbrev TripH_k0_t3 (c : Dev nD) (X_tb : TbBuf0 (F := F) c tbM0_1) (X_src : BufTy.Contents (Elt F) scM1.view.ty) (f_dst : BufTy.Contents (Elt F) scM2.view.ty) : sProp 𝕄 :=
  iprop(tbPt0 c tbM0_1 X_tb ∗ (scM1.view.loc (c : Thread nD τ) ↦[scM1.view.set]{fullShare} X_src) ∗ (scM2.view.loc (c : Thread nD τ) ↦[scM2.view.set]{fullShare} f_dst))

def tripPcH_k0_t3 (c : Dev nD) (X_tb : TbBuf0 (F := F) c tbM0_1) (X_src : BufTy.Contents (Elt F) scM1.view.ty) (k : Fin k0_t3_loop.trips) (k0_hw5 : k0_chk5 (tbM0_1.view.readAt (Elt F) (Rect.unit (s := S2x64) (k0_off11 k) S1x1.size (k0_off11_inb k)).toLoadRect X_tb (Shape.Idx.first (numel1_S1x1.symm ▸ Nat.one_pos)))) (k0_hw6 : k0_chk6 (tbM0_1.view.readAt (Elt F) (Rect.unit (s := S2x64) (k0_off12 k) S1x1.size (k0_off12_inb k)).toLoadRect X_tb (Shape.Idx.first (numel1_S1x1.symm ▸ Nat.one_pos)))) : List (View.Piece (Elt F) S64x64x128 .f32) :=
  [⟨Rect.unit (s := S64x64x128) (k0_off15 k) S1x64x128.size (k0_off15_inb k),
    k0_pay20 (scM1.view.readAt (Elt F) (Rect.unit (s := S128x64x128) (k0_off13 (tbM0_1.view.readAt (Elt F) (Rect.unit (s := S2x64) (k0_off11 k) S1x1.size (k0_off11_inb k)).toLoadRect X_tb (Shape.Idx.first (numel1_S1x1.symm ▸ Nat.one_pos)))) S1x64x128.size (k0_off13_inb (tbM0_1.view.readAt (Elt F) (Rect.unit (s := S2x64) (k0_off11 k) S1x1.size (k0_off11_inb k)).toLoadRect X_tb (Shape.Idx.first (numel1_S1x1.symm ▸ Nat.one_pos))) k0_hw5)).toLoadRect X_src)
      (scM1.view.readAt (Elt F) (Rect.unit (s := S128x64x128) (k0_off14 (tbM0_1.view.readAt (Elt F) (Rect.unit (s := S2x64) (k0_off12 k) S1x1.size (k0_off12_inb k)).toLoadRect X_tb (Shape.Idx.first (numel1_S1x1.symm ▸ Nat.one_pos)))) S1x64x128.size (k0_off14_inb (tbM0_1.view.readAt (Elt F) (Rect.unit (s := S2x64) (k0_off12 k) S1x1.size (k0_off12_inb k)).toLoadRect X_tb (Shape.Idx.first (numel1_S1x1.symm ▸ Nat.one_pos))) k0_hw6)).toLoadRect X_src)⟩]

theorem tripH_k0_t3 (v225 : Vec F S64x64x128 .f32) (v227 : FVec F S64x1x128 .f32) (v228 : FVec F S64x64x128 .f32) (X_tb : TbBuf0 (F := F) c tbM0_1) (X_src : BufTy.Contents (Elt F) scM1.view.ty) (k : Fin k0_t3_loop.trips) (k0_hw5 : k0_chk5 (tbM0_1.view.readAt (Elt F) (Rect.unit (s := S2x64) (k0_off11 k) S1x1.size (k0_off11_inb k)).toLoadRect X_tb (Shape.Idx.first (numel1_S1x1.symm ▸ Nat.one_pos)))) (k0_hw6 : k0_chk6 (tbM0_1.view.readAt (Elt F) (Rect.unit (s := S2x64) (k0_off12 k) S1x1.size (k0_off12_inb k)).toLoadRect X_tb (Shape.Idx.first (numel1_S1x1.symm ▸ Nat.one_pos)))) (f_dst : BufTy.Contents (Elt F) scM2.view.ty) :
    TripH_k0_t3 (F := F) c X_tb X_src f_dst
      ⊢ wp frame (wpE (defs₀ (F := F)) 𝒱 (c : Thread nD τ) bd) E ((k0_t3_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228) k PUnit.unit)
          (fun _ => TripH_k0_t3 (F := F) c X_tb X_src (scM2.view.writes (Elt F) f_dst (tripPcH_k0_t3 (F := F) c X_tb X_src k k0_hw5 k0_hw6))) := by
  have hk : k.val < 64 := Nat.lt_of_lt_of_le k.isLt k0_t3_abs.2.1
  unfold k0_t3_body
  iintro ⟨HR_tb, HR_src, HW_dst⟩
  sl_exec (disch := first | sl_exact k0_hw5 | sl_exact k0_hw6)
  sl_step
  isplitl [HR_tb]; · iexact HR_tb
  isplitl [HR_src]; · iexact HR_src
  iexact HW_dst

def pbH_k0_t3 (c : Dev nD) (X_tb : TbBuf0 (F := F) c tbM0_1) (X_src : BufTy.Contents (Elt F) scM1.view.ty) (k0_hw5L : HW5 c X_tb) (k0_hw6L : HW6 c X_tb) : ℕ → List (View.Piece (Elt F) S64x64x128 .f32)
  | 0 => []
  | k + 1 =>
    if h : k < k0_t3_loop.trips then
      tripPcH_k0_t3 (F := F) c X_tb X_src ⟨k, h⟩ (k0_hw5L k h) (k0_hw6L k h) ++ pbH_k0_t3 c X_tb X_src k0_hw5L k0_hw6L k
    else pbH_k0_t3 c X_tb X_src k0_hw5L k0_hw6L k

theorem pbH_k0_t3_succ (c : Dev nD) (X_tb : TbBuf0 (F := F) c tbM0_1) (X_src : BufTy.Contents (Elt F) scM1.view.ty) (k0_hw5L : HW5 c X_tb) (k0_hw6L : HW6 c X_tb) (k : Fin k0_t3_loop.trips) :
    pbH_k0_t3 (F := F) c X_tb X_src k0_hw5L k0_hw6L (k.val + 1)
      = tripPcH_k0_t3 (F := F) c X_tb X_src k (k0_hw5L k.val k.isLt) (k0_hw6L k.val k.isLt) ++ pbH_k0_t3 (F := F) c X_tb X_src k0_hw5L k0_hw6L k.val := by
  rw [pbH_k0_t3.eq_2]; exact dif_pos k.isLt

abbrev invH_k0_t3 (c : Dev nD) (X_tb : TbBuf0 (F := F) c tbM0_1) (X_src : BufTy.Contents (Elt F) scM1.view.ty) (G_dst : BufTy.Contents (Elt F) scM2.view.ty) (k0_hw5L : HW5 c X_tb) (k0_hw6L : HW6 c X_tb) (k : ℕ) (_u : PUnit) : sProp 𝕄 :=
  iprop(tbPt0 c tbM0_1 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t3 (F := F) c X_tb X_src k0_hw5L k0_hw6L k)⌝))

set_option warn.classDefReducibility false in
@[sl_loop] def loopInvH_k0_t3 (v225 : Vec F S64x64x128 .f32) (v227 : FVec F S64x1x128 .f32) (v228 : FVec F S64x64x128 .f32) (X_tb : TbBuf0 (F := F) c tbM0_1) (X_src : BufTy.Contents (Elt F) scM1.view.ty) (G_dst : BufTy.Contents (Elt F) scM2.view.ty) (k0_hw5L : HW5 c X_tb) (k0_hw6L : HW6 c X_tb) :
    LoopInvTy_k0_t3 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228 where
  inv := invH_k0_t3 (F := F) c X_tb X_src G_dst k0_hw5L k0_hw6L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t3 (F := F) 𝒱 c bd E i arg9 harg9 arg10 harg10 arg11 harg11 arg12 harg12 arg13 harg13 arg14 harg14 arg15 harg15 arg16 harg16 arg17 harg17 arg18 harg18 arg19 harg19 arg20 harg20 v225 v227 v228 X_tb X_src k (k0_hw5L k.val k.isLt) (k0_hw6L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t3_succ]
      iexists _; isplitl [HW_dst]; · iexact HW_dst
      ipureintro; rw [h_dst, ← View.writes_append]

abbrev TripH_k0_t4 (c : Dev nD) (X_tb : TbBuf0 (F := F) c tbM0_2) (X_src : BufTy.Contents (Elt F) scM2.view.ty) (f_dst : BufTy.Contents (Elt F) scM1.view.ty) : sProp 𝕄 :=
  iprop(tbPt0 c tbM0_2 X_tb ∗ (scM2.view.loc (c : Thread nD τ) ↦[scM2.view.set]{fullShare} X_src) ∗ (scM1.view.loc (c : Thread nD τ) ↦[scM1.view.set]{fullShare} f_dst))

def tripPcH_k0_t4 (c : Dev nD) (X_tb : TbBuf0 (F := F) c tbM0_2) (X_src : BufTy.Contents (Elt F) scM2.view.ty) (k : Fin k0_t4_loop.trips) (k0_hw7 : k0_chk7 (tbM0_2.view.readAt (Elt F) (Rect.unit (s := S2x32) (k0_off16 k) S1x1.size (k0_off16_inb k)).toLoadRect X_tb (Shape.Idx.first (numel1_S1x1.symm ▸ Nat.one_pos)))) (k0_hw8 : k0_chk8 (tbM0_2.view.readAt (Elt F) (Rect.unit (s := S2x32) (k0_off17 k) S1x1.size (k0_off17_inb k)).toLoadRect X_tb (Shape.Idx.first (numel1_S1x1.symm ▸ Nat.one_pos)))) : List (View.Piece (Elt F) S128x64x128 .f32) :=
  [⟨Rect.unit (s := S128x64x128) (k0_off20 k) S1x64x128.size (k0_off20_inb k),
    k0_pay22 (scM2.view.readAt (Elt F) (Rect.unit (s := S64x64x128) (k0_off18 (tbM0_2.view.readAt (Elt F) (Rect.unit (s := S2x32) (k0_off16 k) S1x1.size (k0_off16_inb k)).toLoadRect X_tb (Shape.Idx.first (numel1_S1x1.symm ▸ Nat.one_pos)))) S1x64x128.size (k0_off18_inb (tbM0_2.view.readAt (Elt F) (Rect.unit (s := S2x32) (k0_off16 k) S1x1.size (k0_off16_inb k)).toLoadRect X_tb (Shape.Idx.first (numel1_S1x1.symm ▸ Nat.one_pos))) k0_hw7)).toLoadRect X_src)
      (scM2.view.readAt (Elt F) (Rect.unit (s := S64x64x128) (k0_off19 (tbM0_2.view.readAt (Elt F) (Rect.unit (s := S2x32) (k0_off17 k) S1x1.size (k0_off17_inb k)).toLoadRect X_tb (Shape.Idx.first (numel1_S1x1.symm ▸ Nat.one_pos)))) S1x64x128.size (k0_off19_inb (tbM0_2.view.readAt (Elt F) (Rect.unit (s := S2x32) (k0_off17 k) S1x1.size (k0_off17_inb k)).toLoadRect X_tb (Shape.Idx.first (numel1_S1x1.symm ▸ Nat.one_pos))) k0_hw8)).toLoadRect X_src)⟩]

theorem tripH_k0_t4 (v225 : Vec F S64x64x128 .f32) (v227 : FVec F S64x1x128 .f32) (v228 : FVec F S64x64x128 .f32) (X_tb : TbBuf0 (F := F) c tbM0_2) (X_src : BufTy.Contents (Elt F) scM2.view.ty) (k : Fin k0_t4_loop.trips) (k0_hw7 : k0_chk7 (tbM0_2.view.readAt (Elt F) (Rect.unit (s := S2x32) (k0_off16 k) S1x1.size (k0_off16_inb k)).toLoadRect X_tb (Shape.Idx.first (numel1_S1x1.symm ▸ Nat.one_pos)))) (k0_hw8 : k0_chk8 (tbM0_2.view.readAt (Elt F) (Rect.unit (s := S2x32) (k0_off17 k) S1x1.size (k0_off17_inb k)).toLoadRect X_tb (Shape.Idx.first (numel1_S1x1.symm ▸ Nat.one_pos)))) (f_dst : BufTy.Contents (Elt F) scM1.view.ty) :
    TripH_k0_t4 (F := F) c X_tb X_src f_dst
      ⊢ wp frame (wpE (defs₀ (F := F)) 𝒱 (c : Thread nD τ) bd) E ((k0_t4_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228) k PUnit.unit)
          (fun _ => TripH_k0_t4 (F := F) c X_tb X_src (scM1.view.writes (Elt F) f_dst (tripPcH_k0_t4 (F := F) c X_tb X_src k k0_hw7 k0_hw8))) := by
  have hk : k.val < 32 := Nat.lt_of_lt_of_le k.isLt k0_t4_abs.2.1
  unfold k0_t4_body
  iintro ⟨HR_tb, HR_src, HW_dst⟩
  sl_exec (disch := first | sl_exact k0_hw7 | sl_exact k0_hw8)
  sl_step
  isplitl [HR_tb]; · iexact HR_tb
  isplitl [HR_src]; · iexact HR_src
  iexact HW_dst

def pbH_k0_t4 (c : Dev nD) (X_tb : TbBuf0 (F := F) c tbM0_2) (X_src : BufTy.Contents (Elt F) scM2.view.ty) (k0_hw7L : HW7 c X_tb) (k0_hw8L : HW8 c X_tb) : ℕ → List (View.Piece (Elt F) S128x64x128 .f32)
  | 0 => []
  | k + 1 =>
    if h : k < k0_t4_loop.trips then
      tripPcH_k0_t4 (F := F) c X_tb X_src ⟨k, h⟩ (k0_hw7L k h) (k0_hw8L k h) ++ pbH_k0_t4 c X_tb X_src k0_hw7L k0_hw8L k
    else pbH_k0_t4 c X_tb X_src k0_hw7L k0_hw8L k

theorem pbH_k0_t4_succ (c : Dev nD) (X_tb : TbBuf0 (F := F) c tbM0_2) (X_src : BufTy.Contents (Elt F) scM2.view.ty) (k0_hw7L : HW7 c X_tb) (k0_hw8L : HW8 c X_tb) (k : Fin k0_t4_loop.trips) :
    pbH_k0_t4 (F := F) c X_tb X_src k0_hw7L k0_hw8L (k.val + 1)
      = tripPcH_k0_t4 (F := F) c X_tb X_src k (k0_hw7L k.val k.isLt) (k0_hw8L k.val k.isLt) ++ pbH_k0_t4 (F := F) c X_tb X_src k0_hw7L k0_hw8L k.val := by
  rw [pbH_k0_t4.eq_2]; exact dif_pos k.isLt

abbrev invH_k0_t4 (c : Dev nD) (X_tb : TbBuf0 (F := F) c tbM0_2) (X_src : BufTy.Contents (Elt F) scM2.view.ty) (G_dst : BufTy.Contents (Elt F) scM1.view.ty) (k0_hw7L : HW7 c X_tb) (k0_hw8L : HW8 c X_tb) (k : ℕ) (_u : PUnit) : sProp 𝕄 :=
  iprop(tbPt0 c tbM0_2 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t4 (F := F) c X_tb X_src k0_hw7L k0_hw8L k)⌝))

set_option warn.classDefReducibility false in
@[sl_loop] def loopInvH_k0_t4 (v225 : Vec F S64x64x128 .f32) (v227 : FVec F S64x1x128 .f32) (v228 : FVec F S64x64x128 .f32) (X_tb : TbBuf0 (F := F) c tbM0_2) (X_src : BufTy.Contents (Elt F) scM2.view.ty) (G_dst : BufTy.Contents (Elt F) scM1.view.ty) (k0_hw7L : HW7 c X_tb) (k0_hw8L : HW8 c X_tb) :
    LoopInvTy_k0_t4 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228 where
  inv := invH_k0_t4 (F := F) c X_tb X_src G_dst k0_hw7L k0_hw8L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t4 (F := F) 𝒱 c bd E i arg9 harg9 arg10 harg10 arg11 harg11 arg12 harg12 arg13 harg13 arg14 harg14 arg15 harg15 arg16 harg16 arg17 harg17 arg18 harg18 arg19 harg19 arg20 harg20 v225 v227 v228 X_tb X_src k (k0_hw7L k.val k.isLt) (k0_hw8L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t4_succ]
      iexists _; isplitl [HW_dst]; · iexact HW_dst
      ipureintro; rw [h_dst, ← View.writes_append]

abbrev TripH_k0_t5 (c : Dev nD) (X_tb : TbBuf0 (F := F) c tbM0_3) (X_src : BufTy.Contents (Elt F) scM1.view.ty) (f_dst : BufTy.Contents (Elt F) scM2.view.ty) : sProp 𝕄 :=
  iprop(tbPt0 c tbM0_3 X_tb ∗ (scM1.view.loc (c : Thread nD τ) ↦[scM1.view.set]{fullShare} X_src) ∗ (scM2.view.loc (c : Thread nD τ) ↦[scM2.view.set]{fullShare} f_dst))

def tripPcH_k0_t5 (c : Dev nD) (X_tb : TbBuf0 (F := F) c tbM0_3) (X_src : BufTy.Contents (Elt F) scM1.view.ty) (k : Fin k0_t5_loop.trips) (k0_hw9 : k0_chk9 (tbM0_3.view.readAt (Elt F) (Rect.unit (s := S2x16) (k0_off21 k) S1x1.size (k0_off21_inb k)).toLoadRect X_tb (Shape.Idx.first (numel1_S1x1.symm ▸ Nat.one_pos)))) (k0_hw10 : k0_chk10 (tbM0_3.view.readAt (Elt F) (Rect.unit (s := S2x16) (k0_off22 k) S1x1.size (k0_off22_inb k)).toLoadRect X_tb (Shape.Idx.first (numel1_S1x1.symm ▸ Nat.one_pos)))) : List (View.Piece (Elt F) S64x64x128 .f32) :=
  [⟨Rect.unit (s := S64x64x128) (k0_off25 k) S1x64x128.size (k0_off25_inb k),
    k0_pay24 (scM1.view.readAt (Elt F) (Rect.unit (s := S128x64x128) (k0_off23 (tbM0_3.view.readAt (Elt F) (Rect.unit (s := S2x16) (k0_off21 k) S1x1.size (k0_off21_inb k)).toLoadRect X_tb (Shape.Idx.first (numel1_S1x1.symm ▸ Nat.one_pos)))) S1x64x128.size (k0_off23_inb (tbM0_3.view.readAt (Elt F) (Rect.unit (s := S2x16) (k0_off21 k) S1x1.size (k0_off21_inb k)).toLoadRect X_tb (Shape.Idx.first (numel1_S1x1.symm ▸ Nat.one_pos))) k0_hw9)).toLoadRect X_src)
      (scM1.view.readAt (Elt F) (Rect.unit (s := S128x64x128) (k0_off24 (tbM0_3.view.readAt (Elt F) (Rect.unit (s := S2x16) (k0_off22 k) S1x1.size (k0_off22_inb k)).toLoadRect X_tb (Shape.Idx.first (numel1_S1x1.symm ▸ Nat.one_pos)))) S1x64x128.size (k0_off24_inb (tbM0_3.view.readAt (Elt F) (Rect.unit (s := S2x16) (k0_off22 k) S1x1.size (k0_off22_inb k)).toLoadRect X_tb (Shape.Idx.first (numel1_S1x1.symm ▸ Nat.one_pos))) k0_hw10)).toLoadRect X_src)⟩]

theorem tripH_k0_t5 (X_tb : TbBuf0 (F := F) c tbM0_3) (X_src : BufTy.Contents (Elt F) scM1.view.ty) (k : Fin k0_t5_loop.trips) (k0_hw9 : k0_chk9 (tbM0_3.view.readAt (Elt F) (Rect.unit (s := S2x16) (k0_off21 k) S1x1.size (k0_off21_inb k)).toLoadRect X_tb (Shape.Idx.first (numel1_S1x1.symm ▸ Nat.one_pos)))) (k0_hw10 : k0_chk10 (tbM0_3.view.readAt (Elt F) (Rect.unit (s := S2x16) (k0_off22 k) S1x1.size (k0_off22_inb k)).toLoadRect X_tb (Shape.Idx.first (numel1_S1x1.symm ▸ Nat.one_pos)))) (f_dst : BufTy.Contents (Elt F) scM2.view.ty) :
    TripH_k0_t5 (F := F) c X_tb X_src f_dst
      ⊢ wp frame (wpE (defs₀ (F := F)) 𝒱 (c : Thread nD τ) bd) E ((k0_t5_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) k PUnit.unit)
          (fun _ => TripH_k0_t5 (F := F) c X_tb X_src (scM2.view.writes (Elt F) f_dst (tripPcH_k0_t5 (F := F) c X_tb X_src k k0_hw9 k0_hw10))) := by
  have hk : k.val < 16 := Nat.lt_of_lt_of_le k.isLt k0_t5_abs.2.1
  unfold k0_t5_body
  iintro ⟨HR_tb, HR_src, HW_dst⟩
  sl_exec (disch := first | sl_exact k0_hw9 | sl_exact k0_hw10)
  sl_step
  isplitl [HR_tb]; · iexact HR_tb
  isplitl [HR_src]; · iexact HR_src
  iexact HW_dst

def pbH_k0_t5 (c : Dev nD) (X_tb : TbBuf0 (F := F) c tbM0_3) (X_src : BufTy.Contents (Elt F) scM1.view.ty) (k0_hw9L : HW9 c X_tb) (k0_hw10L : HW10 c X_tb) : ℕ → List (View.Piece (Elt F) S64x64x128 .f32)
  | 0 => []
  | k + 1 =>
    if h : k < k0_t5_loop.trips then
      tripPcH_k0_t5 (F := F) c X_tb X_src ⟨k, h⟩ (k0_hw9L k h) (k0_hw10L k h) ++ pbH_k0_t5 c X_tb X_src k0_hw9L k0_hw10L k
    else pbH_k0_t5 c X_tb X_src k0_hw9L k0_hw10L k

theorem pbH_k0_t5_succ (c : Dev nD) (X_tb : TbBuf0 (F := F) c tbM0_3) (X_src : BufTy.Contents (Elt F) scM1.view.ty) (k0_hw9L : HW9 c X_tb) (k0_hw10L : HW10 c X_tb) (k : Fin k0_t5_loop.trips) :
    pbH_k0_t5 (F := F) c X_tb X_src k0_hw9L k0_hw10L (k.val + 1)
      = tripPcH_k0_t5 (F := F) c X_tb X_src k (k0_hw9L k.val k.isLt) (k0_hw10L k.val k.isLt) ++ pbH_k0_t5 (F := F) c X_tb X_src k0_hw9L k0_hw10L k.val := by
  rw [pbH_k0_t5.eq_2]; exact dif_pos k.isLt

abbrev invH_k0_t5 (c : Dev nD) (X_tb : TbBuf0 (F := F) c tbM0_3) (X_src : BufTy.Contents (Elt F) scM1.view.ty) (G_dst : BufTy.Contents (Elt F) scM2.view.ty) (k0_hw9L : HW9 c X_tb) (k0_hw10L : HW10 c X_tb) (k : ℕ) (_u : PUnit) : sProp 𝕄 :=
  iprop(tbPt0 c tbM0_3 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t5 (F := F) c X_tb X_src k0_hw9L k0_hw10L k)⌝))

set_option warn.classDefReducibility false in
@[sl_loop] def loopInvH_k0_t5 (X_tb : TbBuf0 (F := F) c tbM0_3) (X_src : BufTy.Contents (Elt F) scM1.view.ty) (G_dst : BufTy.Contents (Elt F) scM2.view.ty) (k0_hw9L : HW9 c X_tb) (k0_hw10L : HW10 c X_tb) :
    LoopInvTy_k0_t5 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 where
  inv := invH_k0_t5 (F := F) c X_tb X_src G_dst k0_hw9L k0_hw10L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t5 (F := F) 𝒱 c bd E i arg9 harg9 arg10 harg10 arg11 harg11 arg12 harg12 arg13 harg13 arg14 harg14 arg15 harg15 arg16 harg16 arg17 harg17 arg18 harg18 arg19 harg19 arg20 harg20 X_tb X_src k (k0_hw9L k.val k.isLt) (k0_hw10L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t5_succ]
      iexists _; isplitl [HW_dst]; · iexact HW_dst
      ipureintro; rw [h_dst, ← View.writes_append]

abbrev TripH_k0_t6 (c : Dev nD) (X_tb : TbBuf0 (F := F) c tbM0_4) (X_src : BufTy.Contents (Elt F) scM2.view.ty) (f_dst : BufTy.Contents (Elt F) scM1.view.ty) : sProp 𝕄 :=
  iprop(tbPt0 c tbM0_4 X_tb ∗ (scM2.view.loc (c : Thread nD τ) ↦[scM2.view.set]{fullShare} X_src) ∗ (scM1.view.loc (c : Thread nD τ) ↦[scM1.view.set]{fullShare} f_dst))

def tripPcH_k0_t6 (c : Dev nD) (X_tb : TbBuf0 (F := F) c tbM0_4) (X_src : BufTy.Contents (Elt F) scM2.view.ty) (k : Fin k0_t6_loop.trips) (k0_hw11 : k0_chk11 (tbM0_4.view.readAt (Elt F) (Rect.unit (s := S2x8) (k0_off26 k) S1x1.size (k0_off26_inb k)).toLoadRect X_tb (Shape.Idx.first (numel1_S1x1.symm ▸ Nat.one_pos)))) (k0_hw12 : k0_chk12 (tbM0_4.view.readAt (Elt F) (Rect.unit (s := S2x8) (k0_off27 k) S1x1.size (k0_off27_inb k)).toLoadRect X_tb (Shape.Idx.first (numel1_S1x1.symm ▸ Nat.one_pos)))) : List (View.Piece (Elt F) S128x64x128 .f32) :=
  [⟨Rect.unit (s := S128x64x128) (k0_off30 k) S1x64x128.size (k0_off30_inb k),
    k0_pay26 (scM2.view.readAt (Elt F) (Rect.unit (s := S64x64x128) (k0_off28 (tbM0_4.view.readAt (Elt F) (Rect.unit (s := S2x8) (k0_off26 k) S1x1.size (k0_off26_inb k)).toLoadRect X_tb (Shape.Idx.first (numel1_S1x1.symm ▸ Nat.one_pos)))) S1x64x128.size (k0_off28_inb (tbM0_4.view.readAt (Elt F) (Rect.unit (s := S2x8) (k0_off26 k) S1x1.size (k0_off26_inb k)).toLoadRect X_tb (Shape.Idx.first (numel1_S1x1.symm ▸ Nat.one_pos))) k0_hw11)).toLoadRect X_src)
      (scM2.view.readAt (Elt F) (Rect.unit (s := S64x64x128) (k0_off29 (tbM0_4.view.readAt (Elt F) (Rect.unit (s := S2x8) (k0_off27 k) S1x1.size (k0_off27_inb k)).toLoadRect X_tb (Shape.Idx.first (numel1_S1x1.symm ▸ Nat.one_pos)))) S1x64x128.size (k0_off29_inb (tbM0_4.view.readAt (Elt F) (Rect.unit (s := S2x8) (k0_off27 k) S1x1.size (k0_off27_inb k)).toLoadRect X_tb (Shape.Idx.first (numel1_S1x1.symm ▸ Nat.one_pos))) k0_hw12)).toLoadRect X_src)⟩]

theorem tripH_k0_t6 (c0_i32_157 : BitVec 32) (c8_i32 : BitVec 32) (X_tb : TbBuf0 (F := F) c tbM0_4) (X_src : BufTy.Contents (Elt F) scM2.view.ty) (k : Fin k0_t6_loop.trips) (k0_hw11 : k0_chk11 (tbM0_4.view.readAt (Elt F) (Rect.unit (s := S2x8) (k0_off26 k) S1x1.size (k0_off26_inb k)).toLoadRect X_tb (Shape.Idx.first (numel1_S1x1.symm ▸ Nat.one_pos)))) (k0_hw12 : k0_chk12 (tbM0_4.view.readAt (Elt F) (Rect.unit (s := S2x8) (k0_off27 k) S1x1.size (k0_off27_inb k)).toLoadRect X_tb (Shape.Idx.first (numel1_S1x1.symm ▸ Nat.one_pos)))) (f_dst : BufTy.Contents (Elt F) scM1.view.ty) :
    TripH_k0_t6 (F := F) c X_tb X_src f_dst
      ⊢ wp frame (wpE (defs₀ (F := F)) 𝒱 (c : Thread nD τ) bd) E ((k0_t6_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32) k PUnit.unit)
          (fun _ => TripH_k0_t6 (F := F) c X_tb X_src (scM1.view.writes (Elt F) f_dst (tripPcH_k0_t6 (F := F) c X_tb X_src k k0_hw11 k0_hw12))) := by
  have hk : k.val < 8 := Nat.lt_of_lt_of_le k.isLt k0_t6_abs.2.1
  unfold k0_t6_body
  iintro ⟨HR_tb, HR_src, HW_dst⟩
  sl_exec (disch := first | sl_exact k0_hw11 | sl_exact k0_hw12)
  sl_step
  isplitl [HR_tb]; · iexact HR_tb
  isplitl [HR_src]; · iexact HR_src
  iexact HW_dst

def pbH_k0_t6 (c : Dev nD) (X_tb : TbBuf0 (F := F) c tbM0_4) (X_src : BufTy.Contents (Elt F) scM2.view.ty) (k0_hw11L : HW11 c X_tb) (k0_hw12L : HW12 c X_tb) : ℕ → List (View.Piece (Elt F) S128x64x128 .f32)
  | 0 => []
  | k + 1 =>
    if h : k < k0_t6_loop.trips then
      tripPcH_k0_t6 (F := F) c X_tb X_src ⟨k, h⟩ (k0_hw11L k h) (k0_hw12L k h) ++ pbH_k0_t6 c X_tb X_src k0_hw11L k0_hw12L k
    else pbH_k0_t6 c X_tb X_src k0_hw11L k0_hw12L k

theorem pbH_k0_t6_succ (c : Dev nD) (X_tb : TbBuf0 (F := F) c tbM0_4) (X_src : BufTy.Contents (Elt F) scM2.view.ty) (k0_hw11L : HW11 c X_tb) (k0_hw12L : HW12 c X_tb) (k : Fin k0_t6_loop.trips) :
    pbH_k0_t6 (F := F) c X_tb X_src k0_hw11L k0_hw12L (k.val + 1)
      = tripPcH_k0_t6 (F := F) c X_tb X_src k (k0_hw11L k.val k.isLt) (k0_hw12L k.val k.isLt) ++ pbH_k0_t6 (F := F) c X_tb X_src k0_hw11L k0_hw12L k.val := by
  rw [pbH_k0_t6.eq_2]; exact dif_pos k.isLt

abbrev invH_k0_t6 (c : Dev nD) (X_tb : TbBuf0 (F := F) c tbM0_4) (X_src : BufTy.Contents (Elt F) scM2.view.ty) (G_dst : BufTy.Contents (Elt F) scM1.view.ty) (k0_hw11L : HW11 c X_tb) (k0_hw12L : HW12 c X_tb) (k : ℕ) (_u : PUnit) : sProp 𝕄 :=
  iprop(tbPt0 c tbM0_4 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t6 (F := F) c X_tb X_src k0_hw11L k0_hw12L k)⌝))

set_option warn.classDefReducibility false in
@[sl_loop] def loopInvH_k0_t6 (c0_i32_157 : BitVec 32) (c8_i32 : BitVec 32) (X_tb : TbBuf0 (F := F) c tbM0_4) (X_src : BufTy.Contents (Elt F) scM2.view.ty) (G_dst : BufTy.Contents (Elt F) scM1.view.ty) (k0_hw11L : HW11 c X_tb) (k0_hw12L : HW12 c X_tb) :
    LoopInvTy_k0_t6 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32 where
  inv := invH_k0_t6 (F := F) c X_tb X_src G_dst k0_hw11L k0_hw12L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t6 (F := F) 𝒱 c bd E i arg9 harg9 arg10 harg10 arg11 harg11 arg12 harg12 arg13 harg13 arg14 harg14 arg15 harg15 arg16 harg16 arg17 harg17 arg18 harg18 arg19 harg19 arg20 harg20 c0_i32_157 c8_i32 X_tb X_src k (k0_hw11L k.val k.isLt) (k0_hw12L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t6_succ]
      iexists _; isplitl [HW_dst]; · iexact HW_dst
      ipureintro; rw [h_dst, ← View.writes_append]

abbrev TripH_k0_t7 (c : Dev nD) (X_tb : TbBuf0 (F := F) c tbM0_5) (X_src : BufTy.Contents (Elt F) scM1.view.ty) (f_dst : BufTy.Contents (Elt F) scM2.view.ty) : sProp 𝕄 :=
  iprop(tbPt0 c tbM0_5 X_tb ∗ (scM1.view.loc (c : Thread nD τ) ↦[scM1.view.set]{fullShare} X_src) ∗ (scM2.view.loc (c : Thread nD τ) ↦[scM2.view.set]{fullShare} f_dst))

def tripPcH_k0_t7 (c : Dev nD) (X_tb : TbBuf0 (F := F) c tbM0_5) (X_src : BufTy.Contents (Elt F) scM1.view.ty) (k : Fin k0_t7_loop.trips) (k0_hw13 : k0_chk13 (tbM0_5.view.readAt (Elt F) (Rect.unit (s := S2x4) (k0_off31 k) S1x1.size (k0_off31_inb k)).toLoadRect X_tb (Shape.Idx.first (numel1_S1x1.symm ▸ Nat.one_pos)))) (k0_hw14 : k0_chk14 (tbM0_5.view.readAt (Elt F) (Rect.unit (s := S2x4) (k0_off32 k) S1x1.size (k0_off32_inb k)).toLoadRect X_tb (Shape.Idx.first (numel1_S1x1.symm ▸ Nat.one_pos)))) : List (View.Piece (Elt F) S64x64x128 .f32) :=
  [⟨Rect.unit (s := S64x64x128) (k0_off35 k) S1x64x128.size (k0_off35_inb k),
    k0_pay28 (scM1.view.readAt (Elt F) (Rect.unit (s := S128x64x128) (k0_off33 (tbM0_5.view.readAt (Elt F) (Rect.unit (s := S2x4) (k0_off31 k) S1x1.size (k0_off31_inb k)).toLoadRect X_tb (Shape.Idx.first (numel1_S1x1.symm ▸ Nat.one_pos)))) S1x64x128.size (k0_off33_inb (tbM0_5.view.readAt (Elt F) (Rect.unit (s := S2x4) (k0_off31 k) S1x1.size (k0_off31_inb k)).toLoadRect X_tb (Shape.Idx.first (numel1_S1x1.symm ▸ Nat.one_pos))) k0_hw13)).toLoadRect X_src)
      (scM1.view.readAt (Elt F) (Rect.unit (s := S128x64x128) (k0_off34 (tbM0_5.view.readAt (Elt F) (Rect.unit (s := S2x4) (k0_off32 k) S1x1.size (k0_off32_inb k)).toLoadRect X_tb (Shape.Idx.first (numel1_S1x1.symm ▸ Nat.one_pos)))) S1x64x128.size (k0_off34_inb (tbM0_5.view.readAt (Elt F) (Rect.unit (s := S2x4) (k0_off32 k) S1x1.size (k0_off32_inb k)).toLoadRect X_tb (Shape.Idx.first (numel1_S1x1.symm ▸ Nat.one_pos))) k0_hw14)).toLoadRect X_src)⟩]

theorem tripH_k0_t7 (c0_i32_157 : BitVec 32) (c8_i32 : BitVec 32) (X_tb : TbBuf0 (F := F) c tbM0_5) (X_src : BufTy.Contents (Elt F) scM1.view.ty) (k : Fin k0_t7_loop.trips) (k0_hw13 : k0_chk13 (tbM0_5.view.readAt (Elt F) (Rect.unit (s := S2x4) (k0_off31 k) S1x1.size (k0_off31_inb k)).toLoadRect X_tb (Shape.Idx.first (numel1_S1x1.symm ▸ Nat.one_pos)))) (k0_hw14 : k0_chk14 (tbM0_5.view.readAt (Elt F) (Rect.unit (s := S2x4) (k0_off32 k) S1x1.size (k0_off32_inb k)).toLoadRect X_tb (Shape.Idx.first (numel1_S1x1.symm ▸ Nat.one_pos)))) (f_dst : BufTy.Contents (Elt F) scM2.view.ty) :
    TripH_k0_t7 (F := F) c X_tb X_src f_dst
      ⊢ wp frame (wpE (defs₀ (F := F)) 𝒱 (c : Thread nD τ) bd) E ((k0_t7_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32) k PUnit.unit)
          (fun _ => TripH_k0_t7 (F := F) c X_tb X_src (scM2.view.writes (Elt F) f_dst (tripPcH_k0_t7 (F := F) c X_tb X_src k k0_hw13 k0_hw14))) := by
  have hk : k.val < 4 := Nat.lt_of_lt_of_le k.isLt k0_t7_abs.2.1
  unfold k0_t7_body
  iintro ⟨HR_tb, HR_src, HW_dst⟩
  sl_exec (disch := first | sl_exact k0_hw13 | sl_exact k0_hw14)
  sl_step
  isplitl [HR_tb]; · iexact HR_tb
  isplitl [HR_src]; · iexact HR_src
  iexact HW_dst

def pbH_k0_t7 (c : Dev nD) (X_tb : TbBuf0 (F := F) c tbM0_5) (X_src : BufTy.Contents (Elt F) scM1.view.ty) (k0_hw13L : HW13 c X_tb) (k0_hw14L : HW14 c X_tb) : ℕ → List (View.Piece (Elt F) S64x64x128 .f32)
  | 0 => []
  | k + 1 =>
    if h : k < k0_t7_loop.trips then
      tripPcH_k0_t7 (F := F) c X_tb X_src ⟨k, h⟩ (k0_hw13L k h) (k0_hw14L k h) ++ pbH_k0_t7 c X_tb X_src k0_hw13L k0_hw14L k
    else pbH_k0_t7 c X_tb X_src k0_hw13L k0_hw14L k

theorem pbH_k0_t7_succ (c : Dev nD) (X_tb : TbBuf0 (F := F) c tbM0_5) (X_src : BufTy.Contents (Elt F) scM1.view.ty) (k0_hw13L : HW13 c X_tb) (k0_hw14L : HW14 c X_tb) (k : Fin k0_t7_loop.trips) :
    pbH_k0_t7 (F := F) c X_tb X_src k0_hw13L k0_hw14L (k.val + 1)
      = tripPcH_k0_t7 (F := F) c X_tb X_src k (k0_hw13L k.val k.isLt) (k0_hw14L k.val k.isLt) ++ pbH_k0_t7 (F := F) c X_tb X_src k0_hw13L k0_hw14L k.val := by
  rw [pbH_k0_t7.eq_2]; exact dif_pos k.isLt

abbrev invH_k0_t7 (c : Dev nD) (X_tb : TbBuf0 (F := F) c tbM0_5) (X_src : BufTy.Contents (Elt F) scM1.view.ty) (G_dst : BufTy.Contents (Elt F) scM2.view.ty) (k0_hw13L : HW13 c X_tb) (k0_hw14L : HW14 c X_tb) (k : ℕ) (_u : PUnit) : sProp 𝕄 :=
  iprop(tbPt0 c tbM0_5 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t7 (F := F) c X_tb X_src k0_hw13L k0_hw14L k)⌝))

set_option warn.classDefReducibility false in
@[sl_loop] def loopInvH_k0_t7 (c0_i32_157 : BitVec 32) (c8_i32 : BitVec 32) (X_tb : TbBuf0 (F := F) c tbM0_5) (X_src : BufTy.Contents (Elt F) scM1.view.ty) (G_dst : BufTy.Contents (Elt F) scM2.view.ty) (k0_hw13L : HW13 c X_tb) (k0_hw14L : HW14 c X_tb) :
    LoopInvTy_k0_t7 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32 where
  inv := invH_k0_t7 (F := F) c X_tb X_src G_dst k0_hw13L k0_hw14L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t7 (F := F) 𝒱 c bd E i arg9 harg9 arg10 harg10 arg11 harg11 arg12 harg12 arg13 harg13 arg14 harg14 arg15 harg15 arg16 harg16 arg17 harg17 arg18 harg18 arg19 harg19 arg20 harg20 c0_i32_157 c8_i32 X_tb X_src k (k0_hw13L k.val k.isLt) (k0_hw14L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t7_succ]
      iexists _; isplitl [HW_dst]; · iexact HW_dst
      ipureintro; rw [h_dst, ← View.writes_append]

abbrev TripH_k0_t8 (c : Dev nD) (X_tb : TbBuf0 (F := F) c tbM0_6) (X_src : BufTy.Contents (Elt F) scM2.view.ty) (f_dst : BufTy.Contents (Elt F) scM1.view.ty) : sProp 𝕄 :=
  iprop(tbPt0 c tbM0_6 X_tb ∗ (scM2.view.loc (c : Thread nD τ) ↦[scM2.view.set]{fullShare} X_src) ∗ (scM1.view.loc (c : Thread nD τ) ↦[scM1.view.set]{fullShare} f_dst))

def tripPcH_k0_t8 (c : Dev nD) (X_tb : TbBuf0 (F := F) c tbM0_6) (X_src : BufTy.Contents (Elt F) scM2.view.ty) (k : Fin k0_t8_loop.trips) (k0_hw15 : k0_chk15 (tbM0_6.view.readAt (Elt F) (Rect.unit (s := S2x2) (k0_off36 k) S1x1.size (k0_off36_inb k)).toLoadRect X_tb (Shape.Idx.first (numel1_S1x1.symm ▸ Nat.one_pos)))) (k0_hw16 : k0_chk16 (tbM0_6.view.readAt (Elt F) (Rect.unit (s := S2x2) (k0_off37 k) S1x1.size (k0_off37_inb k)).toLoadRect X_tb (Shape.Idx.first (numel1_S1x1.symm ▸ Nat.one_pos)))) : List (View.Piece (Elt F) S128x64x128 .f32) :=
  [⟨Rect.unit (s := S128x64x128) (k0_off40 k) S1x64x128.size (k0_off40_inb k),
    k0_pay31 (scM2.view.readAt (Elt F) (Rect.unit (s := S64x64x128) (k0_off38 (tbM0_6.view.readAt (Elt F) (Rect.unit (s := S2x2) (k0_off36 k) S1x1.size (k0_off36_inb k)).toLoadRect X_tb (Shape.Idx.first (numel1_S1x1.symm ▸ Nat.one_pos)))) S1x64x128.size (k0_off38_inb (tbM0_6.view.readAt (Elt F) (Rect.unit (s := S2x2) (k0_off36 k) S1x1.size (k0_off36_inb k)).toLoadRect X_tb (Shape.Idx.first (numel1_S1x1.symm ▸ Nat.one_pos))) k0_hw15)).toLoadRect X_src)
      (scM2.view.readAt (Elt F) (Rect.unit (s := S64x64x128) (k0_off39 (tbM0_6.view.readAt (Elt F) (Rect.unit (s := S2x2) (k0_off37 k) S1x1.size (k0_off37_inb k)).toLoadRect X_tb (Shape.Idx.first (numel1_S1x1.symm ▸ Nat.one_pos)))) S1x64x128.size (k0_off39_inb (tbM0_6.view.readAt (Elt F) (Rect.unit (s := S2x2) (k0_off37 k) S1x1.size (k0_off37_inb k)).toLoadRect X_tb (Shape.Idx.first (numel1_S1x1.symm ▸ Nat.one_pos))) k0_hw16)).toLoadRect X_src)⟩]

theorem tripH_k0_t8 (v316 : FVec F S4x64x128 .f32) (X_tb : TbBuf0 (F := F) c tbM0_6) (X_src : BufTy.Contents (Elt F) scM2.view.ty) (k : Fin k0_t8_loop.trips) (k0_hw15 : k0_chk15 (tbM0_6.view.readAt (Elt F) (Rect.unit (s := S2x2) (k0_off36 k) S1x1.size (k0_off36_inb k)).toLoadRect X_tb (Shape.Idx.first (numel1_S1x1.symm ▸ Nat.one_pos)))) (k0_hw16 : k0_chk16 (tbM0_6.view.readAt (Elt F) (Rect.unit (s := S2x2) (k0_off37 k) S1x1.size (k0_off37_inb k)).toLoadRect X_tb (Shape.Idx.first (numel1_S1x1.symm ▸ Nat.one_pos)))) (f_dst : BufTy.Contents (Elt F) scM1.view.ty) :
    TripH_k0_t8 (F := F) c X_tb X_src f_dst
      ⊢ wp frame (wpE (defs₀ (F := F)) 𝒱 (c : Thread nD τ) bd) E ((k0_t8_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v316) k PUnit.unit)
          (fun _ => TripH_k0_t8 (F := F) c X_tb X_src (scM1.view.writes (Elt F) f_dst (tripPcH_k0_t8 (F := F) c X_tb X_src k k0_hw15 k0_hw16))) := by
  have hk : k.val < 2 := Nat.lt_of_lt_of_le k.isLt k0_t8_abs.2.1
  unfold k0_t8_body
  iintro ⟨HR_tb, HR_src, HW_dst⟩
  sl_exec (disch := first | sl_exact k0_hw15 | sl_exact k0_hw16)
  sl_step
  isplitl [HR_tb]; · iexact HR_tb
  isplitl [HR_src]; · iexact HR_src
  iexact HW_dst

def pbH_k0_t8 (c : Dev nD) (X_tb : TbBuf0 (F := F) c tbM0_6) (X_src : BufTy.Contents (Elt F) scM2.view.ty) (k0_hw15L : HW15 c X_tb) (k0_hw16L : HW16 c X_tb) : ℕ → List (View.Piece (Elt F) S128x64x128 .f32)
  | 0 => []
  | k + 1 =>
    if h : k < k0_t8_loop.trips then
      tripPcH_k0_t8 (F := F) c X_tb X_src ⟨k, h⟩ (k0_hw15L k h) (k0_hw16L k h) ++ pbH_k0_t8 c X_tb X_src k0_hw15L k0_hw16L k
    else pbH_k0_t8 c X_tb X_src k0_hw15L k0_hw16L k

theorem pbH_k0_t8_succ (c : Dev nD) (X_tb : TbBuf0 (F := F) c tbM0_6) (X_src : BufTy.Contents (Elt F) scM2.view.ty) (k0_hw15L : HW15 c X_tb) (k0_hw16L : HW16 c X_tb) (k : Fin k0_t8_loop.trips) :
    pbH_k0_t8 (F := F) c X_tb X_src k0_hw15L k0_hw16L (k.val + 1)
      = tripPcH_k0_t8 (F := F) c X_tb X_src k (k0_hw15L k.val k.isLt) (k0_hw16L k.val k.isLt) ++ pbH_k0_t8 (F := F) c X_tb X_src k0_hw15L k0_hw16L k.val := by
  rw [pbH_k0_t8.eq_2]; exact dif_pos k.isLt

abbrev invH_k0_t8 (c : Dev nD) (X_tb : TbBuf0 (F := F) c tbM0_6) (X_src : BufTy.Contents (Elt F) scM2.view.ty) (G_dst : BufTy.Contents (Elt F) scM1.view.ty) (k0_hw15L : HW15 c X_tb) (k0_hw16L : HW16 c X_tb) (k : ℕ) (_u : PUnit) : sProp 𝕄 :=
  iprop(tbPt0 c tbM0_6 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t8 (F := F) c X_tb X_src k0_hw15L k0_hw16L k)⌝))

set_option warn.classDefReducibility false in
@[sl_loop] def loopInvH_k0_t8 (v316 : FVec F S4x64x128 .f32) (X_tb : TbBuf0 (F := F) c tbM0_6) (X_src : BufTy.Contents (Elt F) scM2.view.ty) (G_dst : BufTy.Contents (Elt F) scM1.view.ty) (k0_hw15L : HW15 c X_tb) (k0_hw16L : HW16 c X_tb) :
    LoopInvTy_k0_t8 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v316 where
  inv := invH_k0_t8 (F := F) c X_tb X_src G_dst k0_hw15L k0_hw16L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t8 (F := F) 𝒱 c bd E i arg9 harg9 arg10 harg10 arg11 harg11 arg12 harg12 arg13 harg13 arg14 harg14 arg15 harg15 arg16 harg16 arg17 harg17 arg18 harg18 arg19 harg19 arg20 harg20 v316 X_tb X_src k (k0_hw15L k.val k.isLt) (k0_hw16L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t8_succ]
      iexists _; isplitl [HW_dst]; · iexact HW_dst
      ipureintro; rw [h_dst, ← View.writes_append]

end Cert.KernelIdeal.Hand

end
-- ==== Proof.KI.Run.lean ====
import proofs.«411912_j30219389895125_3_alg».proof.Proof.KI.LoopsH

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem sc_in (c : Dev nD) (b : Ref sig (c : Thread nD τ).2.kind) (q : PosShare TreeShare) (f : Buf (Elt F) ((c : Thread nD τ).loc b)) :
    ((((c : Thread nD τ).loc b) ↦{q} f : sProp 𝕄)) ⊢ ((Memref.whole b).view.loc (c : Thread nD τ) ↦[(Memref.whole b).view.set]{q} f) := by
  iintro H; simp only [View.set_whole]; iexact H

theorem sc_out (c : Dev nD) (b : Ref sig (c : Thread nD τ).2.kind) (q : PosShare TreeShare) (f : Buf (Elt F) ((c : Thread nD τ).loc b)) :
    ((Memref.whole b).view.loc (c : Thread nD τ) ↦[(Memref.whole b).view.set]{q} f : sProp 𝕄) ⊢ (((c : Thread nD τ).loc b) ↦{q} f) := by
  iintro H; simp only [View.set_whole]; iexact H

set_option maxHeartbeats 4000000 in

noncomputable def kernelRun0_A_of (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) (k0_hw1L : HW1 c xt0) (k0_hw2L : HW2 c xt0) (k0_hw3L : HW3 c xt0) (k0_hw4L : HW4 c xt0) (k0_hw5L : HW5 c xt1) (k0_hw6L : HW6 c xt1) (k0_hw7L : HW7 c xt2) (k0_hw8L : HW8 c xt2) (k0_hw9L : HW9 c xt3) (k0_hw10L : HW10 c xt3) (k0_hw11L : HW11 c xt4) (k0_hw12L : HW12 c xt4) (k0_hw13L : HW13 c xt5) (k0_hw14L : HW14 c xt5) (k0_hw15L : HW15 c xt6) (k0_hw16L : HW16 c xt6) (k0_hw17 : HW17 c xt7) (k0_hw18 : HW18 c xt7) :
    { L11 : List (View.Piece (Elt F) S128x64 .f32) //
      ∀ (E : Set ℕ) (K : PUnit → sProp 𝕄),
        iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ d, owns (c : Thread nD τ) arg20 fullShare d)
            ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
            ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
            ∗ (iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ f, arg20.view.loc (c : Thread nD τ) ↦[arg20.view.set]{fullShare} arg20.view.writes (Elt F) f L11)
                ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
                ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) -∗ K ⟨⟩))
          ⊢ wp frame (wpE (defs₀ (F := F)) Variants.none c none) E (cc0__fused_kernel i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT0, HT1, HT2, HT3, HT4, HT5, HT6, HT7, ⟨%g0, HS0⟩, ⟨%g1, HS1⟩, ⟨%g2, HS2⟩, Hk⟩
    obtain rfl := harg9.eq_unread hf0; obtain rfl := harg10.eq_unread hf1; obtain rfl := harg11.eq_unread hf2; obtain rfl := harg12.eq_unread hf3; obtain rfl := harg13.eq_unread hf4; obtain rfl := harg14.eq_unread hf5; obtain rfl := harg15.eq_unread hf6; obtain rfl := harg16.eq_unread hf7; obtain rfl := harg17.eq_unread hf8; obtain rfl := harg18.eq_unread hf9; obtain rfl := harg19.eq_unread hf10
    ihave HS0 := (sc_in c cc0_scratch0 fullShare g0) $$ HS0
    ihave HS1 := (sc_in c cc0_scratch1 fullShare g1) $$ HS1
    ihave HS2 := (sc_in c cc0_scratch2 fullShare g2) $$ HS2
    sl_exec_parts (disch := first | sl_exact k0_hw17 | sl_exact k0_hw18)
    sl_step
    ihave HS0 := (sc_out c cc0_scratch0 fullShare _) $$ HS0
    ihave HS1 := (sc_out c cc0_scratch1 fullShare _) $$ HS1
    ihave HS2 := (sc_out c cc0_scratch2 fullShare _) $$ HS2
    iapply Hk
    isplitl [H0]
    · iexists _; isplitr; · ipureintro; exact harg9.read_unread _
      iexact H0
    isplitl [H1]
    · iexists _; isplitr; · ipureintro; exact harg10.read_unread _
      iexact H1
    isplitl [H2]
    · iexists _; isplitr; · ipureintro; exact harg11.read_unread _
      iexact H2
    isplitl [H3]
    · iexists _; isplitr; · ipureintro; exact harg12.read_unread _
      iexact H3
    isplitl [H4]
    · iexists _; isplitr; · ipureintro; exact harg13.read_unread _
      iexact H4
    isplitl [H5]
    · iexists _; isplitr; · ipureintro; exact harg14.read_unread _
      iexact H5
    isplitl [H6]
    · iexists _; isplitr; · ipureintro; exact harg15.read_unread _
      iexact H6
    isplitl [H7]
    · iexists _; isplitr; · ipureintro; exact harg16.read_unread _
      iexact H7
    isplitl [H8]
    · iexists _; isplitr; · ipureintro; exact harg17.read_unread _
      iexact H8
    isplitl [H9]
    · iexists _; isplitr; · ipureintro; exact harg18.read_unread _
      iexact H9
    isplitl [H10]
    · iexists _; isplitr; · ipureintro; exact harg19.read_unread _
      iexact H10
    isplitl [H11]; · iexists _; iexact H11
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HS0]; · iexists _; iexact HS0
    isplitl [HS1]; · iexists _; iexact HS1
    iexists _; iexact HS2

noncomputable def kernelRun0_A (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) (hH : Hyps c xt0 xt1 xt2 xt3 xt4 xt5 xt6 xt7) :
    { L11 : List (View.Piece (Elt F) S128x64 .f32) //
      ∀ (E : Set ℕ) (K : PUnit → sProp 𝕄),
        iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ d, owns (c : Thread nD τ) arg20 fullShare d)
            ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
            ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
            ∗ (iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ f, arg20.view.loc (c : Thread nD τ) ↦[arg20.view.set]{fullShare} arg20.view.writes (Elt F) f L11)
                ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
                ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) -∗ K ⟨⟩))
          ⊢ wp frame (wpE (defs₀ (F := F)) Variants.none c none) E (cc0__fused_kernel i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) K } :=
  kernelRun0_A_of c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH.h1 hH.h2 hH.h3 hH.h4 hH.h5 hH.h6 hH.h7 hH.h8 hH.h9 hH.h10 hH.h11 hH.h12 hH.h13 hH.h14 hH.h15 hH.h16 hH.h17 hH.h18

end Cert.KernelIdeal.Hand

end
-- ==== Proof.KI.Frame.lean ====
import proofs.«411912_j30219389895125_3_alg».proof.Proof.KI.Kit
import proofs.«411912_j30219389895125_3_alg».proof.Proof.KI.Points
import proofs.«411912_j30219389895125_3_alg».proof.Proof.KI.Assumed
import proofs.«411912_j30219389895125_3_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7)
    (hH : Hyps c xt0 xt1 xt2 xt3 xt4 xt5 xt6 xt7) (y : S128x64.Idx) :
    ∃ pc ∈ (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1, y ∈ pc.1.set :=
  View.cover_of_wholeMem (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1 (by sl_whole_mem) y

def out0_A_11 (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7)
    (hH : Hyps c xt0 xt1 xt2 xt3 xt4 xt5 xt6 xt7) : Vec F S128x64 .f32 :=
  VO0_11.read (Elt F) (VO0_11.writes (Elt F) VO0_11.junk (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1)

variable (hH : ∀ c : Dev nD, Hyps c (tbl m 0) (tbl m 1) (tbl m 2) (tbl m 3) (tbl m 4) (tbl m 5) (tbl m 6) (tbl m 7))

def outsAt0 (c : Dev nD) (t : Fin (cfgM m).N) : Vec F S128x64 .f32 :=
  out0_A_11 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (tbl m 1) (tbl m 2) (tbl m 3) (tbl m 4) (tbl m 5) (tbl m 6) (tbl m 7) (hH c)

def dats (_ : Fin 1) (c : Dev nD) : Pipeline.Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m hH c t)
  Φ _ := iprop(Pipeline.ΦA spec0 c ∗ Pipeline.ΦT pre0 (tbl m) c)
  q _ := fullShare
  owed _ := 0

theorem A_eq (c : Dev nD) (w : Fin (cfgM m).W) : (dats m hH 0 c).A w = V m c (Pipeline.arrRef spec0 w) := by
  dsimp only [dats]

theorem after0_0 (c : Dev nD) (t : Fin (cfgM m).N) : (dats m hH 0 c).after 0 t = iblk m c 0 t := by dsimp only [dats]; try rfl
theorem after0_1 (c : Dev nD) (t : Fin (cfgM m).N) : (dats m hH 0 c).after 1 t = iblk m c 1 t := by dsimp only [dats]; try rfl
theorem after0_2 (c : Dev nD) (t : Fin (cfgM m).N) : (dats m hH 0 c).after 2 t = iblk m c 2 t := by dsimp only [dats]; try rfl
theorem after0_3 (c : Dev nD) (t : Fin (cfgM m).N) : (dats m hH 0 c).after 3 t = iblk m c 3 t := by dsimp only [dats]; try rfl
theorem after0_4 (c : Dev nD) (t : Fin (cfgM m).N) : (dats m hH 0 c).after 4 t = iblk m c 4 t := by dsimp only [dats]; try rfl
theorem after0_5 (c : Dev nD) (t : Fin (cfgM m).N) : (dats m hH 0 c).after 5 t = iblk m c 5 t := by dsimp only [dats]; try rfl
theorem after0_6 (c : Dev nD) (t : Fin (cfgM m).N) : (dats m hH 0 c).after 6 t = iblk m c 6 t := by dsimp only [dats]; try rfl
theorem after0_7 (c : Dev nD) (t : Fin (cfgM m).N) : (dats m hH 0 c).after 7 t = iblk m c 7 t := by dsimp only [dats]; try rfl
theorem after0_8 (c : Dev nD) (t : Fin (cfgM m).N) : (dats m hH 0 c).after 8 t = iblk m c 8 t := by dsimp only [dats]; try rfl
theorem after0_9 (c : Dev nD) (t : Fin (cfgM m).N) : (dats m hH 0 c).after 9 t = iblk m c 9 t := by dsimp only [dats]; try rfl
theorem after0_10 (c : Dev nD) (t : Fin (cfgM m).N) : (dats m hH 0 c).after 10 t = iblk m c 10 t := by dsimp only [dats]; try rfl
theorem after0_11 (c : Dev nD) (t : Fin (cfgM m).N) : (dats m hH 0 c).after 11 t = (outsAt0 m hH c t) := by dsimp only [dats]; try rfl

theorem before0_0 (c : Dev nD) (t : Fin (cfgM m).N) (d) : (dats m hH 0 c).before 0 t d = iblk m c 0 t :=
  before0_of m 0 (dats m hH 0 c) (A_eq m hH c 0) (after0_0 m hH c) t d
theorem before0_1 (c : Dev nD) (t : Fin (cfgM m).N) (d) : (dats m hH 0 c).before 1 t d = iblk m c 1 t :=
  before0_of m 1 (dats m hH 0 c) (A_eq m hH c 1) (after0_1 m hH c) t d
theorem before0_2 (c : Dev nD) (t : Fin (cfgM m).N) (d) : (dats m hH 0 c).before 2 t d = iblk m c 2 t :=
  before0_of m 2 (dats m hH 0 c) (A_eq m hH c 2) (after0_2 m hH c) t d
theorem before0_3 (c : Dev nD) (t : Fin (cfgM m).N) (d) : (dats m hH 0 c).before 3 t d = iblk m c 3 t :=
  before0_of m 3 (dats m hH 0 c) (A_eq m hH c 3) (after0_3 m hH c) t d
theorem before0_4 (c : Dev nD) (t : Fin (cfgM m).N) (d) : (dats m hH 0 c).before 4 t d = iblk m c 4 t :=
  before0_of m 4 (dats m hH 0 c) (A_eq m hH c 4) (after0_4 m hH c) t d
theorem before0_5 (c : Dev nD) (t : Fin (cfgM m).N) (d) : (dats m hH 0 c).before 5 t d = iblk m c 5 t :=
  before0_of m 5 (dats m hH 0 c) (A_eq m hH c 5) (after0_5 m hH c) t d
theorem before0_6 (c : Dev nD) (t : Fin (cfgM m).N) (d) : (dats m hH 0 c).before 6 t d = iblk m c 6 t :=
  before0_of m 6 (dats m hH 0 c) (A_eq m hH c 6) (after0_6 m hH c) t d
theorem before0_7 (c : Dev nD) (t : Fin (cfgM m).N) (d) : (dats m hH 0 c).before 7 t d = iblk m c 7 t :=
  before0_of m 7 (dats m hH 0 c) (A_eq m hH c 7) (after0_7 m hH c) t d
theorem before0_8 (c : Dev nD) (t : Fin (cfgM m).N) (d) : (dats m hH 0 c).before 8 t d = iblk m c 8 t :=
  before0_of m 8 (dats m hH 0 c) (A_eq m hH c 8) (after0_8 m hH c) t d
theorem before0_9 (c : Dev nD) (t : Fin (cfgM m).N) (d) : (dats m hH 0 c).before 9 t d = iblk m c 9 t :=
  before0_of m 9 (dats m hH 0 c) (A_eq m hH c 9) (after0_9 m hH c) t d
theorem before0_10 (c : Dev nD) (t : Fin (cfgM m).N) (d) : (dats m hH 0 c).before 10 t d = iblk m c 10 t :=
  before0_of m 10 (dats m hH 0 c) (A_eq m hH c 10) (after0_10 m hH c) t d

def bodyPre (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d))
    ∗ (∃ d, owns (c : Thread nD τ) (ms0_10 m t) fullShare ((dats m hH 0 c).before 10 t d))
    ∗ (∃ d, owns (c : Thread nD τ) (ms0_11 m t) fullShare ((dats m hH 0 c).before 11 t d)))

def bodyPost (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t)
    ∗ owns (c : Thread nD τ) (ms0_10 m t) fullShare ((dats m hH 0 c).after 10 t)
    ∗ owns (c : Thread nD τ) (ms0_11 m t) fullShare ((dats m hH 0 c).after 11 t))

theorem sound_body (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2, before0_3, before0_4, before0_5, before0_6, before0_7, before0_8, before0_9, before0_10]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11]
  rw [show (dats m hH 0 c).Φ t.castSucc = iprop(Pipeline.ΦA spec0 c ∗ Pipeline.ΦT pre0 (tbl m) c) from rfl, PhiT0_eq]
  unfold Pipeline.ΦA
  rw [scopedRest0_eq]
  unfold outsAt0
  unfold out0_A_11
  iintro ⟨⟨⟨⟨HS0, HS1, HS2⟩, HR⟩, ⟨HT0, HT1, HT2, HT3, HT4, HT5, HT6, HT7⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (tbl m 1) (tbl m 2) (tbl m 3) (tbl m 4) (tbl m 5) (tbl m 6) (tbl m 7) (hH c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HS0]; · iexact HS0
  isplitl [HS1]; · iexact HS1
  isplitl [HS2]; · iexact HS2
  iintro ⟨H0, H1, H2, H3, H4, H5, H6, H7, H8, H9, H10, ⟨%e11, H11⟩, HT0, HT1, HT2, HT3, HT4, HT5, HT6, HT7, HS0, HS1, HS2⟩
  isplitl [HS0 HS1 HS2 HR HT0 HT1 HT2 HT3 HT4 HT5 HT6 HT7]
  · isplitl [HS0 HS1 HS2 HR]
    · isplitl [HS0 HS1 HS2]
      · isplitl [HS0]; · iexact HS0
        isplitl [HS1]; · iexact HS1
        iexact HS2
      iexact HR
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)

theorem body_obligation (c : Dev nD) : BodyObligation (dats (F := F) m hH 0 c) (defs₀ (F := F)) Variants.none () Set.univ := fun t => by
  rw [bigSep_W0, bigSep_W0]
  exact sound_body m hH c t

set_option backward.isDefEq.respectTransparency.types false in
set_option maxHeartbeats 8000000 in
theorem run_main : θ_run defs (onTc (τ := τ) (main (F := F))) (s₀ m ρ) (Pipeline.FramePost (Pipeline.pin pcfgs fun _ => adm m) (dats m hH) 0 (Pipeline.afterTail pcfgs (fun _ => adm m) (dats m hH) 0 (V0 m) [hostOps1])) :=
  Pipeline.θ_run_frameP_around pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m) (hΦ := fun _ _ => rfl)

theorem frame (hH : ∀ c : Dev nD, Hyps c (tbl m 0) (tbl m 1) (tbl m 2) (tbl m 3) (tbl m 4) (tbl m 5) (tbl m 6) (tbl m 7)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m hH) (A_eq m hH) (run_main m ρ hH)

end Cert.KernelIdeal.Hand

end
-- ==== Proof.KI.HostTabs.lean ====
import proofs.«411912_j30219389895125_3_alg».proof.Proof.KI.Kit
import proofs.«411912_j30219389895125_3_alg».proof.Proof.KI.Assumed
import Idealize.ShloMosaic.Lib.StableHlo.Run
import Idealize.ShloMosaic.Lib.StableHlo.Predicate
import Idealize.ShloMosaic.Lib.ValueIdx
import Idealize.ShloMosaic.Lib.ValueLayout

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

def clipW (hi : ℕ) (w : BitVec 32) : BitVec 32 := IntOp.minsi (BitVec.ofNat 32 hi) (IntOp.maxsi 0#32 w)

theorem clipW_toInt (hi : ℕ) (h : hi < 2 ^ 31) (w : BitVec 32) : (clipW hi w).toInt = min (max w.toInt 0) (hi : ℤ) := by
  have hH : (BitVec.ofNat 32 hi).toInt = hi := StableHlo.Predicate.toInt_ofNat_small hi h
  have h0 : (0#32 : BitVec 32).toInt = 0 := by decide
  have hmax : (IntOp.maxsi 0#32 w).toInt = max w.toInt 0 := by
    unfold IntOp.maxsi
    split <;> rename_i hc <;> simp only [BitVec.slt, h0, decide_eq_true_eq] at hc <;> omega
  unfold clipW IntOp.minsi
  split <;> rename_i hc <;> simp only [BitVec.slt, hH, hmax, decide_eq_true_eq] at hc <;> omega

theorem clipW_toInt_nonneg (hi : ℕ) (h : hi < 2 ^ 31) (w : BitVec 32) : 0 ≤ (clipW hi w).toInt := by
  rw [clipW_toInt hi h]; omega

theorem clipW_toNat (hi : ℕ) (h : hi < 2 ^ 31) (w : BitVec 32) : (clipW hi w).toNat = min w.toInt.toNat hi := by
  have e := clipW_toInt hi h w
  have hlt := (clipW hi w).isLt
  rw [BitVec.toInt_eq_toNat_cond] at e
  split at e <;> omega

-- A table whose word at `(s, f)` is a clamp into `[0, hi]` has every word below any `R` above `hi`.
theorem lt_of_clip {n hi R : ℕ} (hh : hi < 2 ^ 31) (hR : hi < R) {g : (⟨2, ![2, n]⟩ : Shape).Idx → BitVec 32}
    {a : (⟨2, ![n, 2]⟩ : Shape).Idx → BitVec 32} (hg : ∀ s f, g (ix2 s f) = clipW hi (a (ix2 f s)))
    (i : (⟨2, ![2, n]⟩ : Shape).Idx) : (g i).toNat < R := by
  obtain ⟨s, f, rfl⟩ : ∃ (s : Fin 2) (f : Fin n), i = ix2 s f := ⟨i 0, i 1, eq_ix2 i⟩
  rw [hg, clipW_toNat hi hh]; omega

variable (m : (ℓ : Loc nD τ sig) → Buf (Elt F) ℓ)

theorem tbl_word_1 (s : Fin 2) (f : Fin 128) :
    tbl m 0 (ix2 s f) = clipW 255 (m (((0 : Dev nD) : Thread nD τ).loc main_arg12) (ix2 f s)) := by
  show (V m (0 : Dev nD) main_v6 : S2x128.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_2 (s : Fin 2) (f : Fin 64) :
    tbl m 1 (ix2 s f) = clipW 127 (m (((0 : Dev nD) : Thread nD τ).loc main_arg13) (ix2 f s)) := by
  show (V m (0 : Dev nD) main_v8 : S2x64.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_3 (s : Fin 2) (f : Fin 32) :
    tbl m 2 (ix2 s f) = clipW 63 (m (((0 : Dev nD) : Thread nD τ).loc main_arg14) (ix2 f s)) := by
  show (V m (0 : Dev nD) main_v10 : S2x32.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_4 (s : Fin 2) (f : Fin 16) :
    tbl m 3 (ix2 s f) = clipW 31 (m (((0 : Dev nD) : Thread nD τ).loc main_arg15) (ix2 f s)) := by
  show (V m (0 : Dev nD) main_v12 : S2x16.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_5 (s : Fin 2) (f : Fin 8) :
    tbl m 4 (ix2 s f) = clipW 15 (m (((0 : Dev nD) : Thread nD τ).loc main_arg16) (ix2 f s)) := by
  show (V m (0 : Dev nD) main_v14 : S2x8.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_6 (s : Fin 2) (f : Fin 4) :
    tbl m 5 (ix2 s f) = clipW 7 (m (((0 : Dev nD) : Thread nD τ).loc main_arg17) (ix2 f s)) := by
  show (V m (0 : Dev nD) main_v16 : S2x4.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_7 (s : Fin 2) (f : Fin 2) :
    tbl m 6 (ix2 s f) = clipW 3 (m (((0 : Dev nD) : Thread nD τ).loc main_arg18) (ix2 f s)) := by
  show (V m (0 : Dev nD) main_v18 : S2x2.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_8 (s : Fin 2) (f : Fin 1) :
    tbl m 7 (ix2 s f) = clipW 1 (m (((0 : Dev nD) : Thread nD τ).loc main_arg19) (ix2 f s)) := by
  show (V m (0 : Dev nD) main_v20 : S2x1.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

-- With `w < R`, row `w` of an `[R, 64, 128]` array is in range on every axis.
theorem chk_rows (R : ℕ) (w : BitVec 32) (hw : w.toNat < R) :
    ∀ a, (![(Scalar.indexCast w).toNat, 0, 0] : Fin 3 → ℕ) a + S1x64x128.size a ≤ (⟨3, ![R, 64, 128]⟩ : Shape).size a := by
  intro a
  have : (Scalar.indexCast w).toNat = w.toNat := rfl
  match a with
  | ⟨0, _⟩ => show (Scalar.indexCast w).toNat + 1 ≤ R; omega
  | ⟨1, _⟩ => show 0 + 64 ≤ 64; omega
  | ⟨2, _⟩ => show 0 + 128 ≤ 128; omega

-- Clamped words stay below the row counts, and each range condition asks just that of one word of its table.
theorem hyps_all (c : Dev nD) :
    Hyps c (tbl m 0) (tbl m 1) (tbl m 2) (tbl m 3) (tbl m 4) (tbl m 5) (tbl m 6) (tbl m 7) := by
  have h0 := lt_of_clip (R := 256) (by decide) (by decide) (tbl_word_1 m)
  have h1 := lt_of_clip (R := 128) (by decide) (by decide) (tbl_word_2 m)
  have h2 := lt_of_clip (R := 64) (by decide) (by decide) (tbl_word_3 m)
  have h3 := lt_of_clip (R := 128) (by decide) (by decide) (tbl_word_4 m)
  have h4 := lt_of_clip (R := 64) (by decide) (by decide) (tbl_word_5 m)
  have h5 := lt_of_clip (R := 128) (by decide) (by decide) (tbl_word_6 m)
  have h6 := lt_of_clip (R := 64) (by decide) (by decide) (tbl_word_7 m)
  have h7 := lt_of_clip (R := 128) (by decide) (by decide) (tbl_word_8 m)
  generalize tbl m 0 = x0 at h0 ⊢
  generalize tbl m 1 = x1 at h1 ⊢
  generalize tbl m 2 = x2 at h2 ⊢
  generalize tbl m 3 = x3 at h3 ⊢
  generalize tbl m 4 = x4 at h4 ⊢
  generalize tbl m 5 = x5 at h5 ⊢
  generalize tbl m 6 = x6 at h6 ⊢
  generalize tbl m 7 = x7 at h7 ⊢
  unfold Hyps
  exact ⟨fun _ _ => chk_rows 256 _ (h0 _), fun _ _ => chk_rows 256 _ (h0 _), fun _ _ => chk_rows 256 _ (h0 _),
    fun _ _ => chk_rows 256 _ (h0 _), fun _ _ => chk_rows 128 _ (h1 _), fun _ _ => chk_rows 128 _ (h1 _),
    fun _ _ => chk_rows 64 _ (h2 _), fun _ _ => chk_rows 64 _ (h2 _), fun _ _ => chk_rows 128 _ (h3 _),
    fun _ _ => chk_rows 128 _ (h3 _), fun _ _ => chk_rows 64 _ (h4 _), fun _ _ => chk_rows 64 _ (h4 _),
    fun _ _ => chk_rows 128 _ (h5 _), fun _ _ => chk_rows 128 _ (h5 _), fun _ _ => chk_rows 64 _ (h6 _),
    fun _ _ => chk_rows 64 _ (h6 _), chk_rows 128 _ (h7 _), chk_rows 128 _ (h7 _)⟩

end Cert.KernelIdeal.Hand

end
-- ==== Proof.KI.ValueBlocks.lean ====
import proofs.«411912_j30219389895125_3_alg».proof.Proof.KI.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen

variable {F : FTy → Type} [FloatOps F]

def resArr {α : Type} (G : Fin 2048 → Fin 64 → α) : S2048x64.Idx → α :=
  fun i => G ⟨(i 0).val, idx2_lt0 i⟩ ⟨(i 1).val, idx2_lt1 i⟩

theorem resArr_congr {α : Type} (G : Fin 2048 → Fin 64 → α) {x x' : Fin 2048} {y y' : Fin 64} (hx : x.val = x'.val) (hy : y.val = y'.val) :
    G x y = G x' y' := by
  rw [Fin.ext hx, Fin.ext hy]

theorem tile_row_lt {N : ℕ} (hN : N = 16) (t : Fin N) (b' : Fin 128) : 128 * t.val + b'.val < 2048 := by
  have := t.isLt; have := b'.isLt; omega

variable (a : (pcfg0 (F := F)).Adm)

theorem outWin_N : (cfg0 a).N = 16 := N_0

theorem outWin_index : ∀ t : Fin (cfg0 a).N, ((cfg0 a).win 11).index t (0 : Fin 2) = t.val ∧ ((cfg0 a).win 11).index t (1 : Fin 2) = 0 :=
  (by decide +kernel : ∀ t : Fin grid0.N, cc0_transform_11 (grid0.coords t) (0 : Fin 2) = t.val ∧ cc0_transform_11 (grid0.coords t) (1 : Fin 2) = 0)

theorem outWin_cover (i : S2048x64.Idx) : ∃ t : Fin (cfg0 a).N, ((cfg0 a).win 11).flush t = true ∧ i ∈ (((cfg0 a).win 11).blk t).view.set := by
  have hi0 : (i 0).val < 2048 := idx2_lt0 i
  have hi1 : (i 1).val < 64 := idx2_lt1 i
  have hN := outWin_N a
  obtain ⟨t, ht⟩ : ∃ t : Fin (cfg0 a).N, t.val = (i 0).val / 128 := ⟨⟨(i 0).val / 128, by omega⟩, rfl⟩
  obtain ⟨e0, e1⟩ := outWin_index a t
  refine ⟨t, flush0_11 a t, ?_⟩
  refine (Finset.ext_iff.mp (View.set_slice_whole main_v109 (((cfg0 a).win 11).rect t)) i).mpr ?_
  refine Rect.mem_set_unit.mpr fun ax => ?_
  match ax with
  | ⟨0, _⟩ =>
    show ((cfg0 a).win 11).index t (0 : Fin 2) * 128 ≤ (i 0).val ∧ (i 0).val < ((cfg0 a).win 11).index t (0 : Fin 2) * 128 + 128
    rw [e0]; omega
  | ⟨1, _⟩ =>
    show ((cfg0 a).win 11).index t (1 : Fin 2) * 64 ≤ (i 1).val ∧ (i 1).val < ((cfg0 a).win 11).index t (1 : Fin 2) * 64 + 64
    rw [e1]; omega

variable {c : Dev nD} (dat : Dat τ (Elt F) Unit ℕ (UR sig nD τ) ℕ (cfg0 a) c)

theorem outWin_flushed_of (G : Fin 2048 → Fin 64 → Elt F .f32)
    (hblk : ∀ (t : Fin (cfg0 a).N) (b' : Fin 128) (j : Fin 64), dat.after 11 t (ix2 b' j) = G ⟨128 * t.val + b'.val, tile_row_lt (outWin_N a) t b'⟩ j)
    (t : Fin (cfg0 a).N) :
    dat.flushed 11 t = (((cfg0 a).win 11).blk t).view.read (Elt F) (resArr G) := by
  refine funext fun (y : S128x64.Idx) => ?_
  obtain ⟨p, q, rfl⟩ : ∃ (p : Fin 128) (q : Fin 64), y = ix2 p q := ⟨y 0, y 1, eq_ix2 y⟩
  show dat.after 11 t (ix2 p q) = resArr G ((((cfg0 a).win 11).blk t).view.emb (ix2 p q))
  refine (hblk t p q).trans ?_
  obtain ⟨e0, e1⟩ := outWin_index a t
  refine resArr_congr G ?_ ?_
  · show 128 * t.val + p.val = ((cfg0 a).win 11).index t (0 : Fin 2) * 128 + 1 * p.val
    rw [e0]; omega
  · show q.val = ((cfg0 a).win 11).index t (1 : Fin 2) * 64 + 1 * q.val
    rw [e1]; omega

theorem outWin_arrAt_of (G : Fin 2048 → Fin 64 → Elt F .f32)
    (hblk : ∀ (t : Fin (cfg0 a).N) (b' : Fin 128) (j : Fin 64), dat.after 11 t (ix2 b' j) = G ⟨128 * t.val + b'.val, tile_row_lt (outWin_N a) t b'⟩ j) :
    dat.arrAt 11 (cfg0 a).N = resArr G :=
  dat.arrAt_eq_of_cover 11 (resArr G) (fun t _ => outWin_flushed_of a dat G hblk t) (outWin_cover a)

end Cert.KernelIdeal.Hand

end
-- ==== Proof.KI.ValueArr.lean ====
import proofs.«411912_j30219389895125_3_alg».proof.Proof.KI.ValueBlocks
import proofs.«411912_j30219389895125_3_alg».proof.Proof.KI.Frame

set_option maxRecDepth 16384

noncomputable section

namespace Cert.KernelIdeal.Hand

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen

variable {F : FTy → Type} [FloatOps F]
variable (m : (ℓ : Loc nD τ sig) → Buf (Elt F) ℓ)

theorem final11_of (hH : ∀ c : Dev nD, Hyps c (tbl m 0) (tbl m 1) (tbl m 2) (tbl m 3) (tbl m 4) (tbl m 5) (tbl m 6) (tbl m 7)) (c : Dev nD) (G : Fin 2048 → Fin 64 → Elt F .f32)
    (hout : ∀ (t : Fin (cfgM m).N) (b' : Fin 128) (j : Fin 64),
      outsAt0 m hH c t (ix2 b' j) = G ⟨128 * t.val + b'.val, tile_row_lt (outWin_N (adm m)) t b'⟩ j) :
    (dats m hH 0 c).arrAt 11 (cfgM m).N = resArr G :=
  outWin_arrAt_of (adm m) (dats m hH 0 c) G
    (fun t b' j => (congrFun (after0_11 m hH c t) (ix2 b' j)).trans (hout t b' j))

end Cert.KernelIdeal.Hand

end
-- ==== Proof.KI.Value.lean ====
import proofs.«411912_j30219389895125_3_alg».proof.Proof.KI.ValueArr

set_option maxRecDepth 16384

noncomputable section

namespace Cert.KernelIdeal.Hand

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen

variable {F : FTy → Type} [FloatOps F]
variable (m : (ℓ : Loc nD τ sig) → Buf (Elt F) ℓ) (ρ : Dev nD → PrngReg)

def resOut {α : Type} (G : Fin 2048 → Fin 64 → α) : S2048x1x64.Idx → α :=
  fun i => G ⟨(i 0).val, (i 0).isLt⟩ ⟨(i 2).val, (i 2).isLt⟩

theorem tail_v110 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1] c main_v110
      = broadcastInDim S2048x1x64 ![0, 2] bcast_S2048x64_S2048x1x64_0_2 ((dats 0 c).arrAt 11 (cfgM m).N) := by
  unfold Pipeline.afterTail
  show StableHlo.after hostOps1 _ (Proc.devRef .tc main_v110) = _
  after_results
  exact congrArg _ (Pipeline.withArrays_arr spec0 winFacts0.arr_inj c _ _ 11)

-- The new middle axis has one entry, so the broadcast reads the array at `(i 0, i 2)`.
theorem bcast_resArr {α : Type} (G : Fin 2048 → Fin 64 → α) :
    broadcastInDim S2048x1x64 ![0, 2] bcast_S2048x64_S2048x1x64_0_2 (resArr G) = resOut G := by
  funext i
  refine (broadcastInDim_apply _ _ (resArr G) i (ix2 (i 0) (i 2)) fun ax => ?_).trans rfl
  match ax with
  | ⟨0, _⟩ => rfl
  | ⟨1, _⟩ => rfl

theorem value_run_of (hH : ∀ c : Dev nD, Hyps c (tbl m 0) (tbl m 1) (tbl m 2) (tbl m 3) (tbl m 4) (tbl m 5) (tbl m 6) (tbl m 7)) (G : Dev nD → Fin 2048 → Fin 64 → Elt F .f32)
    (hout : ∀ (c : Dev nD) (t : Fin (cfgM m).N) (b' : Fin 128) (j : Fin 64),
      outsAt0 m hH c t (ix2 b' j) = G c ⟨128 * t.val + b'.val, tile_row_lt (outWin_N (adm m)) t b'⟩ j) :
    θ_run (defs (F := F)) (onTc (τ := τ) (main (F := F))) ⟨m, fun _ => 0, ρ⟩ (fun r => ∀ c : Dev nD,
      r.2.mem ((c.tc : Thread nD τ).loc main_v110) = resOut (G c)
      ∧ ∀ b ∈ args, r.2.mem ((c.tc : Thread nD τ).loc b) = m ((c.tc : Thread nD τ).loc b)) :=
  (θ_run defs _ _).mono (fun r h c =>
    ⟨((h c).2 main_v110 (by decide : main_v110 ∈ Pipeline.restRefs sig spec0)).trans
        ((tail_v110 m (dats m hH) c).trans
          ((congrArg _ (final11_of m hH c (G c) (hout c))).trans (bcast_resArr (G c)))),
      fun b hb => by
        by_cases e1 : b = main_arg1
        · subst e1; exact ((h c).1 1).trans (((dats m hH 0 c).arrAt_in 1 rfl _).trans ((A_eq m hH c 1).trans (V_main_arg1 m c)))
        by_cases e2 : b = main_arg2
        · subst e2; exact ((h c).1 2).trans (((dats m hH 0 c).arrAt_in 2 rfl _).trans ((A_eq m hH c 2).trans (V_main_arg2 m c)))
        obtain ⟨hr, hw⟩ := (by decide : ∀ b ∈ args, b ≠ main_arg1 → b ≠ main_arg2 →
          b ∈ Pipeline.restRefs sig spec0 ∧ ∀ w, Pipeline.arrRef spec0 w ≠ b) b hb e1 e2
        exact ((h c).2 b hr).trans (W_arg m (dats m hH) c hb hw)⟩)
    (run_main m ρ hH)

end Cert.KernelIdeal.Hand

end
-- ==== Proof.Spec.lean ====
import Idealize.ShloMosaic.PureOps.Ideal
import Mathlib.Algebra.BigOperators.Fin

noncomputable section

namespace Cert.Spec

open Idealize.ShloMosaic

def cl (N : ℕ) (w : BitVec 32) : ℕ := min w.toInt.toNat (N - 1)

theorem cl_lt {N : ℕ} (hN : 0 < N) (w : BitVec 32) : cl N w < N := by
  unfold cl; omega

def row {N : ℕ} (hN : 0 < N) (w : BitVec 32) : Fin N := ⟨cl N w, cl_lt hN w⟩

abbrev cHalf : EReal := Ideal.ofBits .f32 0xBF000000#32
abbrev cL2pi : EReal := Ideal.ofBits .f32 0x3F6B3F8E#32

abbrev cNegInf : EReal := Ideal.ofBits .f32 0xFF800000#32

def leaf (x mu ls : EReal) : EReal :=
  cHalf * ((x - mu) * Ideal.exp (-ls)) * ((x - mu) * Ideal.exp (-ls)) - ls - cL2pi

def vmax (h : Fin 64 → EReal) : EReal := (Finset.univ : Finset (Fin 64)).fold max cNegInf h

def lse (W : Fin 64 → Fin 64 → EReal) (h : Fin 64 → EReal) (j : Fin 64) : EReal :=
  Ideal.log (∑ k : Fin 64, W j k * Ideal.exp (h k - vmax h)) + vmax h

def lvl {Fp Fn : ℕ} (hFp : 0 < Fp) (prev : Fin Fp → Fin 2048 → Fin 64 → EReal)
    (idx : Fin Fn → Fin 2 → BitVec 32) (wp : Fin Fn → Fin 64 → Fin 64 → EReal) :
    Fin Fn → Fin 2048 → Fin 64 → EReal :=
  fun f b j => lse (wp f) (fun k => prev (row hFp (idx f 0)) b k + prev (row hFp (idx f 1)) b k) j

structure Args where
  x : Fin 2048 → Fin 256 → EReal
  mu : Fin 256 → Fin 64 → EReal
  ls : Fin 256 → Fin 64 → EReal
  isi : Fin 256 → BitVec 32
  idx1 : Fin 128 → Fin 2 → BitVec 32
  idx2 : Fin 64 → Fin 2 → BitVec 32
  idx3 : Fin 32 → Fin 2 → BitVec 32
  idx4 : Fin 16 → Fin 2 → BitVec 32
  idx5 : Fin 8 → Fin 2 → BitVec 32
  idx6 : Fin 4 → Fin 2 → BitVec 32
  idx7 : Fin 2 → Fin 2 → BitVec 32
  idx8 : Fin 1 → Fin 2 → BitVec 32
  wp1 : Fin 128 → Fin 64 → Fin 64 → EReal
  wp2 : Fin 64 → Fin 64 → Fin 64 → EReal
  wp3 : Fin 32 → Fin 64 → Fin 64 → EReal
  wp4 : Fin 16 → Fin 64 → Fin 64 → EReal
  wp5 : Fin 8 → Fin 64 → Fin 64 → EReal
  wp6 : Fin 4 → Fin 64 → Fin 64 → EReal
  wp7 : Fin 2 → Fin 64 → Fin 64 → EReal
  wp8 : Fin 1 → Fin 64 → Fin 64 → EReal

def A0 (a : Args) : Fin 256 → Fin 2048 → Fin 64 → EReal :=
  fun d b k => leaf (a.x b (row (by decide : 0 < 256) (a.isi d))) (a.mu d k) (a.ls d k)

def A1 (a : Args) : Fin 128 → Fin 2048 → Fin 64 → EReal := lvl (by decide : 0 < 256) (A0 a) a.idx1 a.wp1
def A2 (a : Args) : Fin 64 → Fin 2048 → Fin 64 → EReal := lvl (by decide : 0 < 128) (A1 a) a.idx2 a.wp2
def A3 (a : Args) : Fin 32 → Fin 2048 → Fin 64 → EReal := lvl (by decide : 0 < 64) (A2 a) a.idx3 a.wp3
def A4 (a : Args) : Fin 16 → Fin 2048 → Fin 64 → EReal := lvl (by decide : 0 < 32) (A3 a) a.idx4 a.wp4
def A5 (a : Args) : Fin 8 → Fin 2048 → Fin 64 → EReal := lvl (by decide : 0 < 16) (A4 a) a.idx5 a.wp5
def A6 (a : Args) : Fin 4 → Fin 2048 → Fin 64 → EReal := lvl (by decide : 0 < 8) (A5 a) a.idx6 a.wp6
def A7 (a : Args) : Fin 2 → Fin 2048 → Fin 64 → EReal := lvl (by decide : 0 < 4) (A6 a) a.idx7 a.wp7
def A8 (a : Args) : Fin 1 → Fin 2048 → Fin 64 → EReal := lvl (by decide : 0 < 2) (A7 a) a.idx8 a.wp8

def out (a : Args) : Fin 2048 → Fin 64 → EReal := fun b j => A8 a 0 b j

end Cert.Spec

end
-- ==== Proof.LibRowsTake.lean ====
import Idealize.ShloMosaic.PureOps.ShapeOps
import Idealize.ShloMosaic.Lib.ValueIdx

namespace Cert.LibRowsTake

open Idealize.ShloMosaic Idealize.ShloMosaic.ValueIdx

variable {α : Type}

abbrev rowsTakeDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rowsTake_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsTakeDims N R C wf) x idx (ix2 r j)
      = x (ix2 ⟨min (idx (ix2 r (0 : Fin 1))).toInt.toNat (N - 1), by omega⟩ j) := by
  have n10 : (1 : Fin 2) ∉ ([0] : List (Fin 2)) := by decide
  unfold Host.gather
  congr 1
  funext a
  refine Fin.ext ?_
  match a with
  | ⟨0, _⟩ =>

    show (rowsTakeDims N R C wf).start (ix2 r j) idx 0 + (rowsTakeDims N R C wf).batchCoord (ix2 r j) 0
      + (rowsTakeDims N R C wf).offCoord (ix2 r j) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTakeDims N R C wf).startIndexMap from List.mem_singleton.mpr rfl)]
    have hsi : (rowsTakeDims N R C wf).siIdx (ix2 r j) ⟨List.idxOf (0 : Fin 2) (rowsTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>

    show (rowsTakeDims N R C wf).start (ix2 r j) idx 1 + (rowsTakeDims N R C wf).batchCoord (ix2 r j) 1
      + (rowsTakeDims N R C wf).offCoord (ix2 r j) 1 = j.val
    unfold GatherDims.start
    rw [dif_neg (show (1 : Fin 2) ∉ (rowsTakeDims N R C wf).startIndexMap from n10),
      GatherDims.batchCoord_eq_zero _ _ _ List.not_mem_nil]
    simp only [Nat.zero_add, Nat.add_zero]
    unfold GatherDims.offCoord
    rw [dif_pos ((GatherDims.mem_sKept _ _).mpr ⟨n10, List.not_mem_nil⟩)]
    rfl

end Cert.LibRowsTake
-- ==== Proof.LibHostRead.lean ====
import Idealize.ShloMosaic.PureOps.Reduce
import Idealize.ShloMosaic.Lib.ReduceAll
import Idealize.ShloMosaic.Lib.ValueIdx
import Idealize.ShloMosaic.Lib.Pipeline.Value

namespace Cert.LibHostRead

open Idealize.ShloMosaic Idealize.ShloMosaic.ValueIdx

theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; decide
    rw [List.foldl_cons, e]
    exact foldl_andi_one f l (fun n hn => h n (List.mem_cons_of_mem _ hn))

theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => ?_)
  rw [List.mem_filter] at hi
  exact hx i (by simpa using hi.2)

theorem drop_unit_last {n p : Nat} (h : (⟨3, ![n, p, 1]⟩ : Shape).ReducesTo [2] ⟨2, ![n, p]⟩)
    (i : (⟨3, ![n, p, 1]⟩ : Shape).Idx) (r : Fin n) (s : Fin p) (hi : h.drop i = ix2 r s) : i = ix3 r s (0 : Fin 1) := by
  have h0 : (h.drop i 0).val = r.val := congrArg (fun k => (k 0).val) hi
  have h1 : (h.drop i 1).val = s.val := congrArg (fun k => (k 1).val) hi
  refine (eq_ix3 i).trans ?_
  have e0 : i 0 = r := Fin.ext h0
  have e1 : i 1 = s := Fin.ext h1
  have h2 : (i 2).val < 1 := (i 2).isLt
  have e2 : i 2 = (0 : Fin 1) := Fin.ext (by show (i 2).val = 0; omega)
  rw [e0, e1, e2]
  exact rfl

theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 :=
  reduce_andi_of_forall x init h hu _ hinit (fun i hi => by rw [drop_unit_last h i r s hi]; exact hx)

theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

end Cert.LibHostRead
-- ==== Proof.KI.HostXv.lean ====
import proofs.«411912_j30219389895125_3_alg».proof.Proof.KI.Kit
import proofs.«411912_j30219389895125_3_alg».proof.Proof.KI.HostTabs
import proofs.«411912_j30219389895125_3_alg».proof.Proof.Spec
import proofs.«411912_j30219389895125_3_alg».proof.Proof.LibRowsTake
import proofs.«411912_j30219389895125_3_alg».proof.Proof.LibHostRead
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

section Layout
variable {α : Type}

theorem cast_col_apply {n : ℕ} (v : (⟨2, ![n, 1]⟩ : Shape).Idx → α) (h : (⟨2, ![n, 1]⟩ : Shape).ShapeCasts ⟨1, ![n]⟩) (d : Fin n) :
    shapeCast ⟨1, ![n]⟩ v h (ix1 d) = v (ix2 d (0 : Fin 1)) :=
  shapeCast_apply v h _ _ (by
    rw [Shape.rowMajor_val_two, Shape.rowMajor_val_one]
    show d.val * 1 + 0 = d.val
    omega)

theorem cast_a1c_ac_apply {a c : ℕ} (x : (⟨3, ![a, 1, c]⟩ : Shape).Idx → α) (h : (⟨3, ![a, 1, c]⟩ : Shape).ShapeCasts ⟨2, ![a, c]⟩)
    (i : Fin a) (k : Fin c) : shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

theorem bcast_rows_apply {n c : ℕ} (v : (⟨1, ![n]⟩ : Shape).Idx → α) (h : (⟨1, ![n]⟩ : Shape).BroadcastsInDim ⟨2, ![n, c]⟩ ![0])
    (d : Fin n) (k : Fin c) : broadcastInDim ⟨2, ![n, c]⟩ ![0] h v (ix2 d k) = v (ix1 d) :=
  broadcastInDim_apply _ h v _ _ (fun a => by
    match a with
    | ⟨0, _⟩ =>
      show d.val = if n = 1 then 0 else d.val
      split
      · have := d.isLt; omega
      · rfl)

end Layout

theorem norm_clip (w : BitVec 32) :
    Scalar.select (IntOp.cmpi .slt (clipW 255 w) 0#32) (IntOp.addi (clipW 255 w) 256#32) (clipW 255 w) = clipW 255 w := by
  have h := clipW_toInt_nonneg 255 (by decide) w
  have h0 : (0#32 : BitVec 32).toInt = 0 := by decide
  have hc : IntOp.cmpi .slt (clipW 255 w) 0#32 = 0#1 := by
    apply eq_zero_of_ne_one
    unfold IntOp.cmpi
    rw [StableHlo.Predicate.ofBool_eq_one_iff]
    simp only [BitVec.slt, decide_eq_true_eq]
    omega
  rw [hc, select_zero]

theorem in_range_clip (w : BitVec 32) :
    IntOp.andi (IntOp.cmpi .sge (clipW 255 w) 0#32) (IntOp.cmpi .sle (clipW 255 w) 255#32) = 1#1 := by
  have h := clipW_toInt 255 (by decide) w
  have h0 : (0#32 : BitVec 32).toInt = 0 := by decide
  have h255 : (255#32 : BitVec 32).toInt = 255 := by decide
  have h1 : IntOp.cmpi .sge (clipW 255 w) 0#32 = 1#1 := by
    unfold IntOp.cmpi
    rw [StableHlo.Predicate.ofBool_eq_one_iff]
    simp only [BitVec.sle, decide_eq_true_eq]
    omega
  have h2 : IntOp.cmpi .sle (clipW 255 w) 255#32 = 1#1 := by
    unfold IntOp.cmpi
    rw [StableHlo.Predicate.ofBool_eq_one_iff]
    simp only [BitVec.sle, decide_eq_true_eq]
    omega
  rw [h1, h2]; decide

abbrev clipV (i0 : S256x1.Idx → BitVec 32) : S256.Idx → BitVec 32 :=
  minsi (broadcastInDim S256 ![] bcast_S_S256 (id (constantI S_ 32 255#32)))
    (maxsi (broadcastInDim S256 ![] bcast_S_S256 (id (constantI S_ 32 0#32))) (shapeCast S256 i0 shapeCasts_S256x1_S256))
abbrev normV (i0 : S256x1.Idx → BitVec 32) : S256.Idx → BitVec 32 :=
  select (cmpi .slt (clipV i0) (broadcastInDim S256 ![] bcast_S_S256 (constantI S_ 32 0#32)))
    (addi (clipV i0) (broadcastInDim S256 ![] bcast_S_S256 (constantI S_ 32 256#32))) (clipV i0)
abbrev colV (i0 : S256x1.Idx → BitVec 32) : S256x1.Idx → BitVec 32 :=
  broadcastInDim S256x1 ![0] bcast_S256_S256x1_0 (normV i0)
abbrev maskV (i0 : S256x1.Idx → BitVec 32) : S256.Idx → BitVec 1 :=
  Host.reduce IntOp.andi
    (andi (cmpi .sge (colV i0) (broadcastInDim S256x1 ![] bcast_S_S256x1 (constantI S_ 32 0#32)))
      (cmpi .sle (colV i0) (broadcastInDim S256x1 ![0, 1] bcast_S1x1_S256x1_0_1
        (broadcastInDim S1x1 ![1] bcast_S1_S1x1_1 (constantI S1 32 255#32)))))
    (constantI S_ 1 1#1) reducesTo_S256x1_S256_d1 h_S_

theorem colV_apply (i0 : S256x1.Idx → BitVec 32) (d : Fin 256) (u : Fin 1) :
    colV i0 (ix2 d u) = clipW 255 (i0 (ix2 d (0 : Fin 1))) := by
  show broadcastInDim S256x1 ![0] bcast_S256_S256x1_0 (normV i0) (ix2 d u) = _
  rw [bcast_rows_apply]
  show Scalar.select (IntOp.cmpi .slt (clipW 255 (shapeCast S256 i0 shapeCasts_S256x1_S256 (ix1 d))) 0#32)
      (IntOp.addi (clipW 255 (shapeCast S256 i0 shapeCasts_S256x1_S256 (ix1 d))) 256#32)
      (clipW 255 (shapeCast S256 i0 shapeCasts_S256x1_S256 (ix1 d))) = _
  rw [cast_col_apply, norm_clip]

theorem maskV_apply (i0 : S256x1.Idx → BitVec 32) (d : Fin 256) : maskV i0 (ix1 d) = 1#1 := by
  refine Cert.LibHostRead.reduce_andi_of_forall _ _ _ _ _ rfl (fun i hi => ?_)
  have h0 : (reducesTo_S256x1_S256_d1.drop i 0).val = d.val := congrArg (fun k => (k 0).val) hi
  have e0 : i 0 = d := Fin.ext h0
  have h1 : (i 1).val < 1 := (i 1).isLt
  have e1 : i 1 = (0 : Fin 1) := Fin.ext (by show (i 1).val = 0; omega)
  have hi0 : i = ix2 d (0 : Fin 1) := by
    refine (eq_ix2 i).trans ?_
    rw [e0, e1]
    exact rfl
  rw [hi0]
  show IntOp.andi (IntOp.cmpi .sge (colV i0 (ix2 d 0)) 0#32) (IntOp.cmpi .sle (colV i0 (ix2 d 0)) 255#32) = 1#1
  rw [colV_apply i0 d 0]; exact in_range_clip _

-- Row `d` of the gather is the transposed input's row at the clamped scope word of `d`; the range mask never fires.
theorem take_point {α : Type} (x0 : S2048x1x256.Idx → α) (i0 : S256x1.Idx → BitVec 32) (other : S256x2048.Idx → α)
    (d : Fin 256) (b : Fin 2048) :
    select (broadcastInDim S256x2048 ![0] bcast_S256_S256x2048_0 (maskV i0))
      (Host.gather gather_S256x2048_S256x1_S256x2048_1_0_n_n_0_1_12048
        (transpose S256x2048 [1, 0] (shapeCast S2048x256 x0 shapeCasts_S2048x1x256_S2048x256) transposes_S2048x256_S256x2048_1_0)
        (colV i0))
      other (ix2 d b)
    = x0 (ix3 b (0 : Fin 1) (Cert.Spec.row (by decide : 0 < 256) (i0 (ix2 d (0 : Fin 1))))) := by
  rw [select_apply, bcast_rows_apply, maskV_apply, select_one]
  have hg : gather_S256x2048_S256x1_S256x2048_1_0_n_n_0_1_12048
      = Cert.LibRowsTake.rowsTakeDims 256 256 2048 gather_S256x2048_S256x1_S256x2048_1_0_n_n_0_1_12048_wf := rfl
  rw [hg]
  refine (Cert.LibRowsTake.gather_rowsTake_apply (by decide) _ _ (colV i0) d b).trans ?_
  rw [transpose_ix2_apply, cast_a1c_ac_apply]
  refine congrArg x0 (congrArg (ix3 b (0 : Fin 1)) (Fin.ext ?_))
  show min (colV i0 (ix2 d (0 : Fin 1))).toInt.toNat (256 - 1) = Cert.Spec.cl 256 (i0 (ix2 d (0 : Fin 1)))
  rw [colV_apply i0 d 0]
  have h := clipW_toInt 255 (by decide) (i0 (ix2 d (0 : Fin 1)))
  unfold Cert.Spec.cl
  omega

variable {F : FTy → Type} [FloatOps F]
variable (m : (ℓ : Loc nD τ sig) → Buf (Elt F) ℓ)

theorem V_xv (c : Dev nD) (d : Fin 256) (b : Fin 2048) :
    V m c main_v4 (ix2 d b)
      = m ((c : Thread nD τ).loc main_arg0) (ix3 b (0 : Fin 1) (Cert.Spec.row (by decide : 0 < 256) (m ((c : Thread nD τ).loc main_arg11) (ix2 d (0 : Fin 1))))) := by
  dsimp only [V, V0]
  simp only [List.flatten_cons, List.flatten_nil, List.append_nil, List.cons_append, List.nil_append]
  open StableHlo in after_results_simp
  simp only [StableHlo.TRef.ofBuf, StableHlo.TRef.toBuf, cast_eq]
  exact take_point (m ((c : Thread nD τ).loc main_arg0)) (m ((c : Thread nD τ).loc main_arg11)) _ d b

end Cert.KernelIdeal.Hand

end
-- ==== Proof.KI.HostVals.lean ====
import proofs.«411912_j30219389895125_3_alg».proof.Proof.KI.Kit
import proofs.«411912_j30219389895125_3_alg».proof.Proof.KI.HostXv
import proofs.«411912_j30219389895125_3_alg».proof.Proof.Spec
import Idealize.ShloMosaic.Lib.ValueIdx
import Idealize.ShloMosaic.Lib.Pipeline.Value

set_option Elab.async false

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ)

section
variable (n : ℕ) (b0 : S_.BroadcastsInDim ⟨2, ![n, 64]⟩ (![] : Fin 0 → Fin 2))
    (b1 : (⟨2, ![n, 64]⟩ : Shape).BroadcastsInDim ⟨3, ![n, 64, 1]⟩ (![0, 1] : Fin 2 → Fin 3))
    (b2 : (⟨3, ![n, 64, 1]⟩ : Shape).BroadcastsInDim ⟨3, ![n, 64, 64]⟩ (![0, 1, 2] : Fin 3 → Fin 3))
    (r : (⟨3, ![n, 64, 64]⟩ : Shape).ReducesTo [2] ⟨2, ![n, 64]⟩)

-- The exponentials of an `[n, 64, 64]` array's entries, each shifted by its row's maximum along the last axis.
def expShift (x : FVec Ideal ⟨3, ![n, 64, 64]⟩ .f32) : FVec Ideal ⟨3, ![n, 64, 64]⟩ .f32 :=
  Host.exp (F := Ideal) (φ := .f32) (subf (F := Ideal) (φ := .f32) x
    (broadcastInDim ⟨3, ![n, 64, 64]⟩ ![0, 1, 2] b2
      (broadcastInDim ⟨3, ![n, 64, 1]⟩ ![0, 1] b1
        (maximumf (F := Ideal) (φ := .f32) (broadcastInDim ⟨2, ![n, 64]⟩ ![] b0 (constant (F := Ideal) S_ .f32 0xFF800000#32))
          (Host.reduce FloatOps.maximumf x (constant (F := Ideal) S_ .f32 0xFF800000#32) r h_S_)))))

-- Softmax along the last axis: the shifted exponentials divided by their row sums, spelled with the program's operations.
def softmaxK (x : FVec Ideal ⟨3, ![n, 64, 64]⟩ .f32) : FVec Ideal ⟨3, ![n, 64, 64]⟩ .f32 :=
  Host.divf (F := Ideal) (φ := .f32) (expShift n b0 b1 b2 r x)
    (broadcastInDim ⟨3, ![n, 64, 64]⟩ ![0, 1, 2] b2
      (broadcastInDim ⟨3, ![n, 64, 1]⟩ ![0, 1] b1
        (Host.reduceAdd (F := Ideal) (φ := .f32) (expShift n b0 b1 b2 r x) (constant (F := Ideal) S_ .f32 0x00000000#32) r h_S_)))
end

def wpK_1 (x : S128x64x64.Idx → EReal) : S128x64x64.Idx → EReal :=
  softmaxK 128 bcast_S_S128x64 bcast_S128x64_S128x64x1_0_1 bcast_S128x64x1_S128x64x64_0_1_2 reducesTo_S128x64x64_S128x64_d2 x
def wpK_2 (x : S64x64x64.Idx → EReal) : S64x64x64.Idx → EReal :=
  softmaxK 64 bcast_S_S64x64 bcast_S64x64_S64x64x1_0_1 bcast_S64x64x1_S64x64x64_0_1_2 reducesTo_S64x64x64_S64x64_d2 x
def wpK_3 (x : S32x64x64.Idx → EReal) : S32x64x64.Idx → EReal :=
  softmaxK 32 bcast_S_S32x64 bcast_S32x64_S32x64x1_0_1 bcast_S32x64x1_S32x64x64_0_1_2 reducesTo_S32x64x64_S32x64_d2 x
def wpK_4 (x : S16x64x64.Idx → EReal) : S16x64x64.Idx → EReal :=
  softmaxK 16 bcast_S_S16x64 bcast_S16x64_S16x64x1_0_1 bcast_S16x64x1_S16x64x64_0_1_2 reducesTo_S16x64x64_S16x64_d2 x
def wpK_5 (x : S8x64x64.Idx → EReal) : S8x64x64.Idx → EReal :=
  softmaxK 8 bcast_S_S8x64 bcast_S8x64_S8x64x1_0_1 bcast_S8x64x1_S8x64x64_0_1_2 reducesTo_S8x64x64_S8x64_d2 x
def wpK_6 (x : S4x64x64.Idx → EReal) : S4x64x64.Idx → EReal :=
  softmaxK 4 bcast_S_S4x64 bcast_S4x64_S4x64x1_0_1 bcast_S4x64x1_S4x64x64_0_1_2 reducesTo_S4x64x64_S4x64_d2 x
def wpK_7 (x : S2x64x64.Idx → EReal) : S2x64x64.Idx → EReal :=
  softmaxK 2 bcast_S_S2x64 bcast_S2x64_S2x64x1_0_1 bcast_S2x64x1_S2x64x64_0_1_2 reducesTo_S2x64x64_S2x64_d2 x
def wpK_8 (x : S1x64x64.Idx → EReal) : S1x64x64.Idx → EReal :=
  softmaxK 1 bcast_S_S1x64 bcast_S1x64_S1x64x1_0_1 bcast_S1x64x1_S1x64x64_0_1_2 reducesTo_S1x64x64_S1x64_d2 x

theorem V_wp_1 (c : Dev nD) : (V m c main_v31 : S128x64x64.Idx → EReal) = wpK_1 (m ((c : Thread nD τ).loc main_arg3)) := by
  dsimp only [V, V0]
  simp only [List.flatten_cons, List.flatten_nil, List.append_nil, List.cons_append, List.nil_append]
  after_results_simp
  rfl
theorem V_wp_2 (c : Dev nD) : (V m c main_v42 : S64x64x64.Idx → EReal) = wpK_2 (m ((c : Thread nD τ).loc main_arg4)) := by
  dsimp only [V, V0]
  simp only [List.flatten_cons, List.flatten_nil, List.append_nil, List.cons_append, List.nil_append]
  after_results_simp
  rfl
theorem V_wp_3 (c : Dev nD) : (V m c main_v53 : S32x64x64.Idx → EReal) = wpK_3 (m ((c : Thread nD τ).loc main_arg5)) := by
  dsimp only [V, V0]
  simp only [List.flatten_cons, List.flatten_nil, List.append_nil, List.cons_append, List.nil_append]
  after_results_simp
  rfl
theorem V_wp_4 (c : Dev nD) : (V m c main_v64 : S16x64x64.Idx → EReal) = wpK_4 (m ((c : Thread nD τ).loc main_arg6)) := by
  dsimp only [V, V0]
  simp only [List.flatten_cons, List.flatten_nil, List.append_nil, List.cons_append, List.nil_append]
  after_results_simp
  rfl
theorem V_wp_5 (c : Dev nD) : (V m c main_v75 : S8x64x64.Idx → EReal) = wpK_5 (m ((c : Thread nD τ).loc main_arg7)) := by
  dsimp only [V, V0]
  simp only [List.flatten_cons, List.flatten_nil, List.append_nil, List.cons_append, List.nil_append]
  after_results_simp
  rfl
theorem V_wp_6 (c : Dev nD) : (V m c main_v86 : S4x64x64.Idx → EReal) = wpK_6 (m ((c : Thread nD τ).loc main_arg8)) := by
  dsimp only [V, V0]
  simp only [List.flatten_cons, List.flatten_nil, List.append_nil, List.cons_append, List.nil_append]
  after_results_simp
  rfl
theorem V_wp_7 (c : Dev nD) : (V m c main_v97 : S2x64x64.Idx → EReal) = wpK_7 (m ((c : Thread nD τ).loc main_arg9)) := by
  dsimp only [V, V0]
  simp only [List.flatten_cons, List.flatten_nil, List.append_nil, List.cons_append, List.nil_append]
  after_results_simp
  rfl
theorem V_wp_8 (c : Dev nD) : (V m c main_v108 : S1x64x64.Idx → EReal) = wpK_8 (m ((c : Thread nD τ).loc main_arg10)) := by
  dsimp only [V, V0]
  simp only [List.flatten_cons, List.flatten_nil, List.append_nil, List.cons_append, List.nil_append]
  after_results_simp
  rfl

def argsK (c : Dev nD) : Cert.Spec.Args where
  x b d := (m ((c : Thread nD τ).loc main_arg0) : S2048x1x256.Idx → EReal) (ix3 b 0 d)
  mu d k := (m ((c : Thread nD τ).loc main_arg1) : S256x64.Idx → EReal) (ix2 d k)
  ls d k := (m ((c : Thread nD τ).loc main_arg2) : S256x64.Idx → EReal) (ix2 d k)
  isi d := (m ((c : Thread nD τ).loc main_arg11) : S256x1.Idx → BitVec 32) (ix2 d 0)
  idx1 f s := (m ((c : Thread nD τ).loc main_arg12) : S128x2.Idx → BitVec 32) (ix2 f s)
  idx2 f s := (m ((c : Thread nD τ).loc main_arg13) : S64x2.Idx → BitVec 32) (ix2 f s)
  idx3 f s := (m ((c : Thread nD τ).loc main_arg14) : S32x2.Idx → BitVec 32) (ix2 f s)
  idx4 f s := (m ((c : Thread nD τ).loc main_arg15) : S16x2.Idx → BitVec 32) (ix2 f s)
  idx5 f s := (m ((c : Thread nD τ).loc main_arg16) : S8x2.Idx → BitVec 32) (ix2 f s)
  idx6 f s := (m ((c : Thread nD τ).loc main_arg17) : S4x2.Idx → BitVec 32) (ix2 f s)
  idx7 f s := (m ((c : Thread nD τ).loc main_arg18) : S2x2.Idx → BitVec 32) (ix2 f s)
  idx8 f s := (m ((c : Thread nD τ).loc main_arg19) : S1x2.Idx → BitVec 32) (ix2 f s)
  wp1 f j k := wpK_1 (m ((c : Thread nD τ).loc main_arg3)) (ix3 f j k)
  wp2 f j k := wpK_2 (m ((c : Thread nD τ).loc main_arg4)) (ix3 f j k)
  wp3 f j k := wpK_3 (m ((c : Thread nD τ).loc main_arg5)) (ix3 f j k)
  wp4 f j k := wpK_4 (m ((c : Thread nD τ).loc main_arg6)) (ix3 f j k)
  wp5 f j k := wpK_5 (m ((c : Thread nD τ).loc main_arg7)) (ix3 f j k)
  wp6 f j k := wpK_6 (m ((c : Thread nD τ).loc main_arg8)) (ix3 f j k)
  wp7 f j k := wpK_7 (m ((c : Thread nD τ).loc main_arg9)) (ix3 f j k)
  wp8 f j k := wpK_8 (m ((c : Thread nD τ).loc main_arg10)) (ix3 f j k)

theorem cfgM_N : (cfgM m).N = 16 := N_0
theorem tile_lt (t : Fin (cfgM m).N) : t.val < 16 := lt_of_lt_of_eq t.isLt (cfgM_N m)

theorem idx0_facts : ∀ t : Fin grid0.N, cc0_transform_0 (grid0.coords t) (0 : Fin 2) = 0 ∧ cc0_transform_0 (grid0.coords t) (1 : Fin 2) = t.val :=
  by decide +kernel
-- Tile `t`'s block of the first window is the 128 batch entries from `128 t` on, over all 256 rows.
theorem iblk0_apply (c : Dev nD) (t : Fin (cfgM m).N) (d : Fin 256) (b' : Fin 128) :
    (iblk m c 0 t : S256x128.Idx → EReal) (ix2 d b')
      = (V m c main_v4 : S256x2048.Idx → EReal) (ix2 d ⟨128 * t.val + b'.val, by have := tile_lt m t; omega⟩) := by
  obtain ⟨e0, e1⟩ := idx0_facts t
  show (V m c main_v4 : S256x2048.Idx → EReal) ((((cfgM m).win 0).blk t).view.emb (ix2 d b')) = _
  congr 1
  funext a; apply Fin.ext
  match a with
  | ⟨0, _⟩ => show cc0_transform_0 (grid0.coords t) (0 : Fin 2) * 256 + 1 * d.val = d.val; omega
  | ⟨1, _⟩ => show cc0_transform_0 (grid0.coords t) (1 : Fin 2) * 128 + 1 * b'.val = 128 * t.val + b'.val; omega

-- A block whose index is 0 on every axis and whose extents are the array's is the whole array.
theorem read_block0 {s : Shape} {X : Type} (g : s.Idx → X) (e : s.Idx → s.Idx) (T sz : Fin s.rank → ℕ) (hT : ∀ a, T a = 0)
    (he : ∀ y a, (e y a).val = T a * sz a + 1 * (y a).val) : (fun y => g (e y)) = g :=
  funext fun y => congrArg g (funext fun a => Fin.ext (by rw [he, hT, Nat.zero_mul, Nat.zero_add, Nat.one_mul]))

theorem idx1_facts : ∀ (t : Fin grid0.N) (a : Fin 2), cc0_transform_1 (grid0.coords t) a = 0 := by decide +kernel
theorem iblk1_eq (c : Dev nD) (t : Fin (cfgM m).N) : (iblk m c 1 t : S256x64.Idx → EReal) = (V m c main_arg1 : S256x64.Idx → EReal) :=
  read_block0 (V m c main_arg1 : S256x64.Idx → EReal) (((cfgM m).win 1).blk t).view.emb (cc0_transform_1 (grid0.coords t)) S256x64.size (idx1_facts t) fun _ _ => rfl
theorem idx2_facts : ∀ (t : Fin grid0.N) (a : Fin 2), cc0_transform_2 (grid0.coords t) a = 0 := by decide +kernel
theorem iblk2_eq (c : Dev nD) (t : Fin (cfgM m).N) : (iblk m c 2 t : S256x64.Idx → EReal) = (V m c main_arg2 : S256x64.Idx → EReal) :=
  read_block0 (V m c main_arg2 : S256x64.Idx → EReal) (((cfgM m).win 2).blk t).view.emb (cc0_transform_2 (grid0.coords t)) S256x64.size (idx2_facts t) fun _ _ => rfl
theorem idx3_facts : ∀ (t : Fin grid0.N) (a : Fin 3), cc0_transform_3 (grid0.coords t) a = 0 := by decide +kernel
theorem iblk3_eq (c : Dev nD) (t : Fin (cfgM m).N) : (iblk m c 3 t : S128x64x64.Idx → EReal) = (V m c main_v31 : S128x64x64.Idx → EReal) :=
  read_block0 (V m c main_v31 : S128x64x64.Idx → EReal) (((cfgM m).win 3).blk t).view.emb (cc0_transform_3 (grid0.coords t)) S128x64x64.size (idx3_facts t) fun _ _ => rfl
theorem idx4_facts : ∀ (t : Fin grid0.N) (a : Fin 3), cc0_transform_4 (grid0.coords t) a = 0 := by decide +kernel
theorem iblk4_eq (c : Dev nD) (t : Fin (cfgM m).N) : (iblk m c 4 t : S64x64x64.Idx → EReal) = (V m c main_v42 : S64x64x64.Idx → EReal) :=
  read_block0 (V m c main_v42 : S64x64x64.Idx → EReal) (((cfgM m).win 4).blk t).view.emb (cc0_transform_4 (grid0.coords t)) S64x64x64.size (idx4_facts t) fun _ _ => rfl
theorem idx5_facts : ∀ (t : Fin grid0.N) (a : Fin 3), cc0_transform_5 (grid0.coords t) a = 0 := by decide +kernel
theorem iblk5_eq (c : Dev nD) (t : Fin (cfgM m).N) : (iblk m c 5 t : S32x64x64.Idx → EReal) = (V m c main_v53 : S32x64x64.Idx → EReal) :=
  read_block0 (V m c main_v53 : S32x64x64.Idx → EReal) (((cfgM m).win 5).blk t).view.emb (cc0_transform_5 (grid0.coords t)) S32x64x64.size (idx5_facts t) fun _ _ => rfl
theorem idx6_facts : ∀ (t : Fin grid0.N) (a : Fin 3), cc0_transform_6 (grid0.coords t) a = 0 := by decide +kernel
theorem iblk6_eq (c : Dev nD) (t : Fin (cfgM m).N) : (iblk m c 6 t : S16x64x64.Idx → EReal) = (V m c main_v64 : S16x64x64.Idx → EReal) :=
  read_block0 (V m c main_v64 : S16x64x64.Idx → EReal) (((cfgM m).win 6).blk t).view.emb (cc0_transform_6 (grid0.coords t)) S16x64x64.size (idx6_facts t) fun _ _ => rfl
theorem idx7_facts : ∀ (t : Fin grid0.N) (a : Fin 3), cc0_transform_7 (grid0.coords t) a = 0 := by decide +kernel
theorem iblk7_eq (c : Dev nD) (t : Fin (cfgM m).N) : (iblk m c 7 t : S8x64x64.Idx → EReal) = (V m c main_v75 : S8x64x64.Idx → EReal) :=
  read_block0 (V m c main_v75 : S8x64x64.Idx → EReal) (((cfgM m).win 7).blk t).view.emb (cc0_transform_7 (grid0.coords t)) S8x64x64.size (idx7_facts t) fun _ _ => rfl
theorem idx8_facts : ∀ (t : Fin grid0.N) (a : Fin 3), cc0_transform_8 (grid0.coords t) a = 0 := by decide +kernel
theorem iblk8_eq (c : Dev nD) (t : Fin (cfgM m).N) : (iblk m c 8 t : S4x64x64.Idx → EReal) = (V m c main_v86 : S4x64x64.Idx → EReal) :=
  read_block0 (V m c main_v86 : S4x64x64.Idx → EReal) (((cfgM m).win 8).blk t).view.emb (cc0_transform_8 (grid0.coords t)) S4x64x64.size (idx8_facts t) fun _ _ => rfl
theorem idx9_facts : ∀ (t : Fin grid0.N) (a : Fin 3), cc0_transform_9 (grid0.coords t) a = 0 := by decide +kernel
theorem iblk9_eq (c : Dev nD) (t : Fin (cfgM m).N) : (iblk m c 9 t : S2x64x64.Idx → EReal) = (V m c main_v97 : S2x64x64.Idx → EReal) :=
  read_block0 (V m c main_v97 : S2x64x64.Idx → EReal) (((cfgM m).win 9).blk t).view.emb (cc0_transform_9 (grid0.coords t)) S2x64x64.size (idx9_facts t) fun _ _ => rfl
theorem idx10_facts : ∀ (t : Fin grid0.N) (a : Fin 3), cc0_transform_10 (grid0.coords t) a = 0 := by decide +kernel
theorem iblk10_eq (c : Dev nD) (t : Fin (cfgM m).N) : (iblk m c 10 t : S1x64x64.Idx → EReal) = (V m c main_v108 : S1x64x64.Idx → EReal) :=
  read_block0 (V m c main_v108 : S1x64x64.Idx → EReal) (((cfgM m).win 10).blk t).view.emb (cc0_transform_10 (grid0.coords t)) S1x64x64.size (idx10_facts t) fun _ _ => rfl

end Cert.KernelIdeal.Hand

end
-- ==== Proof.KI.PayLib.lean ====
import Idealize.ShloMosaic.PureOps.Ideal
import Idealize.ShloMosaic.PureOps.Ideal.Laws
import Idealize.ShloMosaic.Lib.ValueIdx
import Idealize.ShloMosaic.Lib.Pipeline.Value

noncomputable section

namespace Cert.PayLib

open Idealize.ShloMosaic Idealize.ShloMosaic.ValueIdx
open scoped BigOperators

section Layout
variable {α : Type}

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

theorem keptMiddle_apply {a c b : ℕ} (x : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩) (i : Fin a) (k : Fin c) (j : Fin b) :
    broadcastTo ⟨3, ![a, c, b]⟩ (shapeCast ⟨3, ![a, 1, b]⟩ x h1) h2 (ix3 i k j) = x (ix2 i j) :=
  (broadcastTo_a1b_acb_apply _ h2 i k j).trans (shapeCast_ab_a1b_apply x h1 i 0 j)

end Layout

section Max

theorem lift_middle {a c b : ℕ} (h : (⟨3, ![a, c, b]⟩ : Shape).Reduces [1] ⟨2, ![a, b]⟩) (i : Fin a) (j : Fin b) (k : Fin c) :
    h.lift (ix2 i j) k = ix3 i k j := by
  funext ax
  apply Fin.ext
  match ax with
  | ⟨0, _⟩ => rfl
  | ⟨1, _⟩ => rfl
  | ⟨2, _⟩ => rfl

theorem maxMiddle_apply {a c b : ℕ} {φ : FTy} (src : FVec Ideal ⟨3, ![a, c, b]⟩ φ) (acc : BitVec φ.bits)
    (h : (⟨3, ![a, c, b]⟩ : Shape).Reduces [1] ⟨2, ![a, b]⟩) (hφ : FKind.Formats φ)
    (hacc : acc = FKind.maximumf.neutral φ hφ) (i : Fin a) (j : Fin b) :
    multiReduction .maximumf [1] ⟨2, ![a, b]⟩ src acc h hφ hacc (ix2 i j)
      = (Finset.univ : Finset (Fin c)).fold max (Ideal.ofBits φ acc) (fun k => src (ix3 i k j)) := by
  refine (Ideal.multiReduction_maximumf_single src acc h hφ hacc (ix2 i j)).trans ?_
  have : (src ∘ h.lift (ix2 i j)) = fun k : Fin c => src (ix3 i k j) := funext fun k => congrArg src (lift_middle h i j k)
  rw [this]
  rfl

end Max

section Dot
variable {C M K N : ℕ}

theorem batched_sum (d : DotDims ⟨3, ![C, M, K]⟩ ⟨3, ![C, K, N]⟩ ⟨3, ![C, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (f : (⟨3, ![C, M, K]⟩ : Shape).Idx → EReal) (g : (⟨3, ![C, K, N]⟩ : Shape).Idx → EReal)
    (c : Fin C) (p : Fin M) (q : Fin N) :
    ∑ k : d.contr.Idx, f (d.lhsIdx (ix3 c p q) k) * g (d.rhsIdx (ix3 c p q) k)
      = ∑ k : Fin K, f (ix3 c p k) * g (ix3 c k q) := by
  cases d with
  | mk lc rc ln rn lb rb wf =>
    simp only at hlc hrc hln hrn hlb hrb
    subst hlc hrc hln hrn hlb hrb
    rw [← Equiv.sum_comp (contrEquiv1 _ K rfl rfl).symm]
    refine Finset.sum_congr rfl fun k _ => ?_
    congr 2
    · funext ax
      apply Fin.ext
      match ax with
      | ⟨0, _⟩ => rfl
      | ⟨1, _⟩ => rfl
      | ⟨2, _⟩ => rfl
    · funext ax
      apply Fin.ext
      match ax with
      | ⟨0, _⟩ => rfl
      | ⟨1, _⟩ => rfl
      | ⟨2, _⟩ => rfl

theorem batched_matmul_zero_apply (d : DotDims ⟨3, ![C, M, K]⟩ ⟨3, ![C, K, N]⟩ ⟨3, ![C, M, N]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (lhs : FVec Ideal ⟨3, ![C, M, K]⟩ .f32) (rhs : FVec Ideal ⟨3, ![C, K, N]⟩ .f32)
    (c : Fin C) (p : Fin M) (q : Fin N) :
    FloatOps.matmul d prec lhs rhs (constant ⟨3, ![C, M, N]⟩ .f32 0x00000000#32) (ix3 c p q)
      = ∑ k : Fin K, lhs (ix3 c p k) * rhs (ix3 c k q) := by
  rw [Ideal.matmul_constant_zero_apply]
  exact batched_sum d hlc hrc hln hrn hlb hrb lhs rhs c p q

end Dot

end Cert.PayLib

end
-- ==== Proof.LibKeepdims.lean ====
import Idealize.ShloMosaic.Lib.ValueIdx
import Idealize.ShloMosaic.Lib.Pipeline.Value

namespace Cert.LibKeepdims

open Idealize.ShloMosaic Idealize.ShloMosaic.ValueIdx

variable {α : Type}

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem keptColumn_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.LibKeepdims
-- ==== Proof.KI.PayLeaf.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.PayLib
import proofs.«411912_j30219389895125_3_alg».proof.Proof.LibKeepdims

noncomputable section

namespace Cert.KernelIdeal.Hand

open Idealize.ShloMosaic Idealize.ShloMosaic.ValueIdx
open Cert.KernelIdeal Cert.KernelIdeal.Gen
open Cert.PayLib Cert.LibKeepdims

theorem leaf_exp_apply {s : Shape} {φ : FTy} (a : FVec Ideal s φ) (i : s.Idx) : exp a i = Ideal.exp (a i) := rfl

def leafZ (xv : FVec Ideal S32x128 .f32) (mu ls : FVec Ideal S32x64 .f32) : FVec Ideal S32x64x128 .f32 :=
  mulf
    (subf
      (broadcastTo S32x64x128 (shapeCast S32x1x128 (shapeCast S32x128 xv shapeCasts_S32x128_S32x128)
        shapeCasts_S32x128_S32x1x128) broadcasts_S32x1x128_S32x64x128)
      (broadcastTo S32x64x128 (shapeCast S32x64x1 mu shapeCasts_S32x64_S32x64x1) broadcasts_S32x64x1_S32x64x128))
    (broadcastTo S32x64x128
      (shapeCast S32x64x1 (exp (subf (broadcast S32x64 (Scalar.ofBits (F := Ideal) .f32 0x00000000#32)) ls))
        shapeCasts_S32x64_S32x64x1) broadcasts_S32x64x1_S32x64x128)

def leafV (z : FVec Ideal S32x64x128 .f32) (ls : FVec Ideal S32x64 .f32) : FVec Ideal S32x64x128 .f32 :=
  shapeCast S32x64x128
    (subf
      (subf (mulf (mulf (broadcast S32x64x128 (Scalar.ofBits (F := Ideal) .f32 0xBF000000#32)) z) z)
        (broadcastTo S32x64x128 (shapeCast S32x64x1 ls shapeCasts_S32x64_S32x64x1) broadcasts_S32x64x1_S32x64x128))
      (broadcast S32x64x128 (Scalar.ofBits (F := Ideal) .f32 0x3F6B3F8E#32)))
    shapeCasts_S32x64x128_S32x64x128

theorem leafZ_apply (xv : FVec Ideal S32x128 .f32) (mu ls : FVec Ideal S32x64 .f32)
    (p : Fin 32) (k : Fin 64) (b : Fin 128) :
    leafZ xv mu ls (ix3 p k b) = (xv (ix2 p b) - mu (ix2 p k)) * Ideal.exp (-(ls (ix2 p k))) := by
  unfold leafZ
  rw [mulf_apply, subf_apply, keptMiddle_apply, shapeCast_self, keptColumn_apply, keptColumn_apply, leaf_exp_apply,
    subf_apply, broadcast_apply]
  show (xv (ix2 p b) - mu (ix2 p k)) * Ideal.exp (Ideal.ofBits .f32 0x00000000#32 - ls (ix2 p k)) = _
  rw [Ideal.ofBits_zero_f32, zero_sub]

theorem leafV_apply (z : FVec Ideal S32x64x128 .f32) (ls : FVec Ideal S32x64 .f32)
    (p : Fin 32) (k : Fin 64) (b : Fin 128) :
    leafV z ls (ix3 p k b)
      = Cert.Spec.cHalf * z (ix3 p k b) * z (ix3 p k b) - ls (ix2 p k) - Cert.Spec.cL2pi := by
  unfold leafV
  refine (congrFun (shapeCast_self _ _) _).trans ?_
  rw [subf_apply, subf_apply, mulf_apply, mulf_apply, keptColumn_apply, broadcast_apply, broadcast_apply]
  rfl

theorem leaf_apply (xv : FVec Ideal S32x128 .f32) (mu ls : FVec Ideal S32x64 .f32)
    (p : Fin 32) (k : Fin 64) (b : Fin 128) :
    leafV (leafZ xv mu ls) ls (ix3 p k b) = Cert.Spec.leaf (xv (ix2 p b)) (mu (ix2 p k)) (ls (ix2 p k)) := by
  rw [leafV_apply, leafZ_apply]
  rfl

theorem pay1_apply (v0 : Vec Ideal S32x128 .f32) (v2 v3 : Vec Ideal S32x64 .f32)
    (p : Fin 32) (k : Fin 64) (b : Fin 128) :
    k0_pay1 v0 v2 v3 (ix3 p k b)
      = Cert.Spec.leaf (v0 (ix2 p b)) (v2 (ix2 p k)) (v3 (ix2 p k)) :=
  leaf_apply v0 v2 v3 p k b

theorem pay4_apply (v26 : Vec Ideal S32x128 .f32) (v28 v29 : Vec Ideal S32x64 .f32)
    (p : Fin 32) (k : Fin 64) (b : Fin 128) :
    k0_pay4 v29 (k0_pay2 v26 v28) (k0_pay3 v29) (ix3 p k b)
      = Cert.Spec.leaf (v26 (ix2 p b)) (v28 (ix2 p k)) (v29 (ix2 p k)) :=
  leaf_apply v26 v28 v29 p k b

theorem pay5_apply (v52 : Vec Ideal S32x128 .f32) (v54 v55 : Vec Ideal S32x64 .f32)
    (p : Fin 32) (k : Fin 64) (b : Fin 128) :
    k0_pay5 v52 v54 v55 (ix3 p k b)
      = Cert.Spec.leaf (v52 (ix2 p b)) (v54 (ix2 p k)) (v55 (ix2 p k)) :=
  leaf_apply v52 v54 v55 p k b

theorem pay6_apply (v78 : Vec Ideal S32x128 .f32) (v80 v81 : Vec Ideal S32x64 .f32)
    (p : Fin 32) (k : Fin 64) (b : Fin 128) :
    k0_pay6 v78 v80 v81 (ix3 p k b)
      = Cert.Spec.leaf (v78 (ix2 p b)) (v80 (ix2 p k)) (v81 (ix2 p k)) :=
  leaf_apply v78 v80 v81 p k b

theorem pay8_apply (v104 : Vec Ideal S32x128 .f32) (v106 v107 : Vec Ideal S32x64 .f32)
    (p : Fin 32) (k : Fin 64) (b : Fin 128) :
    k0_pay8 v107 (k0_pay7 v104 v106 v107) (Scalar.ofBits (F := Ideal) .f32 0xBF000000#32) (ix3 p k b)
      = Cert.Spec.leaf (v104 (ix2 p b)) (v106 (ix2 p k)) (v107 (ix2 p k)) :=
  leaf_apply v104 v106 v107 p k b

theorem pay9_apply (v130 : Vec Ideal S32x128 .f32) (v132 v133 : Vec Ideal S32x64 .f32)
    (p : Fin 32) (k : Fin 64) (b : Fin 128) :
    k0_pay9 v130 v132 v133 (ix3 p k b)
      = Cert.Spec.leaf (v130 (ix2 p b)) (v132 (ix2 p k)) (v133 (ix2 p k)) :=
  leaf_apply v130 v132 v133 p k b

theorem pay11_apply (v156 : Vec Ideal S32x128 .f32) (v158 v159 : Vec Ideal S32x64 .f32)
    (p : Fin 32) (k : Fin 64) (b : Fin 128) :
    k0_pay11 (k0_pay10 v156) v158 v159 (ix3 p k b)
      = Cert.Spec.leaf (v156 (ix2 p b)) (v158 (ix2 p k)) (v159 (ix2 p k)) :=
  leaf_apply v156 v158 v159 p k b

theorem pay13_apply (v182 : Vec Ideal S32x128 .f32) (v184 v185 : Vec Ideal S32x64 .f32)
    (p : Fin 32) (k : Fin 64) (b : Fin 128) :
    k0_pay13 v185 (k0_pay12 v182 v184 v185) (ix3 p k b)
      = Cert.Spec.leaf (v182 (ix2 p b)) (v184 (ix2 p k)) (v185 (ix2 p k)) :=
  leaf_apply v182 v184 v185 p k b

end Cert.KernelIdeal.Hand

end
-- ==== Proof.KI.BodyLeaves.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.PayLeaf
import Idealize.ShloMosaic.Lib.WritesUnit
import Idealize.ShloMosaic.Lib.Pipeline.FrameBody

noncomputable section

namespace Cert.KernelIdeal.Hand

open Idealize.ShloMosaic Idealize.ShloMosaic.ValueIdx
open Cert.KernelIdeal Cert.KernelIdeal.Gen

theorem ld_rows2 {N M C c0 : ℕ} {Val : EltTy → Type} {e : EltTy} (X : (⟨2, ![N, M]⟩ : Shape).Idx → Val e)
    {off : Fin 2 → ℕ} (hoff : off = ![c0, 0])
    (inb : ∀ a, off a + (![C, M] : Fin 2 → ℕ) a ≤ (⟨2, ![N, M]⟩ : Shape).size a)
    (p : Fin C) (b : Fin M) (r : Fin N) (hr : r.val = c0 + p.val) :
    View.ld X (Rect.unit (s := (⟨2, ![N, M]⟩ : Shape)) off ![C, M] inb) (ix2 p b) = X (ix2 r b) := by
  subst hoff
  refine congrArg X (funext fun a => Fin.ext ?_)
  match a with
  | ⟨0, _⟩ => show c0 + 1 * p.val = r.val; omega
  | ⟨1, _⟩ => show 0 + 1 * b.val = b.val; omega

def leavesL (x0 : Vec Ideal S256x128 .f32) (x1 x2 : Vec Ideal S256x64 .f32) :
    List (View.Piece (Elt Ideal) S256x64x128 .f32) :=
  [
    (⟨Rect.unit (s := S256x64x128) ![224, 0, 0] S32x64x128.size inb_S256x64x128_S32x64x128_224_0_0,
      k0_pay13 (View.ld (Val := Elt Ideal) x2 (Rect.unit (s := S256x64) ![224, 0] S32x64.size inb_S256x64_S32x64_224_0)) (k0_pay12 (View.ld (Val := Elt Ideal) x0 (Rect.unit (s := S256x128) ![224, 0] S32x128.size inb_S256x128_S32x128_224_0)) (View.ld (Val := Elt Ideal) x1 (Rect.unit (s := S256x64) ![224, 0] S32x64.size inb_S256x64_S32x64_224_0)) (View.ld (Val := Elt Ideal) x2 (Rect.unit (s := S256x64) ![224, 0] S32x64.size inb_S256x64_S32x64_224_0)))⟩ : View.Piece (Elt Ideal) S256x64x128 .f32),
    (⟨Rect.unit (s := S256x64x128) ![192, 0, 0] S32x64x128.size inb_S256x64x128_S32x64x128_192_0_0,
      k0_pay11 (k0_pay10 (View.ld (Val := Elt Ideal) x0 (Rect.unit (s := S256x128) ![192, 0] S32x128.size inb_S256x128_S32x128_192_0))) (View.ld (Val := Elt Ideal) x1 (Rect.unit (s := S256x64) ![192, 0] S32x64.size inb_S256x64_S32x64_192_0)) (View.ld (Val := Elt Ideal) x2 (Rect.unit (s := S256x64) ![192, 0] S32x64.size inb_S256x64_S32x64_192_0))⟩ : View.Piece (Elt Ideal) S256x64x128 .f32),
    (⟨Rect.unit (s := S256x64x128) ![160, 0, 0] S32x64x128.size inb_S256x64x128_S32x64x128_160_0_0,
      k0_pay9 (View.ld (Val := Elt Ideal) x0 (Rect.unit (s := S256x128) ![160, 0] S32x128.size inb_S256x128_S32x128_160_0)) (View.ld (Val := Elt Ideal) x1 (Rect.unit (s := S256x64) ![160, 0] S32x64.size inb_S256x64_S32x64_160_0)) (View.ld (Val := Elt Ideal) x2 (Rect.unit (s := S256x64) ![160, 0] S32x64.size inb_S256x64_S32x64_160_0))⟩ : View.Piece (Elt Ideal) S256x64x128 .f32),
    (⟨Rect.unit (s := S256x64x128) ![128, 0, 0] S32x64x128.size inb_S256x64x128_S32x64x128_128_0_0,
      k0_pay8 (View.ld (Val := Elt Ideal) x2 (Rect.unit (s := S256x64) ![128, 0] S32x64.size inb_S256x64_S32x64_128_0)) (k0_pay7 (View.ld (Val := Elt Ideal) x0 (Rect.unit (s := S256x128) ![128, 0] S32x128.size inb_S256x128_S32x128_128_0)) (View.ld (Val := Elt Ideal) x1 (Rect.unit (s := S256x64) ![128, 0] S32x64.size inb_S256x64_S32x64_128_0)) (View.ld (Val := Elt Ideal) x2 (Rect.unit (s := S256x64) ![128, 0] S32x64.size inb_S256x64_S32x64_128_0))) (Scalar.ofBits (F := Ideal) .f32 0xBF000000#32)⟩ : View.Piece (Elt Ideal) S256x64x128 .f32),
    (⟨Rect.unit (s := S256x64x128) ![96, 0, 0] S32x64x128.size inb_S256x64x128_S32x64x128_96_0_0,
      k0_pay6 (View.ld (Val := Elt Ideal) x0 (Rect.unit (s := S256x128) ![96, 0] S32x128.size inb_S256x128_S32x128_96_0)) (View.ld (Val := Elt Ideal) x1 (Rect.unit (s := S256x64) ![96, 0] S32x64.size inb_S256x64_S32x64_96_0)) (View.ld (Val := Elt Ideal) x2 (Rect.unit (s := S256x64) ![96, 0] S32x64.size inb_S256x64_S32x64_96_0))⟩ : View.Piece (Elt Ideal) S256x64x128 .f32),
    (⟨Rect.unit (s := S256x64x128) ![64, 0, 0] S32x64x128.size inb_S256x64x128_S32x64x128_64_0_0,
      k0_pay5 (View.ld (Val := Elt Ideal) x0 (Rect.unit (s := S256x128) ![64, 0] S32x128.size inb_S256x128_S32x128_64_0)) (View.ld (Val := Elt Ideal) x1 (Rect.unit (s := S256x64) ![64, 0] S32x64.size inb_S256x64_S32x64_64_0)) (View.ld (Val := Elt Ideal) x2 (Rect.unit (s := S256x64) ![64, 0] S32x64.size inb_S256x64_S32x64_64_0))⟩ : View.Piece (Elt Ideal) S256x64x128 .f32),
    (⟨Rect.unit (s := S256x64x128) ![32, 0, 0] S32x64x128.size inb_S256x64x128_S32x64x128_32_0_0,
      k0_pay4 (View.ld (Val := Elt Ideal) x2 (Rect.unit (s := S256x64) ![32, 0] S32x64.size inb_S256x64_S32x64_32_0)) (k0_pay2 (View.ld (Val := Elt Ideal) x0 (Rect.unit (s := S256x128) ![32, 0] S32x128.size inb_S256x128_S32x128_32_0)) (View.ld (Val := Elt Ideal) x1 (Rect.unit (s := S256x64) ![32, 0] S32x64.size inb_S256x64_S32x64_32_0))) (k0_pay3 (View.ld (Val := Elt Ideal) x2 (Rect.unit (s := S256x64) ![32, 0] S32x64.size inb_S256x64_S32x64_32_0)))⟩ : View.Piece (Elt Ideal) S256x64x128 .f32),
    (⟨Rect.unit (s := S256x64x128) ![0, 0, 0] S32x64x128.size inb_S256x64x128_S32x64x128_0_0_0,
      k0_pay1 (View.ld (Val := Elt Ideal) x0 (Rect.unit (s := S256x128) ![0, 0] S32x128.size inb_S256x128_S32x128_0_0)) (View.ld (Val := Elt Ideal) x1 (Rect.unit (s := S256x64) ![0, 0] S32x64.size inb_S256x64_S32x64_0_0)) (View.ld (Val := Elt Ideal) x2 (Rect.unit (s := S256x64) ![0, 0] S32x64.size inb_S256x64_S32x64_0_0))⟩ : View.Piece (Elt Ideal) S256x64x128 .f32)]

theorem leaves_read {sig : RefSig} {κ : Kind} {sp : Space} (v : View sig κ sp S256x64x128 .f32)
    (g : v.ty.Contents (Elt Ideal)) (x0 : Vec Ideal S256x128 .f32) (x1 x2 : Vec Ideal S256x64 .f32)
    (d : Fin 256) (k : Fin 64) (b : Fin 128) :
    v.read (Elt Ideal) (v.writes (Elt Ideal) g (leavesL x0 x1 x2)) (ix3 d k b)
      = Cert.Spec.leaf (x0 (ix2 d b)) (x1 (ix2 d k)) (x2 (ix2 d k)) := by
  obtain ⟨dv, hd⟩ := d
  unfold leavesL
  rcases (show dv < 32 ∨ (32 ≤ dv ∧ dv < 64) ∨ (64 ≤ dv ∧ dv < 96) ∨ (96 ≤ dv ∧ dv < 128) ∨ (128 ≤ dv ∧ dv < 160)
      ∨ (160 ≤ dv ∧ dv < 192) ∨ (192 ≤ dv ∧ dv < 224) ∨ 224 ≤ dv by omega) with h | h | h | h | h | h | h | h
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_not_mem v g _ _ _ _ rfl (0 : Fin 3) (Or.inl (show dv < 160 by omega))).trans ?_
    refine (View.read_writes_cons_unit_of_not_mem v g _ _ _ _ rfl (0 : Fin 3) (Or.inl (show dv < 128 by omega))).trans ?_
    refine (View.read_writes_cons_unit_of_not_mem v g _ _ _ _ rfl (0 : Fin 3) (Or.inl (show dv < 96 by omega))).trans ?_
    refine (View.read_writes_cons_unit_of_not_mem v g _ _ _ _ rfl (0 : Fin 3) (Or.inl (show dv < 64 by omega))).trans ?_
    refine (View.read_writes_cons_unit_of_not_mem v g _ _ _ _ rfl (0 : Fin 3) (Or.inl (show dv < 32 by omega))).trans ?_
    refine (View.read_writes_cons_unit_of_mem v g _ _ _ (ix3 (⟨dv, hd⟩ : Fin 256) k b)
      (ix3 (⟨dv - 0, by omega⟩ : Fin 32) k b) rfl (fun a => ?_)).trans ?_
    · match a with
      | ⟨0, _⟩ => show dv = 0 + (dv - 0); omega
      | ⟨1, _⟩ => exact (Nat.zero_add _).symm
      | ⟨2, _⟩ => exact (Nat.zero_add _).symm
    · rw [pay1_apply, ld_rows2 x0 rfl _ _ b ⟨dv, hd⟩ (by show dv = 0 + (dv - 0); omega),
        ld_rows2 x1 rfl _ _ k ⟨dv, hd⟩ (by show dv = 0 + (dv - 0); omega),
        ld_rows2 x2 rfl _ _ k ⟨dv, hd⟩ (by show dv = 0 + (dv - 0); omega)]
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_not_mem v g _ _ _ _ rfl (0 : Fin 3) (Or.inl (show dv < 160 by omega))).trans ?_
    refine (View.read_writes_cons_unit_of_not_mem v g _ _ _ _ rfl (0 : Fin 3) (Or.inl (show dv < 128 by omega))).trans ?_
    refine (View.read_writes_cons_unit_of_not_mem v g _ _ _ _ rfl (0 : Fin 3) (Or.inl (show dv < 96 by omega))).trans ?_
    refine (View.read_writes_cons_unit_of_not_mem v g _ _ _ _ rfl (0 : Fin 3) (Or.inl (show dv < 64 by omega))).trans ?_
    refine (View.read_writes_cons_unit_of_mem v g _ _ _ (ix3 (⟨dv, hd⟩ : Fin 256) k b)
      (ix3 (⟨dv - 32, by omega⟩ : Fin 32) k b) rfl (fun a => ?_)).trans ?_
    · match a with
      | ⟨0, _⟩ => show dv = 32 + (dv - 32); omega
      | ⟨1, _⟩ => exact (Nat.zero_add _).symm
      | ⟨2, _⟩ => exact (Nat.zero_add _).symm
    · rw [pay4_apply, ld_rows2 x0 rfl _ _ b ⟨dv, hd⟩ (by show dv = 32 + (dv - 32); omega),
        ld_rows2 x1 rfl _ _ k ⟨dv, hd⟩ (by show dv = 32 + (dv - 32); omega),
        ld_rows2 x2 rfl _ _ k ⟨dv, hd⟩ (by show dv = 32 + (dv - 32); omega)]
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_not_mem v g _ _ _ _ rfl (0 : Fin 3) (Or.inl (show dv < 160 by omega))).trans ?_
    refine (View.read_writes_cons_unit_of_not_mem v g _ _ _ _ rfl (0 : Fin 3) (Or.inl (show dv < 128 by omega))).trans ?_
    refine (View.read_writes_cons_unit_of_not_mem v g _ _ _ _ rfl (0 : Fin 3) (Or.inl (show dv < 96 by omega))).trans ?_
    refine (View.read_writes_cons_unit_of_mem v g _ _ _ (ix3 (⟨dv, hd⟩ : Fin 256) k b)
      (ix3 (⟨dv - 64, by omega⟩ : Fin 32) k b) rfl (fun a => ?_)).trans ?_
    · match a with
      | ⟨0, _⟩ => show dv = 64 + (dv - 64); omega
      | ⟨1, _⟩ => exact (Nat.zero_add _).symm
      | ⟨2, _⟩ => exact (Nat.zero_add _).symm
    · rw [pay5_apply, ld_rows2 x0 rfl _ _ b ⟨dv, hd⟩ (by show dv = 64 + (dv - 64); omega),
        ld_rows2 x1 rfl _ _ k ⟨dv, hd⟩ (by show dv = 64 + (dv - 64); omega),
        ld_rows2 x2 rfl _ _ k ⟨dv, hd⟩ (by show dv = 64 + (dv - 64); omega)]
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_not_mem v g _ _ _ _ rfl (0 : Fin 3) (Or.inl (show dv < 160 by omega))).trans ?_
    refine (View.read_writes_cons_unit_of_not_mem v g _ _ _ _ rfl (0 : Fin 3) (Or.inl (show dv < 128 by omega))).trans ?_
    refine (View.read_writes_cons_unit_of_mem v g _ _ _ (ix3 (⟨dv, hd⟩ : Fin 256) k b)
      (ix3 (⟨dv - 96, by omega⟩ : Fin 32) k b) rfl (fun a => ?_)).trans ?_
    · match a with
      | ⟨0, _⟩ => show dv = 96 + (dv - 96); omega
      | ⟨1, _⟩ => exact (Nat.zero_add _).symm
      | ⟨2, _⟩ => exact (Nat.zero_add _).symm
    · rw [pay6_apply, ld_rows2 x0 rfl _ _ b ⟨dv, hd⟩ (by show dv = 96 + (dv - 96); omega),
        ld_rows2 x1 rfl _ _ k ⟨dv, hd⟩ (by show dv = 96 + (dv - 96); omega),
        ld_rows2 x2 rfl _ _ k ⟨dv, hd⟩ (by show dv = 96 + (dv - 96); omega)]
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_not_mem v g _ _ _ _ rfl (0 : Fin 3) (Or.inl (show dv < 160 by omega))).trans ?_
    refine (View.read_writes_cons_unit_of_mem v g _ _ _ (ix3 (⟨dv, hd⟩ : Fin 256) k b)
      (ix3 (⟨dv - 128, by omega⟩ : Fin 32) k b) rfl (fun a => ?_)).trans ?_
    · match a with
      | ⟨0, _⟩ => show dv = 128 + (dv - 128); omega
      | ⟨1, _⟩ => exact (Nat.zero_add _).symm
      | ⟨2, _⟩ => exact (Nat.zero_add _).symm
    · rw [pay8_apply, ld_rows2 x0 rfl _ _ b ⟨dv, hd⟩ (by show dv = 128 + (dv - 128); omega),
        ld_rows2 x1 rfl _ _ k ⟨dv, hd⟩ (by show dv = 128 + (dv - 128); omega),
        ld_rows2 x2 rfl _ _ k ⟨dv, hd⟩ (by show dv = 128 + (dv - 128); omega)]
  ·
    refine (View.read_writes_cons_unit_of_not_mem v g _ _ _ _ rfl (0 : Fin 3) (Or.inl (show dv < 224 by omega))).trans ?_
    refine (View.read_writes_cons_unit_of_not_mem v g _ _ _ _ rfl (0 : Fin 3) (Or.inl (show dv < 192 by omega))).trans ?_
    refine (View.read_writes_cons_unit_of_mem v g _ _ _ (ix3 (⟨dv, hd⟩ : Fin 256) k b)
      (ix3 (⟨dv - 160, by omega⟩ : Fin 32) k b) rfl (fun a => ?_)).trans ?_
    · match a with
      | ⟨0, _⟩ => show dv = 160 + (dv - 160); omega
      | ⟨1, _⟩ => exact (Nat.zero_add _).symm
      | ⟨2, _⟩ => exact (Nat.zero_add _).symm
    · rw [pay9_apply, ld_rows2 x0 rfl _ _ b ⟨dv, hd⟩ (by show dv = 160 + (dv - 160); omega),
        ld_rows2 x1 rfl _ _ k ⟨dv, hd⟩ (by show dv = 160 + (dv - 160); omega),
        ld_rows2 x2 rfl _ _ k ⟨dv, hd⟩ (by show dv = 160 + (dv - 160); omega)]
  ·
    refine (View.read_writes_cons_unit_of_not_mem v g _ _ _ _ rfl (0 : Fin 3) (Or.inl (show dv < 224 by omega))).trans ?_
    refine (View.read_writes_cons_unit_of_mem v g _ _ _ (ix3 (⟨dv, hd⟩ : Fin 256) k b)
      (ix3 (⟨dv - 192, by omega⟩ : Fin 32) k b) rfl (fun a => ?_)).trans ?_
    · match a with
      | ⟨0, _⟩ => show dv = 192 + (dv - 192); omega
      | ⟨1, _⟩ => exact (Nat.zero_add _).symm
      | ⟨2, _⟩ => exact (Nat.zero_add _).symm
    · rw [pay11_apply, ld_rows2 x0 rfl _ _ b ⟨dv, hd⟩ (by show dv = 192 + (dv - 192); omega),
        ld_rows2 x1 rfl _ _ k ⟨dv, hd⟩ (by show dv = 192 + (dv - 192); omega),
        ld_rows2 x2 rfl _ _ k ⟨dv, hd⟩ (by show dv = 192 + (dv - 192); omega)]
  ·
    refine (View.read_writes_cons_unit_of_mem v g _ _ _ (ix3 (⟨dv, hd⟩ : Fin 256) k b)
      (ix3 (⟨dv - 224, by omega⟩ : Fin 32) k b) rfl (fun a => ?_)).trans ?_
    · match a with
      | ⟨0, _⟩ => show dv = 224 + (dv - 224); omega
      | ⟨1, _⟩ => exact (Nat.zero_add _).symm
      | ⟨2, _⟩ => exact (Nat.zero_add _).symm
    · rw [pay13_apply, ld_rows2 x0 rfl _ _ b ⟨dv, hd⟩ (by show dv = 224 + (dv - 224); omega),
        ld_rows2 x1 rfl _ _ k ⟨dv, hd⟩ (by show dv = 224 + (dv - 224); omega),
        ld_rows2 x2 rfl _ _ k ⟨dv, hd⟩ (by show dv = 224 + (dv - 224); omega)]

end Cert.KernelIdeal.Hand

end
-- ==== Proof.KI.PayPair.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

theorem pairSum_apply (x y : Vec Ideal S1x64x128 .f32) (k : Fin 64) (b : Fin 128) :
    shapeCast S1x64x128 (addf (shapeCast S64x128 x shapeCasts_S1x64x128_S64x128 : FVec Ideal S64x128 .f32)
        (shapeCast S64x128 y shapeCasts_S1x64x128_S64x128 : FVec Ideal S64x128 .f32)) shapeCasts_S64x128_S1x64x128
        (ix3 (0 : Fin 1) k b)
      = x (ix3 (0 : Fin 1) k b) + y (ix3 (0 : Fin 1) k b) := by
  rw [shapeCast_ab_1ab_apply, addf_apply, shapeCast_1ab_ab_apply, shapeCast_1ab_ab_apply]

theorem pay14_apply (v384 v387 : Vec Ideal S1x64x128 .f32) (k : Fin 64) (b : Fin 128) :
    k0_pay14 v384 v387 (ix3 (0 : Fin 1) k b) = v384 (ix3 (0 : Fin 1) k b) + v387 (ix3 (0 : Fin 1) k b) :=
  pairSum_apply v384 v387 k b

theorem pay16_apply (v384 v387 : Vec Ideal S1x64x128 .f32) (k : Fin 64) (b : Fin 128) :
    k0_pay16 v384 v387 (ix3 (0 : Fin 1) k b) = v384 (ix3 (0 : Fin 1) k b) + v387 (ix3 (0 : Fin 1) k b) :=
  pairSum_apply v384 v387 k b

theorem pay20_apply (v384 v387 : Vec Ideal S1x64x128 .f32) (k : Fin 64) (b : Fin 128) :
    k0_pay20 v384 v387 (ix3 (0 : Fin 1) k b) = v384 (ix3 (0 : Fin 1) k b) + v387 (ix3 (0 : Fin 1) k b) :=
  pairSum_apply v384 v387 k b

theorem pay22_apply (v384 v387 : Vec Ideal S1x64x128 .f32) (k : Fin 64) (b : Fin 128) :
    k0_pay22 v384 v387 (ix3 (0 : Fin 1) k b) = v384 (ix3 (0 : Fin 1) k b) + v387 (ix3 (0 : Fin 1) k b) :=
  pairSum_apply v384 v387 k b

theorem pay24_apply (v384 v387 : Vec Ideal S1x64x128 .f32) (k : Fin 64) (b : Fin 128) :
    k0_pay24 v384 v387 (ix3 (0 : Fin 1) k b) = v384 (ix3 (0 : Fin 1) k b) + v387 (ix3 (0 : Fin 1) k b) :=
  pairSum_apply v384 v387 k b

theorem pay26_apply (v384 v387 : Vec Ideal S1x64x128 .f32) (k : Fin 64) (b : Fin 128) :
    k0_pay26 v384 v387 (ix3 (0 : Fin 1) k b) = v384 (ix3 (0 : Fin 1) k b) + v387 (ix3 (0 : Fin 1) k b) :=
  pairSum_apply v384 v387 k b

theorem pay28_apply (v384 v387 : Vec Ideal S1x64x128 .f32) (k : Fin 64) (b : Fin 128) :
    k0_pay28 v384 v387 (ix3 (0 : Fin 1) k b) = v384 (ix3 (0 : Fin 1) k b) + v387 (ix3 (0 : Fin 1) k b) :=
  pairSum_apply v384 v387 k b

theorem pay31_apply (v384 v387 : Vec Ideal S1x64x128 .f32) (k : Fin 64) (b : Fin 128) :
    k0_pay31 v384 v387 (ix3 (0 : Fin 1) k b) = v384 (ix3 (0 : Fin 1) k b) + v387 (ix3 (0 : Fin 1) k b) :=
  pairSum_apply v384 v387 k b

theorem pay33_apply (v345 : Vec Ideal S1x64x128 .f32) (k : Fin 64) (b : Fin 128) :
    k0_pay33 v345 (ix2 k b) = v345 (ix3 (0 : Fin 1) k b) := by
  unfold k0_pay33
  rw [shapeCast_1ab_ab_apply]

theorem pay34_apply (v345 v348 : Vec Ideal S1x64x128 .f32) (k : Fin 64) (b : Fin 128) :
    k0_pay34 (k0_pay33 v345) v348 (ix3 (0 : Fin 1) k b) = v345 (ix3 (0 : Fin 1) k b) + v348 (ix3 (0 : Fin 1) k b) :=
  pairSum_apply v345 v348 k b

end Cert.KernelIdeal.Hand

end
-- ==== Proof.KI.PaySlab.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.PayLib

noncomputable section

namespace Cert.KernelIdeal.Hand

open Idealize.ShloMosaic Idealize.ShloMosaic.ValueIdx
open Cert.KernelIdeal Cert.KernelIdeal.Gen
open Cert.PayLib

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

section Slab
variable {C : ℕ}

theorem slabMax_apply (hred : (⟨3, ![C, 64, 128]⟩ : Shape).Reduces [1] ⟨2, ![C, 128]⟩) (hφ : FKind.Formats .f32)
    (hacc : (0xFF800000#32 : BitVec 32) = FKind.maximumf.neutral .f32 hφ)
    (hc1 : (⟨2, ![C, 128]⟩ : Shape).ShapeCasts ⟨3, ![C, 1, 128]⟩)
    (hb : (⟨3, ![C, 1, 128]⟩ : Shape).Broadcasts ⟨3, ![C, 64, 128]⟩)
    (h : FVec Ideal ⟨3, ![C, 64, 128]⟩ .f32) (f : Fin C) (k : Fin 64) (b : Fin 128) :
    broadcastTo ⟨3, ![C, 64, 128]⟩ (shapeCast ⟨3, ![C, 1, 128]⟩
        (multiReduction (F := Ideal) .maximumf [1] ⟨2, ![C, 128]⟩ h 0xFF800000#32 hred hφ hacc) hc1) hb (ix3 f k b)
      = Cert.Spec.vmax (fun k => h (ix3 f k b)) :=
  (keptMiddle_apply _ hc1 hb f k b).trans (maxMiddle_apply h _ hred hφ hacc f b)

theorem slab_apply (d : DotDims ⟨3, ![C, 64, 64]⟩ ⟨3, ![C, 64, 128]⟩ ⟨3, ![C, 64, 128]⟩)
    (hlc : d.lhsContracting = [2]) (hrc : d.rhsContracting = [1]) (hln : d.lhsNonContracting = [1])
    (hrn : d.rhsNonContracting = [2]) (hlb : d.lhsBatch = [0]) (hrb : d.rhsBatch = [0])
    (hred : (⟨3, ![C, 64, 128]⟩ : Shape).Reduces [1] ⟨2, ![C, 128]⟩) (hφ : FKind.Formats .f32)
    (hacc : (0xFF800000#32 : BitVec 32) = FKind.maximumf.neutral .f32 hφ)
    (hc1 : (⟨2, ![C, 128]⟩ : Shape).ShapeCasts ⟨3, ![C, 1, 128]⟩)
    (hb : (⟨3, ![C, 1, 128]⟩ : Shape).Broadcasts ⟨3, ![C, 64, 128]⟩)
    (hcw : (⟨3, ![C, 64, 64]⟩ : Shape).ShapeCasts ⟨3, ![C, 64, 64]⟩)
    (hco : (⟨3, ![C, 64, 128]⟩ : Shape).ShapeCasts ⟨3, ![C, 64, 128]⟩)
    (h : FVec Ideal ⟨3, ![C, 64, 128]⟩ .f32) (w : FVec Ideal ⟨3, ![C, 64, 64]⟩ .f32)
    (f : Fin C) (j : Fin 64) (b : Fin 128) :
    shapeCast ⟨3, ![C, 64, 128]⟩
        (addf
          (log (matmul d none (shapeCast ⟨3, ![C, 64, 64]⟩ w hcw)
            (exp (subf h (broadcastTo ⟨3, ![C, 64, 128]⟩ (shapeCast ⟨3, ![C, 1, 128]⟩
              (multiReduction (F := Ideal) .maximumf [1] ⟨2, ![C, 128]⟩ h 0xFF800000#32 hred hφ hacc) hc1) hb)))
            (constant (F := Ideal) ⟨3, ![C, 64, 128]⟩ .f32 0x00000000#32)))
          (broadcastTo ⟨3, ![C, 64, 128]⟩ (shapeCast ⟨3, ![C, 1, 128]⟩
            (multiReduction (F := Ideal) .maximumf [1] ⟨2, ![C, 128]⟩ h 0xFF800000#32 hred hφ hacc) hc1) hb))
        hco (ix3 f j b)
      = Cert.Spec.lse (fun j k => w (ix3 f j k)) (fun k => h (ix3 f k b)) j := by
  refine (congrFun (shapeCast_self _ hco) (ix3 f j b)).trans ?_
  rw [addf_apply, slabMax_apply hred hφ hacc hc1 hb h f j b, log_apply]
  unfold Cert.Spec.lse
  refine congrArg (fun s => Ideal.log s + Cert.Spec.vmax (fun k => h (ix3 f k b))) ?_
  refine (batched_matmul_zero_apply d hlc hrc hln hrn hlb hrb none _ _ f j b).trans ?_
  refine Finset.sum_congr rfl fun k _ => ?_
  rw [shapeCast_self, exp_apply, subf_apply, slabMax_apply hred hφ hacc hc1 hb h f k b]

end Slab

theorem pay15_apply (v209 : Vec Ideal S64x64x128 .f32) (v215 : Vec Ideal S64x64x64 .f32)
    (f : Fin 64) (j : Fin 64) (b : Fin 128) :
    k0_pay15 v209 v215 (ix3 f j b)
      = Cert.Spec.lse (fun j k => v215 (ix3 f j k)) (fun k => v209 (ix3 f k b)) j :=
  slab_apply dot_S64x64x64_S64x64x128_S64x64x128_2_1_1_2_0_0 rfl rfl rfl rfl rfl rfl _ _ _ _ _ _ _ v209 v215 f j b

theorem pay19_apply (v225 : Vec Ideal S64x64x128 .f32) (v231 : Vec Ideal S64x64x64 .f32)
    (f : Fin 64) (j : Fin 64) (b : Fin 128) :
    k0_pay19 v225 (k0_pay17 v225) (k0_pay18 v225) v231 (ix3 f j b)
      = Cert.Spec.lse (fun j k => v231 (ix3 f j k)) (fun k => v225 (ix3 f k b)) j := by
  unfold k0_pay19 k0_pay18 k0_pay17
  exact slab_apply dot_S64x64x64_S64x64x128_S64x64x128_2_1_1_2_0_0 rfl rfl rfl rfl rfl rfl _ _ _ _ _ _ _ v225 v231 f j b

theorem pay21_apply (v241 : Vec Ideal S64x64x128 .f32) (v247 : Vec Ideal S64x64x64 .f32)
    (f : Fin 64) (j : Fin 64) (b : Fin 128) :
    k0_pay21 v241 v247 (ix3 f j b)
      = Cert.Spec.lse (fun j k => v247 (ix3 f j k)) (fun k => v241 (ix3 f k b)) j :=
  slab_apply dot_S64x64x64_S64x64x128_S64x64x128_2_1_1_2_0_0 rfl rfl rfl rfl rfl rfl _ _ _ _ _ _ _ v241 v247 f j b

theorem pay23_apply (v257 : Vec Ideal S32x64x128 .f32) (v263 : Vec Ideal S32x64x64 .f32)
    (f : Fin 32) (j : Fin 64) (b : Fin 128) :
    k0_pay23 v257 v263 (ix3 f j b)
      = Cert.Spec.lse (fun j k => v263 (ix3 f j k)) (fun k => v257 (ix3 f k b)) j :=
  slab_apply dot_S32x64x64_S32x64x128_S32x64x128_2_1_1_2_0_0 rfl rfl rfl rfl rfl rfl _ _ _ _ _ _ _ v257 v263 f j b

theorem pay25_apply (v273 : Vec Ideal S16x64x128 .f32) (v279 : Vec Ideal S16x64x64 .f32)
    (f : Fin 16) (j : Fin 64) (b : Fin 128) :
    k0_pay25 v273 v279 (ix3 f j b)
      = Cert.Spec.lse (fun j k => v279 (ix3 f j k)) (fun k => v273 (ix3 f k b)) j :=
  slab_apply dot_S16x64x64_S16x64x128_S16x64x128_2_1_1_2_0_0 rfl rfl rfl rfl rfl rfl _ _ _ _ _ _ _ v273 v279 f j b

theorem pay27_apply (v289 : Vec Ideal S8x64x128 .f32) (v295 : Vec Ideal S8x64x64 .f32)
    (f : Fin 8) (j : Fin 64) (b : Fin 128) :
    k0_pay27 v289 v295 (ix3 f j b)
      = Cert.Spec.lse (fun j k => v295 (ix3 f j k)) (fun k => v289 (ix3 f k b)) j :=
  slab_apply dot_S8x64x64_S8x64x128_S8x64x128_2_1_1_2_0_0 rfl rfl rfl rfl rfl rfl _ _ _ _ _ _ _ v289 v295 f j b

theorem pay30_apply (v305 : Vec Ideal S4x64x128 .f32) (v311 : Vec Ideal S4x64x64 .f32)
    (f : Fin 4) (j : Fin 64) (b : Fin 128) :
    k0_pay30 (k0_pay29 v305 v311) (ix3 f j b)
      = Cert.Spec.lse (fun j k => v311 (ix3 f j k)) (fun k => v305 (ix3 f k b)) j :=
  slab_apply dot_S4x64x64_S4x64x128_S4x64x128_2_1_1_2_0_0 rfl rfl rfl rfl rfl rfl _ _ _ _ _ _ _ v305 v311 f j b

theorem pay32_apply (v321 : Vec Ideal S2x64x128 .f32) (v327 : Vec Ideal S2x64x64 .f32)
    (f : Fin 2) (j : Fin 64) (b : Fin 128) :
    k0_pay32 v321 v327 (ix3 f j b)
      = Cert.Spec.lse (fun j k => v327 (ix3 f j k)) (fun k => v321 (ix3 f k b)) j :=
  slab_apply dot_S2x64x64_S2x64x128_S2x64x128_2_1_1_2_0_0 rfl rfl rfl rfl rfl rfl _ _ _ _ _ _ _ v321 v327 f j b

theorem pay35_apply (v356 : Vec Ideal S1x64x128 .f32) (v362 : Vec Ideal S1x64x64 .f32)
    (f : Fin 1) (j : Fin 64) (b : Fin 128) :
    k0_pay35 v356 v362 (ix3 f j b)
      = Cert.Spec.lse (fun j k => v362 (ix3 f j k)) (fun k => v356 (ix3 f k b)) j :=
  slab_apply dot_S1x64x64_S1x64x128_S1x64x128_2_1_1_2_0_0 rfl rfl rfl rfl rfl rfl _ _ _ _ _ _ _ v356 v362 f j b

end Cert.KernelIdeal.Hand

end
-- ==== Proof.KI.PayOut.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

theorem pay36_apply (v371 : Vec Ideal S1x64x128 .f32) (b : Fin 128) (j : Fin 64) :
    k0_pay36 v371 (ix2 b j) = v371 (ix3 (0 : Fin 1) j b) := by
  unfold k0_pay36
  rw [transpose_ix2_apply, shapeCast_1ab_ab_apply]

end Cert.KernelIdeal.Hand

end
-- ==== Proof.KI.BodyTop.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.PayPair
import proofs.«411912_j30219389895125_3_alg».proof.Proof.KI.PaySlab
import proofs.«411912_j30219389895125_3_alg».proof.Proof.KI.PayOut
import Idealize.ShloMosaic.Lib.WritesUnit

noncomputable section

namespace Cert.KernelIdeal.Hand

open Idealize.ShloMosaic Idealize.ShloMosaic.ValueIdx
open Cert.KernelIdeal Cert.KernelIdeal.Gen

section Loads
variable {sig : RefSig} {κ : Kind} {sp : Space} {e : EltTy} {Val : EltTy → Type} {N M L : ℕ}
variable (v : View sig κ sp (⟨3, ![N, M, L]⟩ : Shape) e) (f : v.ty.Contents Val)

theorem readAt_row3 {off : Fin 3 → ℕ}
    (inb : ∀ a, off a + (![1, M, L] : Fin 3 → ℕ) a ≤ (⟨3, ![N, M, L]⟩ : Shape).size a)
    (h1 : off 1 = 0) (h2 : off 2 = 0) (r : Fin N) (hr : r.val = off 0) (u : Fin 1) (k : Fin M) (b : Fin L) :
    v.readAt Val (Rect.unit (s := (⟨3, ![N, M, L]⟩ : Shape)) off ![1, M, L] inb).toLoadRect f (ix3 u k b)
      = v.read Val f (ix3 r k b) := by
  rw [View.readAt_apply]
  refine congrArg (v.read Val f) (funext fun a => Fin.ext ?_)
  have hu : u.val = 0 := by omega
  match a with
  | ⟨0, _⟩ => show off 0 + 1 * u.val = r.val; omega
  | ⟨1, _⟩ => show off 1 + 1 * k.val = k.val; omega
  | ⟨2, _⟩ => show off 2 + 1 * b.val = b.val; omega

theorem readAt_whole3 (inb : ∀ a, (![0, 0, 0] : Fin 3 → ℕ) a + (![N, M, L] : Fin 3 → ℕ) a ≤ (⟨3, ![N, M, L]⟩ : Shape).size a)
    (i : Fin N) (k : Fin M) (b : Fin L) :
    v.readAt Val (Rect.unit (s := (⟨3, ![N, M, L]⟩ : Shape)) ![0, 0, 0] ![N, M, L] inb).toLoadRect f (ix3 i k b)
      = v.read Val f (ix3 i k b) := by
  rw [View.readAt_apply]
  refine congrArg (v.read Val f) (funext fun a => Fin.ext ?_)
  match a with
  | ⟨0, _⟩ => show 0 + 1 * i.val = i.val; omega
  | ⟨1, _⟩ => show 0 + 1 * k.val = k.val; omega
  | ⟨2, _⟩ => show 0 + 1 * b.val = b.val; omega

end Loads

theorem k0_off45_eq : k0_off45 = ![0, 0, 0] := by
  funext a
  match a with
  | ⟨0, _⟩ => rfl
  | ⟨1, _⟩ => rfl
  | ⟨2, _⟩ => rfl

section Top
variable {sig : RefSig} {κ1 κ2 : Kind} {sp1 sp2 : Space}
variable (v1 : View sig κ1 sp1 S128x64x128 .f32) (X1 : v1.ty.Contents (Elt Ideal))
variable (v2 : View sig κ2 sp2 S64x64x128 .f32)

def topPairPc (w0 w1 : BitVec 32) (hw0 : k0_chk17 w0) (hw1 : k0_chk18 w1) : View.Piece (Elt Ideal) S64x64x128 .f32 :=
  ⟨Rect.unit (s := S64x64x128) k0_off45 S1x64x128.size k0_off45_inb,
    k0_pay34
      (k0_pay33 (v1.readAt (Elt Ideal)
        (Rect.unit (s := S128x64x128) (k0_off43 w0) S1x64x128.size (k0_off43_inb w0 hw0)).toLoadRect X1))
      (v1.readAt (Elt Ideal)
        (Rect.unit (s := S128x64x128) (k0_off44 w1) S1x64x128.size (k0_off44_inb w1 hw1)).toLoadRect X1)⟩

def topSlabPc (h : Vec Ideal S1x64x128 .f32) (x10 : Vec Ideal S1x64x64 .f32) : View.Piece (Elt Ideal) S64x64x128 .f32 :=
  ⟨Rect.unit (s := S64x64x128) ![0, 0, 0] S1x64x128.size inb_S64x64x128_S1x64x128_0_0_0, k0_pay35 h x10⟩

theorem top_pair_read (g2 : v2.ty.Contents (Elt Ideal)) (Lst : List (View.Piece (Elt Ideal) S64x64x128 .f32))
    (w0 w1 : BitVec 32) (hw0 : k0_chk17 w0) (hw1 : k0_chk18 w1)
    (r0 r1 : Fin 128) (hr0 : r0.val = k0_off43 w0 0) (hr1 : r1.val = k0_off44 w1 0) (k : Fin 64) (b : Fin 128) :
    v2.read (Elt Ideal) (v2.writes (Elt Ideal) g2 (topPairPc v1 X1 w0 w1 hw0 hw1 :: Lst)) (ix3 (0 : Fin 64) k b)
      = v1.read (Elt Ideal) X1 (ix3 r0 k b) + v1.read (Elt Ideal) X1 (ix3 r1 k b) := by
  unfold topPairPc
  refine (View.read_writes_cons_unit_of_mem v2 g2 _ _ Lst (ix3 (0 : Fin 64) k b) (ix3 (0 : Fin 1) k b) k0_off45_eq
    (fun a => ?_)).trans ?_
  · match a with
    | ⟨0, _⟩ => rfl
    | ⟨1, _⟩ => exact (Nat.zero_add _).symm
    | ⟨2, _⟩ => exact (Nat.zero_add _).symm
  · rw [pay34_apply, readAt_row3 v1 X1 _ rfl rfl r0 hr0, readAt_row3 v1 X1 _ rfl rfl r1 hr1]

theorem top_slab_read (f : v2.ty.Contents (Elt Ideal)) (Lst : List (View.Piece (Elt Ideal) S64x64x128 .f32))
    (h : Vec Ideal S1x64x128 .f32) (x10 : Vec Ideal S1x64x64 .f32) (j : Fin 64) (b : Fin 128) :
    v2.read (Elt Ideal) (v2.writes (Elt Ideal) f (topSlabPc h x10 :: Lst)) (ix3 (0 : Fin 64) j b)
      = Cert.Spec.lse (fun j k => x10 (ix3 (0 : Fin 1) j k)) (fun k => h (ix3 (0 : Fin 1) k b)) j := by
  unfold topSlabPc
  refine (View.read_writes_cons_unit_of_mem v2 f _ _ Lst (ix3 (0 : Fin 64) j b) (ix3 (0 : Fin 1) j b) rfl
    (fun a => ?_)).trans ?_
  · match a with
    | ⟨0, _⟩ => rfl
    | ⟨1, _⟩ => exact (Nat.zero_add _).symm
    | ⟨2, _⟩ => exact (Nat.zero_add _).symm
  · exact pay35_apply h x10 0 j b

theorem top_row0_reload (f : v2.ty.Contents (Elt Ideal)) (k : Fin 64) (b : Fin 128) :
    v2.readAt (Elt Ideal) (Rect.unit (s := S64x64x128) ![0, 0, 0] S1x64x128.size inb_S64x64x128_S1x64x128_0_0_0).toLoadRect
        f (ix3 (0 : Fin 1) k b) = v2.read (Elt Ideal) f (ix3 (0 : Fin 64) k b) :=
  readAt_row3 v2 f _ rfl rfl (0 : Fin 64) rfl (0 : Fin 1) k b

theorem top_read (g2 : v2.ty.Contents (Elt Ideal)) (w0 w1 : BitVec 32) (hw0 : k0_chk17 w0) (hw1 : k0_chk18 w1)
    (x10 : Vec Ideal S1x64x64 .f32)
    (r0 r1 : Fin 128) (hr0 : r0.val = k0_off43 w0 0) (hr1 : r1.val = k0_off44 w1 0) (j : Fin 64) (b : Fin 128) :
    v2.read (Elt Ideal)
        (v2.writes (Elt Ideal) g2
          [topSlabPc
              (v2.readAt (Elt Ideal)
                (Rect.unit (s := S64x64x128) ![0, 0, 0] S1x64x128.size inb_S64x64x128_S1x64x128_0_0_0).toLoadRect
                (v2.writes (Elt Ideal) g2 [topPairPc v1 X1 w0 w1 hw0 hw1]))
              x10,
            topPairPc v1 X1 w0 w1 hw0 hw1])
        (ix3 (0 : Fin 64) j b)
      = Cert.Spec.lse (fun j k => x10 (ix3 (0 : Fin 1) j k))
          (fun k => v1.read (Elt Ideal) X1 (ix3 r0 k b) + v1.read (Elt Ideal) X1 (ix3 r1 k b)) j := by
  refine (top_slab_read v2 g2 _ _ x10 j b).trans ?_
  refine congrArg (fun h => Cert.Spec.lse (fun j k => x10 (ix3 (0 : Fin 1) j k)) h j) (funext fun k => ?_)
  rw [top_row0_reload, top_pair_read v1 X1 v2 g2 [] w0 w1 hw0 hw1 r0 r1 hr0 hr1]

theorem top_out (f : v2.ty.Contents (Elt Ideal)) (b : Fin 128) (j : Fin 64) :
    k0_pay36 (v2.readAt (Elt Ideal)
        (Rect.unit (s := S64x64x128) ![0, 0, 0] S1x64x128.size inb_S64x64x128_S1x64x128_0_0_0).toLoadRect f) (ix2 b j)
      = v2.read (Elt Ideal) f (ix3 (0 : Fin 64) j b) := by
  rw [pay36_apply, top_row0_reload]

end Top

end Cert.KernelIdeal.Hand

end
-- ==== Proof.KI.BodyRows.lean ====
import Idealize.ShloMosaic.Lib.WritesUnit
import Idealize.ShloMosaic.Lib.ValueIdx

namespace Cert.KernelIdeal.Hand

open Idealize.ShloMosaic Idealize.ShloMosaic.ValueIdx

section Listed

variable {sig : RefSig} {κ : Kind} {sp : Space} {s : Shape} {e : EltTy} {Val : EltTy → Type}
variable (v : View sig κ sp s e) (f : v.ty.Contents Val)
variable {tsz : Fin s.rank → ℕ} {n : ℕ} {off : Fin n → Fin s.rank → ℕ}
  {inb : ∀ i a, off i a + tsz a ≤ s.size a} {P : Fin n → (⟨s.rank, tsz⟩ : Shape).Idx → Val e}
  {pb : ℕ → List (View.Piece Val s e)}

theorem read_listed_of_mem
    (hs : ∀ k : Fin n, pb (k.val + 1) = [(⟨Rect.unit (off k) tsz (inb k), P k⟩ : View.Piece Val s e)] ++ pb k.val)
    (j : ℕ) (hj : j ≤ n) (y : s.Idx) (i : Fin n) (hi : i.val < j) (x : (⟨s.rank, tsz⟩ : Shape).Idx)
    (hx : ∀ a, (y a).val = off i a + (x a).val) (ax : Fin s.rank)
    (hdis : ∀ i' : Fin n, i' ≠ i → (y ax).val < off i' ax ∨ off i' ax + tsz ax ≤ (y ax).val) :
    v.read Val (v.writes Val f (pb j)) y = P i x := by
  induction j with
  | zero => exact absurd hi (Nat.not_lt_zero _)
  | succ j ih =>
    have hjn : j < n := hj
    have hstep := hs ⟨j, hjn⟩
    simp only [List.singleton_append] at hstep
    rw [hstep]
    by_cases hn : (⟨j, hjn⟩ : Fin n) = i
    · subst hn
      exact View.read_writes_cons_unit_of_mem v f (inb ⟨j, hjn⟩) (P ⟨j, hjn⟩) _ y x rfl hx
    · rw [View.read_writes_cons_unit_of_not_mem v f (inb ⟨j, hjn⟩) (P ⟨j, hjn⟩) _ y rfl ax (hdis ⟨j, hjn⟩ hn)]
      exact ih (Nat.le_of_succ_le hj) (by
        have : i.val ≠ j := fun h => hn (Fin.ext h.symm)
        omega)

theorem read_listed_of_not_mem (h0 : pb 0 = [])
    (hs : ∀ k : Fin n, pb (k.val + 1) = [(⟨Rect.unit (off k) tsz (inb k), P k⟩ : View.Piece Val s e)] ++ pb k.val)
    (j : ℕ) (hj : j ≤ n) (y : s.Idx) (ax : Fin s.rank)
    (hdis : ∀ i' : Fin n, i'.val < j → (y ax).val < off i' ax ∨ off i' ax + tsz ax ≤ (y ax).val) :
    v.read Val (v.writes Val f (pb j)) y = v.read Val f y := by
  induction j with
  | zero => rw [h0]; rfl
  | succ j ih =>
    have hjn : j < n := hj
    have hstep := hs ⟨j, hjn⟩
    simp only [List.singleton_append] at hstep
    rw [hstep, View.read_writes_cons_unit_of_not_mem v f (inb ⟨j, hjn⟩) (P ⟨j, hjn⟩) _ y rfl ax
      (hdis ⟨j, hjn⟩ (Nat.lt_succ_self j))]
    exact ih (Nat.le_of_succ_le hj) fun i' hi' => hdis i' (Nat.lt_succ_of_lt hi')

end Listed

section Rows

variable {sig : RefSig} {κ : Kind} {sp : Space} {e : EltTy} {Val : EltTy → Type} {N M L : ℕ}
variable (v : View sig κ sp (⟨3, ![N, M, L]⟩ : Shape) e) (f : v.ty.Contents Val)

theorem read_rows_of_mem {n c0 : ℕ} {off : Fin n → Fin 3 → ℕ} (hoff : ∀ k, off k = ![c0 + k.val, 0, 0])
    {inb : ∀ i a, off i a + (![1, M, L] : Fin 3 → ℕ) a ≤ (⟨3, ![N, M, L]⟩ : Shape).size a}
    {P : Fin n → (⟨3, ![1, M, L]⟩ : Shape).Idx → Val e} {pb : ℕ → List (View.Piece Val (⟨3, ![N, M, L]⟩ : Shape) e)}
    (hs : ∀ k : Fin n, pb (k.val + 1)
      = [(⟨Rect.unit (off k) ![1, M, L] (inb k), P k⟩ : View.Piece Val (⟨3, ![N, M, L]⟩ : Shape) e)] ++ pb k.val)
    (r : Fin n) (y0 : Fin N) (hy0 : y0.val = c0 + r.val) (k : Fin M) (b : Fin L) :
    v.read Val (v.writes Val f (pb n)) (ix3 y0 k b) = P r (ix3 (0 : Fin 1) k b) := by
  refine read_listed_of_mem v f hs n (Nat.le_refl n) _ r r.isLt (ix3 (0 : Fin 1) k b) ?_ (0 : Fin 3) ?_
  · intro a
    rw [hoff r]
    match a with
    | ⟨0, _⟩ => exact hy0
    | ⟨1, _⟩ => exact (Nat.zero_add _).symm
    | ⟨2, _⟩ => exact (Nat.zero_add _).symm
  · intro i' hne
    rw [hoff i']
    have hv : i'.val ≠ r.val := fun h => hne (Fin.ext h)
    show y0.val < c0 + i'.val ∨ c0 + i'.val + 1 ≤ y0.val
    omega

theorem read_rows_of_not_mem {n c0 : ℕ} {off : Fin n → Fin 3 → ℕ} (hoff : ∀ k, off k = ![c0 + k.val, 0, 0])
    {inb : ∀ i a, off i a + (![1, M, L] : Fin 3 → ℕ) a ≤ (⟨3, ![N, M, L]⟩ : Shape).size a}
    {P : Fin n → (⟨3, ![1, M, L]⟩ : Shape).Idx → Val e} {pb : ℕ → List (View.Piece Val (⟨3, ![N, M, L]⟩ : Shape) e)}
    (h0 : pb 0 = [])
    (hs : ∀ k : Fin n, pb (k.val + 1)
      = [(⟨Rect.unit (off k) ![1, M, L] (inb k), P k⟩ : View.Piece Val (⟨3, ![N, M, L]⟩ : Shape) e)] ++ pb k.val)
    (y : (⟨3, ![N, M, L]⟩ : Shape).Idx) (hy : (y 0).val < c0 ∨ c0 + n ≤ (y 0).val) :
    v.read Val (v.writes Val f (pb n)) y = v.read Val f y := by
  refine read_listed_of_not_mem v f h0 hs n (Nat.le_refl n) y (0 : Fin 3) ?_
  intro i' _
  rw [hoff i']
  have := i'.isLt
  show (y 0).val < c0 + i'.val ∨ c0 + i'.val + 1 ≤ (y 0).val
  omega

theorem read_slab_of_mem {C c0 : ℕ} {off : Fin 3 → ℕ} (hoff : off = ![c0, 0, 0])
    (inb : ∀ a, off a + (![C, M, L] : Fin 3 → ℕ) a ≤ (⟨3, ![N, M, L]⟩ : Shape).size a)
    (w : (⟨3, ![C, M, L]⟩ : Shape).Idx → Val e) (Lst : List (View.Piece Val (⟨3, ![N, M, L]⟩ : Shape) e))
    (r : Fin C) (y0 : Fin N) (hy0 : y0.val = c0 + r.val) (k : Fin M) (b : Fin L) :
    v.read Val (v.writes Val f ((⟨Rect.unit off ![C, M, L] inb, w⟩ : View.Piece Val (⟨3, ![N, M, L]⟩ : Shape) e) :: Lst))
        (ix3 y0 k b) = w (ix3 r k b) := by
  refine View.read_writes_cons_unit_of_mem v f inb w Lst _ (ix3 r k b) hoff ?_
  intro a
  match a with
  | ⟨0, _⟩ => exact hy0
  | ⟨1, _⟩ => exact (Nat.zero_add _).symm
  | ⟨2, _⟩ => exact (Nat.zero_add _).symm

theorem read_slab_of_not_mem {C c0 : ℕ} {off : Fin 3 → ℕ} (hoff : off = ![c0, 0, 0])
    (inb : ∀ a, off a + (![C, M, L] : Fin 3 → ℕ) a ≤ (⟨3, ![N, M, L]⟩ : Shape).size a)
    (w : (⟨3, ![C, M, L]⟩ : Shape).Idx → Val e) (Lst : List (View.Piece Val (⟨3, ![N, M, L]⟩ : Shape) e))
    (y : (⟨3, ![N, M, L]⟩ : Shape).Idx) (hy : (y 0).val < c0 ∨ c0 + C ≤ (y 0).val) :
    v.read Val (v.writes Val f ((⟨Rect.unit off ![C, M, L] inb, w⟩ : View.Piece Val (⟨3, ![N, M, L]⟩ : Shape) e) :: Lst)) y
      = v.read Val (v.writes Val f Lst) y :=
  View.read_writes_cons_unit_of_not_mem v f inb w Lst y hoff (0 : Fin 3) hy

theorem readAt_rows {C c0 : ℕ} {off : Fin 3 → ℕ} (hoff : off = ![c0, 0, 0])
    (inb : ∀ a, off a + (![C, M, L] : Fin 3 → ℕ) a ≤ (⟨3, ![N, M, L]⟩ : Shape).size a)
    (r : Fin C) (y0 : Fin N) (hy0 : y0.val = c0 + r.val) (k : Fin M) (b : Fin L) :
    v.readAt Val (Rect.unit (s := (⟨3, ![N, M, L]⟩ : Shape)) off ![C, M, L] inb).toLoadRect f (ix3 r k b)
      = v.read Val f (ix3 y0 k b) := by
  subst hoff
  rw [View.readAt_apply]
  refine congrArg (v.read Val f) (funext fun a => Fin.ext ?_)
  match a with
  | ⟨0, _⟩ => exact (congrArg (c0 + ·) (Nat.one_mul _)).trans hy0.symm
  | ⟨1, _⟩ => exact (congrArg (0 + ·) (Nat.one_mul _)).trans (Nat.zero_add _)
  | ⟨2, _⟩ => exact (congrArg (0 + ·) (Nat.one_mul _)).trans (Nat.zero_add _)

theorem readAt_row {r : ℕ} {off : Fin 3 → ℕ} (hoff : off = ![r, 0, 0])
    (inb : ∀ a, off a + (![1, M, L] : Fin 3 → ℕ) a ≤ (⟨3, ![N, M, L]⟩ : Shape).size a)
    (y0 : Fin N) (hy0 : y0.val = r) (k : Fin M) (b : Fin L) :
    v.readAt Val (Rect.unit (s := (⟨3, ![N, M, L]⟩ : Shape)) off ![1, M, L] inb).toLoadRect f (ix3 (0 : Fin 1) k b)
      = v.read Val f (ix3 y0 k b) :=
  readAt_rows v f hoff inb (0 : Fin 1) y0 hy0 k b

end Rows

end Cert.KernelIdeal.Hand
-- ==== Proof.KI.BodyGather.lean ====
import proofs.«411912_j30219389895125_3_alg».proof.Proof.KI.LoopsH
import proofs.«411912_j30219389895125_3_alg».proof.Proof.KI.BodyRows
import proofs.«411912_j30219389895125_3_alg».proof.Proof.KI.PayPair

noncomputable section

namespace Cert.KernelIdeal.Hand

open Idealize.ShloMosaic Idealize.ShloMosaic.TcCoe Idealize.ShloMosaic.ValueIdx
open Cert.KernelIdeal Cert.KernelIdeal.Gen

-- The one index of a one-word rectangle is all zeros, so in the table it sits at the rectangle's offsets.
theorem word_idx {n : ℕ} (off : Fin 2 → ℕ) (inb : ∀ a, off a + S1x1.size a ≤ (⟨2, ![2, n]⟩ : Shape).size a) (h1 : 0 < S1x1.numel)
    (s : Fin 2) (q : Fin n) (h : off = ![s.val, q.val]) :
    (Rect.unit (s := ⟨2, ![2, n]⟩) off S1x1.size inb).toLoadRect.idx (Shape.Idx.first h1) = ix2 s q := by
  subst h
  funext a
  match a with
  | ⟨0, _⟩ => rfl
  | ⟨1, _⟩ => rfl

-- The word loaded at offsets `(s, q)` is the table's entry `(s, q)`, so a row offset computed from it is that entry read as a number.
theorem word_row {κ : Kind} {sp : Space} {n : ℕ} (tb : View sig κ sp (⟨2, ![2, n]⟩ : Shape) .i32) (xt : tb.ty.Contents (Elt Ideal))
    (f : BitVec 32 → Fin 3 → ℕ) (hf : ∀ w, f w = ![w.toNat, 0, 0]) (s : Fin 2) (q : Fin n)
    {off : Fin 2 → ℕ} {inb : ∀ a, off a + S1x1.size a ≤ (⟨2, ![2, n]⟩ : Shape).size a} {h1 : 0 < S1x1.numel}
    (h : off = ![s.val, q.val]) {i : ℕ} (hi : (tb.read (Elt Ideal) xt (ix2 s q) : BitVec 32).toNat = i) :
    f (tb.readAt (Elt Ideal) (Rect.unit (s := ⟨2, ![2, n]⟩) off S1x1.size inb).toLoadRect xt (Shape.Idx.first h1)) = ![i, 0, 0] := by
  subst hi
  rw [hf, View.readAt_apply, word_idx off inb h1 s q h]

-- Trip `k` stores into row `c0 + k` the sum of two one-row loads of the source; the rows of different trips are apart, so row `c0 + r` reads trip `r`'s sum.
theorem gather_rows {κd κs : Kind} {spd sps : Space} {N Ns M L n n' c0 : ℕ}
    (vd : View sig κd spd (⟨3, ![N, M, L]⟩ : Shape) .f32) (G : vd.ty.Contents (Elt Ideal))
    (vs : View sig κs sps (⟨3, ![Ns, M, L]⟩ : Shape) .f32) (X : vs.ty.Contents (Elt Ideal))
    {off : Fin n → Fin 3 → ℕ} (hoff : ∀ k, off k = ![c0 + k.val, 0, 0])
    {inb : ∀ i a, off i a + (![1, M, L] : Fin 3 → ℕ) a ≤ (⟨3, ![N, M, L]⟩ : Shape).size a}
    {P : Fin n → (⟨3, ![1, M, L]⟩ : Shape).Idx → Elt Ideal .f32} {pb : ℕ → List (View.Piece (Elt Ideal) (⟨3, ![N, M, L]⟩ : Shape) .f32)}
    (hs : ∀ k : Fin n, pb (k.val + 1)
      = [(⟨Rect.unit (off k) ![1, M, L] (inb k), P k⟩ : View.Piece (Elt Ideal) (⟨3, ![N, M, L]⟩ : Shape) .f32)] ++ pb k.val)
    (hn : n' = n) (r : Fin n') (y0 : Fin N) (hy0 : y0.val = c0 + r.val) (i0 i1 : Fin Ns) (k : Fin M) (b : Fin L)
    {oA oB : Fin 3 → ℕ} {iA : ∀ a, oA a + (![1, M, L] : Fin 3 → ℕ) a ≤ (⟨3, ![Ns, M, L]⟩ : Shape).size a}
    {iB : ∀ a, oB a + (![1, M, L] : Fin 3 → ℕ) a ≤ (⟨3, ![Ns, M, L]⟩ : Shape).size a}
    (hP : P (Fin.cast hn r) (ix3 (0 : Fin 1) k b)
      = vs.readAt (Elt Ideal) (Rect.unit (s := (⟨3, ![Ns, M, L]⟩ : Shape)) oA ![1, M, L] iA).toLoadRect X (ix3 (0 : Fin 1) k b)
        + vs.readAt (Elt Ideal) (Rect.unit (s := (⟨3, ![Ns, M, L]⟩ : Shape)) oB ![1, M, L] iB).toLoadRect X (ix3 (0 : Fin 1) k b))
    (hA : oA = ![i0.val, 0, 0]) (hB : oB = ![i1.val, 0, 0]) :
    vd.read (Elt Ideal) (vd.writes (Elt Ideal) G (pb n)) (ix3 y0 k b)
      = vs.read (Elt Ideal) X (ix3 i0 k b) + vs.read (Elt Ideal) X (ix3 i1 k b) := by
  subst hn
  rw [read_rows_of_mem vd G hoff hs r y0 hy0 k b]
  refine hP.trans ?_
  congr 1
  · exact readAt_row vs X hA iA i0 rfl k b
  · exact readAt_row vs X hB iB i1 rfl k b

theorem gather_t1 (c : Dev nD) (xt : TbBuf0 (F := Ideal) c tbM0_0) (X_src : BufTy.Contents (Elt Ideal) scM0.view.ty)
    (G : BufTy.Contents (Elt Ideal) scM1.view.ty) (h1 : HW1 c xt) (h2 : HW2 c xt)
    (r : Fin 64) (y0 : Fin 128) (hy0 : y0.val = 0 + r.val) (q : Fin 128) (hq : q.val = 0 + r.val)
    (i0 i1 : Fin 256) (hi0 : (xt (ix2 (0 : Fin 2) q) : BitVec 32).toNat = i0.val)
    (hi1 : (xt (ix2 (1 : Fin 2) q) : BitVec 32).toNat = i1.val) (k : Fin 64) (b : Fin 128) :
    scM1.view.read (Elt Ideal) (scM1.view.writes (Elt Ideal) G (pbH_k0_t1 c xt X_src h1 h2 k0_t1_loop.trips)) (ix3 y0 k b)
      = scM0.view.read (Elt Ideal) X_src (ix3 i0 k b) + scM0.view.read (Elt Ideal) X_src (ix3 i1 k b) :=
  gather_rows scM1.view G scM0.view X_src (c0 := 0) (fun _ => by rw [k0_off5_eq, Nat.zero_add]) (pbH_k0_t1_succ c xt X_src h1 h2)
    (by decide) r y0 hy0 i0 i1 k b (pay14_apply _ _ k b)
    (word_row tbM0_0.view xt k0_off3 (fun _ => rfl) 0 q (by rw [k0_off1_eq, hq, Nat.zero_add]; rfl) hi0)
    (word_row tbM0_0.view xt k0_off4 (fun _ => rfl) 1 q (by rw [k0_off2_eq, hq, Nat.zero_add]; rfl) hi1)

theorem gather_t2 (c : Dev nD) (xt : TbBuf0 (F := Ideal) c tbM0_0) (X_src : BufTy.Contents (Elt Ideal) scM0.view.ty)
    (G : BufTy.Contents (Elt Ideal) scM1.view.ty) (h1 : HW3 c xt) (h2 : HW4 c xt)
    (r : Fin 64) (y0 : Fin 128) (hy0 : y0.val = 64 + r.val) (q : Fin 128) (hq : q.val = 64 + r.val)
    (i0 i1 : Fin 256) (hi0 : (xt (ix2 (0 : Fin 2) q) : BitVec 32).toNat = i0.val)
    (hi1 : (xt (ix2 (1 : Fin 2) q) : BitVec 32).toNat = i1.val) (k : Fin 64) (b : Fin 128) :
    scM1.view.read (Elt Ideal) (scM1.view.writes (Elt Ideal) G (pbH_k0_t2 c xt X_src h1 h2 k0_t2_loop.trips)) (ix3 y0 k b)
      = scM0.view.read (Elt Ideal) X_src (ix3 i0 k b) + scM0.view.read (Elt Ideal) X_src (ix3 i1 k b) :=
  gather_rows scM1.view G scM0.view X_src (c0 := 64) (fun _ => by rw [k0_off10_eq, Nat.add_comm]) (pbH_k0_t2_succ c xt X_src h1 h2)
    (by decide) r y0 hy0 i0 i1 k b (pay16_apply _ _ k b)
    (word_row tbM0_0.view xt k0_off8 (fun _ => rfl) 0 q (by rw [k0_off6_eq, hq, Nat.add_comm]; rfl) hi0)
    (word_row tbM0_0.view xt k0_off9 (fun _ => rfl) 1 q (by rw [k0_off7_eq, hq, Nat.add_comm]; rfl) hi1)

theorem gather_t2_off (c : Dev nD) (xt : TbBuf0 (F := Ideal) c tbM0_0) (X_src : BufTy.Contents (Elt Ideal) scM0.view.ty)
    (G : BufTy.Contents (Elt Ideal) scM1.view.ty) (h1 : HW3 c xt) (h2 : HW4 c xt)
    (y : S128x64x128.Idx) (hy : (y 0).val < 64 ∨ 64 + 64 ≤ (y 0).val) :
    scM1.view.read (Elt Ideal) (scM1.view.writes (Elt Ideal) G (pbH_k0_t2 c xt X_src h1 h2 k0_t2_loop.trips)) y
      = scM1.view.read (Elt Ideal) G y :=
  read_rows_of_not_mem scM1.view G (c0 := 64) (fun _ => by rw [k0_off10_eq, Nat.add_comm]) rfl (pbH_k0_t2_succ c xt X_src h1 h2) y
    (by rw [show k0_t2_loop.trips = 64 by decide]; exact hy)

theorem gather_t3 (c : Dev nD) (xt : TbBuf0 (F := Ideal) c tbM0_1) (X_src : BufTy.Contents (Elt Ideal) scM1.view.ty)
    (G : BufTy.Contents (Elt Ideal) scM2.view.ty) (h1 : HW5 c xt) (h2 : HW6 c xt)
    (r : Fin 64) (y0 : Fin 64) (hy0 : y0.val = 0 + r.val) (q : Fin 64) (hq : q.val = 0 + r.val)
    (i0 i1 : Fin 128) (hi0 : (xt (ix2 (0 : Fin 2) q) : BitVec 32).toNat = i0.val)
    (hi1 : (xt (ix2 (1 : Fin 2) q) : BitVec 32).toNat = i1.val) (k : Fin 64) (b : Fin 128) :
    scM2.view.read (Elt Ideal) (scM2.view.writes (Elt Ideal) G (pbH_k0_t3 c xt X_src h1 h2 k0_t3_loop.trips)) (ix3 y0 k b)
      = scM1.view.read (Elt Ideal) X_src (ix3 i0 k b) + scM1.view.read (Elt Ideal) X_src (ix3 i1 k b) :=
  gather_rows scM2.view G scM1.view X_src (c0 := 0) (fun _ => by rw [k0_off15_eq, Nat.zero_add]) (pbH_k0_t3_succ c xt X_src h1 h2)
    (by decide) r y0 hy0 i0 i1 k b (pay20_apply _ _ k b)
    (word_row tbM0_1.view xt k0_off13 (fun _ => rfl) 0 q (by rw [k0_off11_eq, hq, Nat.zero_add]; rfl) hi0)
    (word_row tbM0_1.view xt k0_off14 (fun _ => rfl) 1 q (by rw [k0_off12_eq, hq, Nat.zero_add]; rfl) hi1)

theorem gather_t4 (c : Dev nD) (xt : TbBuf0 (F := Ideal) c tbM0_2) (X_src : BufTy.Contents (Elt Ideal) scM2.view.ty)
    (G : BufTy.Contents (Elt Ideal) scM1.view.ty) (h1 : HW7 c xt) (h2 : HW8 c xt)
    (r : Fin 32) (y0 : Fin 128) (hy0 : y0.val = 0 + r.val) (q : Fin 32) (hq : q.val = 0 + r.val)
    (i0 i1 : Fin 64) (hi0 : (xt (ix2 (0 : Fin 2) q) : BitVec 32).toNat = i0.val)
    (hi1 : (xt (ix2 (1 : Fin 2) q) : BitVec 32).toNat = i1.val) (k : Fin 64) (b : Fin 128) :
    scM1.view.read (Elt Ideal) (scM1.view.writes (Elt Ideal) G (pbH_k0_t4 c xt X_src h1 h2 k0_t4_loop.trips)) (ix3 y0 k b)
      = scM2.view.read (Elt Ideal) X_src (ix3 i0 k b) + scM2.view.read (Elt Ideal) X_src (ix3 i1 k b) :=
  gather_rows scM1.view G scM2.view X_src (c0 := 0) (fun _ => by rw [k0_off20_eq, Nat.zero_add]) (pbH_k0_t4_succ c xt X_src h1 h2)
    (by decide) r y0 hy0 i0 i1 k b (pay22_apply _ _ k b)
    (word_row tbM0_2.view xt k0_off18 (fun _ => rfl) 0 q (by rw [k0_off16_eq, hq, Nat.zero_add]; rfl) hi0)
    (word_row tbM0_2.view xt k0_off19 (fun _ => rfl) 1 q (by rw [k0_off17_eq, hq, Nat.zero_add]; rfl) hi1)

theorem gather_t5 (c : Dev nD) (xt : TbBuf0 (F := Ideal) c tbM0_3) (X_src : BufTy.Contents (Elt Ideal) scM1.view.ty)
    (G : BufTy.Contents (Elt Ideal) scM2.view.ty) (h1 : HW9 c xt) (h2 : HW10 c xt)
    (r : Fin 16) (y0 : Fin 64) (hy0 : y0.val = 0 + r.val) (q : Fin 16) (hq : q.val = 0 + r.val)
    (i0 i1 : Fin 128) (hi0 : (xt (ix2 (0 : Fin 2) q) : BitVec 32).toNat = i0.val)
    (hi1 : (xt (ix2 (1 : Fin 2) q) : BitVec 32).toNat = i1.val) (k : Fin 64) (b : Fin 128) :
    scM2.view.read (Elt Ideal) (scM2.view.writes (Elt Ideal) G (pbH_k0_t5 c xt X_src h1 h2 k0_t5_loop.trips)) (ix3 y0 k b)
      = scM1.view.read (Elt Ideal) X_src (ix3 i0 k b) + scM1.view.read (Elt Ideal) X_src (ix3 i1 k b) :=
  gather_rows scM2.view G scM1.view X_src (c0 := 0) (fun _ => by rw [k0_off25_eq, Nat.zero_add]) (pbH_k0_t5_succ c xt X_src h1 h2)
    (by decide) r y0 hy0 i0 i1 k b (pay24_apply _ _ k b)
    (word_row tbM0_3.view xt k0_off23 (fun _ => rfl) 0 q (by rw [k0_off21_eq, hq, Nat.zero_add]; rfl) hi0)
    (word_row tbM0_3.view xt k0_off24 (fun _ => rfl) 1 q (by rw [k0_off22_eq, hq, Nat.zero_add]; rfl) hi1)

theorem gather_t6 (c : Dev nD) (xt : TbBuf0 (F := Ideal) c tbM0_4) (X_src : BufTy.Contents (Elt Ideal) scM2.view.ty)
    (G : BufTy.Contents (Elt Ideal) scM1.view.ty) (h1 : HW11 c xt) (h2 : HW12 c xt)
    (r : Fin 8) (y0 : Fin 128) (hy0 : y0.val = 0 + r.val) (q : Fin 8) (hq : q.val = 0 + r.val)
    (i0 i1 : Fin 64) (hi0 : (xt (ix2 (0 : Fin 2) q) : BitVec 32).toNat = i0.val)
    (hi1 : (xt (ix2 (1 : Fin 2) q) : BitVec 32).toNat = i1.val) (k : Fin 64) (b : Fin 128) :
    scM1.view.read (Elt Ideal) (scM1.view.writes (Elt Ideal) G (pbH_k0_t6 c xt X_src h1 h2 k0_t6_loop.trips)) (ix3 y0 k b)
      = scM2.view.read (Elt Ideal) X_src (ix3 i0 k b) + scM2.view.read (Elt Ideal) X_src (ix3 i1 k b) :=
  gather_rows scM1.view G scM2.view X_src (c0 := 0) (fun _ => by rw [k0_off30_eq, Nat.zero_add]) (pbH_k0_t6_succ c xt X_src h1 h2)
    (by decide) r y0 hy0 i0 i1 k b (pay26_apply _ _ k b)
    (word_row tbM0_4.view xt k0_off28 (fun _ => rfl) 0 q (by rw [k0_off26_eq, hq, Nat.zero_add]; rfl) hi0)
    (word_row tbM0_4.view xt k0_off29 (fun _ => rfl) 1 q (by rw [k0_off27_eq, hq, Nat.zero_add]; rfl) hi1)

theorem gather_t7 (c : Dev nD) (xt : TbBuf0 (F := Ideal) c tbM0_5) (X_src : BufTy.Contents (Elt Ideal) scM1.view.ty)
    (G : BufTy.Contents (Elt Ideal) scM2.view.ty) (h1 : HW13 c xt) (h2 : HW14 c xt)
    (r : Fin 4) (y0 : Fin 64) (hy0 : y0.val = 0 + r.val) (q : Fin 4) (hq : q.val = 0 + r.val)
    (i0 i1 : Fin 128) (hi0 : (xt (ix2 (0 : Fin 2) q) : BitVec 32).toNat = i0.val)
    (hi1 : (xt (ix2 (1 : Fin 2) q) : BitVec 32).toNat = i1.val) (k : Fin 64) (b : Fin 128) :
    scM2.view.read (Elt Ideal) (scM2.view.writes (Elt Ideal) G (pbH_k0_t7 c xt X_src h1 h2 k0_t7_loop.trips)) (ix3 y0 k b)
      = scM1.view.read (Elt Ideal) X_src (ix3 i0 k b) + scM1.view.read (Elt Ideal) X_src (ix3 i1 k b) :=
  gather_rows scM2.view G scM1.view X_src (c0 := 0) (fun _ => by rw [k0_off35_eq, Nat.zero_add]) (pbH_k0_t7_succ c xt X_src h1 h2)
    (by decide) r y0 hy0 i0 i1 k b (pay28_apply _ _ k b)
    (word_row tbM0_5.view xt k0_off33 (fun _ => rfl) 0 q (by rw [k0_off31_eq, hq, Nat.zero_add]; rfl) hi0)
    (word_row tbM0_5.view xt k0_off34 (fun _ => rfl) 1 q (by rw [k0_off32_eq, hq, Nat.zero_add]; rfl) hi1)

theorem gather_t8 (c : Dev nD) (xt : TbBuf0 (F := Ideal) c tbM0_6) (X_src : BufTy.Contents (Elt Ideal) scM2.view.ty)
    (G : BufTy.Contents (Elt Ideal) scM1.view.ty) (h1 : HW15 c xt) (h2 : HW16 c xt)
    (r : Fin 2) (y0 : Fin 128) (hy0 : y0.val = 0 + r.val) (q : Fin 2) (hq : q.val = 0 + r.val)
    (i0 i1 : Fin 64) (hi0 : (xt (ix2 (0 : Fin 2) q) : BitVec 32).toNat = i0.val)
    (hi1 : (xt (ix2 (1 : Fin 2) q) : BitVec 32).toNat = i1.val) (k : Fin 64) (b : Fin 128) :
    scM1.view.read (Elt Ideal) (scM1.view.writes (Elt Ideal) G (pbH_k0_t8 c xt X_src h1 h2 k0_t8_loop.trips)) (ix3 y0 k b)
      = scM2.view.read (Elt Ideal) X_src (ix3 i0 k b) + scM2.view.read (Elt Ideal) X_src (ix3 i1 k b) :=
  gather_rows scM1.view G scM2.view X_src (c0 := 0) (fun _ => by rw [k0_off40_eq, Nat.zero_add]) (pbH_k0_t8_succ c xt X_src h1 h2)
    (by decide) r y0 hy0 i0 i1 k b (pay31_apply _ _ k b)
    (word_row tbM0_6.view xt k0_off38 (fun _ => rfl) 0 q (by rw [k0_off36_eq, hq, Nat.zero_add]; rfl) hi0)
    (word_row tbM0_6.view xt k0_off39 (fun _ => rfl) 1 q (by rw [k0_off37_eq, hq, Nat.zero_add]; rfl) hi1)

end Cert.KernelIdeal.Hand

end
-- ==== Proof.KI.BodyLvl1.lean ====
import proofs.«411912_j30219389895125_3_alg».proof.Proof.KI.BodyGather
import proofs.«411912_j30219389895125_3_alg».proof.Proof.KI.PaySlab

noncomputable section

namespace Cert.KernelIdeal.Hand

open Idealize.ShloMosaic Idealize.ShloMosaic.TcCoe Idealize.ShloMosaic.ValueIdx
open Cert.KernelIdeal Cert.KernelIdeal.Gen

section
variable (c : Dev nD) (xt : TbBuf0 (F := Ideal) c tbM0_0) (X : BufTy.Contents (Elt Ideal) scM0.view.ty)
  (G : BufTy.Contents (Elt Ideal) scM1.view.ty) (h1 : HW1 c xt) (h2 : HW2 c xt) (h3 : HW3 c xt) (h4 : HW4 c xt)
  (Wa Wb : Vec Ideal S64x64x64 .f32)

def slabPc_1a : View.Piece (Elt Ideal) S128x64x128 .f32 :=
  ⟨Rect.unit (s := S128x64x128) ![0, 0, 0] S64x64x128.size inb_S128x64x128_S64x64x128_0_0_0,
    k0_pay15 (scM1.view.readAt (Elt Ideal) (Rect.unit (s := S128x64x128) ![0, 0, 0] S64x64x128.size inb_S128x64x128_S64x64x128_0_0_0).toLoadRect
      (scM1.view.writes (Elt Ideal) G (pbH_k0_t1 c xt X h1 h2 k0_t1_loop.trips))) Wa⟩

def lst_1b : List (View.Piece (Elt Ideal) S128x64x128 .f32) :=
  pbH_k0_t2 c xt X h3 h4 k0_t2_loop.trips ++ slabPc_1a c xt X G h1 h2 Wa :: pbH_k0_t1 c xt X h1 h2 k0_t1_loop.trips

def slabLd_1b : Vec Ideal S64x64x128 .f32 :=
  scM1.view.readAt (Elt Ideal) (Rect.unit (s := S128x64x128) ![64, 0, 0] S64x64x128.size inb_S128x64x128_S64x64x128_64_0_0).toLoadRect
    (scM1.view.writes (Elt Ideal) G (lst_1b c xt X G h1 h2 h3 h4 Wa))

def slabPc_1b : View.Piece (Elt Ideal) S128x64x128 .f32 :=
  ⟨Rect.unit (s := S128x64x128) ![64, 0, 0] S64x64x128.size inb_S128x64x128_S64x64x128_64_0_0,
    k0_pay19 (slabLd_1b c xt X G h1 h2 h3 h4 Wa) (k0_pay17 (slabLd_1b c xt X G h1 h2 h3 h4 Wa))
      (k0_pay18 (slabLd_1b c xt X G h1 h2 h3 h4 Wa)) Wb⟩

variable (t : ℕ) (ht : t < 16) (prev : Fin 256 → Fin 2048 → Fin 64 → EReal)
  (hX : ∀ (d : Fin 256) (k : Fin 64) (b : Fin 128),
    scM0.view.read (Elt Ideal) X (ix3 d k b) = prev d ⟨128 * t + b.val, by omega⟩ k)
  (idx : Fin 128 → Fin 2 → BitVec 32)
  (hidx : ∀ (f : Fin 128) (s : Fin 2), (xt (ix2 s f) : BitVec 32).toNat = Cert.Spec.cl 256 (idx f s))
  (wp : Fin 128 → Fin 64 → Fin 64 → EReal)
  (hWa : ∀ (r : Fin 64) (j k : Fin 64), Wa (ix3 r j k) = wp ⟨r.val, by omega⟩ j k)
  (hWb : ∀ (r : Fin 64) (j k : Fin 64), Wb (ix3 r j k) = wp ⟨64 + r.val, by omega⟩ j k)

include ht hX hidx in
theorem lvl1_sum_a (r : Fin 64) (k : Fin 64) (b : Fin 128) :
    scM1.view.read (Elt Ideal) (scM1.view.writes (Elt Ideal) G (pbH_k0_t1 c xt X h1 h2 k0_t1_loop.trips)) (ix3 (⟨r.val, by omega⟩ : Fin 128) k b)
      = prev (Cert.Spec.row (by decide : 0 < 256) (idx ⟨r.val, by omega⟩ 0)) ⟨128 * t + b.val, by omega⟩ k
        + prev (Cert.Spec.row (by decide : 0 < 256) (idx ⟨r.val, by omega⟩ 1)) ⟨128 * t + b.val, by omega⟩ k := by
  rw [gather_t1 c xt X G h1 h2 r ⟨r.val, by omega⟩ (Nat.zero_add _).symm ⟨r.val, by omega⟩ (Nat.zero_add _).symm
    (Cert.Spec.row (by decide : 0 < 256) (idx ⟨r.val, by omega⟩ 0)) (Cert.Spec.row (by decide : 0 < 256) (idx ⟨r.val, by omega⟩ 1))
    (hidx _ 0) (hidx _ 1) k b, hX, hX]

include ht hX hidx in
theorem lvl1_sum_b (G' : BufTy.Contents (Elt Ideal) scM1.view.ty) (r : Fin 64) (k : Fin 64) (b : Fin 128) :
    scM1.view.read (Elt Ideal) (scM1.view.writes (Elt Ideal) G' (pbH_k0_t2 c xt X h3 h4 k0_t2_loop.trips)) (ix3 (⟨64 + r.val, by omega⟩ : Fin 128) k b)
      = prev (Cert.Spec.row (by decide : 0 < 256) (idx ⟨64 + r.val, by omega⟩ 0)) ⟨128 * t + b.val, by omega⟩ k
        + prev (Cert.Spec.row (by decide : 0 < 256) (idx ⟨64 + r.val, by omega⟩ 1)) ⟨128 * t + b.val, by omega⟩ k := by
  rw [gather_t2 c xt X G' h3 h4 r ⟨64 + r.val, by omega⟩ rfl ⟨64 + r.val, by omega⟩ rfl
    (Cert.Spec.row (by decide : 0 < 256) (idx ⟨64 + r.val, by omega⟩ 0)) (Cert.Spec.row (by decide : 0 < 256) (idx ⟨64 + r.val, by omega⟩ 1))
    (hidx _ 0) (hidx _ 1) k b, hX, hX]

include ht hX hidx hWa in
theorem lvl1_a (r : Fin 64) (j : Fin 64) (b : Fin 128) :
    scM1.view.read (Elt Ideal) (scM1.view.writes (Elt Ideal) G (slabPc_1a c xt X G h1 h2 Wa :: pbH_k0_t1 c xt X h1 h2 k0_t1_loop.trips))
        (ix3 (⟨r.val, by omega⟩ : Fin 128) j b)
      = Cert.Spec.lvl (by decide : 0 < 256) prev idx wp ⟨r.val, by omega⟩ ⟨128 * t + b.val, by omega⟩ j := by
  unfold slabPc_1a
  rw [read_slab_of_mem scM1.view G rfl inb_S128x64x128_S64x64x128_0_0_0 _ _ r ⟨r.val, by omega⟩ (Nat.zero_add _).symm j b,
    pay15_apply]
  unfold Cert.Spec.lvl
  congr 1
  · funext j' k'; exact hWa r j' k'
  · funext k'
    rw [readAt_rows scM1.view _ rfl inb_S128x64x128_S64x64x128_0_0_0 r ⟨r.val, by omega⟩ (Nat.zero_add _).symm k' b]
    exact lvl1_sum_a c xt X G h1 h2 t ht prev hX idx hidx r k' b

include ht hX hidx hWa hWb in
theorem lvl1_state (f : Fin 128) (j : Fin 64) (b : Fin 128) :
    scM1.view.read (Elt Ideal) (scM1.view.writes (Elt Ideal) G
        (slabPc_1b c xt X G h1 h2 h3 h4 Wa Wb :: lst_1b c xt X G h1 h2 h3 h4 Wa)) (ix3 f j b)
      = Cert.Spec.lvl (by decide : 0 < 256) prev idx wp f ⟨128 * t + b.val, by omega⟩ j := by
  by_cases hf : f.val < 64
  · obtain ⟨r, rfl⟩ : ∃ r : Fin 64, f = ⟨r.val, Nat.lt_of_lt_of_le r.isLt (by decide)⟩ := ⟨⟨f.val, hf⟩, rfl⟩
    unfold slabPc_1b
    rw [read_slab_of_not_mem scM1.view G rfl inb_S128x64x128_S64x64x128_64_0_0 _ _ _ (Or.inl r.isLt)]
    unfold lst_1b
    rw [View.writes_append, gather_t2_off c xt X _ h3 h4 _ (Or.inl r.isLt)]
    exact lvl1_a c xt X G h1 h2 Wa t ht prev hX idx hidx wp hWa r j b
  · obtain ⟨r, rfl⟩ : ∃ r : Fin 64, f = ⟨64 + r.val, (Nat.add_lt_add_left r.isLt 64 : 64 + r.val < 128)⟩ :=
      ⟨⟨f.val - 64, by omega⟩, Fin.ext (by show f.val = 64 + (f.val - 64); omega)⟩
    unfold slabPc_1b
    rw [read_slab_of_mem scM1.view G rfl inb_S128x64x128_S64x64x128_64_0_0 _ _ r ⟨64 + r.val, by omega⟩ rfl j b,
      pay19_apply]
    unfold Cert.Spec.lvl
    congr 1
    · funext j' k'; exact hWb r j' k'
    · funext k'
      unfold slabLd_1b
      rw [readAt_rows scM1.view _ rfl inb_S128x64x128_S64x64x128_64_0_0 r ⟨64 + r.val, by omega⟩ rfl k' b]
      unfold lst_1b
      rw [View.writes_append]
      exact lvl1_sum_b c xt X h3 h4 t ht prev hX idx hidx _ r k' b

end

end Cert.KernelIdeal.Hand

end
-- ==== Proof.KI.BodyLvlRows0.lean ====
import Idealize.ShloMosaic.Lib.ValueIdx
import Idealize.ShloMosaic.Lib.ValueLayout
import Idealize.ShloMosaic.PureOps.Ideal.Laws
import Idealize.ShloMosaic.Lib.WritesUnit

noncomputable section

namespace Cert.KernelIdeal.Hand

open Idealize.ShloMosaic Idealize.ShloMosaic.ValueIdx

section Rows0
variable {sig : RefSig} {κ : Kind} {sp : Space} {e : EltTy} {Val : EltTy → Type} {N M L C : ℕ}
variable (v : View sig κ sp (⟨3, ![N, M, L]⟩ : Shape) e) (f : v.ty.Contents Val)

theorem slab_readAt_rows0
    (inb : ∀ a, (![0, 0, 0] : Fin 3 → ℕ) a + (![C, M, L] : Fin 3 → ℕ) a ≤ (⟨3, ![N, M, L]⟩ : Shape).size a)
    (r : Fin C) (hr : r.val < N) (k : Fin M) (b : Fin L) :
    v.readAt Val (Rect.unit (s := (⟨3, ![N, M, L]⟩ : Shape)) ![0, 0, 0] ![C, M, L] inb).toLoadRect f (ix3 r k b)
      = v.read Val f (ix3 (⟨r.val, hr⟩ : Fin N) k b) := by
  rw [View.readAt_apply]
  refine congrArg (v.read Val f) (funext fun a => Fin.ext ?_)
  match a with
  | ⟨0, _⟩ => show 0 + 1 * r.val = r.val; omega
  | ⟨1, _⟩ => show 0 + 1 * k.val = k.val; omega
  | ⟨2, _⟩ => show 0 + 1 * b.val = b.val; omega

end Rows0

end Cert.KernelIdeal.Hand

end
-- ==== Proof.KI.BodyLvl2.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.BodyGather
import proofs.«411912_j30219389895125_3_alg».proof.Proof.KI.PaySlab
import proofs.«411912_j30219389895125_3_alg».proof.Proof.KI.BodyLvlRows0

noncomputable section

namespace Cert.KernelIdeal.Hand

open Idealize.ShloMosaic Idealize.ShloMosaic.ValueIdx
open Idealize.ShloMosaic.TcCoe
open Cert.KernelIdeal Cert.KernelIdeal.Gen

def slabPc_2 (c : Dev nD) (xt : TbBuf0 (F := Ideal) c tbM0_1)
    (X : BufTy.Contents (Elt Ideal) scM1.view.ty) (G : BufTy.Contents (Elt Ideal) scM2.view.ty)
    (h1 : HW5 c xt) (h2 : HW6 c xt) (W : Vec Ideal S64x64x64 .f32) :
    View.Piece (Elt Ideal) S64x64x128 .f32 :=
  ⟨(Rect.unit (s := S64x64x128) ![0, 0, 0] S64x64x128.size inb_S64x64x128_S64x64x128_0_0_0),
    k0_pay21 (scM2.view.readAt (Elt Ideal) (Rect.unit (s := S64x64x128) ![0, 0, 0] S64x64x128.size inb_S64x64x128_S64x64x128_0_0_0).toLoadRect
        (scM2.view.writes (Elt Ideal) G (pbH_k0_t3 c xt X h1 h2 k0_t3_loop.trips))) W⟩

theorem lvl_2_state (c : Dev nD) (xt : TbBuf0 (F := Ideal) c tbM0_1)
    (X : BufTy.Contents (Elt Ideal) scM1.view.ty) (G : BufTy.Contents (Elt Ideal) scM2.view.ty)
    (h1 : HW5 c xt) (h2 : HW6 c xt) (W : Vec Ideal S64x64x64 .f32)
    (t : ℕ) (ht : t < 16) (prev : Fin 128 → Fin 2048 → Fin 64 → EReal)
    (hX : ∀ (d : Fin 128) (k : Fin 64) (b : Fin 128),
      scM1.view.read (Elt Ideal) X (ix3 (⟨d.val, Nat.lt_of_lt_of_le d.isLt (by decide)⟩ : Fin 128) k b)
        = prev d ⟨128 * t + b.val, by have := b.isLt; omega⟩ k)
    (idx : Fin 64 → Fin 2 → BitVec 32)
    (hidx : ∀ f s, (xt (ix2 s f) : BitVec 32).toNat = Cert.Spec.cl 128 (idx f s))
    (wp : Fin 64 → Fin 64 → Fin 64 → EReal) (hW : ∀ f j k, W (ix3 f j k) = wp f j k)
    (f : Fin 64) (j : Fin 64) (b : Fin 128) :
    scM2.view.read (Elt Ideal)
        (scM2.view.writes (Elt Ideal) G
          (slabPc_2 c xt X G h1 h2 W :: pbH_k0_t3 c xt X h1 h2 k0_t3_loop.trips))
        (ix3 (⟨f.val, Nat.lt_of_lt_of_le f.isLt (by decide)⟩ : Fin 64) j b)
      = Cert.Spec.lvl (by decide : 0 < 128) prev idx wp f ⟨128 * t + b.val, by have := b.isLt; omega⟩ j := by
  have hf : f.val < 64 := Nat.lt_of_lt_of_le f.isLt (by decide)
  unfold slabPc_2
  refine (View.read_writes_cons_unit_of_mem scM2.view G _ _ _ (ix3 (⟨f.val, hf⟩ : Fin 64) j b) (ix3 f j b) rfl
    (fun a => ?_)).trans ?_
  · match a with
    | ⟨0, _⟩ => exact (Nat.zero_add _).symm
    | ⟨1, _⟩ => exact (Nat.zero_add _).symm
    | ⟨2, _⟩ => exact (Nat.zero_add _).symm
  · rw [pay21_apply]
    unfold Cert.Spec.lvl
    have hw : (fun j k => W (ix3 f j k)) = wp f := funext fun j => funext fun k => hW f j k
    rw [hw]
    refine congrArg (fun h => Cert.Spec.lse (wp f) h j) (funext fun k => ?_)
    have hi0 : (Cert.Spec.row (by decide : 0 < 128) (idx f 0)).val < 128 :=
      Nat.lt_of_lt_of_le (Cert.Spec.row (by decide : 0 < 128) (idx f 0)).isLt (by decide)
    have hi1 : (Cert.Spec.row (by decide : 0 < 128) (idx f 1)).val < 128 :=
      Nat.lt_of_lt_of_le (Cert.Spec.row (by decide : 0 < 128) (idx f 1)).isLt (by decide)
    rw [slab_readAt_rows0 scM2.view _ _ f hf k b,
      gather_t3 c xt X G h1 h2 f ⟨f.val, hf⟩ (Nat.zero_add _).symm f (Nat.zero_add _).symm
        ⟨(Cert.Spec.row (by decide : 0 < 128) (idx f 0)).val, hi0⟩
        ⟨(Cert.Spec.row (by decide : 0 < 128) (idx f 1)).val, hi1⟩ (hidx f 0) (hidx f 1) k b,
      hX, hX]

end Cert.KernelIdeal.Hand

end
-- ==== Proof.KI.BodyLvl3.lean ====
import proofs.«411912_j30219389895125_3_alg».proof.Proof.Gen.KernelIdeal.Skeleton
import proofs.«411912_j30219389895125_3_alg».proof.Proof.Spec
import Idealize.ShloMosaic.Lib.ValueIdx
import Idealize.ShloMosaic.Lib.ValueLayout
import Idealize.ShloMosaic.PureOps.Ideal.Laws
import proofs.«411912_j30219389895125_3_alg».proof.Proof.KI.BodyGather
import proofs.«411912_j30219389895125_3_alg».proof.Proof.KI.PaySlab
import proofs.«411912_j30219389895125_3_alg».proof.Proof.KI.BodyLvlRows0

noncomputable section

namespace Cert.KernelIdeal.Hand

open Idealize.ShloMosaic Idealize.ShloMosaic.ValueIdx
open Idealize.ShloMosaic.TcCoe
open Cert.KernelIdeal Cert.KernelIdeal.Gen

def slabPc_3 (c : Dev nD) (xt : TbBuf0 (F := Ideal) c tbM0_2)
    (X : BufTy.Contents (Elt Ideal) scM2.view.ty) (G : BufTy.Contents (Elt Ideal) scM1.view.ty)
    (h1 : HW7 c xt) (h2 : HW8 c xt) (W : Vec Ideal S32x64x64 .f32) :
    View.Piece (Elt Ideal) S128x64x128 .f32 :=
  ⟨(Rect.unit (s := S128x64x128) ![0, 0, 0] S32x64x128.size inb_S128x64x128_S32x64x128_0_0_0),
    k0_pay23 (scM1.view.readAt (Elt Ideal) (Rect.unit (s := S128x64x128) ![0, 0, 0] S32x64x128.size inb_S128x64x128_S32x64x128_0_0_0).toLoadRect
        (scM1.view.writes (Elt Ideal) G (pbH_k0_t4 c xt X h1 h2 k0_t4_loop.trips))) W⟩

theorem lvl_3_state (c : Dev nD) (xt : TbBuf0 (F := Ideal) c tbM0_2)
    (X : BufTy.Contents (Elt Ideal) scM2.view.ty) (G : BufTy.Contents (Elt Ideal) scM1.view.ty)
    (h1 : HW7 c xt) (h2 : HW8 c xt) (W : Vec Ideal S32x64x64 .f32)
    (t : ℕ) (ht : t < 16) (prev : Fin 64 → Fin 2048 → Fin 64 → EReal)
    (hX : ∀ (d : Fin 64) (k : Fin 64) (b : Fin 128),
      scM2.view.read (Elt Ideal) X (ix3 (⟨d.val, Nat.lt_of_lt_of_le d.isLt (by decide)⟩ : Fin 64) k b)
        = prev d ⟨128 * t + b.val, by have := b.isLt; omega⟩ k)
    (idx : Fin 32 → Fin 2 → BitVec 32)
    (hidx : ∀ f s, (xt (ix2 s f) : BitVec 32).toNat = Cert.Spec.cl 64 (idx f s))
    (wp : Fin 32 → Fin 64 → Fin 64 → EReal) (hW : ∀ f j k, W (ix3 f j k) = wp f j k)
    (f : Fin 32) (j : Fin 64) (b : Fin 128) :
    scM1.view.read (Elt Ideal)
        (scM1.view.writes (Elt Ideal) G
          (slabPc_3 c xt X G h1 h2 W :: pbH_k0_t4 c xt X h1 h2 k0_t4_loop.trips))
        (ix3 (⟨f.val, Nat.lt_of_lt_of_le f.isLt (by decide)⟩ : Fin 128) j b)
      = Cert.Spec.lvl (by decide : 0 < 64) prev idx wp f ⟨128 * t + b.val, by have := b.isLt; omega⟩ j := by
  have hf : f.val < 128 := Nat.lt_of_lt_of_le f.isLt (by decide)
  unfold slabPc_3
  refine (View.read_writes_cons_unit_of_mem scM1.view G _ _ _ (ix3 (⟨f.val, hf⟩ : Fin 128) j b) (ix3 f j b) rfl
    (fun a => ?_)).trans ?_
  · match a with
    | ⟨0, _⟩ => exact (Nat.zero_add _).symm
    | ⟨1, _⟩ => exact (Nat.zero_add _).symm
    | ⟨2, _⟩ => exact (Nat.zero_add _).symm
  · rw [pay23_apply]
    unfold Cert.Spec.lvl
    have hw : (fun j k => W (ix3 f j k)) = wp f := funext fun j => funext fun k => hW f j k
    rw [hw]
    refine congrArg (fun h => Cert.Spec.lse (wp f) h j) (funext fun k => ?_)
    have hi0 : (Cert.Spec.row (by decide : 0 < 64) (idx f 0)).val < 64 :=
      Nat.lt_of_lt_of_le (Cert.Spec.row (by decide : 0 < 64) (idx f 0)).isLt (by decide)
    have hi1 : (Cert.Spec.row (by decide : 0 < 64) (idx f 1)).val < 64 :=
      Nat.lt_of_lt_of_le (Cert.Spec.row (by decide : 0 < 64) (idx f 1)).isLt (by decide)
    rw [slab_readAt_rows0 scM1.view _ _ f hf k b,
      gather_t4 c xt X G h1 h2 f ⟨f.val, hf⟩ (Nat.zero_add _).symm f (Nat.zero_add _).symm
        ⟨(Cert.Spec.row (by decide : 0 < 64) (idx f 0)).val, hi0⟩
        ⟨(Cert.Spec.row (by decide : 0 < 64) (idx f 1)).val, hi1⟩ (hidx f 0) (hidx f 1) k b,
      hX, hX]

end Cert.KernelIdeal.Hand

end
-- ==== Proof.KI.BodyLvl4.lean ====
import proofs.«411912_j30219389895125_3_alg».proof.Proof.KI.BodyGather
import proofs.«411912_j30219389895125_3_alg».proof.Proof.KI.PaySlab

noncomputable section

namespace Cert.KernelIdeal.Hand

open Idealize.ShloMosaic Idealize.ShloMosaic.TcCoe Idealize.ShloMosaic.ValueIdx
open Cert.KernelIdeal Cert.KernelIdeal.Gen

def slabPc_4 (c : Dev nD) (xt : TbBuf0 (F := Ideal) c tbM0_3) (X : BufTy.Contents (Elt Ideal) scM1.view.ty)
    (G : BufTy.Contents (Elt Ideal) scM2.view.ty) (h1 : HW9 c xt) (h2 : HW10 c xt) (W : Vec Ideal S16x64x64 .f32) :
    View.Piece (Elt Ideal) S64x64x128 .f32 :=
  ⟨Rect.unit (s := S64x64x128) ![0, 0, 0] S16x64x128.size inb_S64x64x128_S16x64x128_0_0_0,
    k0_pay25 (scM2.view.readAt (Elt Ideal)
      (Rect.unit (s := S64x64x128) ![0, 0, 0] S16x64x128.size inb_S64x64x128_S16x64x128_0_0_0).toLoadRect
      (scM2.view.writes (Elt Ideal) G (pbH_k0_t5 c xt X h1 h2 k0_t5_loop.trips))) W⟩

theorem lvl_4_state (c : Dev nD) (xt : TbBuf0 (F := Ideal) c tbM0_3) (X : BufTy.Contents (Elt Ideal) scM1.view.ty)
    (G : BufTy.Contents (Elt Ideal) scM2.view.ty) (h1 : HW9 c xt) (h2 : HW10 c xt) (W : Vec Ideal S16x64x64 .f32)
    (t : ℕ) (ht : t < 16) (prev : Fin 32 → Fin 2048 → Fin 64 → EReal)
    (hX : ∀ (d : Fin 32) (k : Fin 64) (b : Fin 128),
      scM1.view.read (Elt Ideal) X (ix3 ⟨d.val, by have := d.isLt; omega⟩ k b)
        = prev d ⟨128 * t + b.val, by have := b.isLt; omega⟩ k)
    (idx : Fin 16 → Fin 2 → BitVec 32)
    (hidx : ∀ f s, (xt (ix2 s f) : BitVec 32).toNat = Cert.Spec.cl 32 (idx f s))
    (wp : Fin 16 → Fin 64 → Fin 64 → EReal) (hW : ∀ f j k, W (ix3 f j k) = wp f j k)
    (f : Fin 16) (j : Fin 64) (b : Fin 128) :
    scM2.view.read (Elt Ideal)
        (scM2.view.writes (Elt Ideal) G (slabPc_4 c xt X G h1 h2 W :: pbH_k0_t5 c xt X h1 h2 k0_t5_loop.trips))
        (ix3 ⟨f.val, by have := f.isLt; omega⟩ j b)
      = Cert.Spec.lvl (by decide : 0 < 32) prev idx wp f ⟨128 * t + b.val, by have := b.isLt; omega⟩ j := by
  have hf : f.val < 64 := by have := f.isLt; omega
  have hy0 : (⟨f.val, hf⟩ : Fin 64).val = 0 + f.val := (Nat.zero_add _).symm
  unfold slabPc_4
  refine (read_slab_of_mem scM2.view G rfl inb_S64x64x128_S16x64x128_0_0_0 _ _ f ⟨f.val, hf⟩ hy0 j b).trans ?_
  refine (pay25_apply _ W f j b).trans ?_
  unfold Cert.Spec.lvl
  have hw : (fun j k => W (ix3 f j k)) = wp f := funext fun j => funext fun k => hW f j k
  have hh : (fun k => scM2.view.readAt (Elt Ideal)
        (Rect.unit (s := S64x64x128) ![0, 0, 0] S16x64x128.size inb_S64x64x128_S16x64x128_0_0_0).toLoadRect
        (scM2.view.writes (Elt Ideal) G (pbH_k0_t5 c xt X h1 h2 k0_t5_loop.trips)) (ix3 f k b))
      = fun k => prev (Cert.Spec.row (by decide : 0 < 32) (idx f 0)) ⟨128 * t + b.val, by have := b.isLt; omega⟩ k
          + prev (Cert.Spec.row (by decide : 0 < 32) (idx f 1)) ⟨128 * t + b.val, by have := b.isLt; omega⟩ k := by
    funext k
    have hr0 : (Cert.Spec.row (by decide : 0 < 32) (idx f 0)).val < 128 := by
      have := (Cert.Spec.row (by decide : 0 < 32) (idx f 0)).isLt; omega
    have hr1 : (Cert.Spec.row (by decide : 0 < 32) (idx f 1)).val < 128 := by
      have := (Cert.Spec.row (by decide : 0 < 32) (idx f 1)).isLt; omega
    rw [readAt_rows scM2.view _ rfl inb_S64x64x128_S16x64x128_0_0_0 f ⟨f.val, hf⟩ hy0 k b,
      gather_t5 c xt X G h1 h2 f ⟨f.val, hf⟩ hy0 f (Nat.zero_add _).symm
        ⟨(Cert.Spec.row (by decide : 0 < 32) (idx f 0)).val, hr0⟩ ⟨(Cert.Spec.row (by decide : 0 < 32) (idx f 1)).val, hr1⟩
        (hidx f 0) (hidx f 1) k b,
      hX (Cert.Spec.row (by decide : 0 < 32) (idx f 0)) k b, hX (Cert.Spec.row (by decide : 0 < 32) (idx f 1)) k b]
  rw [hw, hh]

end Cert.KernelIdeal.Hand

end
-- ==== Proof.KI.BodyLvl5.lean ====
import proofs.«411912_j30219389895125_3_alg».proof.Proof.KI.BodyGather
import proofs.«411912_j30219389895125_3_alg».proof.Proof.KI.PaySlab

noncomputable section

namespace Cert.KernelIdeal.Hand

open Idealize.ShloMosaic Idealize.ShloMosaic.TcCoe Idealize.ShloMosaic.ValueIdx
open Cert.KernelIdeal Cert.KernelIdeal.Gen

def slabPc_5 (c : Dev nD) (xt : TbBuf0 (F := Ideal) c tbM0_4) (X : BufTy.Contents (Elt Ideal) scM2.view.ty)
    (G : BufTy.Contents (Elt Ideal) scM1.view.ty) (h1 : HW11 c xt) (h2 : HW12 c xt) (W : Vec Ideal S8x64x64 .f32) :
    View.Piece (Elt Ideal) S128x64x128 .f32 :=
  ⟨Rect.unit (s := S128x64x128) ![0, 0, 0] S8x64x128.size inb_S128x64x128_S8x64x128_0_0_0,
    k0_pay27 (scM1.view.readAt (Elt Ideal)
      (Rect.unit (s := S128x64x128) ![0, 0, 0] S8x64x128.size inb_S128x64x128_S8x64x128_0_0_0).toLoadRect
      (scM1.view.writes (Elt Ideal) G (pbH_k0_t6 c xt X h1 h2 k0_t6_loop.trips))) W⟩

theorem lvl_5_state (c : Dev nD) (xt : TbBuf0 (F := Ideal) c tbM0_4) (X : BufTy.Contents (Elt Ideal) scM2.view.ty)
    (G : BufTy.Contents (Elt Ideal) scM1.view.ty) (h1 : HW11 c xt) (h2 : HW12 c xt) (W : Vec Ideal S8x64x64 .f32)
    (t : ℕ) (ht : t < 16) (prev : Fin 16 → Fin 2048 → Fin 64 → EReal)
    (hX : ∀ (d : Fin 16) (k : Fin 64) (b : Fin 128),
      scM2.view.read (Elt Ideal) X (ix3 ⟨d.val, by have := d.isLt; omega⟩ k b)
        = prev d ⟨128 * t + b.val, by have := b.isLt; omega⟩ k)
    (idx : Fin 8 → Fin 2 → BitVec 32)
    (hidx : ∀ f s, (xt (ix2 s f) : BitVec 32).toNat = Cert.Spec.cl 16 (idx f s))
    (wp : Fin 8 → Fin 64 → Fin 64 → EReal) (hW : ∀ f j k, W (ix3 f j k) = wp f j k)
    (f : Fin 8) (j : Fin 64) (b : Fin 128) :
    scM1.view.read (Elt Ideal)
        (scM1.view.writes (Elt Ideal) G (slabPc_5 c xt X G h1 h2 W :: pbH_k0_t6 c xt X h1 h2 k0_t6_loop.trips))
        (ix3 ⟨f.val, by have := f.isLt; omega⟩ j b)
      = Cert.Spec.lvl (by decide : 0 < 16) prev idx wp f ⟨128 * t + b.val, by have := b.isLt; omega⟩ j := by
  have hf : f.val < 128 := by have := f.isLt; omega
  have hy0 : (⟨f.val, hf⟩ : Fin 128).val = 0 + f.val := (Nat.zero_add _).symm
  unfold slabPc_5
  refine (read_slab_of_mem scM1.view G rfl inb_S128x64x128_S8x64x128_0_0_0 _ _ f ⟨f.val, hf⟩ hy0 j b).trans ?_
  refine (pay27_apply _ W f j b).trans ?_
  unfold Cert.Spec.lvl
  have hw : (fun j k => W (ix3 f j k)) = wp f := funext fun j => funext fun k => hW f j k
  have hh : (fun k => scM1.view.readAt (Elt Ideal)
        (Rect.unit (s := S128x64x128) ![0, 0, 0] S8x64x128.size inb_S128x64x128_S8x64x128_0_0_0).toLoadRect
        (scM1.view.writes (Elt Ideal) G (pbH_k0_t6 c xt X h1 h2 k0_t6_loop.trips)) (ix3 f k b))
      = fun k => prev (Cert.Spec.row (by decide : 0 < 16) (idx f 0)) ⟨128 * t + b.val, by have := b.isLt; omega⟩ k
          + prev (Cert.Spec.row (by decide : 0 < 16) (idx f 1)) ⟨128 * t + b.val, by have := b.isLt; omega⟩ k := by
    funext k
    have hr0 : (Cert.Spec.row (by decide : 0 < 16) (idx f 0)).val < 64 := by
      have := (Cert.Spec.row (by decide : 0 < 16) (idx f 0)).isLt; omega
    have hr1 : (Cert.Spec.row (by decide : 0 < 16) (idx f 1)).val < 64 := by
      have := (Cert.Spec.row (by decide : 0 < 16) (idx f 1)).isLt; omega
    rw [readAt_rows scM1.view _ rfl inb_S128x64x128_S8x64x128_0_0_0 f ⟨f.val, hf⟩ hy0 k b,
      gather_t6 c xt X G h1 h2 f ⟨f.val, hf⟩ hy0 f (Nat.zero_add _).symm
        ⟨(Cert.Spec.row (by decide : 0 < 16) (idx f 0)).val, hr0⟩ ⟨(Cert.Spec.row (by decide : 0 < 16) (idx f 1)).val, hr1⟩
        (hidx f 0) (hidx f 1) k b,
      hX (Cert.Spec.row (by decide : 0 < 16) (idx f 0)) k b, hX (Cert.Spec.row (by decide : 0 < 16) (idx f 1)) k b]
  rw [hw, hh]

end Cert.KernelIdeal.Hand

end
-- ==== Proof.KI.BodyLvl6.lean ====
import proofs.«411912_j30219389895125_3_alg».proof.Proof.KI.BodyGather
import proofs.«411912_j30219389895125_3_alg».proof.Proof.KI.PaySlab
import proofs.«411912_j30219389895125_3_alg».proof.Proof.Spec

noncomputable section

namespace Cert.KernelIdeal.Hand

open Idealize.ShloMosaic Idealize.ShloMosaic.TcCoe Idealize.ShloMosaic.ValueIdx
open Cert.KernelIdeal Cert.KernelIdeal.Gen

def slabPc_6 (c : Dev nD) (xt : TbBuf0 (F := Ideal) c tbM0_5) (X : BufTy.Contents (Elt Ideal) scM1.view.ty)
    (G : BufTy.Contents (Elt Ideal) scM2.view.ty) (h1 : HW13 c xt) (h2 : HW14 c xt) (W : Vec Ideal S4x64x64 .f32) :
    View.Piece (Elt Ideal) S64x64x128 .f32 :=
  ⟨Rect.unit (s := S64x64x128) ![0, 0, 0] S4x64x128.size inb_S64x64x128_S4x64x128_0_0_0,
    k0_pay30 (k0_pay29
      (scM2.view.readAt (Elt Ideal)
        (Rect.unit (s := S64x64x128) ![0, 0, 0] S4x64x128.size inb_S64x64x128_S4x64x128_0_0_0).toLoadRect
        (scM2.view.writes (Elt Ideal) G (pbH_k0_t7 c xt X h1 h2 k0_t7_loop.trips))) W)⟩

theorem lvl_6_state (c : Dev nD) (xt : TbBuf0 (F := Ideal) c tbM0_5) (X : BufTy.Contents (Elt Ideal) scM1.view.ty)
    (G : BufTy.Contents (Elt Ideal) scM2.view.ty) (h1 : HW13 c xt) (h2 : HW14 c xt) (W : Vec Ideal S4x64x64 .f32)
    (t : ℕ) (ht : t < 16) (prev : Fin 8 → Fin 2048 → Fin 64 → EReal)
    (hX : ∀ (d : Fin 8) (k : Fin 64) (b : Fin 128),
      scM1.view.read (Elt Ideal) X (ix3 ⟨d.val, Nat.lt_of_lt_of_le d.isLt (by decide)⟩ k b)
        = prev d ⟨128 * t + b.val, by have := b.isLt; omega⟩ k)
    (idx : Fin 4 → Fin 2 → BitVec 32)
    (hidx : ∀ f s, (xt (ix2 s f) : BitVec 32).toNat = Cert.Spec.cl 8 (idx f s))
    (wp : Fin 4 → Fin 64 → Fin 64 → EReal) (hW : ∀ f j k, W (ix3 f j k) = wp f j k)
    (f : Fin 4) (j : Fin 64) (b : Fin 128) :
    scM2.view.read (Elt Ideal)
        (scM2.view.writes (Elt Ideal) G (slabPc_6 c xt X G h1 h2 W :: pbH_k0_t7 c xt X h1 h2 k0_t7_loop.trips))
        (ix3 ⟨f.val, Nat.lt_of_lt_of_le f.isLt (by decide)⟩ j b)
      = Cert.Spec.lvl (by decide : 0 < 8) prev idx wp f ⟨128 * t + b.val, by have := b.isLt; omega⟩ j := by
  have hy0 : (⟨f.val, Nat.lt_of_lt_of_le f.isLt (by decide)⟩ : Fin 64).val = 0 + f.val := (Nat.zero_add _).symm
  unfold slabPc_6
  rw [read_slab_of_mem scM2.view G rfl inb_S64x64x128_S4x64x128_0_0_0 _ _ f _ hy0 j b, pay30_apply]
  unfold Cert.Spec.lvl
  have hw : (fun j k => W (ix3 f j k)) = wp f := funext fun j => funext fun k => hW f j k
  rw [hw]
  refine congrArg (fun h => Cert.Spec.lse (wp f) h j) (funext fun k => ?_)
  rw [readAt_rows scM2.view _ rfl inb_S64x64x128_S4x64x128_0_0_0 f _ hy0 k b,
    gather_t7 c xt X G h1 h2 f _ hy0 f (Nat.zero_add _).symm
      ⟨(Cert.Spec.row (by decide : 0 < 8) (idx f 0)).val, Nat.lt_of_lt_of_le (Cert.Spec.row (by decide : 0 < 8) (idx f 0)).isLt (by decide)⟩
      ⟨(Cert.Spec.row (by decide : 0 < 8) (idx f 1)).val, Nat.lt_of_lt_of_le (Cert.Spec.row (by decide : 0 < 8) (idx f 1)).isLt (by decide)⟩
      (hidx f 0) (hidx f 1) k b,
    hX (Cert.Spec.row (by decide : 0 < 8) (idx f 0)) k b, hX (Cert.Spec.row (by decide : 0 < 8) (idx f 1)) k b]

end Cert.KernelIdeal.Hand

end
-- ==== Proof.KI.BodyLvl7.lean ====
import proofs.«411912_j30219389895125_3_alg».proof.Proof.KI.BodyGather
import proofs.«411912_j30219389895125_3_alg».proof.Proof.KI.PaySlab
import proofs.«411912_j30219389895125_3_alg».proof.Proof.Spec

noncomputable section

namespace Cert.KernelIdeal.Hand

open Idealize.ShloMosaic Idealize.ShloMosaic.TcCoe Idealize.ShloMosaic.ValueIdx
open Cert.KernelIdeal Cert.KernelIdeal.Gen

def slabPc_7 (c : Dev nD) (xt : TbBuf0 (F := Ideal) c tbM0_6) (X : BufTy.Contents (Elt Ideal) scM2.view.ty)
    (G : BufTy.Contents (Elt Ideal) scM1.view.ty) (h1 : HW15 c xt) (h2 : HW16 c xt) (W : Vec Ideal S2x64x64 .f32) :
    View.Piece (Elt Ideal) S128x64x128 .f32 :=
  ⟨Rect.unit (s := S128x64x128) ![0, 0, 0] S2x64x128.size inb_S128x64x128_S2x64x128_0_0_0,
    k0_pay32
      (scM1.view.readAt (Elt Ideal)
        (Rect.unit (s := S128x64x128) ![0, 0, 0] S2x64x128.size inb_S128x64x128_S2x64x128_0_0_0).toLoadRect
        (scM1.view.writes (Elt Ideal) G (pbH_k0_t8 c xt X h1 h2 k0_t8_loop.trips))) W⟩

theorem lvl_7_state (c : Dev nD) (xt : TbBuf0 (F := Ideal) c tbM0_6) (X : BufTy.Contents (Elt Ideal) scM2.view.ty)
    (G : BufTy.Contents (Elt Ideal) scM1.view.ty) (h1 : HW15 c xt) (h2 : HW16 c xt) (W : Vec Ideal S2x64x64 .f32)
    (t : ℕ) (ht : t < 16) (prev : Fin 4 → Fin 2048 → Fin 64 → EReal)
    (hX : ∀ (d : Fin 4) (k : Fin 64) (b : Fin 128),
      scM2.view.read (Elt Ideal) X (ix3 ⟨d.val, Nat.lt_of_lt_of_le d.isLt (by decide)⟩ k b)
        = prev d ⟨128 * t + b.val, by have := b.isLt; omega⟩ k)
    (idx : Fin 2 → Fin 2 → BitVec 32)
    (hidx : ∀ f s, (xt (ix2 s f) : BitVec 32).toNat = Cert.Spec.cl 4 (idx f s))
    (wp : Fin 2 → Fin 64 → Fin 64 → EReal) (hW : ∀ f j k, W (ix3 f j k) = wp f j k)
    (f : Fin 2) (j : Fin 64) (b : Fin 128) :
    scM1.view.read (Elt Ideal)
        (scM1.view.writes (Elt Ideal) G (slabPc_7 c xt X G h1 h2 W :: pbH_k0_t8 c xt X h1 h2 k0_t8_loop.trips))
        (ix3 ⟨f.val, Nat.lt_of_lt_of_le f.isLt (by decide)⟩ j b)
      = Cert.Spec.lvl (by decide : 0 < 4) prev idx wp f ⟨128 * t + b.val, by have := b.isLt; omega⟩ j := by
  have hy0 : (⟨f.val, Nat.lt_of_lt_of_le f.isLt (by decide)⟩ : Fin 128).val = 0 + f.val := (Nat.zero_add _).symm
  unfold slabPc_7
  rw [read_slab_of_mem scM1.view G rfl inb_S128x64x128_S2x64x128_0_0_0 _ _ f _ hy0 j b, pay32_apply]
  unfold Cert.Spec.lvl
  have hw : (fun j k => W (ix3 f j k)) = wp f := funext fun j => funext fun k => hW f j k
  rw [hw]
  refine congrArg (fun h => Cert.Spec.lse (wp f) h j) (funext fun k => ?_)
  rw [readAt_rows scM1.view _ rfl inb_S128x64x128_S2x64x128_0_0_0 f _ hy0 k b,
    gather_t8 c xt X G h1 h2 f _ hy0 f (Nat.zero_add _).symm
      ⟨(Cert.Spec.row (by decide : 0 < 4) (idx f 0)).val, Nat.lt_of_lt_of_le (Cert.Spec.row (by decide : 0 < 4) (idx f 0)).isLt (by decide)⟩
      ⟨(Cert.Spec.row (by decide : 0 < 4) (idx f 1)).val, Nat.lt_of_lt_of_le (Cert.Spec.row (by decide : 0 < 4) (idx f 1)).isLt (by decide)⟩
      (hidx f 0) (hidx f 1) k b,
    hX (Cert.Spec.row (by decide : 0 < 4) (idx f 0)) k b, hX (Cert.Spec.row (by decide : 0 < 4) (idx f 1)) k b]

end Cert.KernelIdeal.Hand

end
-- ==== Proof.KI.RunShape.lean ====
import proofs.«411912_j30219389895125_3_alg».proof.Proof.KI.Run
import proofs.«411912_j30219389895125_3_alg».proof.Proof.KI.BodyLeaves
import proofs.«411912_j30219389895125_3_alg».proof.Proof.KI.BodyTop
import proofs.«411912_j30219389895125_3_alg».proof.Proof.KI.BodyRows
import proofs.«411912_j30219389895125_3_alg».proof.Proof.KI.BodyLvl1
import proofs.«411912_j30219389895125_3_alg».proof.Proof.KI.BodyLvl2
import proofs.«411912_j30219389895125_3_alg».proof.Proof.KI.BodyLvl3
import proofs.«411912_j30219389895125_3_alg».proof.Proof.KI.BodyLvl4
import proofs.«411912_j30219389895125_3_alg».proof.Proof.KI.BodyLvl5
import proofs.«411912_j30219389895125_3_alg».proof.Proof.KI.BodyLvl6
import proofs.«411912_j30219389895125_3_alg».proof.Proof.KI.BodyLvl7

set_option maxRecDepth 16384

noncomputable section

namespace Cert.KernelIdeal.Hand

open Idealize.ShloMosaic Idealize.ShloMosaic.ValueIdx Idealize.ShloMosaic.TcCoe
open Cert.KernelIdeal Cert.KernelIdeal.Gen

abbrev wd0 (c : Dev nD) (xt7 : TbBuf0 (F := Ideal) c tbM0_7) : BitVec 32 :=
  tbM0_7.view.readAt (Elt Ideal) (Rect.unit (s := S2x1) k0_off41 S1x1.size k0_off41_inb).toLoadRect xt7 (Shape.Idx.first (numel1_S1x1.symm ▸ Nat.one_pos))
abbrev wd1 (c : Dev nD) (xt7 : TbBuf0 (F := Ideal) c tbM0_7) : BitVec 32 :=
  tbM0_7.view.readAt (Elt Ideal) (Rect.unit (s := S2x1) k0_off42 S1x1.size k0_off42_inb).toLoadRect xt7 (Shape.Idx.first (numel1_S1x1.symm ▸ Nat.one_pos))

section
variable (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole) (x0 : Vec Ideal S256x128 .f32) (x1 : Vec Ideal S256x64 .f32) (x2 : Vec Ideal S256x64 .f32) (x3 : Vec Ideal S128x64x64 .f32) (x4 : Vec Ideal S64x64x64 .f32) (x5 : Vec Ideal S32x64x64 .f32) (x6 : Vec Ideal S16x64x64 .f32) (x7 : Vec Ideal S8x64x64 .f32) (x8 : Vec Ideal S4x64x64 .f32) (x9 : Vec Ideal S2x64x64 .f32) (x10 : Vec Ideal S1x64x64 .f32) (xt0 : TbBuf0 (F := Ideal) c tbM0_0) (xt1 : TbBuf0 (F := Ideal) c tbM0_1) (xt2 : TbBuf0 (F := Ideal) c tbM0_2) (xt3 : TbBuf0 (F := Ideal) c tbM0_3) (xt4 : TbBuf0 (F := Ideal) c tbM0_4) (xt5 : TbBuf0 (F := Ideal) c tbM0_5) (xt6 : TbBuf0 (F := Ideal) c tbM0_6) (xt7 : TbBuf0 (F := Ideal) c tbM0_7)

section
variable (k0_hw1L : HW1 c xt0) (k0_hw2L : HW2 c xt0) (k0_hw3L : HW3 c xt0) (k0_hw4L : HW4 c xt0) (k0_hw5L : HW5 c xt1) (k0_hw6L : HW6 c xt1) (k0_hw7L : HW7 c xt2) (k0_hw8L : HW8 c xt2) (k0_hw9L : HW9 c xt3) (k0_hw10L : HW10 c xt3) (k0_hw11L : HW11 c xt4) (k0_hw12L : HW12 c xt4) (k0_hw13L : HW13 c xt5) (k0_hw14L : HW14 c xt5) (k0_hw15L : HW15 c xt6) (k0_hw16L : HW16 c xt6) (k0_hw17 : HW17 c xt7) (k0_hw18 : HW18 c xt7)

abbrev w1a : Vec Ideal S64x64x64 .f32 :=
  View.readAt (Elt Ideal) arg12.view (Rect.unit (s := S128x64x64) ![0, 0, 0] S64x64x64.size inb_S128x64x64_S64x64x64_0_0_0).toLoadRect (harg12.unread x3)

abbrev w1b : Vec Ideal S64x64x64 .f32 :=
  View.readAt (Elt Ideal) arg12.view (Rect.unit (s := S128x64x64) ![64, 0, 0] S64x64x64.size inb_S128x64x64_S64x64x64_64_0_0).toLoadRect (harg12.unread x3)

abbrev w2 : Vec Ideal S64x64x64 .f32 :=
  View.readAt (Elt Ideal) arg13.view (Rect.unit (s := S64x64x64) ![0, 0, 0] S64x64x64.size inb_S64x64x64_S64x64x64_0_0_0).toLoadRect (harg13.unread x4)

abbrev w3 : Vec Ideal S32x64x64 .f32 :=
  View.readAt (Elt Ideal) arg14.view (Rect.unit (s := S32x64x64) ![0, 0, 0] S32x64x64.size inb_S32x64x64_S32x64x64_0_0_0).toLoadRect (harg14.unread x5)

abbrev w4 : Vec Ideal S16x64x64 .f32 :=
  View.readAt (Elt Ideal) arg15.view (Rect.unit (s := S16x64x64) ![0, 0, 0] S16x64x64.size inb_S16x64x64_S16x64x64_0_0_0).toLoadRect (harg15.unread x6)

abbrev w5 : Vec Ideal S8x64x64 .f32 :=
  View.readAt (Elt Ideal) arg16.view (Rect.unit (s := S8x64x64) ![0, 0, 0] S8x64x64.size inb_S8x64x64_S8x64x64_0_0_0).toLoadRect (harg16.unread x7)

abbrev w6 : Vec Ideal S4x64x64 .f32 :=
  View.readAt (Elt Ideal) arg17.view (Rect.unit (s := S4x64x64) ![0, 0, 0] S4x64x64.size inb_S4x64x64_S4x64x64_0_0_0).toLoadRect (harg17.unread x8)

abbrev w7 : Vec Ideal S2x64x64 .f32 :=
  View.readAt (Elt Ideal) arg18.view (Rect.unit (s := S2x64x64) ![0, 0, 0] S2x64x64.size inb_S2x64x64_S2x64x64_0_0_0).toLoadRect (harg18.unread x9)

abbrev w8 : Vec Ideal S1x64x64 .f32 :=
  View.readAt (Elt Ideal) arg19.view (Rect.unit (s := S1x64x64) ![0, 0, 0] S1x64x64.size inb_S1x64x64_S1x64x64_0_0_0).toLoadRect (harg19.unread x10)

-- The buffers' contents after the leaves and after each level, as the run's store lists over an arbitrary filler.
abbrev cont0 : BufTy.Contents (Elt Ideal) scM0.view.ty :=
  (Memref.whole cc0_scratch0).view.writes (Elt Ideal) (Memref.whole cc0_scratch0).view.junk (kernelRun0_A_of.sl.HS0_8 (F := Ideal) c arg9 harg9 arg10 harg10 arg11 harg11 x0 x1 x2)

abbrev cont1 : BufTy.Contents (Elt Ideal) scM1.view.ty :=
  scM1.view.writes (Elt Ideal) scM1.view.junk (kernelRun0_A_of.sl.HS1_130 (F := Ideal) c arg9 harg9 arg10 harg10 arg11 harg11 arg12 harg12 x0 x1 x2 x3 xt0 k0_hw1L k0_hw2L k0_hw3L k0_hw4L)

abbrev cont2 : BufTy.Contents (Elt Ideal) scM2.view.ty :=
  scM2.view.writes (Elt Ideal) scM2.view.junk (kernelRun0_A_of.sl.HS2_65 (F := Ideal) c arg9 harg9 arg10 harg10 arg11 harg11 arg12 harg12 arg13 harg13 x0 x1 x2 x3 x4 xt0 xt1 k0_hw1L k0_hw2L k0_hw3L k0_hw4L k0_hw5L k0_hw6L)

abbrev lst3 : List (View.Piece (Elt Ideal) S128x64x128 .f32) :=
  ⟨Rect.unit (s := S128x64x128) ![0, 0, 0] S32x64x128.size inb_S128x64x128_S32x64x128_0_0_0, k0_pay23 (kernelRun0_A_of.sl.v257 (F := Ideal) c arg9 harg9 arg10 harg10 arg11 harg11 arg12 harg12 arg13 harg13 x0 x1 x2 x3 x4 xt0 xt1 xt2 k0_hw1L k0_hw2L k0_hw3L k0_hw4L k0_hw5L k0_hw6L k0_hw7L k0_hw8L) (w3 arg14 harg14 x5)⟩ ::
    (pbH_k0_t4 c xt2 (cont2 c arg9 harg9 arg10 harg10 arg11 harg11 arg12 harg12 arg13 harg13 x0 x1 x2 x3 x4 xt0 xt1 k0_hw1L k0_hw2L k0_hw3L k0_hw4L k0_hw5L k0_hw6L) k0_hw7L k0_hw8L (Scf.trips k0_t4_loop.lb k0_t4_loop.ub k0_t4_loop.st) ++ (kernelRun0_A_of.sl.HS1_130 (F := Ideal) c arg9 harg9 arg10 harg10 arg11 harg11 arg12 harg12 x0 x1 x2 x3 xt0 k0_hw1L k0_hw2L k0_hw3L k0_hw4L))

abbrev cont3 : BufTy.Contents (Elt Ideal) scM1.view.ty :=
  scM1.view.writes (Elt Ideal) scM1.view.junk (lst3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L)

abbrev cont4 : BufTy.Contents (Elt Ideal) scM2.view.ty :=
  scM2.view.writes (Elt Ideal) scM2.view.junk (kernelRun0_A_of.sl.HS2_82 (F := Ideal) c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L)

abbrev lst5 : List (View.Piece (Elt Ideal) S128x64x128 .f32) :=
  ⟨Rect.unit (s := S128x64x128) ![0, 0, 0] S8x64x128.size inb_S128x64x128_S8x64x128_0_0_0, k0_pay27 (kernelRun0_A_of.sl.v289 (F := Ideal) c arg9 harg9 arg10 harg10 arg11 harg11 arg12 harg12 arg13 harg13 arg14 harg14 arg15 harg15 x0 x1 x2 x3 x4 x5 x6 xt0 xt1 xt2 xt3 xt4 k0_hw1L k0_hw2L k0_hw3L k0_hw4L k0_hw5L k0_hw6L k0_hw7L k0_hw8L k0_hw9L k0_hw10L k0_hw11L k0_hw12L) (w5 arg16 harg16 x7)⟩ ::
    (pbH_k0_t6 c xt4 (cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L) k0_hw11L k0_hw12L (Scf.trips k0_t6_loop.lb k0_t6_loop.ub k0_t6_loop.st) ++ lst3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L)

abbrev cont5 : BufTy.Contents (Elt Ideal) scM1.view.ty :=
  scM1.view.writes (Elt Ideal) scM1.view.junk (lst5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L)

abbrev lst6 : List (View.Piece (Elt Ideal) S64x64x128 .f32) :=
  ⟨Rect.unit (s := S64x64x128) ![0, 0, 0] S4x64x128.size inb_S64x64x128_S4x64x128_0_0_0, k0_pay30 (kernelRun0_A_of.sl.r_10 (F := Ideal) c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L)⟩ ::
    (pbH_k0_t7 c xt5 (cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L) k0_hw13L k0_hw14L (Scf.trips k0_t7_loop.lb k0_t7_loop.ub k0_t7_loop.st) ++ (kernelRun0_A_of.sl.HS2_82 (F := Ideal) c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L))

abbrev cont6 : BufTy.Contents (Elt Ideal) scM2.view.ty :=
  scM2.view.writes (Elt Ideal) scM2.view.junk (lst6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L)

abbrev cont7 : BufTy.Contents (Elt Ideal) scM1.view.ty :=
  scM1.view.writes (Elt Ideal) scM1.view.junk (kernelRun0_A_of.sl.HS1_175 (F := Ideal) c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 k0_hw1L k0_hw2L k0_hw3L k0_hw4L k0_hw5L k0_hw6L k0_hw7L k0_hw8L k0_hw9L k0_hw10L k0_hw11L k0_hw12L k0_hw13L k0_hw14L k0_hw15L k0_hw16L)

theorem w1a_apply (r j k : Fin 64) : w1a arg12 harg12 x3 (ix3 r j k) = x3 (ix3 (⟨r.val, Nat.lt_of_lt_of_le r.isLt (by decide)⟩ : Fin 128) j k) :=
  (readAt_rows arg12.view (harg12.unread x3) rfl _ r ⟨r.val, Nat.lt_of_lt_of_le r.isLt (by decide)⟩ (Nat.zero_add _).symm j k).trans (congrFun (harg12.read_unread x3) _)

theorem w1b_apply (r j k : Fin 64) : w1b arg12 harg12 x3 (ix3 r j k) = x3 (ix3 (⟨64 + r.val, by have := r.isLt; omega⟩ : Fin 128) j k) :=
  (readAt_rows arg12.view (harg12.unread x3) rfl _ r ⟨64 + r.val, by have := r.isLt; omega⟩ rfl j k).trans (congrFun (harg12.read_unread x3) _)

theorem w2_apply (f : Fin 64) (j k : Fin 64) : w2 arg13 harg13 x4 (ix3 f j k) = x4 (ix3 f j k) :=
  (readAt_whole3 arg13.view (harg13.unread x4) _ f j k).trans (congrFun (harg13.read_unread x4) _)

theorem w3_apply (f : Fin 32) (j k : Fin 64) : w3 arg14 harg14 x5 (ix3 f j k) = x5 (ix3 f j k) :=
  (readAt_whole3 arg14.view (harg14.unread x5) _ f j k).trans (congrFun (harg14.read_unread x5) _)

theorem w4_apply (f : Fin 16) (j k : Fin 64) : w4 arg15 harg15 x6 (ix3 f j k) = x6 (ix3 f j k) :=
  (readAt_whole3 arg15.view (harg15.unread x6) _ f j k).trans (congrFun (harg15.read_unread x6) _)

theorem w5_apply (f : Fin 8) (j k : Fin 64) : w5 arg16 harg16 x7 (ix3 f j k) = x7 (ix3 f j k) :=
  (readAt_whole3 arg16.view (harg16.unread x7) _ f j k).trans (congrFun (harg16.read_unread x7) _)

theorem w6_apply (f : Fin 4) (j k : Fin 64) : w6 arg17 harg17 x8 (ix3 f j k) = x8 (ix3 f j k) :=
  (readAt_whole3 arg17.view (harg17.unread x8) _ f j k).trans (congrFun (harg17.read_unread x8) _)

theorem w7_apply (f : Fin 2) (j k : Fin 64) : w7 arg18 harg18 x9 (ix3 f j k) = x9 (ix3 f j k) :=
  (readAt_whole3 arg18.view (harg18.unread x9) _ f j k).trans (congrFun (harg18.read_unread x9) _)

theorem w8_apply (f : Fin 1) (j k : Fin 64) : w8 arg19 harg19 x10 (ix3 f j k) = x10 (ix3 f j k) :=
  (readAt_whole3 arg19.view (harg19.unread x10) _ f j k).trans (congrFun (harg19.read_unread x10) _)

theorem E0 : (kernelRun0_A_of.sl.HS0_8 (F := Ideal) c arg9 harg9 arg10 harg10 arg11 harg11 x0 x1 x2) = leavesL x0 x1 x2 := by
  unfold leavesL
  sl_unfold_run_names
  simp only [View.readAt_eq_ld, Memref.IsWhole.read_unread]

-- Each level's contents are its slab store on top of its loop's stores, over what the buffer held before the level.
theorem E1 :
    cont1 c arg9 harg9 arg10 harg10 arg11 harg11 arg12 harg12 x0 x1 x2 x3 xt0 k0_hw1L k0_hw2L k0_hw3L k0_hw4L = scM1.view.writes (Elt Ideal) scM1.view.junk
      (slabPc_1b c xt0 (cont0 c arg9 harg9 arg10 harg10 arg11 harg11 x0 x1 x2) scM1.view.junk k0_hw1L k0_hw2L k0_hw3L k0_hw4L (w1a arg12 harg12 x3) (w1b arg12 harg12 x3)
        :: lst_1b c xt0 (cont0 c arg9 harg9 arg10 harg10 arg11 harg11 x0 x1 x2) scM1.view.junk k0_hw1L k0_hw2L k0_hw3L k0_hw4L (w1a arg12 harg12 x3)) := by
  unfold slabPc_1b slabLd_1b lst_1b slabPc_1a
  rfl

theorem E2 :
    cont2 c arg9 harg9 arg10 harg10 arg11 harg11 arg12 harg12 arg13 harg13 x0 x1 x2 x3 x4 xt0 xt1 k0_hw1L k0_hw2L k0_hw3L k0_hw4L k0_hw5L k0_hw6L = scM2.view.writes (Elt Ideal) scM2.view.junk (slabPc_2 c xt1 (cont1 c arg9 harg9 arg10 harg10 arg11 harg11 arg12 harg12 x0 x1 x2 x3 xt0 k0_hw1L k0_hw2L k0_hw3L k0_hw4L) scM2.view.junk k0_hw5L k0_hw6L (w2 arg13 harg13 x4) :: pbH_k0_t3 c xt1 (cont1 c arg9 harg9 arg10 harg10 arg11 harg11 arg12 harg12 x0 x1 x2 x3 xt0 k0_hw1L k0_hw2L k0_hw3L k0_hw4L) k0_hw5L k0_hw6L k0_t3_loop.trips) := by
  unfold slabPc_2
  rfl

theorem E3 :
    cont3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L = scM1.view.writes (Elt Ideal) (cont1 c arg9 harg9 arg10 harg10 arg11 harg11 arg12 harg12 x0 x1 x2 x3 xt0 k0_hw1L k0_hw2L k0_hw3L k0_hw4L) (slabPc_3 c xt2 (cont2 c arg9 harg9 arg10 harg10 arg11 harg11 arg12 harg12 arg13 harg13 x0 x1 x2 x3 x4 xt0 xt1 k0_hw1L k0_hw2L k0_hw3L k0_hw4L k0_hw5L k0_hw6L) (cont1 c arg9 harg9 arg10 harg10 arg11 harg11 arg12 harg12 x0 x1 x2 x3 xt0 k0_hw1L k0_hw2L k0_hw3L k0_hw4L) k0_hw7L k0_hw8L (w3 arg14 harg14 x5) :: pbH_k0_t4 c xt2 (cont2 c arg9 harg9 arg10 harg10 arg11 harg11 arg12 harg12 arg13 harg13 x0 x1 x2 x3 x4 xt0 xt1 k0_hw1L k0_hw2L k0_hw3L k0_hw4L k0_hw5L k0_hw6L) k0_hw7L k0_hw8L k0_t4_loop.trips) := by
  unfold slabPc_3
  rw [← View.writes_append, ← View.writes_append]
  rfl

theorem E4 :
    cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L = scM2.view.writes (Elt Ideal) (cont2 c arg9 harg9 arg10 harg10 arg11 harg11 arg12 harg12 arg13 harg13 x0 x1 x2 x3 x4 xt0 xt1 k0_hw1L k0_hw2L k0_hw3L k0_hw4L k0_hw5L k0_hw6L) (slabPc_4 c xt3 (cont3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L) (cont2 c arg9 harg9 arg10 harg10 arg11 harg11 arg12 harg12 arg13 harg13 x0 x1 x2 x3 x4 xt0 xt1 k0_hw1L k0_hw2L k0_hw3L k0_hw4L k0_hw5L k0_hw6L) k0_hw9L k0_hw10L (w4 arg15 harg15 x6) :: pbH_k0_t5 c xt3 (cont3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L) k0_hw9L k0_hw10L k0_t5_loop.trips) := by
  unfold slabPc_4
  rw [← View.writes_append, ← View.writes_append]
  rfl

theorem E5 :
    cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L = scM1.view.writes (Elt Ideal) (cont3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L) (slabPc_5 c xt4 (cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L) (cont3 c arg9 harg9 arg10 harg10 arg11 harg11 arg12 harg12 arg13 harg13 arg14 harg14 x0 x1 x2 x3 x4 x5 xt0 xt1 xt2 k0_hw1L k0_hw2L k0_hw3L k0_hw4L k0_hw5L k0_hw6L k0_hw7L k0_hw8L) k0_hw11L k0_hw12L (w5 arg16 harg16 x7) :: pbH_k0_t6 c xt4 (cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L) k0_hw11L k0_hw12L k0_t6_loop.trips) := by
  unfold slabPc_5
  rw [← View.writes_append, ← View.writes_append]
  rfl

theorem E6 :
    cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L = scM2.view.writes (Elt Ideal) (cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L) (slabPc_6 c xt5 (cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L) (cont4 c arg9 harg9 arg10 harg10 arg11 harg11 arg12 harg12 arg13 harg13 arg14 harg14 arg15 harg15 x0 x1 x2 x3 x4 x5 x6 xt0 xt1 xt2 xt3 k0_hw1L k0_hw2L k0_hw3L k0_hw4L k0_hw5L k0_hw6L k0_hw7L k0_hw8L k0_hw9L k0_hw10L) k0_hw13L k0_hw14L (w6 arg17 harg17 x8) :: pbH_k0_t7 c xt5 (cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L) k0_hw13L k0_hw14L k0_t7_loop.trips) := by
  unfold slabPc_6
  rw [← View.writes_append, ← View.writes_append]
  rfl

theorem E7 :
    cont7 c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 k0_hw1L k0_hw2L k0_hw3L k0_hw4L k0_hw5L k0_hw6L k0_hw7L k0_hw8L k0_hw9L k0_hw10L k0_hw11L k0_hw12L k0_hw13L k0_hw14L k0_hw15L k0_hw16L = scM1.view.writes (Elt Ideal) (cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L) (slabPc_7 c xt6 (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L) (cont5 c arg9 harg9 arg10 harg10 arg11 harg11 arg12 harg12 arg13 harg13 arg14 harg14 arg15 harg15 arg16 harg16 x0 x1 x2 x3 x4 x5 x6 x7 xt0 xt1 xt2 xt3 xt4 k0_hw1L k0_hw2L k0_hw3L k0_hw4L k0_hw5L k0_hw6L k0_hw7L k0_hw8L k0_hw9L k0_hw10L k0_hw11L k0_hw12L) k0_hw15L k0_hw16L (w7 arg18 harg18 x9) :: pbH_k0_t8 c xt6 (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L) k0_hw15L k0_hw16L k0_t8_loop.trips) := by
  unfold slabPc_7
  rw [← View.writes_append, ← View.writes_append]
  rfl

theorem E_out_of :
    (kernelRun0_A_of (F := Ideal) c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 k0_hw1L k0_hw2L k0_hw3L k0_hw4L k0_hw5L k0_hw6L k0_hw7L k0_hw8L k0_hw9L k0_hw10L k0_hw11L k0_hw12L k0_hw13L k0_hw14L k0_hw15L k0_hw16L k0_hw17 k0_hw18).1
      = [⟨Rect.unit (s := S128x64) ![0, 0] S128x64.size inb_S128x64_S128x64_0_0,
        k0_pay36 (scM2.view.readAt (Elt Ideal) (Rect.unit (s := S64x64x128) ![0, 0, 0] S1x64x128.size inb_S64x64x128_S1x64x128_0_0_0).toLoadRect
          (scM2.view.writes (Elt Ideal) (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L)
            [topSlabPc (scM2.view.readAt (Elt Ideal) (Rect.unit (s := S64x64x128) ![0, 0, 0] S1x64x128.size inb_S64x64x128_S1x64x128_0_0_0).toLoadRect
                (scM2.view.writes (Elt Ideal) (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 k0_hw1L k0_hw2L k0_hw3L k0_hw4L k0_hw5L k0_hw6L k0_hw7L k0_hw8L k0_hw9L k0_hw10L k0_hw11L k0_hw12L k0_hw13L k0_hw14L) [topPairPc scM1.view (cont7 c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 k0_hw1L k0_hw2L k0_hw3L k0_hw4L k0_hw5L k0_hw6L k0_hw7L k0_hw8L k0_hw9L k0_hw10L k0_hw11L k0_hw12L k0_hw13L k0_hw14L k0_hw15L k0_hw16L) (wd0 c xt7) (wd1 c xt7) k0_hw17 k0_hw18])) (w8 arg19 harg19 x10),
              topPairPc scM1.view (cont7 c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 k0_hw1L k0_hw2L k0_hw3L k0_hw4L k0_hw5L k0_hw6L k0_hw7L k0_hw8L k0_hw9L k0_hw10L k0_hw11L k0_hw12L k0_hw13L k0_hw14L k0_hw15L k0_hw16L) (wd0 c xt7) (wd1 c xt7) k0_hw17 k0_hw18]))⟩] := by
  unfold topSlabPc topPairPc
  simp only [← View.writes_append, List.cons_append, List.nil_append]
  rfl

end

theorem E_out (hH : Hyps c xt0 xt1 xt2 xt3 xt4 xt5 xt6 xt7) :
    (kernelRun0_A (F := Ideal) c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1
      = [⟨Rect.unit (s := S128x64) ![0, 0] S128x64.size inb_S128x64_S128x64_0_0,
        k0_pay36 (scM2.view.readAt (Elt Ideal) (Rect.unit (s := S64x64x128) ![0, 0, 0] S1x64x128.size inb_S64x64x128_S1x64x128_0_0_0).toLoadRect
          (scM2.view.writes (Elt Ideal) (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 hH.h1 hH.h2 hH.h3 hH.h4 hH.h5 hH.h6 hH.h7 hH.h8 hH.h9 hH.h10 hH.h11 hH.h12 hH.h13 hH.h14)
            [topSlabPc (scM2.view.readAt (Elt Ideal) (Rect.unit (s := S64x64x128) ![0, 0, 0] S1x64x128.size inb_S64x64x128_S1x64x128_0_0_0).toLoadRect
                (scM2.view.writes (Elt Ideal) (cont6 c arg9 harg9 arg10 harg10 arg11 harg11 arg12 harg12 arg13 harg13 arg14 harg14 arg15 harg15 arg16 harg16 arg17 harg17 x0 x1 x2 x3 x4 x5 x6 x7 x8 xt0 xt1 xt2 xt3 xt4 xt5 hH.h1 hH.h2 hH.h3 hH.h4 hH.h5 hH.h6 hH.h7 hH.h8 hH.h9 hH.h10 hH.h11 hH.h12 hH.h13 hH.h14) [topPairPc scM1.view (cont7 c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 hH.h1 hH.h2 hH.h3 hH.h4 hH.h5 hH.h6 hH.h7 hH.h8 hH.h9 hH.h10 hH.h11 hH.h12 hH.h13 hH.h14 hH.h15 hH.h16) (wd0 c xt7) (wd1 c xt7) hH.h17 hH.h18])) (w8 arg19 harg19 x10),
              topPairPc scM1.view (cont7 c arg9 harg9 arg10 harg10 arg11 harg11 arg12 harg12 arg13 harg13 arg14 harg14 arg15 harg15 arg16 harg16 arg17 harg17 arg18 harg18 x0 x1 x2 x3 x4 x5 x6 x7 x8 x9 xt0 xt1 xt2 xt3 xt4 xt5 xt6 hH.h1 hH.h2 hH.h3 hH.h4 hH.h5 hH.h6 hH.h7 hH.h8 hH.h9 hH.h10 hH.h11 hH.h12 hH.h13 hH.h14 hH.h15 hH.h16) (wd0 c xt7) (wd1 c xt7) hH.h17 hH.h18]))⟩] :=
  E_out_of c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH.h1 hH.h2 hH.h3 hH.h4 hH.h5 hH.h6 hH.h7 hH.h8 hH.h9 hH.h10 hH.h11 hH.h12 hH.h13 hH.h14 hH.h15 hH.h16 hH.h17 hH.h18

end

end Cert.KernelIdeal.Hand

end
-- ==== Proof.KI.BodyChain.lean ====
import proofs.«411912_j30219389895125_3_alg».proof.Proof.KI.BodyLvl1
import proofs.«411912_j30219389895125_3_alg».proof.Proof.KI.BodyLvl2
import proofs.«411912_j30219389895125_3_alg».proof.Proof.KI.BodyLvl3
import proofs.«411912_j30219389895125_3_alg».proof.Proof.KI.BodyLvl4
import proofs.«411912_j30219389895125_3_alg».proof.Proof.KI.BodyLvl5
import proofs.«411912_j30219389895125_3_alg».proof.Proof.KI.BodyLvl6
import proofs.«411912_j30219389895125_3_alg».proof.Proof.KI.BodyLvl7
import proofs.«411912_j30219389895125_3_alg».proof.Proof.KI.BodyTop

noncomputable section

namespace Cert.KernelIdeal.Hand

open Idealize.ShloMosaic Idealize.ShloMosaic.TcCoe Idealize.ShloMosaic.ValueIdx
open Cert.KernelIdeal Cert.KernelIdeal.Gen

theorem chain_out (c : Dev nD) (a : Cert.Spec.Args) (t : ℕ) (ht : t < 16)
    (xt0 : TbBuf0 (F := Ideal) c tbM0_0) (xt1 : TbBuf0 (F := Ideal) c tbM0_1) (xt2 : TbBuf0 (F := Ideal) c tbM0_2)
    (xt3 : TbBuf0 (F := Ideal) c tbM0_3) (xt4 : TbBuf0 (F := Ideal) c tbM0_4) (xt5 : TbBuf0 (F := Ideal) c tbM0_5)
    (xt6 : TbBuf0 (F := Ideal) c tbM0_6)
    (h1 : HW1 c xt0) (h2 : HW2 c xt0) (h3 : HW3 c xt0) (h4 : HW4 c xt0) (h5 : HW5 c xt1) (h6 : HW6 c xt1)
    (h7 : HW7 c xt2) (h8 : HW8 c xt2) (h9 : HW9 c xt3) (h10 : HW10 c xt3) (h11 : HW11 c xt4) (h12 : HW12 c xt4)
    (h13 : HW13 c xt5) (h14 : HW14 c xt5) (h15 : HW15 c xt6) (h16 : HW16 c xt6)
    (cont0 : BufTy.Contents (Elt Ideal) scM0.view.ty)
    (G1 cont1 cont3 cont5 cont7 : BufTy.Contents (Elt Ideal) scM1.view.ty)
    (G2 cont2 cont4 cont6 : BufTy.Contents (Elt Ideal) scM2.view.ty)
    (w1a w1b w2 : Vec Ideal S64x64x64 .f32) (w3 : Vec Ideal S32x64x64 .f32) (w4 : Vec Ideal S16x64x64 .f32)
    (w5 : Vec Ideal S8x64x64 .f32) (w6 : Vec Ideal S4x64x64 .f32) (w7 : Vec Ideal S2x64x64 .f32)
    (x10 : Vec Ideal S1x64x64 .f32)
    (hleaf : ∀ (d : Fin 256) (k : Fin 64) (b : Fin 128),
      scM0.view.read (Elt Ideal) cont0 (ix3 d k b) = Cert.Spec.A0 a d ⟨128 * t + b.val, by omega⟩ k)
    (E1 : cont1 = scM1.view.writes (Elt Ideal) G1
      (slabPc_1b c xt0 cont0 G1 h1 h2 h3 h4 w1a w1b :: lst_1b c xt0 cont0 G1 h1 h2 h3 h4 w1a))
    (E2 : cont2 = scM2.view.writes (Elt Ideal) G2
      (slabPc_2 c xt1 cont1 G2 h5 h6 w2 :: pbH_k0_t3 c xt1 cont1 h5 h6 k0_t3_loop.trips))
    (E3 : cont3 = scM1.view.writes (Elt Ideal) cont1
      (slabPc_3 c xt2 cont2 cont1 h7 h8 w3 :: pbH_k0_t4 c xt2 cont2 h7 h8 k0_t4_loop.trips))
    (E4 : cont4 = scM2.view.writes (Elt Ideal) cont2
      (slabPc_4 c xt3 cont3 cont2 h9 h10 w4 :: pbH_k0_t5 c xt3 cont3 h9 h10 k0_t5_loop.trips))
    (E5 : cont5 = scM1.view.writes (Elt Ideal) cont3
      (slabPc_5 c xt4 cont4 cont3 h11 h12 w5 :: pbH_k0_t6 c xt4 cont4 h11 h12 k0_t6_loop.trips))
    (E6 : cont6 = scM2.view.writes (Elt Ideal) cont4
      (slabPc_6 c xt5 cont5 cont4 h13 h14 w6 :: pbH_k0_t7 c xt5 cont5 h13 h14 k0_t7_loop.trips))
    (E7 : cont7 = scM1.view.writes (Elt Ideal) cont5
      (slabPc_7 c xt6 cont6 cont5 h15 h16 w7 :: pbH_k0_t8 c xt6 cont6 h15 h16 k0_t8_loop.trips))
    (hidx1 : ∀ (f : Fin 128) (s : Fin 2), (xt0 (ix2 s f) : BitVec 32).toNat = Cert.Spec.cl 256 (a.idx1 f s))
    (hidx2 : ∀ (f : Fin 64) (s : Fin 2), (xt1 (ix2 s f) : BitVec 32).toNat = Cert.Spec.cl 128 (a.idx2 f s))
    (hidx3 : ∀ (f : Fin 32) (s : Fin 2), (xt2 (ix2 s f) : BitVec 32).toNat = Cert.Spec.cl 64 (a.idx3 f s))
    (hidx4 : ∀ (f : Fin 16) (s : Fin 2), (xt3 (ix2 s f) : BitVec 32).toNat = Cert.Spec.cl 32 (a.idx4 f s))
    (hidx5 : ∀ (f : Fin 8) (s : Fin 2), (xt4 (ix2 s f) : BitVec 32).toNat = Cert.Spec.cl 16 (a.idx5 f s))
    (hidx6 : ∀ (f : Fin 4) (s : Fin 2), (xt5 (ix2 s f) : BitVec 32).toNat = Cert.Spec.cl 8 (a.idx6 f s))
    (hidx7 : ∀ (f : Fin 2) (s : Fin 2), (xt6 (ix2 s f) : BitVec 32).toNat = Cert.Spec.cl 4 (a.idx7 f s))
    (hw1a : ∀ (r : Fin 64) (j k : Fin 64), w1a (ix3 r j k) = a.wp1 ⟨r.val, by omega⟩ j k)
    (hw1b : ∀ (r : Fin 64) (j k : Fin 64), w1b (ix3 r j k) = a.wp1 ⟨64 + r.val, by omega⟩ j k)
    (hw2 : ∀ f j k, w2 (ix3 f j k) = a.wp2 f j k) (hw3 : ∀ f j k, w3 (ix3 f j k) = a.wp3 f j k)
    (hw4 : ∀ f j k, w4 (ix3 f j k) = a.wp4 f j k) (hw5 : ∀ f j k, w5 (ix3 f j k) = a.wp5 f j k)
    (hw6 : ∀ f j k, w6 (ix3 f j k) = a.wp6 f j k) (hw7 : ∀ f j k, w7 (ix3 f j k) = a.wp7 f j k)
    (hw8 : ∀ f j k, x10 (ix3 f j k) = a.wp8 f j k)
    (w0 w1 : BitVec 32) (hw0 : k0_chk17 w0) (hw1 : k0_chk18 w1)
    (hr0 : k0_off43 w0 0 = Cert.Spec.cl 2 (a.idx8 0 0)) (hr1 : k0_off44 w1 0 = Cert.Spec.cl 2 (a.idx8 0 1))
    (j : Fin 64) (b : Fin 128) :
    scM2.view.read (Elt Ideal)
        (scM2.view.writes (Elt Ideal) cont6
          [topSlabPc
              (scM2.view.readAt (Elt Ideal)
                (Rect.unit (s := S64x64x128) ![0, 0, 0] S1x64x128.size inb_S64x64x128_S1x64x128_0_0_0).toLoadRect
                (scM2.view.writes (Elt Ideal) cont6 [topPairPc scM1.view cont7 w0 w1 hw0 hw1]))
              x10,
            topPairPc scM1.view cont7 w0 w1 hw0 hw1])
        (ix3 (0 : Fin 64) j b)
      = Cert.Spec.out a ⟨128 * t + b.val, by omega⟩ j := by
  have H1 : ∀ (f : Fin 128) (j : Fin 64) (b : Fin 128),
      scM1.view.read (Elt Ideal) cont1 (ix3 f j b) = Cert.Spec.A1 a f ⟨128 * t + b.val, by omega⟩ j := fun f j b => by
    rw [E1]
    exact lvl1_state c xt0 cont0 G1 h1 h2 h3 h4 w1a w1b t ht (Cert.Spec.A0 a) hleaf a.idx1 hidx1 a.wp1 hw1a hw1b f j b
  have H2 : ∀ (f : Fin 64) (j : Fin 64) (b : Fin 128),
      scM2.view.read (Elt Ideal) cont2 (ix3 f j b) = Cert.Spec.A2 a f ⟨128 * t + b.val, by omega⟩ j := fun f j b => by
    rw [E2]
    exact lvl_2_state c xt1 cont1 G2 h5 h6 w2 t ht (Cert.Spec.A1 a) (fun d k b => H1 d k b) a.idx2 hidx2 a.wp2 hw2 f j b
  have H3 : ∀ (f : Fin 32) (j : Fin 64) (b : Fin 128),
      scM1.view.read (Elt Ideal) cont3 (ix3 (⟨f.val, Nat.lt_of_lt_of_le f.isLt (by decide)⟩ : Fin 128) j b)
        = Cert.Spec.A3 a f ⟨128 * t + b.val, by omega⟩ j := fun f j b => by
    rw [E3]
    exact lvl_3_state c xt2 cont2 cont1 h7 h8 w3 t ht (Cert.Spec.A2 a) (fun d k b => H2 d k b) a.idx3 hidx3 a.wp3 hw3 f j b
  have H4 : ∀ (f : Fin 16) (j : Fin 64) (b : Fin 128),
      scM2.view.read (Elt Ideal) cont4 (ix3 (⟨f.val, Nat.lt_of_lt_of_le f.isLt (by decide)⟩ : Fin 64) j b)
        = Cert.Spec.A4 a f ⟨128 * t + b.val, by omega⟩ j := fun f j b => by
    rw [E4]
    exact lvl_4_state c xt3 cont3 cont2 h9 h10 w4 t ht (Cert.Spec.A3 a) (fun d k b => H3 d k b) a.idx4 hidx4 a.wp4 hw4 f j b
  have H5 : ∀ (f : Fin 8) (j : Fin 64) (b : Fin 128),
      scM1.view.read (Elt Ideal) cont5 (ix3 (⟨f.val, Nat.lt_of_lt_of_le f.isLt (by decide)⟩ : Fin 128) j b)
        = Cert.Spec.A5 a f ⟨128 * t + b.val, by omega⟩ j := fun f j b => by
    rw [E5]
    exact lvl_5_state c xt4 cont4 cont3 h11 h12 w5 t ht (Cert.Spec.A4 a) (fun d k b => H4 d k b) a.idx5 hidx5 a.wp5 hw5 f j b
  have H6 : ∀ (f : Fin 4) (j : Fin 64) (b : Fin 128),
      scM2.view.read (Elt Ideal) cont6 (ix3 (⟨f.val, Nat.lt_of_lt_of_le f.isLt (by decide)⟩ : Fin 64) j b)
        = Cert.Spec.A6 a f ⟨128 * t + b.val, by omega⟩ j := fun f j b => by
    rw [E6]
    exact lvl_6_state c xt5 cont5 cont4 h13 h14 w6 t ht (Cert.Spec.A5 a) (fun d k b => H5 d k b) a.idx6 hidx6 a.wp6 hw6 f j b
  have H7 : ∀ (f : Fin 2) (j : Fin 64) (b : Fin 128),
      scM1.view.read (Elt Ideal) cont7 (ix3 (⟨f.val, Nat.lt_of_lt_of_le f.isLt (by decide)⟩ : Fin 128) j b)
        = Cert.Spec.A7 a f ⟨128 * t + b.val, by omega⟩ j := fun f j b => by
    rw [E7]
    exact lvl_7_state c xt6 cont6 cont5 h15 h16 w7 t ht (Cert.Spec.A6 a) (fun d k b => H6 d k b) a.idx7 hidx7 a.wp7 hw7 f j b
  rw [top_read scM1.view cont7 scM2.view cont6 w0 w1 hw0 hw1 x10
    (⟨(Cert.Spec.row (by decide : 0 < 2) (a.idx8 0 0)).val, Nat.lt_of_lt_of_le (Cert.Spec.row (by decide : 0 < 2) (a.idx8 0 0)).isLt (by decide)⟩ : Fin 128)
    (⟨(Cert.Spec.row (by decide : 0 < 2) (a.idx8 0 1)).val, Nat.lt_of_lt_of_le (Cert.Spec.row (by decide : 0 < 2) (a.idx8 0 1)).isLt (by decide)⟩ : Fin 128)
    hr0.symm hr1.symm j b]
  show _ = Cert.Spec.lvl (by decide : 0 < 2) (Cert.Spec.A7 a) a.idx8 a.wp8 0 ⟨128 * t + b.val, by omega⟩ j
  unfold Cert.Spec.lvl
  have hw : (fun j k => x10 (ix3 (0 : Fin 1) j k)) = a.wp8 0 := funext fun j => funext fun k => hw8 0 j k
  rw [hw]
  refine congrArg (fun h => Cert.Spec.lse (a.wp8 0) h j) (funext fun k => ?_)
  rw [H7, H7]

end Cert.KernelIdeal.Hand

end
-- ==== Proof.KI.BodyWords.lean ====
import proofs.«411912_j30219389895125_3_alg».proof.Proof.KI.LoopsH
import proofs.«411912_j30219389895125_3_alg».proof.Proof.KI.HostTabs
import proofs.«411912_j30219389895125_3_alg».proof.Proof.Spec
import Idealize.ShloMosaic.Lib.ValueIdx

noncomputable section

namespace Cert.KernelIdeal.Hand

open Idealize.ShloMosaic Idealize.ShloMosaic.TcCoe Idealize.ShloMosaic.ValueIdx
open Idealize.SL.Sem
open Cert.KernelIdeal Cert.KernelIdeal.Gen

variable {F : FTy → Type} [FloatOps F]

-- The one index of a one-word rectangle is all zeros, so in the table it sits at the rectangle's offsets.
theorem unit_idx2 {n : ℕ} (off : Fin 2 → ℕ) (inb : ∀ a, off a + S1x1.size a ≤ (⟨2, ![2, n]⟩ : Shape).size a) (h1 : 0 < S1x1.numel)
    (s : Fin 2) (q : Fin n) (h : off = ![s.val, q.val]) :
    (Rect.unit (s := ⟨2, ![2, n]⟩) off S1x1.size inb).toLoadRect.idx (Shape.Idx.first h1) = ix2 s q := by
  subst h
  funext a
  match a with
  | ⟨0, _⟩ => rfl
  | ⟨1, _⟩ => rfl

section
variable (m : (ℓ : Loc nD τ sig) → Buf (Elt F) ℓ)

theorem tbl_toNat_1 (s : Fin 2) (q : Fin 128) :
    (tbl m 0 (ix2 s q) : BitVec 32).toNat = Cert.Spec.cl 256 (m (((0 : Dev nD) : Thread nD τ).loc main_arg12) (ix2 q s)) := by
  rw [tbl_word_1, clipW_toNat 255 (by decide)]; rfl

theorem tbl_toNat_2 (s : Fin 2) (q : Fin 64) :
    (tbl m 1 (ix2 s q) : BitVec 32).toNat = Cert.Spec.cl 128 (m (((0 : Dev nD) : Thread nD τ).loc main_arg13) (ix2 q s)) := by
  rw [tbl_word_2, clipW_toNat 127 (by decide)]; rfl

theorem tbl_toNat_3 (s : Fin 2) (q : Fin 32) :
    (tbl m 2 (ix2 s q) : BitVec 32).toNat = Cert.Spec.cl 64 (m (((0 : Dev nD) : Thread nD τ).loc main_arg14) (ix2 q s)) := by
  rw [tbl_word_3, clipW_toNat 63 (by decide)]; rfl

theorem tbl_toNat_4 (s : Fin 2) (q : Fin 16) :
    (tbl m 3 (ix2 s q) : BitVec 32).toNat = Cert.Spec.cl 32 (m (((0 : Dev nD) : Thread nD τ).loc main_arg15) (ix2 q s)) := by
  rw [tbl_word_4, clipW_toNat 31 (by decide)]; rfl

theorem tbl_toNat_5 (s : Fin 2) (q : Fin 8) :
    (tbl m 4 (ix2 s q) : BitVec 32).toNat = Cert.Spec.cl 16 (m (((0 : Dev nD) : Thread nD τ).loc main_arg16) (ix2 q s)) := by
  rw [tbl_word_5, clipW_toNat 15 (by decide)]; rfl

theorem tbl_toNat_6 (s : Fin 2) (q : Fin 4) :
    (tbl m 5 (ix2 s q) : BitVec 32).toNat = Cert.Spec.cl 8 (m (((0 : Dev nD) : Thread nD τ).loc main_arg17) (ix2 q s)) := by
  rw [tbl_word_6, clipW_toNat 7 (by decide)]; rfl

theorem tbl_toNat_7 (s : Fin 2) (q : Fin 2) :
    (tbl m 6 (ix2 s q) : BitVec 32).toNat = Cert.Spec.cl 4 (m (((0 : Dev nD) : Thread nD τ).loc main_arg18) (ix2 q s)) := by
  rw [tbl_word_7, clipW_toNat 3 (by decide)]; rfl

theorem tbl_toNat_8 (s : Fin 2) (q : Fin 1) :
    (tbl m 7 (ix2 s q) : BitVec 32).toNat = Cert.Spec.cl 2 (m (((0 : Dev nD) : Thread nD τ).loc main_arg19) (ix2 q s)) := by
  rw [tbl_word_8, clipW_toNat 1 (by decide)]; rfl

-- The word loaded at offsets `(s, 0)` of the one-column table is its entry `(s, 0)`, so a row offset computed from it is that entry read as a number.
theorem row_l8 (c : Dev nD) (xt : TbBuf0 (F := F) c tbM0_7) (offR : BitVec 32 → Fin 3 → ℕ) (hR : ∀ w, offR w = ![w.toNat, 0, 0])
    (s : Fin 2) {off : Fin 2 → ℕ} {inb : ∀ a, off a + S1x1.size a ≤ S2x1.size a} (h : off = ![s.val, 0]) {i : ℕ}
    (hi : (xt (ix2 s (0 : Fin 1)) : BitVec 32).toNat = i) :
    offR (tbM0_7.view.readAt (Elt F) (Rect.unit (s := S2x1) off S1x1.size inb).toLoadRect xt (Shape.Idx.first (numel1_S1x1.symm ▸ Nat.one_pos))) 0 = i := by
  subst hi
  rw [hR]
  exact congrArg (fun j => (xt j : BitVec 32).toNat) (unit_idx2 off inb _ s 0 h)

theorem row_l8_A0 :
    k0_off43 (tbM0_7.view.readAt (Elt F) (Rect.unit (s := S2x1) (k0_off41) S1x1.size (k0_off41_inb)).toLoadRect (tbl m 7) (Shape.Idx.first (numel1_S1x1.symm ▸ Nat.one_pos))) 0
      = Cert.Spec.cl 2 (m (((0 : Dev nD) : Thread nD τ).loc main_arg19) (ix2 (0 : Fin 1) (0 : Fin 2))) :=
  row_l8 (0 : Dev nD) (tbl m 7) k0_off43 (fun _ => rfl) 0 k0_off41_eq (tbl_toNat_8 m 0 0)

theorem row_l8_B0 :
    k0_off44 (tbM0_7.view.readAt (Elt F) (Rect.unit (s := S2x1) (k0_off42) S1x1.size (k0_off42_inb)).toLoadRect (tbl m 7) (Shape.Idx.first (numel1_S1x1.symm ▸ Nat.one_pos))) 0
      = Cert.Spec.cl 2 (m (((0 : Dev nD) : Thread nD τ).loc main_arg19) (ix2 (0 : Fin 1) (1 : Fin 2))) :=
  row_l8 (0 : Dev nD) (tbl m 7) k0_off44 (fun _ => rfl) 1 k0_off42_eq (tbl_toNat_8 m 1 0)

end

end Cert.KernelIdeal.Hand

end
-- ==== Proof.KI.BodyGlue.lean ====
import proofs.«411912_j30219389895125_3_alg».proof.Proof.KI.HostVals
import proofs.«411912_j30219389895125_3_alg».proof.Proof.KI.HostXv
import proofs.«411912_j30219389895125_3_alg».proof.Proof.KI.BodyWords
import proofs.«411912_j30219389895125_3_alg».proof.Proof.KI.BodyLeaves

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

theorem xblk_glue (c : Dev nD) (t : Fin (cfgM m).N) (d : Fin 256) (b : Fin 128) :
    (iblk m c 0 t : S256x128.Idx → EReal) (ix2 d b)
      = (argsK m c).x ⟨128 * t.val + b.val, by have := tile_lt m t; omega⟩ (Cert.Spec.row (by decide : 0 < 256) ((argsK m c).isi d)) := by
  rw [iblk0_apply, V_xv]; rfl
theorem mublk_glue (c : Dev nD) (t : Fin (cfgM m).N) (d : Fin 256) (k : Fin 64) :
    (iblk m c 1 t : S256x64.Idx → EReal) (ix2 d k) = (argsK m c).mu d k := by
  rw [iblk1_eq, V_main_arg1]; rfl
theorem lsblk_glue (c : Dev nD) (t : Fin (cfgM m).N) (d : Fin 256) (k : Fin 64) :
    (iblk m c 2 t : S256x64.Idx → EReal) (ix2 d k) = (argsK m c).ls d k := by
  rw [iblk2_eq, V_main_arg2]; rfl

theorem leaf_glue (c : Dev nD) (t : Fin (cfgM m).N) (g : scM0.view.ty.Contents (Elt Ideal)) (d : Fin 256) (k : Fin 64) (b : Fin 128) :
    scM0.view.read (Elt Ideal) (scM0.view.writes (Elt Ideal) g (leavesL (iblk m c 0 t) (iblk m c 1 t) (iblk m c 2 t))) (ix3 d k b)
      = Cert.Spec.A0 (argsK m c) d ⟨128 * t.val + b.val, by have := tile_lt m t; omega⟩ k := by
  exact (leaves_read scM0.view g (iblk m c 0 t) (iblk m c 1 t) (iblk m c 2 t) d k b).trans
    (congr (congr (congrArg Cert.Spec.leaf (xblk_glue m c t d b)) (mublk_glue m c t d k)) (lsblk_glue m c t d k))

theorem w_glue_1 (c : Dev nD) (t : Fin (cfgM m).N) (f : Fin 128) (j k : Fin 64) :
    (iblk m c 3 t : S128x64x64.Idx → EReal) (ix3 f j k) = (argsK m c).wp1 f j k := by
  rw [iblk3_eq, V_wp_1]; rfl
theorem w_glue_2 (c : Dev nD) (t : Fin (cfgM m).N) (f : Fin 64) (j k : Fin 64) :
    (iblk m c 4 t : S64x64x64.Idx → EReal) (ix3 f j k) = (argsK m c).wp2 f j k := by
  rw [iblk4_eq, V_wp_2]; rfl
theorem w_glue_3 (c : Dev nD) (t : Fin (cfgM m).N) (f : Fin 32) (j k : Fin 64) :
    (iblk m c 5 t : S32x64x64.Idx → EReal) (ix3 f j k) = (argsK m c).wp3 f j k := by
  rw [iblk5_eq, V_wp_3]; rfl
theorem w_glue_4 (c : Dev nD) (t : Fin (cfgM m).N) (f : Fin 16) (j k : Fin 64) :
    (iblk m c 6 t : S16x64x64.Idx → EReal) (ix3 f j k) = (argsK m c).wp4 f j k := by
  rw [iblk6_eq, V_wp_4]; rfl
theorem w_glue_5 (c : Dev nD) (t : Fin (cfgM m).N) (f : Fin 8) (j k : Fin 64) :
    (iblk m c 7 t : S8x64x64.Idx → EReal) (ix3 f j k) = (argsK m c).wp5 f j k := by
  rw [iblk7_eq, V_wp_5]; rfl
theorem w_glue_6 (c : Dev nD) (t : Fin (cfgM m).N) (f : Fin 4) (j k : Fin 64) :
    (iblk m c 8 t : S4x64x64.Idx → EReal) (ix3 f j k) = (argsK m c).wp6 f j k := by
  rw [iblk8_eq, V_wp_6]; rfl
theorem w_glue_7 (c : Dev nD) (t : Fin (cfgM m).N) (f : Fin 2) (j k : Fin 64) :
    (iblk m c 9 t : S2x64x64.Idx → EReal) (ix3 f j k) = (argsK m c).wp7 f j k := by
  rw [iblk9_eq, V_wp_7]; rfl
theorem w_glue_8 (c : Dev nD) (t : Fin (cfgM m).N) (f : Fin 1) (j k : Fin 64) :
    (iblk m c 10 t : S1x64x64.Idx → EReal) (ix3 f j k) = (argsK m c).wp8 f j k := by
  rw [iblk10_eq, V_wp_8]; rfl

theorem idx_glue_1 (c : Dev nD) (s : Fin 2) (f : Fin 128) :
    (tbl m 0 (ix2 s f) : BitVec 32).toNat = Cert.Spec.cl 256 ((argsK m c).idx1 f s) :=
  Subsingleton.elim 0 c ▸ tbl_toNat_1 m s f
theorem idx_glue_2 (c : Dev nD) (s : Fin 2) (f : Fin 64) :
    (tbl m 1 (ix2 s f) : BitVec 32).toNat = Cert.Spec.cl 128 ((argsK m c).idx2 f s) :=
  Subsingleton.elim 0 c ▸ tbl_toNat_2 m s f
theorem idx_glue_3 (c : Dev nD) (s : Fin 2) (f : Fin 32) :
    (tbl m 2 (ix2 s f) : BitVec 32).toNat = Cert.Spec.cl 64 ((argsK m c).idx3 f s) :=
  Subsingleton.elim 0 c ▸ tbl_toNat_3 m s f
theorem idx_glue_4 (c : Dev nD) (s : Fin 2) (f : Fin 16) :
    (tbl m 3 (ix2 s f) : BitVec 32).toNat = Cert.Spec.cl 32 ((argsK m c).idx4 f s) :=
  Subsingleton.elim 0 c ▸ tbl_toNat_4 m s f
theorem idx_glue_5 (c : Dev nD) (s : Fin 2) (f : Fin 8) :
    (tbl m 4 (ix2 s f) : BitVec 32).toNat = Cert.Spec.cl 16 ((argsK m c).idx5 f s) :=
  Subsingleton.elim 0 c ▸ tbl_toNat_5 m s f
theorem idx_glue_6 (c : Dev nD) (s : Fin 2) (f : Fin 4) :
    (tbl m 5 (ix2 s f) : BitVec 32).toNat = Cert.Spec.cl 8 ((argsK m c).idx6 f s) :=
  Subsingleton.elim 0 c ▸ tbl_toNat_6 m s f
theorem idx_glue_7 (c : Dev nD) (s : Fin 2) (f : Fin 2) :
    (tbl m 6 (ix2 s f) : BitVec 32).toNat = Cert.Spec.cl 4 ((argsK m c).idx7 f s) :=
  Subsingleton.elim 0 c ▸ tbl_toNat_7 m s f

end Cert.KernelIdeal.Hand

end
-- ==== Proof.KI.Body.lean ====
import proofs.«411912_j30219389895125_3_alg».proof.Proof.KI.RunShape
import proofs.«411912_j30219389895125_3_alg».proof.Proof.KI.BodyChain
import proofs.«411912_j30219389895125_3_alg».proof.Proof.KI.BodyGlue
import proofs.«411912_j30219389895125_3_alg».proof.Proof.KI.BodyWords
import proofs.«411912_j30219389895125_3_alg».proof.Proof.KI.Frame

set_option maxRecDepth 16384

noncomputable section

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ)

-- The output block at tile t is the circuit's output on the tile's 128 batch entries: the levels chained from the leaves up.
set_option maxHeartbeats 4000000 in
theorem outsAt0_eq (hH : ∀ c : Dev nD, Hyps c (tbl m 0) (tbl m 1) (tbl m 2) (tbl m 3) (tbl m 4) (tbl m 5) (tbl m 6) (tbl m 7))
    (c : Dev nD) (t : Fin (cfgM m).N) (b' : Fin 128) (j : Fin 64) :
    outsAt0 m hH c t (ix2 b' j)
      = Cert.Spec.out (argsK m c) ⟨128 * t.val + b'.val, by have := tile_lt m t; have := b'.isLt; omega⟩ j := by
  have ht := tile_lt m t
  unfold outsAt0 out0_A_11
  refine (congrArg (fun L => VO0_11.read (Elt Ideal) (VO0_11.writes (Elt Ideal) VO0_11.junk L) (ix2 b' j))
    (E_out c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (tbl m 1) (tbl m 2) (tbl m 3) (tbl m 4) (tbl m 5) (tbl m 6) (tbl m 7) (hH c))).trans ?_
  refine (View.read_writes_cons_unit_of_mem VO0_11 _ _ _ [] (ix2 b' j) (ix2 b' j) rfl (fun a => ?_)).trans ?_
  · match a with
    | ⟨0, _⟩ => exact (Nat.zero_add _).symm
    | ⟨1, _⟩ => exact (Nat.zero_add _).symm
  rw [top_out]
  refine chain_out c (argsK m c) t.val ht (tbl m 0) (tbl m 1) (tbl m 2) (tbl m 3) (tbl m 4) (tbl m 5) (tbl m 6)
    (hH c).h1 (hH c).h2 (hH c).h3 (hH c).h4 (hH c).h5 (hH c).h6 (hH c).h7 (hH c).h8 (hH c).h9 (hH c).h10 (hH c).h11
    (hH c).h12 (hH c).h13 (hH c).h14 (hH c).h15 (hH c).h16
    (cont0 c (ms0_0 m t) (hs0_0 m t) (ms0_1 m t) (hs0_1 m t) (ms0_2 m t) (hs0_2 m t) (iblk m c 0 t) (iblk m c 1 t) (iblk m c 2 t))
    scM1.view.junk (cont1 c (ms0_0 m t) (hs0_0 m t) (ms0_1 m t) (hs0_1 m t) (ms0_2 m t) (hs0_2 m t) (ms0_3 m t) (hs0_3 m t) (iblk m c 0 t) (iblk m c 1 t) (iblk m c 2 t) (iblk m c 3 t) (tbl m 0) (hH c).h1 (hH c).h2 (hH c).h3 (hH c).h4) (cont3 c (ms0_0 m t) (hs0_0 m t) (ms0_1 m t) (hs0_1 m t) (ms0_2 m t) (hs0_2 m t) (ms0_3 m t) (hs0_3 m t) (ms0_4 m t) (hs0_4 m t) (ms0_5 m t) (hs0_5 m t) (iblk m c 0 t) (iblk m c 1 t) (iblk m c 2 t) (iblk m c 3 t) (iblk m c 4 t) (iblk m c 5 t) (tbl m 0) (tbl m 1) (tbl m 2) (hH c).h1 (hH c).h2 (hH c).h3 (hH c).h4 (hH c).h5 (hH c).h6 (hH c).h7 (hH c).h8) (cont5 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (iblk m c 0 t) (iblk m c 1 t) (iblk m c 2 t) (iblk m c 3 t) (iblk m c 4 t) (iblk m c 5 t) (iblk m c 6 t) (iblk m c 7 t) (tbl m 0) (tbl m 1) (tbl m 2) (tbl m 3) (tbl m 4) (hH c).h1 (hH c).h2 (hH c).h3 (hH c).h4 (hH c).h5 (hH c).h6 (hH c).h7 (hH c).h8 (hH c).h9 (hH c).h10 (hH c).h11 (hH c).h12) (cont7 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (iblk m c 0 t) (iblk m c 1 t) (iblk m c 2 t) (iblk m c 3 t) (iblk m c 4 t) (iblk m c 5 t) (iblk m c 6 t) (iblk m c 7 t) (iblk m c 8 t) (iblk m c 9 t) (tbl m 0) (tbl m 1) (tbl m 2) (tbl m 3) (tbl m 4) (tbl m 5) (tbl m 6) (hH c).h1 (hH c).h2 (hH c).h3 (hH c).h4 (hH c).h5 (hH c).h6 (hH c).h7 (hH c).h8 (hH c).h9 (hH c).h10 (hH c).h11 (hH c).h12 (hH c).h13 (hH c).h14 (hH c).h15 (hH c).h16)
    scM2.view.junk (cont2 c (ms0_0 m t) (hs0_0 m t) (ms0_1 m t) (hs0_1 m t) (ms0_2 m t) (hs0_2 m t) (ms0_3 m t) (hs0_3 m t) (ms0_4 m t) (hs0_4 m t) (iblk m c 0 t) (iblk m c 1 t) (iblk m c 2 t) (iblk m c 3 t) (iblk m c 4 t) (tbl m 0) (tbl m 1) (hH c).h1 (hH c).h2 (hH c).h3 (hH c).h4 (hH c).h5 (hH c).h6) (cont4 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (iblk m c 0 t) (iblk m c 1 t) (iblk m c 2 t) (iblk m c 3 t) (iblk m c 4 t) (iblk m c 5 t) (iblk m c 6 t) (tbl m 0) (tbl m 1) (tbl m 2) (tbl m 3) (hH c).h1 (hH c).h2 (hH c).h3 (hH c).h4 (hH c).h5 (hH c).h6 (hH c).h7 (hH c).h8 (hH c).h9 (hH c).h10) (cont6 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (iblk m c 0 t) (iblk m c 1 t) (iblk m c 2 t) (iblk m c 3 t) (iblk m c 4 t) (iblk m c 5 t) (iblk m c 6 t) (iblk m c 7 t) (iblk m c 8 t) (tbl m 0) (tbl m 1) (tbl m 2) (tbl m 3) (tbl m 4) (tbl m 5) (hH c).h1 (hH c).h2 (hH c).h3 (hH c).h4 (hH c).h5 (hH c).h6 (hH c).h7 (hH c).h8 (hH c).h9 (hH c).h10 (hH c).h11 (hH c).h12 (hH c).h13 (hH c).h14)
    (w1a (ms0_3 m t) (hs0_3 m t) (iblk m c 3 t)) (w1b (ms0_3 m t) (hs0_3 m t) (iblk m c 3 t)) (w2 (ms0_4 m t) (hs0_4 m t) (iblk m c 4 t)) (w3 (ms0_5 m t) (hs0_5 m t) (iblk m c 5 t)) (w4 (ms0_6 m t) (hs0_6 m t) (iblk m c 6 t)) (w5 (ms0_7 m t) (hs0_7 m t) (iblk m c 7 t)) (w6 (ms0_8 m t) (hs0_8 m t) (iblk m c 8 t)) (w7 (ms0_9 m t) (hs0_9 m t) (iblk m c 9 t)) (w8 (ms0_10 m t) (hs0_10 m t) (iblk m c 10 t))
    ?hleaf (E1 c (ms0_0 m t) (hs0_0 m t) (ms0_1 m t) (hs0_1 m t) (ms0_2 m t) (hs0_2 m t) (ms0_3 m t) (hs0_3 m t) (iblk m c 0 t) (iblk m c 1 t) (iblk m c 2 t) (iblk m c 3 t) (tbl m 0) (hH c).h1 (hH c).h2 (hH c).h3 (hH c).h4) (E2 c (ms0_0 m t) (hs0_0 m t) (ms0_1 m t) (hs0_1 m t) (ms0_2 m t) (hs0_2 m t) (ms0_3 m t) (hs0_3 m t) (ms0_4 m t) (hs0_4 m t) (iblk m c 0 t) (iblk m c 1 t) (iblk m c 2 t) (iblk m c 3 t) (iblk m c 4 t) (tbl m 0) (tbl m 1) (hH c).h1 (hH c).h2 (hH c).h3 (hH c).h4 (hH c).h5 (hH c).h6) (E3 c (ms0_0 m t) (hs0_0 m t) (ms0_1 m t) (hs0_1 m t) (ms0_2 m t) (hs0_2 m t) (ms0_3 m t) (hs0_3 m t) (ms0_4 m t) (hs0_4 m t) (ms0_5 m t) (hs0_5 m t) (iblk m c 0 t) (iblk m c 1 t) (iblk m c 2 t) (iblk m c 3 t) (iblk m c 4 t) (iblk m c 5 t) (tbl m 0) (tbl m 1) (tbl m 2) (hH c).h1 (hH c).h2 (hH c).h3 (hH c).h4 (hH c).h5 (hH c).h6 (hH c).h7 (hH c).h8) (E4 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (iblk m c 0 t) (iblk m c 1 t) (iblk m c 2 t) (iblk m c 3 t) (iblk m c 4 t) (iblk m c 5 t) (iblk m c 6 t) (tbl m 0) (tbl m 1) (tbl m 2) (tbl m 3) (hH c).h1 (hH c).h2 (hH c).h3 (hH c).h4 (hH c).h5 (hH c).h6 (hH c).h7 (hH c).h8 (hH c).h9 (hH c).h10) (E5 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (iblk m c 0 t) (iblk m c 1 t) (iblk m c 2 t) (iblk m c 3 t) (iblk m c 4 t) (iblk m c 5 t) (iblk m c 6 t) (iblk m c 7 t) (tbl m 0) (tbl m 1) (tbl m 2) (tbl m 3) (tbl m 4) (hH c).h1 (hH c).h2 (hH c).h3 (hH c).h4 (hH c).h5 (hH c).h6 (hH c).h7 (hH c).h8 (hH c).h9 (hH c).h10 (hH c).h11 (hH c).h12) (E6 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (iblk m c 0 t) (iblk m c 1 t) (iblk m c 2 t) (iblk m c 3 t) (iblk m c 4 t) (iblk m c 5 t) (iblk m c 6 t) (iblk m c 7 t) (iblk m c 8 t) (tbl m 0) (tbl m 1) (tbl m 2) (tbl m 3) (tbl m 4) (tbl m 5) (hH c).h1 (hH c).h2 (hH c).h3 (hH c).h4 (hH c).h5 (hH c).h6 (hH c).h7 (hH c).h8 (hH c).h9 (hH c).h10 (hH c).h11 (hH c).h12 (hH c).h13 (hH c).h14) (E7 c (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (iblk m c 0 t) (iblk m c 1 t) (iblk m c 2 t) (iblk m c 3 t) (iblk m c 4 t) (iblk m c 5 t) (iblk m c 6 t) (iblk m c 7 t) (iblk m c 8 t) (iblk m c 9 t) (tbl m 0) (tbl m 1) (tbl m 2) (tbl m 3) (tbl m 4) (tbl m 5) (tbl m 6) (hH c).h1 (hH c).h2 (hH c).h3 (hH c).h4 (hH c).h5 (hH c).h6 (hH c).h7 (hH c).h8 (hH c).h9 (hH c).h10 (hH c).h11 (hH c).h12 (hH c).h13 (hH c).h14 (hH c).h15 (hH c).h16)
    (fun f s => idx_glue_1 m c s f) (fun f s => idx_glue_2 m c s f) (fun f s => idx_glue_3 m c s f)
    (fun f s => idx_glue_4 m c s f) (fun f s => idx_glue_5 m c s f) (fun f s => idx_glue_6 m c s f)
    (fun f s => idx_glue_7 m c s f)
    (fun r j k => (w1a_apply (ms0_3 m t) (hs0_3 m t) (iblk m c 3 t) r j k).trans (w_glue_1 m c t _ j k))
    (fun r j k => (w1b_apply (ms0_3 m t) (hs0_3 m t) (iblk m c 3 t) r j k).trans (w_glue_1 m c t _ j k))
    (fun f j k => (w2_apply (ms0_4 m t) (hs0_4 m t) (iblk m c 4 t) f j k).trans (w_glue_2 m c t f j k))
    (fun f j k => (w3_apply (ms0_5 m t) (hs0_5 m t) (iblk m c 5 t) f j k).trans (w_glue_3 m c t f j k))
    (fun f j k => (w4_apply (ms0_6 m t) (hs0_6 m t) (iblk m c 6 t) f j k).trans (w_glue_4 m c t f j k))
    (fun f j k => (w5_apply (ms0_7 m t) (hs0_7 m t) (iblk m c 7 t) f j k).trans (w_glue_5 m c t f j k))
    (fun f j k => (w6_apply (ms0_8 m t) (hs0_8 m t) (iblk m c 8 t) f j k).trans (w_glue_6 m c t f j k))
    (fun f j k => (w7_apply (ms0_9 m t) (hs0_9 m t) (iblk m c 9 t) f j k).trans (w_glue_7 m c t f j k))
    (fun f j k => (w8_apply (ms0_10 m t) (hs0_10 m t) (iblk m c 10 t) f j k).trans (w_glue_8 m c t f j k))
    (wd0 c (tbl m 7)) (wd1 c (tbl m 7)) (hH c).h17 (hH c).h18 ?hr0 ?hr1 j b'
  case hleaf =>
    intro d k b
    show scM0.view.read (Elt Ideal) (scM0.view.writes (Elt Ideal) scM0.view.junk
      (kernelRun0_A_of.sl.HS0_8 (F := Ideal) c (ms0_0 m t) (hs0_0 m t) (ms0_1 m t) (hs0_1 m t) (ms0_2 m t) (hs0_2 m t)
        (iblk m c 0 t) (iblk m c 1 t) (iblk m c 2 t))) (ix3 d k b) = _
    rw [E0 c (ms0_0 m t) (hs0_0 m t) (ms0_1 m t) (hs0_1 m t) (ms0_2 m t) (hs0_2 m t) (iblk m c 0 t) (iblk m c 1 t) (iblk m c 2 t)]
    exact leaf_glue m c t _ d k b
  case hr0 =>
    obtain rfl : c = 0 := Subsingleton.elim _ _
    exact row_l8_A0 m
  case hr1 =>
    obtain rfl : c = 0 := Subsingleton.elim _ _
    exact row_l8_B0 m

end Cert.KernelIdeal.Hand

end
-- ==== Proof.KI.ValueTop.lean ====
import proofs.«411912_j30219389895125_3_alg».proof.Proof.KI.Value
import proofs.«411912_j30219389895125_3_alg».proof.Proof.KI.HostTabs
import proofs.«411912_j30219389895125_3_alg».proof.Proof.KI.HostVals
import proofs.«411912_j30219389895125_3_alg».proof.Proof.KI.Body

set_option maxRecDepth 16384

noncomputable section

namespace Cert.KernelIdeal.Hand

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

theorem final11 (hH : ∀ c : Dev nD, Hyps c (tbl m 0) (tbl m 1) (tbl m 2) (tbl m 3) (tbl m 4) (tbl m 5) (tbl m 6) (tbl m 7)) (c : Dev nD) :
    (dats m hH 0 c).arrAt 11 (cfgM m).N
      = fun i : S2048x64.Idx => Cert.Spec.out (argsK m c) ⟨(i 0).val, idx2_lt0 i⟩ ⟨(i 1).val, idx2_lt1 i⟩ :=
  final11_of m hH c (Cert.Spec.out (argsK m c)) (fun t b' j => outsAt0_eq m hH c t b' j)

theorem value_run :
    θ_run (defs (F := Ideal)) (onTc (τ := τ) (main (F := Ideal))) ⟨m, fun _ => 0, ρ⟩ (fun r => ∀ c : Dev nD,
      r.2.mem ((c.tc : Thread nD τ).loc main_v110)
        = (fun i : S2048x1x64.Idx => Cert.Spec.out (argsK m c) ⟨(i 0).val, (i 0).isLt⟩ ⟨(i 2).val, (i 2).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (value_run_of m ρ (fun c => hyps_all m c) (fun c => Cert.Spec.out (argsK m c))
    (fun c t b' j => outsAt0_eq m (fun c => hyps_all m c) c t b' j)).mono (fun r h c => by
    refine ⟨(h c).1, ?_, ?_, ?_, ?_, ?_, ?_, ?_, ?_, ?_, ?_, ?_, ?_, ?_, ?_, ?_, ?_, ?_, ?_, ?_, ?_⟩ <;>
    exact (h c).2 _ (by decide))

end Cert.KernelIdeal.Hand

end
-- ==== Proof.K.Tabs.lean ====
import proofs.«411912_j30219389895125_3_alg».proof.Proof.Gen.Kernel.Launch
import proofs.«411912_j30219389895125_3_alg».proof.Proof.Gen.Kernel.Skeleton
import proofs.«411912_j30219389895125_3_alg».proof.Proof.Gen.Kernel.Loops
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

abbrev tbM0_0 : Memref sig .tc .smem S2x128 .i32 := Memref.whole main_v6
abbrev htbM0_0 : tbM0_0.IsWhole := Memref.isWhole_whole _
abbrev tbM0_1 : Memref sig .tc .smem S2x64 .i32 := Memref.whole main_v8
abbrev htbM0_1 : tbM0_1.IsWhole := Memref.isWhole_whole _
abbrev tbM0_2 : Memref sig .tc .smem S2x32 .i32 := Memref.whole main_v10
abbrev htbM0_2 : tbM0_2.IsWhole := Memref.isWhole_whole _
abbrev tbM0_3 : Memref sig .tc .smem S2x16 .i32 := Memref.whole main_v12
abbrev htbM0_3 : tbM0_3.IsWhole := Memref.isWhole_whole _
abbrev tbM0_4 : Memref sig .tc .smem S2x8 .i32 := Memref.whole main_v14
abbrev htbM0_4 : tbM0_4.IsWhole := Memref.isWhole_whole _
abbrev tbM0_5 : Memref sig .tc .smem S2x4 .i32 := Memref.whole main_v16
abbrev htbM0_5 : tbM0_5.IsWhole := Memref.isWhole_whole _
abbrev tbM0_6 : Memref sig .tc .smem S2x2 .i32 := Memref.whole main_v18
abbrev htbM0_6 : tbM0_6.IsWhole := Memref.isWhole_whole _
abbrev tbM0_7 : Memref sig .tc .smem S2x1 .i32 := Memref.whole main_v20
abbrev htbM0_7 : tbM0_7.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

abbrev scM0 : Memref sig .tc .vmem S256x64x128 .f32 := Memref.whole cc0_scratch0
abbrev hscM0 : scM0.IsWhole := Memref.isWhole_whole _
abbrev scM1 : Memref sig .tc .vmem S128x64x128 .f32 := Memref.whole cc0_scratch1
abbrev hscM1 : scM1.IsWhole := Memref.isWhole_whole _
abbrev scM2 : Memref sig .tc .vmem S64x64x128 .f32 := Memref.whole cc0_scratch2
abbrev hscM2 : scM2.IsWhole := Memref.isWhole_whole _

end Cert.Kernel.Hand

end
-- ==== Proof.K.Points.lean ====
import proofs.«411912_j30219389895125_3_alg».proof.Proof.K.Tabs

noncomputable section

namespace Cert.Kernel.Hand

open Idealize.ShloMosaic Idealize.ShloMosaic.TcCoe
open Idealize.SL Idealize.SL.Sem
open Cert.Kernel Cert.Kernel.Gen

variable {F : FTy → Type} [FloatOps F]

theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

abbrev bodyAt0 (a : (pcfg0 (F := F)).Adm) (t : Fin (cfg0 a).N) : Prog (TpuEff nD τ sig (Elt F) Λ₀ .tc) PUnit :=
  cc0__fused_kernel (grid0.coords t) tbM0_0 htbM0_0 tbM0_1 htbM0_1 tbM0_2 htbM0_2 tbM0_3 htbM0_3 tbM0_4 htbM0_4 tbM0_5 htbM0_5 tbM0_6 htbM0_6 tbM0_7 htbM0_7 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) scM0 hscM0 scM1 hscM1 scM2 hscM2

end Cert.Kernel.Hand

end
-- ==== Proof.K.Kit.lean ====
import proofs.«411912_j30219389895125_3_alg».proof.Proof.K.Tabs
import proofs.«411912_j30219389895125_3_alg».proof.Proof.K.Points
import Idealize.ShloMosaic.Lib.Pipeline.FrameSuffix

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b))
abbrev V (c : Dev nD) (b : Ref sig .tc) : Buf (Elt F) ((c : Thread nD τ).loc b) := V0 m c (Proc.devRef .tc b)

theorem hmain (𝒱₀ : Variants) : Pipeline.HMainPK (Ix := Unit) (Name := ℕ) (U := UR sig nD τ) (Lvl := ℕ) pcfgs 0 defs₀ 𝒱₀ m (main (F := F))
      (fun c b => V0 m c (Proc.devRef .tc b)) (fun _ => Pipeline.chain ([hostOps1].map StableHlo.seq)) :=
  Pipeline.hmainP_around pcfgs 0 defs₀ 𝒱₀ m main _ [hostOps1] (by exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩)
    (by simp only [List.Forall]; repeat' constructor) main_chain

theorem sfx_sub : ∀ ops ∈ ([hostOps1] : List (List (HloOp τ sig (Elt F)))), ∀ op ∈ ops,
    op.bufs ⊆ Pipeline.tailRefs sig pre0 spec0 :=
  List.forall_mem_singleton.2 (List.forall_mem_singleton.2 (Pipeline.sub_tailRefs pre0 spec0 _ hostOps1_sub fun j h =>
    (Finset.mem_insert.1 h).elim (StableHlo.devRef_ne_of_ne ((by decide : ∀ j, pre0.ref j ≠ main_v109) j))
      fun h => StableHlo.devRef_ne_of_ne ((by decide : ∀ j, pre0.ref j ≠ main_v110) j) (Finset.mem_singleton.1 h)))
theorem sfx_fresh : ∀ ops ∈ ([hostOps1] : List (List (HloOp τ sig (Elt F)))), ∀ op ∈ ops, op.fresh = ∅ :=
  List.forall_mem_singleton.2 (List.forall_mem_singleton.2 rfl)
theorem sfx_keeps : ∀ ops ∈ ([hostOps1] : List (List (HloOp τ sig (Elt F)))), ∀ op ∈ ops,
    ∀ w, Proc.devRef .tc (Pipeline.arrRef spec0 w) ∉ op.writes :=
  List.forall_mem_singleton.2 (List.forall_mem_singleton.2 fun w h =>
    StableHlo.devRef_ne_of_ne ((by decide : ∀ w, Pipeline.arrRef spec0 w ≠ main_v110) w) (Finset.mem_singleton.1 h))

-- Lines whose operations each write one reference outside `A` leave every reference of `A` as it was.
theorem after_keeps {A : List (Ref sig .tc)} (opss : List (List (HloOp τ sig (Elt F)))) (W : Valuation τ sig (Elt F))
    (h : opss.Forall fun ops => ops.Forall fun op => ∃ y, y ∉ A ∧ op.writes = {Proc.devRef .tc y}) (r : Ref sig .tc) (hr : r ∈ A) :
    StableHlo.after opss.flatten W (Proc.devRef .tc r) = W (Proc.devRef .tc r) :=
  StableHlo.after_of_forall_not_mem _ _ fun op hop hb => by
    obtain ⟨ops, ho, hop⟩ := List.mem_flatten.mp hop
    obtain ⟨y, hy, e⟩ := List.forall_iff_forall_mem.mp (List.forall_iff_forall_mem.mp h ops ho) op hop
    rw [e, Finset.mem_singleton] at hb
    exact hy (Proc.devRef_injective _ hb ▸ hr)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

-- No host operation before the call writes an argument array.
theorem V_arg (c : Dev nD) {b : Ref sig .tc} (hb : b ∈ args := by decide) : V m c b = m ((c : Thread nD τ).loc b) :=
  after_keeps _ _ (by
    simp only [List.Forall]
    repeat' apply And.intro
    all_goals exact ⟨_, by decide, rfl⟩) b hb
theorem V_main_arg1 (c : Dev nD) : V m c main_arg1 = m ((c : Thread nD τ).loc main_arg1) := V_arg m c
theorem V_main_arg2 (c : Dev nD) : V m c main_arg2 = m ((c : Thread nD τ).loc main_arg2) := V_arg m c

def tbl : pre0.Contents (Elt F) := fun j => V m (0 : Dev nD) (pre0.ref j)
theorem V_pre (c : Dev nD) (j : Fin 8) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5) ∗ tbPt0 c tbM0_6 (tbl m 6) ∗ tbPt0 c tbM0_7 (tbl m 7)) :=
  bigSep_univ_eq_bigSepL [0, 1, 2, 3, 4, 5, 6, 7] (by decide) (by decide) _

-- The line after the call writes no argument array, and `withArrays` changes the windows' arrays only.
theorem W_arg (dats : (p : Fin 1) → (c : Dev nD) → Dat τ (Elt F) Unit ℕ (UR sig nD τ) ℕ ((Pipeline.pin pcfgs fun _ => adm m) p) c) (c : Dev nD)
    {b : Ref sig .tc} (hb : b ∈ args := by decide) (hw : ∀ w, Pipeline.arrRef spec0 w ≠ b := by decide) :
    Pipeline.afterTail pcfgs (fun _ => adm m) dats 0 (V0 m) [hostOps1] c b = m ((c.tc : Thread nD τ).loc b) := by
  unfold Pipeline.afterTail
  rw [after_keeps _ _ (by exact ⟨_, by decide, rfl⟩) b hb, Pipeline.withArrays_of_ne _ c (V0 m c) _ b hw]
  exact V_arg m c hb

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

-- `blockOf` reads the data's array; at the entry contents that is `iblk`.
theorem blockOf_eq {c : Dev nD} (dat : Dat τ (Elt F) Unit ℕ (UR sig nD τ) ℕ (cfgM m) c) (w) (hA : dat.A w = V m c (Pipeline.arrRef spec0 w)) (t) :
    dat.blockOf w t = iblk m c w t :=
  congrArg ((((cfgM m).win w).blk t).view.read (Elt F)) hA

theorem before0_of {c : Dev nD} (w : Fin 12) (dat : Dat τ (Elt F) Unit ℕ (UR sig nD τ) ℕ (cfgM m) c) (hA : dat.A w = V m c (Pipeline.arrRef spec0 w))
    (hafter : ∀ t, dat.after w t = iblk m c w t) (t : Fin (cfgM m).N) (d) (hw : w ≠ 11 := by decide) : dat.before w t d = iblk m c w t := by
  fin_cases w
  on_goal 12 => exact absurd rfl hw
  all_goals
    exact (dat.before_in_eq_fetched _ rfl (fun _ => rfl) (fun _ _ _ => rfl) (fun t => by rw [hafter, blockOf_eq m dat _ hA]) t d).trans
      (by unfold Dat.fetched; rw [blockOf_eq m dat _ hA]; rfl)

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    have k : ∀ {b} (hb : b ∈ args := by decide) (hw : ∀ w, Pipeline.arrRef spec0 w ≠ b := by decide), _ = m ((c.tc : Thread nD τ).loc b) := fun {b} hb hw =>
      ((h c).2 b (Pipeline.mem_restRefs_of b ((by decide : ∀ b ∈ args, b.isScoped = false) b hb) hw)).trans (W_arg m dats c hb hw)
    ⟨k, ((h c).1 1).trans (((dats 0 c).arrAt_in 1 rfl _).trans ((hA c 1).trans (V_main_arg1 m c))),
      ((h c).1 2).trans (((dats 0 c).arrAt_in 2 rfl _).trans ((hA c 2).trans (V_main_arg2 m c))),
      k, k, k, k, k, k, k, k, k, k, k, k, k, k, k, k, k⟩) h

abbrev VO0_11 : View sig .tc .vmem S128x64 .f32 := (Memref.whole cc0_stg11_0 : Memref sig .tc .vmem S128x64 .f32).view
abbrev ms0_0 (t : Fin (cfgM m).N) : Memref sig .tc .vmem S256x128 .f32 := spec0_0.stage ((cfgM m).slots t 0)
abbrev hs0_0 (t : Fin (cfgM m).N) : (ms0_0 m t).IsWhole := stage_whole0 0 _
abbrev ms0_1 (t : Fin (cfgM m).N) : Memref sig .tc .vmem S256x64 .f32 := spec0_1.stage ((cfgM m).slots t 1)
abbrev hs0_1 (t : Fin (cfgM m).N) : (ms0_1 m t).IsWhole := stage_whole0 1 _
abbrev ms0_2 (t : Fin (cfgM m).N) : Memref sig .tc .vmem S256x64 .f32 := spec0_2.stage ((cfgM m).slots t 2)
abbrev hs0_2 (t : Fin (cfgM m).N) : (ms0_2 m t).IsWhole := stage_whole0 2 _
abbrev ms0_3 (t : Fin (cfgM m).N) : Memref sig .tc .vmem S128x64x64 .f32 := spec0_3.stage ((cfgM m).slots t 3)
abbrev hs0_3 (t : Fin (cfgM m).N) : (ms0_3 m t).IsWhole := stage_whole0 3 _
abbrev ms0_4 (t : Fin (cfgM m).N) : Memref sig .tc .vmem S64x64x64 .f32 := spec0_4.stage ((cfgM m).slots t 4)
abbrev hs0_4 (t : Fin (cfgM m).N) : (ms0_4 m t).IsWhole := stage_whole0 4 _
abbrev ms0_5 (t : Fin (cfgM m).N) : Memref sig .tc .vmem S32x64x64 .f32 := spec0_5.stage ((cfgM m).slots t 5)
abbrev hs0_5 (t : Fin (cfgM m).N) : (ms0_5 m t).IsWhole := stage_whole0 5 _
abbrev ms0_6 (t : Fin (cfgM m).N) : Memref sig .tc .vmem S16x64x64 .f32 := spec0_6.stage ((cfgM m).slots t 6)
abbrev hs0_6 (t : Fin (cfgM m).N) : (ms0_6 m t).IsWhole := stage_whole0 6 _
abbrev ms0_7 (t : Fin (cfgM m).N) : Memref sig .tc .vmem S8x64x64 .f32 := spec0_7.stage ((cfgM m).slots t 7)
abbrev hs0_7 (t : Fin (cfgM m).N) : (ms0_7 m t).IsWhole := stage_whole0 7 _
abbrev ms0_8 (t : Fin (cfgM m).N) : Memref sig .tc .vmem S4x64x64 .f32 := spec0_8.stage ((cfgM m).slots t 8)
abbrev hs0_8 (t : Fin (cfgM m).N) : (ms0_8 m t).IsWhole := stage_whole0 8 _
abbrev ms0_9 (t : Fin (cfgM m).N) : Memref sig .tc .vmem S2x64x64 .f32 := spec0_9.stage ((cfgM m).slots t 9)
abbrev hs0_9 (t : Fin (cfgM m).N) : (ms0_9 m t).IsWhole := stage_whole0 9 _
abbrev ms0_10 (t : Fin (cfgM m).N) : Memref sig .tc .vmem S1x64x64 .f32 := spec0_10.stage ((cfgM m).slots t 10)
abbrev hs0_10 (t : Fin (cfgM m).N) : (ms0_10 m t).IsWhole := stage_whole0 10 _
abbrev ms0_11 (t : Fin (cfgM m).N) : Memref sig .tc .vmem S128x64 .f32 := spec0_11.stage ((cfgM m).slots t 11)
abbrev hs0_11 (t : Fin (cfgM m).N) : (ms0_11 m t).IsWhole := stage_whole0 11 _

end Cert.Kernel.Hand

end
-- ==== Proof.K.Assumed.lean ====
import proofs.«411912_j30219389895125_3_alg».proof.Proof.K.Tabs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

abbrev HW1 (c : Dev nD) (xt : TbBuf0 (F := F) c tbM0_0) : Prop :=
  ∀ (kq : ℕ) (hkq : kq < k0_t1_loop.trips), k0_chk1 (tbM0_0.view.readAt (Elt F) (Rect.unit (s := S2x128) (k0_off1 ⟨kq, hkq⟩) S1x1.size (k0_off1_inb ⟨kq, hkq⟩)).toLoadRect xt (Shape.Idx.first (numel1_S1x1.symm ▸ Nat.one_pos)))

abbrev HW2 (c : Dev nD) (xt : TbBuf0 (F := F) c tbM0_0) : Prop :=
  ∀ (kq : ℕ) (hkq : kq < k0_t1_loop.trips), k0_chk2 (tbM0_0.view.readAt (Elt F) (Rect.unit (s := S2x128) (k0_off2 ⟨kq, hkq⟩) S1x1.size (k0_off2_inb ⟨kq, hkq⟩)).toLoadRect xt (Shape.Idx.first (numel1_S1x1.symm ▸ Nat.one_pos)))

abbrev HW3 (c : Dev nD) (xt : TbBuf0 (F := F) c tbM0_0) : Prop :=
  ∀ (kq : ℕ) (hkq : kq < k0_t2_loop.trips), k0_chk3 (tbM0_0.view.readAt (Elt F) (Rect.unit (s := S2x128) (k0_off6 ⟨kq, hkq⟩) S1x1.size (k0_off6_inb ⟨kq, hkq⟩)).toLoadRect xt (Shape.Idx.first (numel1_S1x1.symm ▸ Nat.one_pos)))

abbrev HW4 (c : Dev nD) (xt : TbBuf0 (F := F) c tbM0_0) : Prop :=
  ∀ (kq : ℕ) (hkq : kq < k0_t2_loop.trips), k0_chk4 (tbM0_0.view.readAt (Elt F) (Rect.unit (s := S2x128) (k0_off7 ⟨kq, hkq⟩) S1x1.size (k0_off7_inb ⟨kq, hkq⟩)).toLoadRect xt (Shape.Idx.first (numel1_S1x1.symm ▸ Nat.one_pos)))

abbrev HW5 (c : Dev nD) (xt : TbBuf0 (F := F) c tbM0_1) : Prop :=
  ∀ (kq : ℕ) (hkq : kq < k0_t3_loop.trips), k0_chk5 (tbM0_1.view.readAt (Elt F) (Rect.unit (s := S2x64) (k0_off11 ⟨kq, hkq⟩) S1x1.size (k0_off11_inb ⟨kq, hkq⟩)).toLoadRect xt (Shape.Idx.first (numel1_S1x1.symm ▸ Nat.one_pos)))

abbrev HW6 (c : Dev nD) (xt : TbBuf0 (F := F) c tbM0_1) : Prop :=
  ∀ (kq : ℕ) (hkq : kq < k0_t3_loop.trips), k0_chk6 (tbM0_1.view.readAt (Elt F) (Rect.unit (s := S2x64) (k0_off12 ⟨kq, hkq⟩) S1x1.size (k0_off12_inb ⟨kq, hkq⟩)).toLoadRect xt (Shape.Idx.first (numel1_S1x1.symm ▸ Nat.one_pos)))

abbrev HW7 (c : Dev nD) (xt : TbBuf0 (F := F) c tbM0_2) : Prop :=
  ∀ (kq : ℕ) (hkq : kq < k0_t4_loop.trips), k0_chk7 (tbM0_2.view.readAt (Elt F) (Rect.unit (s := S2x32) (k0_off16 ⟨kq, hkq⟩) S1x1.size (k0_off16_inb ⟨kq, hkq⟩)).toLoadRect xt (Shape.Idx.first (numel1_S1x1.symm ▸ Nat.one_pos)))

abbrev HW8 (c : Dev nD) (xt : TbBuf0 (F := F) c tbM0_2) : Prop :=
  ∀ (kq : ℕ) (hkq : kq < k0_t4_loop.trips), k0_chk8 (tbM0_2.view.readAt (Elt F) (Rect.unit (s := S2x32) (k0_off17 ⟨kq, hkq⟩) S1x1.size (k0_off17_inb ⟨kq, hkq⟩)).toLoadRect xt (Shape.Idx.first (numel1_S1x1.symm ▸ Nat.one_pos)))

abbrev HW9 (c : Dev nD) (xt : TbBuf0 (F := F) c tbM0_3) : Prop :=
  ∀ (kq : ℕ) (hkq : kq < k0_t5_loop.trips), k0_chk9 (tbM0_3.view.readAt (Elt F) (Rect.unit (s := S2x16) (k0_off21 ⟨kq, hkq⟩) S1x1.size (k0_off21_inb ⟨kq, hkq⟩)).toLoadRect xt (Shape.Idx.first (numel1_S1x1.symm ▸ Nat.one_pos)))

abbrev HW10 (c : Dev nD) (xt : TbBuf0 (F := F) c tbM0_3) : Prop :=
  ∀ (kq : ℕ) (hkq : kq < k0_t5_loop.trips), k0_chk10 (tbM0_3.view.readAt (Elt F) (Rect.unit (s := S2x16) (k0_off22 ⟨kq, hkq⟩) S1x1.size (k0_off22_inb ⟨kq, hkq⟩)).toLoadRect xt (Shape.Idx.first (numel1_S1x1.symm ▸ Nat.one_pos)))

abbrev HW11 (c : Dev nD) (xt : TbBuf0 (F := F) c tbM0_4) : Prop :=
  ∀ (kq : ℕ) (hkq : kq < k0_t6_loop.trips), k0_chk11 (tbM0_4.view.readAt (Elt F) (Rect.unit (s := S2x8) (k0_off26 ⟨kq, hkq⟩) S1x1.size (k0_off26_inb ⟨kq, hkq⟩)).toLoadRect xt (Shape.Idx.first (numel1_S1x1.symm ▸ Nat.one_pos)))

abbrev HW12 (c : Dev nD) (xt : TbBuf0 (F := F) c tbM0_4) : Prop :=
  ∀ (kq : ℕ) (hkq : kq < k0_t6_loop.trips), k0_chk12 (tbM0_4.view.readAt (Elt F) (Rect.unit (s := S2x8) (k0_off27 ⟨kq, hkq⟩) S1x1.size (k0_off27_inb ⟨kq, hkq⟩)).toLoadRect xt (Shape.Idx.first (numel1_S1x1.symm ▸ Nat.one_pos)))

abbrev HW13 (c : Dev nD) (xt : TbBuf0 (F := F) c tbM0_5) : Prop :=
  ∀ (kq : ℕ) (hkq : kq < k0_t7_loop.trips), k0_chk13 (tbM0_5.view.readAt (Elt F) (Rect.unit (s := S2x4) (k0_off31 ⟨kq, hkq⟩) S1x1.size (k0_off31_inb ⟨kq, hkq⟩)).toLoadRect xt (Shape.Idx.first (numel1_S1x1.symm ▸ Nat.one_pos)))

abbrev HW14 (c : Dev nD) (xt : TbBuf0 (F := F) c tbM0_5) : Prop :=
  ∀ (kq : ℕ) (hkq : kq < k0_t7_loop.trips), k0_chk14 (tbM0_5.view.readAt (Elt F) (Rect.unit (s := S2x4) (k0_off32 ⟨kq, hkq⟩) S1x1.size (k0_off32_inb ⟨kq, hkq⟩)).toLoadRect xt (Shape.Idx.first (numel1_S1x1.symm ▸ Nat.one_pos)))

abbrev HW15 (c : Dev nD) (xt : TbBuf0 (F := F) c tbM0_6) : Prop :=
  ∀ (kq : ℕ) (hkq : kq < k0_t8_loop.trips), k0_chk15 (tbM0_6.view.readAt (Elt F) (Rect.unit (s := S2x2) (k0_off36 ⟨kq, hkq⟩) S1x1.size (k0_off36_inb ⟨kq, hkq⟩)).toLoadRect xt (Shape.Idx.first (numel1_S1x1.symm ▸ Nat.one_pos)))

abbrev HW16 (c : Dev nD) (xt : TbBuf0 (F := F) c tbM0_6) : Prop :=
  ∀ (kq : ℕ) (hkq : kq < k0_t8_loop.trips), k0_chk16 (tbM0_6.view.readAt (Elt F) (Rect.unit (s := S2x2) (k0_off37 ⟨kq, hkq⟩) S1x1.size (k0_off37_inb ⟨kq, hkq⟩)).toLoadRect xt (Shape.Idx.first (numel1_S1x1.symm ▸ Nat.one_pos)))

abbrev HW17 (c : Dev nD) (xt : TbBuf0 (F := F) c tbM0_7) : Prop :=
  k0_chk17 (tbM0_7.view.readAt (Elt F) (Rect.unit (s := S2x1) k0_off41 S1x1.size k0_off41_inb).toLoadRect xt (Shape.Idx.first (numel1_S1x1.symm ▸ Nat.one_pos)))

abbrev HW18 (c : Dev nD) (xt : TbBuf0 (F := F) c tbM0_7) : Prop :=
  k0_chk18 (tbM0_7.view.readAt (Elt F) (Rect.unit (s := S2x1) k0_off42 S1x1.size k0_off42_inb).toLoadRect xt (Shape.Idx.first (numel1_S1x1.symm ▸ Nat.one_pos)))

def Hyps (c : Dev nD) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) : Prop :=
  HW1 c xt0 ∧ HW2 c xt0 ∧ HW3 c xt0 ∧ HW4 c xt0 ∧ HW5 c xt1 ∧ HW6 c xt1 ∧ HW7 c xt2 ∧ HW8 c xt2 ∧ HW9 c xt3 ∧ HW10 c xt3 ∧ HW11 c xt4 ∧ HW12 c xt4 ∧ HW13 c xt5 ∧ HW14 c xt5 ∧ HW15 c xt6 ∧ HW16 c xt6 ∧ HW17 c xt7 ∧ HW18 c xt7

section
variable {c : Dev nD} {xt0 : TbBuf0 (F := F) c tbM0_0} {xt1 : TbBuf0 (F := F) c tbM0_1} {xt2 : TbBuf0 (F := F) c tbM0_2} {xt3 : TbBuf0 (F := F) c tbM0_3} {xt4 : TbBuf0 (F := F) c tbM0_4} {xt5 : TbBuf0 (F := F) c tbM0_5} {xt6 : TbBuf0 (F := F) c tbM0_6} {xt7 : TbBuf0 (F := F) c tbM0_7}
theorem Hyps.h1 (h : Hyps c xt0 xt1 xt2 xt3 xt4 xt5 xt6 xt7) : HW1 c xt0 := by unfold Hyps at h; exact h.1
theorem Hyps.h2 (h : Hyps c xt0 xt1 xt2 xt3 xt4 xt5 xt6 xt7) : HW2 c xt0 := by unfold Hyps at h; exact h.2.1
theorem Hyps.h3 (h : Hyps c xt0 xt1 xt2 xt3 xt4 xt5 xt6 xt7) : HW3 c xt0 := by unfold Hyps at h; exact h.2.2.1
theorem Hyps.h4 (h : Hyps c xt0 xt1 xt2 xt3 xt4 xt5 xt6 xt7) : HW4 c xt0 := by unfold Hyps at h; exact h.2.2.2.1
theorem Hyps.h5 (h : Hyps c xt0 xt1 xt2 xt3 xt4 xt5 xt6 xt7) : HW5 c xt1 := by unfold Hyps at h; exact h.2.2.2.2.1
theorem Hyps.h6 (h : Hyps c xt0 xt1 xt2 xt3 xt4 xt5 xt6 xt7) : HW6 c xt1 := by unfold Hyps at h; exact h.2.2.2.2.2.1
theorem Hyps.h7 (h : Hyps c xt0 xt1 xt2 xt3 xt4 xt5 xt6 xt7) : HW7 c xt2 := by unfold Hyps at h; exact h.2.2.2.2.2.2.1
theorem Hyps.h8 (h : Hyps c xt0 xt1 xt2 xt3 xt4 xt5 xt6 xt7) : HW8 c xt2 := by unfold Hyps at h; exact h.2.2.2.2.2.2.2.1
theorem Hyps.h9 (h : Hyps c xt0 xt1 xt2 xt3 xt4 xt5 xt6 xt7) : HW9 c xt3 := by unfold Hyps at h; exact h.2.2.2.2.2.2.2.2.1
theorem Hyps.h10 (h : Hyps c xt0 xt1 xt2 xt3 xt4 xt5 xt6 xt7) : HW10 c xt3 := by unfold Hyps at h; exact h.2.2.2.2.2.2.2.2.2.1
theorem Hyps.h11 (h : Hyps c xt0 xt1 xt2 xt3 xt4 xt5 xt6 xt7) : HW11 c xt4 := by unfold Hyps at h; exact h.2.2.2.2.2.2.2.2.2.2.1
theorem Hyps.h12 (h : Hyps c xt0 xt1 xt2 xt3 xt4 xt5 xt6 xt7) : HW12 c xt4 := by unfold Hyps at h; exact h.2.2.2.2.2.2.2.2.2.2.2.1
theorem Hyps.h13 (h : Hyps c xt0 xt1 xt2 xt3 xt4 xt5 xt6 xt7) : HW13 c xt5 := by unfold Hyps at h; exact h.2.2.2.2.2.2.2.2.2.2.2.2.1
theorem Hyps.h14 (h : Hyps c xt0 xt1 xt2 xt3 xt4 xt5 xt6 xt7) : HW14 c xt5 := by unfold Hyps at h; exact h.2.2.2.2.2.2.2.2.2.2.2.2.2.1
theorem Hyps.h15 (h : Hyps c xt0 xt1 xt2 xt3 xt4 xt5 xt6 xt7) : HW15 c xt6 := by unfold Hyps at h; exact h.2.2.2.2.2.2.2.2.2.2.2.2.2.2.1
theorem Hyps.h16 (h : Hyps c xt0 xt1 xt2 xt3 xt4 xt5 xt6 xt7) : HW16 c xt6 := by unfold Hyps at h; exact h.2.2.2.2.2.2.2.2.2.2.2.2.2.2.2.1
theorem Hyps.h17 (h : Hyps c xt0 xt1 xt2 xt3 xt4 xt5 xt6 xt7) : HW17 c xt7 := by unfold Hyps at h; exact h.2.2.2.2.2.2.2.2.2.2.2.2.2.2.2.2.1
theorem Hyps.h18 (h : Hyps c xt0 xt1 xt2 xt3 xt4 xt5 xt6 xt7) : HW18 c xt7 := by unfold Hyps at h; exact h.2.2.2.2.2.2.2.2.2.2.2.2.2.2.2.2.2
end

end Cert.Kernel.Hand

end
-- ==== Proof.K.LoopsH.lean ====
import proofs.«411912_j30219389895125_3_alg».proof.Proof.K.Assumed
import Idealize.ShloMosaic.Lib.Exec
import Idealize.ShloMosaic.Lib.Pipeline.Kit

set_option maxRecDepth 8192
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)

abbrev TripH_k0_t1 (c : Dev nD) (X_tb : TbBuf0 (F := F) c tbM0_0) (X_src : BufTy.Contents (Elt F) scM0.view.ty) (f_dst : BufTy.Contents (Elt F) scM1.view.ty) : sProp 𝕄 :=
  iprop(tbPt0 c tbM0_0 X_tb ∗ (scM0.view.loc (c : Thread nD τ) ↦[scM0.view.set]{fullShare} X_src) ∗ (scM1.view.loc (c : Thread nD τ) ↦[scM1.view.set]{fullShare} f_dst))

def tripPcH_k0_t1 (c : Dev nD) (X_tb : TbBuf0 (F := F) c tbM0_0) (X_src : BufTy.Contents (Elt F) scM0.view.ty) (k : Fin k0_t1_loop.trips) (k0_hw1 : k0_chk1 (tbM0_0.view.readAt (Elt F) (Rect.unit (s := S2x128) (k0_off1 k) S1x1.size (k0_off1_inb k)).toLoadRect X_tb (Shape.Idx.first (numel1_S1x1.symm ▸ Nat.one_pos)))) (k0_hw2 : k0_chk2 (tbM0_0.view.readAt (Elt F) (Rect.unit (s := S2x128) (k0_off2 k) S1x1.size (k0_off2_inb k)).toLoadRect X_tb (Shape.Idx.first (numel1_S1x1.symm ▸ Nat.one_pos)))) : List (View.Piece (Elt F) S128x64x128 .f32) :=
  [⟨Rect.unit (s := S128x64x128) (k0_off5 k) S1x64x128.size (k0_off5_inb k),
    k0_pay14 (scM0.view.readAt (Elt F) (Rect.unit (s := S256x64x128) (k0_off3 (tbM0_0.view.readAt (Elt F) (Rect.unit (s := S2x128) (k0_off1 k) S1x1.size (k0_off1_inb k)).toLoadRect X_tb (Shape.Idx.first (numel1_S1x1.symm ▸ Nat.one_pos)))) S1x64x128.size (k0_off3_inb (tbM0_0.view.readAt (Elt F) (Rect.unit (s := S2x128) (k0_off1 k) S1x1.size (k0_off1_inb k)).toLoadRect X_tb (Shape.Idx.first (numel1_S1x1.symm ▸ Nat.one_pos))) k0_hw1)).toLoadRect X_src)
      (scM0.view.readAt (Elt F) (Rect.unit (s := S256x64x128) (k0_off4 (tbM0_0.view.readAt (Elt F) (Rect.unit (s := S2x128) (k0_off2 k) S1x1.size (k0_off2_inb k)).toLoadRect X_tb (Shape.Idx.first (numel1_S1x1.symm ▸ Nat.one_pos)))) S1x64x128.size (k0_off4_inb (tbM0_0.view.readAt (Elt F) (Rect.unit (s := S2x128) (k0_off2 k) S1x1.size (k0_off2_inb k)).toLoadRect X_tb (Shape.Idx.first (numel1_S1x1.symm ▸ Nat.one_pos))) k0_hw2)).toLoadRect X_src)⟩]

-- One trip reads the pair's two table words and the two source rows they name, and writes their combination into row k.
theorem tripH_k0_t1 (v185 : Vec F S32x64 .f32) (v199 : FVec F S32x64x128 .f32) (X_tb : TbBuf0 (F := F) c tbM0_0) (X_src : BufTy.Contents (Elt F) scM0.view.ty) (k : Fin k0_t1_loop.trips) (k0_hw1 : k0_chk1 (tbM0_0.view.readAt (Elt F) (Rect.unit (s := S2x128) (k0_off1 k) S1x1.size (k0_off1_inb k)).toLoadRect X_tb (Shape.Idx.first (numel1_S1x1.symm ▸ Nat.one_pos)))) (k0_hw2 : k0_chk2 (tbM0_0.view.readAt (Elt F) (Rect.unit (s := S2x128) (k0_off2 k) S1x1.size (k0_off2_inb k)).toLoadRect X_tb (Shape.Idx.first (numel1_S1x1.symm ▸ Nat.one_pos)))) (f_dst : BufTy.Contents (Elt F) scM1.view.ty) :
    TripH_k0_t1 (F := F) c X_tb X_src f_dst
      ⊢ wp frame (wpE (defs₀ (F := F)) 𝒱 (c : Thread nD τ) bd) E ((k0_t1_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199) k PUnit.unit)
          (fun _ => TripH_k0_t1 (F := F) c X_tb X_src (scM1.view.writes (Elt F) f_dst (tripPcH_k0_t1 (F := F) c X_tb X_src k k0_hw1 k0_hw2))) := by
  have hk : k.val < 64 := Nat.lt_of_lt_of_le k.isLt k0_t1_abs.2.1
  unfold k0_t1_body
  iintro ⟨HR_tb, HR_src, HW_dst⟩
  sl_exec (disch := first | sl_exact k0_hw1 | sl_exact k0_hw2)
  sl_step
  isplitl [HR_tb]; · iexact HR_tb
  isplitl [HR_src]; · iexact HR_src
  iexact HW_dst

def pbH_k0_t1 (c : Dev nD) (X_tb : TbBuf0 (F := F) c tbM0_0) (X_src : BufTy.Contents (Elt F) scM0.view.ty) (k0_hw1L : HW1 c X_tb) (k0_hw2L : HW2 c X_tb) : ℕ → List (View.Piece (Elt F) S128x64x128 .f32)
  | 0 => []
  | k + 1 =>
    if h : k < k0_t1_loop.trips then
      tripPcH_k0_t1 (F := F) c X_tb X_src ⟨k, h⟩ (k0_hw1L k h) (k0_hw2L k h) ++ pbH_k0_t1 c X_tb X_src k0_hw1L k0_hw2L k
    else pbH_k0_t1 c X_tb X_src k0_hw1L k0_hw2L k

theorem pbH_k0_t1_succ (c : Dev nD) (X_tb : TbBuf0 (F := F) c tbM0_0) (X_src : BufTy.Contents (Elt F) scM0.view.ty) (k0_hw1L : HW1 c X_tb) (k0_hw2L : HW2 c X_tb) (k : Fin k0_t1_loop.trips) :
    pbH_k0_t1 (F := F) c X_tb X_src k0_hw1L k0_hw2L (k.val + 1)
      = tripPcH_k0_t1 (F := F) c X_tb X_src k (k0_hw1L k.val k.isLt) (k0_hw2L k.val k.isLt) ++ pbH_k0_t1 (F := F) c X_tb X_src k0_hw1L k0_hw2L k.val := by
  rw [pbH_k0_t1.eq_2]; exact dif_pos k.isLt

abbrev invH_k0_t1 (c : Dev nD) (X_tb : TbBuf0 (F := F) c tbM0_0) (X_src : BufTy.Contents (Elt F) scM0.view.ty) (G_dst : BufTy.Contents (Elt F) scM1.view.ty) (k0_hw1L : HW1 c X_tb) (k0_hw2L : HW2 c X_tb) (k : ℕ) (_u : PUnit) : sProp 𝕄 :=
  iprop(tbPt0 c tbM0_0 X_tb ∗ (scM0.view.loc (c : Thread nD τ) ↦[scM0.view.set]{fullShare} X_src) ∗ (∃ f, (scM1.view.loc (c : Thread nD τ) ↦[scM1.view.set]{fullShare} f) ∗ ⌜f = scM1.view.writes (Elt F) G_dst (pbH_k0_t1 (F := F) c X_tb X_src k0_hw1L k0_hw2L k)⌝))

-- Invariant: the destination holds the pieces of the trips so far over its contents at entry; a trip appends its own piece.
set_option warn.classDefReducibility false in
@[sl_loop] def loopInvH_k0_t1 (v185 : Vec F S32x64 .f32) (v199 : FVec F S32x64x128 .f32) (X_tb : TbBuf0 (F := F) c tbM0_0) (X_src : BufTy.Contents (Elt F) scM0.view.ty) (G_dst : BufTy.Contents (Elt F) scM1.view.ty) (k0_hw1L : HW1 c X_tb) (k0_hw2L : HW2 c X_tb) :
    LoopInvTy_k0_t1 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199 where
  inv := invH_k0_t1 (F := F) c X_tb X_src G_dst k0_hw1L k0_hw2L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t1 (F := F) 𝒱 c bd E i arg9 harg9 arg10 harg10 arg11 harg11 arg12 harg12 arg13 harg13 arg14 harg14 arg15 harg15 arg16 harg16 arg17 harg17 arg18 harg18 arg19 harg19 arg20 harg20 v185 v199 X_tb X_src k (k0_hw1L k.val k.isLt) (k0_hw2L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t1_succ]
      iexists _; isplitl [HW_dst]; · iexact HW_dst
      ipureintro; rw [h_dst, ← View.writes_append]

abbrev TripH_k0_t2 (c : Dev nD) (X_tb : TbBuf0 (F := F) c tbM0_0) (X_src : BufTy.Contents (Elt F) scM0.view.ty) (f_dst : BufTy.Contents (Elt F) scM1.view.ty) : sProp 𝕄 :=
  iprop(tbPt0 c tbM0_0 X_tb ∗ (scM0.view.loc (c : Thread nD τ) ↦[scM0.view.set]{fullShare} X_src) ∗ (scM1.view.loc (c : Thread nD τ) ↦[scM1.view.set]{fullShare} f_dst))

def tripPcH_k0_t2 (c : Dev nD) (X_tb : TbBuf0 (F := F) c tbM0_0) (X_src : BufTy.Contents (Elt F) scM0.view.ty) (k : Fin k0_t2_loop.trips) (k0_hw3 : k0_chk3 (tbM0_0.view.readAt (Elt F) (Rect.unit (s := S2x128) (k0_off6 k) S1x1.size (k0_off6_inb k)).toLoadRect X_tb (Shape.Idx.first (numel1_S1x1.symm ▸ Nat.one_pos)))) (k0_hw4 : k0_chk4 (tbM0_0.view.readAt (Elt F) (Rect.unit (s := S2x128) (k0_off7 k) S1x1.size (k0_off7_inb k)).toLoadRect X_tb (Shape.Idx.first (numel1_S1x1.symm ▸ Nat.one_pos)))) : List (View.Piece (Elt F) S128x64x128 .f32) :=
  [⟨Rect.unit (s := S128x64x128) (k0_off10 k) S1x64x128.size (k0_off10_inb k),
    k0_pay16 (scM0.view.readAt (Elt F) (Rect.unit (s := S256x64x128) (k0_off8 (tbM0_0.view.readAt (Elt F) (Rect.unit (s := S2x128) (k0_off6 k) S1x1.size (k0_off6_inb k)).toLoadRect X_tb (Shape.Idx.first (numel1_S1x1.symm ▸ Nat.one_pos)))) S1x64x128.size (k0_off8_inb (tbM0_0.view.readAt (Elt F) (Rect.unit (s := S2x128) (k0_off6 k) S1x1.size (k0_off6_inb k)).toLoadRect X_tb (Shape.Idx.first (numel1_S1x1.symm ▸ Nat.one_pos))) k0_hw3)).toLoadRect X_src)
      (scM0.view.readAt (Elt F) (Rect.unit (s := S256x64x128) (k0_off9 (tbM0_0.view.readAt (Elt F) (Rect.unit (s := S2x128) (k0_off7 k) S1x1.size (k0_off7_inb k)).toLoadRect X_tb (Shape.Idx.first (numel1_S1x1.symm ▸ Nat.one_pos)))) S1x64x128.size (k0_off9_inb (tbM0_0.view.readAt (Elt F) (Rect.unit (s := S2x128) (k0_off7 k) S1x1.size (k0_off7_inb k)).toLoadRect X_tb (Shape.Idx.first (numel1_S1x1.symm ▸ Nat.one_pos))) k0_hw4)).toLoadRect X_src)⟩]

theorem tripH_k0_t2 (v185 : Vec F S32x64 .f32) (v199 : FVec F S32x64x128 .f32) (X_tb : TbBuf0 (F := F) c tbM0_0) (X_src : BufTy.Contents (Elt F) scM0.view.ty) (k : Fin k0_t2_loop.trips) (k0_hw3 : k0_chk3 (tbM0_0.view.readAt (Elt F) (Rect.unit (s := S2x128) (k0_off6 k) S1x1.size (k0_off6_inb k)).toLoadRect X_tb (Shape.Idx.first (numel1_S1x1.symm ▸ Nat.one_pos)))) (k0_hw4 : k0_chk4 (tbM0_0.view.readAt (Elt F) (Rect.unit (s := S2x128) (k0_off7 k) S1x1.size (k0_off7_inb k)).toLoadRect X_tb (Shape.Idx.first (numel1_S1x1.symm ▸ Nat.one_pos)))) (f_dst : BufTy.Contents (Elt F) scM1.view.ty) :
    TripH_k0_t2 (F := F) c X_tb X_src f_dst
      ⊢ wp frame (wpE (defs₀ (F := F)) 𝒱 (c : Thread nD τ) bd) E ((k0_t2_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199) k PUnit.unit)
          (fun _ => TripH_k0_t2 (F := F) c X_tb X_src (scM1.view.writes (Elt F) f_dst (tripPcH_k0_t2 (F := F) c X_tb X_src k k0_hw3 k0_hw4))) := by
  have hk : k.val < 64 := Nat.lt_of_lt_of_le k.isLt k0_t2_abs.2.1
  unfold k0_t2_body
  iintro ⟨HR_tb, HR_src, HW_dst⟩
  sl_exec (disch := first | sl_exact k0_hw3 | sl_exact k0_hw4)
  sl_step
  isplitl [HR_tb]; · iexact HR_tb
  isplitl [HR_src]; · iexact HR_src
  iexact HW_dst

def pbH_k0_t2 (c : Dev nD) (X_tb : TbBuf0 (F := F) c tbM0_0) (X_src : BufTy.Contents (Elt F) scM0.view.ty) (k0_hw3L : HW3 c X_tb) (k0_hw4L : HW4 c X_tb) : ℕ → List (View.Piece (Elt F) S128x64x128 .f32)
  | 0 => []
  | k + 1 =>
    if h : k < k0_t2_loop.trips then
      tripPcH_k0_t2 (F := F) c X_tb X_src ⟨k, h⟩ (k0_hw3L k h) (k0_hw4L k h) ++ pbH_k0_t2 c X_tb X_src k0_hw3L k0_hw4L k
    else pbH_k0_t2 c X_tb X_src k0_hw3L k0_hw4L k

theorem pbH_k0_t2_succ (c : Dev nD) (X_tb : TbBuf0 (F := F) c tbM0_0) (X_src : BufTy.Contents (Elt F) scM0.view.ty) (k0_hw3L : HW3 c X_tb) (k0_hw4L : HW4 c X_tb) (k : Fin k0_t2_loop.trips) :
    pbH_k0_t2 (F := F) c X_tb X_src k0_hw3L k0_hw4L (k.val + 1)
      = tripPcH_k0_t2 (F := F) c X_tb X_src k (k0_hw3L k.val k.isLt) (k0_hw4L k.val k.isLt) ++ pbH_k0_t2 (F := F) c X_tb X_src k0_hw3L k0_hw4L k.val := by
  rw [pbH_k0_t2.eq_2]; exact dif_pos k.isLt

abbrev invH_k0_t2 (c : Dev nD) (X_tb : TbBuf0 (F := F) c tbM0_0) (X_src : BufTy.Contents (Elt F) scM0.view.ty) (G_dst : BufTy.Contents (Elt F) scM1.view.ty) (k0_hw3L : HW3 c X_tb) (k0_hw4L : HW4 c X_tb) (k : ℕ) (_u : PUnit) : sProp 𝕄 :=
  iprop(tbPt0 c tbM0_0 X_tb ∗ (scM0.view.loc (c : Thread nD τ) ↦[scM0.view.set]{fullShare} X_src) ∗ (∃ f, (scM1.view.loc (c : Thread nD τ) ↦[scM1.view.set]{fullShare} f) ∗ ⌜f = scM1.view.writes (Elt F) G_dst (pbH_k0_t2 (F := F) c X_tb X_src k0_hw3L k0_hw4L k)⌝))

set_option warn.classDefReducibility false in
@[sl_loop] def loopInvH_k0_t2 (v185 : Vec F S32x64 .f32) (v199 : FVec F S32x64x128 .f32) (X_tb : TbBuf0 (F := F) c tbM0_0) (X_src : BufTy.Contents (Elt F) scM0.view.ty) (G_dst : BufTy.Contents (Elt F) scM1.view.ty) (k0_hw3L : HW3 c X_tb) (k0_hw4L : HW4 c X_tb) :
    LoopInvTy_k0_t2 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v185 v199 where
  inv := invH_k0_t2 (F := F) c X_tb X_src G_dst k0_hw3L k0_hw4L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t2 (F := F) 𝒱 c bd E i arg9 harg9 arg10 harg10 arg11 harg11 arg12 harg12 arg13 harg13 arg14 harg14 arg15 harg15 arg16 harg16 arg17 harg17 arg18 harg18 arg19 harg19 arg20 harg20 v185 v199 X_tb X_src k (k0_hw3L k.val k.isLt) (k0_hw4L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t2_succ]
      iexists _; isplitl [HW_dst]; · iexact HW_dst
      ipureintro; rw [h_dst, ← View.writes_append]

abbrev TripH_k0_t3 (c : Dev nD) (X_tb : TbBuf0 (F := F) c tbM0_1) (X_src : BufTy.Contents (Elt F) scM1.view.ty) (f_dst : BufTy.Contents (Elt F) scM2.view.ty) : sProp 𝕄 :=
  iprop(tbPt0 c tbM0_1 X_tb ∗ (scM1.view.loc (c : Thread nD τ) ↦[scM1.view.set]{fullShare} X_src) ∗ (scM2.view.loc (c : Thread nD τ) ↦[scM2.view.set]{fullShare} f_dst))

def tripPcH_k0_t3 (c : Dev nD) (X_tb : TbBuf0 (F := F) c tbM0_1) (X_src : BufTy.Contents (Elt F) scM1.view.ty) (k : Fin k0_t3_loop.trips) (k0_hw5 : k0_chk5 (tbM0_1.view.readAt (Elt F) (Rect.unit (s := S2x64) (k0_off11 k) S1x1.size (k0_off11_inb k)).toLoadRect X_tb (Shape.Idx.first (numel1_S1x1.symm ▸ Nat.one_pos)))) (k0_hw6 : k0_chk6 (tbM0_1.view.readAt (Elt F) (Rect.unit (s := S2x64) (k0_off12 k) S1x1.size (k0_off12_inb k)).toLoadRect X_tb (Shape.Idx.first (numel1_S1x1.symm ▸ Nat.one_pos)))) : List (View.Piece (Elt F) S64x64x128 .f32) :=
  [⟨Rect.unit (s := S64x64x128) (k0_off15 k) S1x64x128.size (k0_off15_inb k),
    k0_pay20 (scM1.view.readAt (Elt F) (Rect.unit (s := S128x64x128) (k0_off13 (tbM0_1.view.readAt (Elt F) (Rect.unit (s := S2x64) (k0_off11 k) S1x1.size (k0_off11_inb k)).toLoadRect X_tb (Shape.Idx.first (numel1_S1x1.symm ▸ Nat.one_pos)))) S1x64x128.size (k0_off13_inb (tbM0_1.view.readAt (Elt F) (Rect.unit (s := S2x64) (k0_off11 k) S1x1.size (k0_off11_inb k)).toLoadRect X_tb (Shape.Idx.first (numel1_S1x1.symm ▸ Nat.one_pos))) k0_hw5)).toLoadRect X_src)
      (scM1.view.readAt (Elt F) (Rect.unit (s := S128x64x128) (k0_off14 (tbM0_1.view.readAt (Elt F) (Rect.unit (s := S2x64) (k0_off12 k) S1x1.size (k0_off12_inb k)).toLoadRect X_tb (Shape.Idx.first (numel1_S1x1.symm ▸ Nat.one_pos)))) S1x64x128.size (k0_off14_inb (tbM0_1.view.readAt (Elt F) (Rect.unit (s := S2x64) (k0_off12 k) S1x1.size (k0_off12_inb k)).toLoadRect X_tb (Shape.Idx.first (numel1_S1x1.symm ▸ Nat.one_pos))) k0_hw6)).toLoadRect X_src)⟩]

theorem tripH_k0_t3 (v225 : Vec F S64x64x128 .f32) (v227 : FVec F S64x1x128 .f32) (v228 : FVec F S64x64x128 .f32) (X_tb : TbBuf0 (F := F) c tbM0_1) (X_src : BufTy.Contents (Elt F) scM1.view.ty) (k : Fin k0_t3_loop.trips) (k0_hw5 : k0_chk5 (tbM0_1.view.readAt (Elt F) (Rect.unit (s := S2x64) (k0_off11 k) S1x1.size (k0_off11_inb k)).toLoadRect X_tb (Shape.Idx.first (numel1_S1x1.symm ▸ Nat.one_pos)))) (k0_hw6 : k0_chk6 (tbM0_1.view.readAt (Elt F) (Rect.unit (s := S2x64) (k0_off12 k) S1x1.size (k0_off12_inb k)).toLoadRect X_tb (Shape.Idx.first (numel1_S1x1.symm ▸ Nat.one_pos)))) (f_dst : BufTy.Contents (Elt F) scM2.view.ty) :
    TripH_k0_t3 (F := F) c X_tb X_src f_dst
      ⊢ wp frame (wpE (defs₀ (F := F)) 𝒱 (c : Thread nD τ) bd) E ((k0_t3_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228) k PUnit.unit)
          (fun _ => TripH_k0_t3 (F := F) c X_tb X_src (scM2.view.writes (Elt F) f_dst (tripPcH_k0_t3 (F := F) c X_tb X_src k k0_hw5 k0_hw6))) := by
  have hk : k.val < 64 := Nat.lt_of_lt_of_le k.isLt k0_t3_abs.2.1
  unfold k0_t3_body
  iintro ⟨HR_tb, HR_src, HW_dst⟩
  sl_exec (disch := first | sl_exact k0_hw5 | sl_exact k0_hw6)
  sl_step
  isplitl [HR_tb]; · iexact HR_tb
  isplitl [HR_src]; · iexact HR_src
  iexact HW_dst

def pbH_k0_t3 (c : Dev nD) (X_tb : TbBuf0 (F := F) c tbM0_1) (X_src : BufTy.Contents (Elt F) scM1.view.ty) (k0_hw5L : HW5 c X_tb) (k0_hw6L : HW6 c X_tb) : ℕ → List (View.Piece (Elt F) S64x64x128 .f32)
  | 0 => []
  | k + 1 =>
    if h : k < k0_t3_loop.trips then
      tripPcH_k0_t3 (F := F) c X_tb X_src ⟨k, h⟩ (k0_hw5L k h) (k0_hw6L k h) ++ pbH_k0_t3 c X_tb X_src k0_hw5L k0_hw6L k
    else pbH_k0_t3 c X_tb X_src k0_hw5L k0_hw6L k

theorem pbH_k0_t3_succ (c : Dev nD) (X_tb : TbBuf0 (F := F) c tbM0_1) (X_src : BufTy.Contents (Elt F) scM1.view.ty) (k0_hw5L : HW5 c X_tb) (k0_hw6L : HW6 c X_tb) (k : Fin k0_t3_loop.trips) :
    pbH_k0_t3 (F := F) c X_tb X_src k0_hw5L k0_hw6L (k.val + 1)
      = tripPcH_k0_t3 (F := F) c X_tb X_src k (k0_hw5L k.val k.isLt) (k0_hw6L k.val k.isLt) ++ pbH_k0_t3 (F := F) c X_tb X_src k0_hw5L k0_hw6L k.val := by
  rw [pbH_k0_t3.eq_2]; exact dif_pos k.isLt

abbrev invH_k0_t3 (c : Dev nD) (X_tb : TbBuf0 (F := F) c tbM0_1) (X_src : BufTy.Contents (Elt F) scM1.view.ty) (G_dst : BufTy.Contents (Elt F) scM2.view.ty) (k0_hw5L : HW5 c X_tb) (k0_hw6L : HW6 c X_tb) (k : ℕ) (_u : PUnit) : sProp 𝕄 :=
  iprop(tbPt0 c tbM0_1 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t3 (F := F) c X_tb X_src k0_hw5L k0_hw6L k)⌝))

set_option warn.classDefReducibility false in
@[sl_loop] def loopInvH_k0_t3 (v225 : Vec F S64x64x128 .f32) (v227 : FVec F S64x1x128 .f32) (v228 : FVec F S64x64x128 .f32) (X_tb : TbBuf0 (F := F) c tbM0_1) (X_src : BufTy.Contents (Elt F) scM1.view.ty) (G_dst : BufTy.Contents (Elt F) scM2.view.ty) (k0_hw5L : HW5 c X_tb) (k0_hw6L : HW6 c X_tb) :
    LoopInvTy_k0_t3 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228 where
  inv := invH_k0_t3 (F := F) c X_tb X_src G_dst k0_hw5L k0_hw6L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t3 (F := F) 𝒱 c bd E i arg9 harg9 arg10 harg10 arg11 harg11 arg12 harg12 arg13 harg13 arg14 harg14 arg15 harg15 arg16 harg16 arg17 harg17 arg18 harg18 arg19 harg19 arg20 harg20 v225 v227 v228 X_tb X_src k (k0_hw5L k.val k.isLt) (k0_hw6L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t3_succ]
      iexists _; isplitl [HW_dst]; · iexact HW_dst
      ipureintro; rw [h_dst, ← View.writes_append]

abbrev TripH_k0_t4 (c : Dev nD) (X_tb : TbBuf0 (F := F) c tbM0_2) (X_src : BufTy.Contents (Elt F) scM2.view.ty) (f_dst : BufTy.Contents (Elt F) scM1.view.ty) : sProp 𝕄 :=
  iprop(tbPt0 c tbM0_2 X_tb ∗ (scM2.view.loc (c : Thread nD τ) ↦[scM2.view.set]{fullShare} X_src) ∗ (scM1.view.loc (c : Thread nD τ) ↦[scM1.view.set]{fullShare} f_dst))

def tripPcH_k0_t4 (c : Dev nD) (X_tb : TbBuf0 (F := F) c tbM0_2) (X_src : BufTy.Contents (Elt F) scM2.view.ty) (k : Fin k0_t4_loop.trips) (k0_hw7 : k0_chk7 (tbM0_2.view.readAt (Elt F) (Rect.unit (s := S2x32) (k0_off16 k) S1x1.size (k0_off16_inb k)).toLoadRect X_tb (Shape.Idx.first (numel1_S1x1.symm ▸ Nat.one_pos)))) (k0_hw8 : k0_chk8 (tbM0_2.view.readAt (Elt F) (Rect.unit (s := S2x32) (k0_off17 k) S1x1.size (k0_off17_inb k)).toLoadRect X_tb (Shape.Idx.first (numel1_S1x1.symm ▸ Nat.one_pos)))) : List (View.Piece (Elt F) S128x64x128 .f32) :=
  [⟨Rect.unit (s := S128x64x128) (k0_off20 k) S1x64x128.size (k0_off20_inb k),
    k0_pay22 (scM2.view.readAt (Elt F) (Rect.unit (s := S64x64x128) (k0_off18 (tbM0_2.view.readAt (Elt F) (Rect.unit (s := S2x32) (k0_off16 k) S1x1.size (k0_off16_inb k)).toLoadRect X_tb (Shape.Idx.first (numel1_S1x1.symm ▸ Nat.one_pos)))) S1x64x128.size (k0_off18_inb (tbM0_2.view.readAt (Elt F) (Rect.unit (s := S2x32) (k0_off16 k) S1x1.size (k0_off16_inb k)).toLoadRect X_tb (Shape.Idx.first (numel1_S1x1.symm ▸ Nat.one_pos))) k0_hw7)).toLoadRect X_src)
      (scM2.view.readAt (Elt F) (Rect.unit (s := S64x64x128) (k0_off19 (tbM0_2.view.readAt (Elt F) (Rect.unit (s := S2x32) (k0_off17 k) S1x1.size (k0_off17_inb k)).toLoadRect X_tb (Shape.Idx.first (numel1_S1x1.symm ▸ Nat.one_pos)))) S1x64x128.size (k0_off19_inb (tbM0_2.view.readAt (Elt F) (Rect.unit (s := S2x32) (k0_off17 k) S1x1.size (k0_off17_inb k)).toLoadRect X_tb (Shape.Idx.first (numel1_S1x1.symm ▸ Nat.one_pos))) k0_hw8)).toLoadRect X_src)⟩]

theorem tripH_k0_t4 (v225 : Vec F S64x64x128 .f32) (v227 : FVec F S64x1x128 .f32) (v228 : FVec F S64x64x128 .f32) (X_tb : TbBuf0 (F := F) c tbM0_2) (X_src : BufTy.Contents (Elt F) scM2.view.ty) (k : Fin k0_t4_loop.trips) (k0_hw7 : k0_chk7 (tbM0_2.view.readAt (Elt F) (Rect.unit (s := S2x32) (k0_off16 k) S1x1.size (k0_off16_inb k)).toLoadRect X_tb (Shape.Idx.first (numel1_S1x1.symm ▸ Nat.one_pos)))) (k0_hw8 : k0_chk8 (tbM0_2.view.readAt (Elt F) (Rect.unit (s := S2x32) (k0_off17 k) S1x1.size (k0_off17_inb k)).toLoadRect X_tb (Shape.Idx.first (numel1_S1x1.symm ▸ Nat.one_pos)))) (f_dst : BufTy.Contents (Elt F) scM1.view.ty) :
    TripH_k0_t4 (F := F) c X_tb X_src f_dst
      ⊢ wp frame (wpE (defs₀ (F := F)) 𝒱 (c : Thread nD τ) bd) E ((k0_t4_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228) k PUnit.unit)
          (fun _ => TripH_k0_t4 (F := F) c X_tb X_src (scM1.view.writes (Elt F) f_dst (tripPcH_k0_t4 (F := F) c X_tb X_src k k0_hw7 k0_hw8))) := by
  have hk : k.val < 32 := Nat.lt_of_lt_of_le k.isLt k0_t4_abs.2.1
  unfold k0_t4_body
  iintro ⟨HR_tb, HR_src, HW_dst⟩
  sl_exec (disch := first | sl_exact k0_hw7 | sl_exact k0_hw8)
  sl_step
  isplitl [HR_tb]; · iexact HR_tb
  isplitl [HR_src]; · iexact HR_src
  iexact HW_dst

def pbH_k0_t4 (c : Dev nD) (X_tb : TbBuf0 (F := F) c tbM0_2) (X_src : BufTy.Contents (Elt F) scM2.view.ty) (k0_hw7L : HW7 c X_tb) (k0_hw8L : HW8 c X_tb) : ℕ → List (View.Piece (Elt F) S128x64x128 .f32)
  | 0 => []
  | k + 1 =>
    if h : k < k0_t4_loop.trips then
      tripPcH_k0_t4 (F := F) c X_tb X_src ⟨k, h⟩ (k0_hw7L k h) (k0_hw8L k h) ++ pbH_k0_t4 c X_tb X_src k0_hw7L k0_hw8L k
    else pbH_k0_t4 c X_tb X_src k0_hw7L k0_hw8L k

theorem pbH_k0_t4_succ (c : Dev nD) (X_tb : TbBuf0 (F := F) c tbM0_2) (X_src : BufTy.Contents (Elt F) scM2.view.ty) (k0_hw7L : HW7 c X_tb) (k0_hw8L : HW8 c X_tb) (k : Fin k0_t4_loop.trips) :
    pbH_k0_t4 (F := F) c X_tb X_src k0_hw7L k0_hw8L (k.val + 1)
      = tripPcH_k0_t4 (F := F) c X_tb X_src k (k0_hw7L k.val k.isLt) (k0_hw8L k.val k.isLt) ++ pbH_k0_t4 (F := F) c X_tb X_src k0_hw7L k0_hw8L k.val := by
  rw [pbH_k0_t4.eq_2]; exact dif_pos k.isLt

abbrev invH_k0_t4 (c : Dev nD) (X_tb : TbBuf0 (F := F) c tbM0_2) (X_src : BufTy.Contents (Elt F) scM2.view.ty) (G_dst : BufTy.Contents (Elt F) scM1.view.ty) (k0_hw7L : HW7 c X_tb) (k0_hw8L : HW8 c X_tb) (k : ℕ) (_u : PUnit) : sProp 𝕄 :=
  iprop(tbPt0 c tbM0_2 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t4 (F := F) c X_tb X_src k0_hw7L k0_hw8L k)⌝))

set_option warn.classDefReducibility false in
@[sl_loop] def loopInvH_k0_t4 (v225 : Vec F S64x64x128 .f32) (v227 : FVec F S64x1x128 .f32) (v228 : FVec F S64x64x128 .f32) (X_tb : TbBuf0 (F := F) c tbM0_2) (X_src : BufTy.Contents (Elt F) scM2.view.ty) (G_dst : BufTy.Contents (Elt F) scM1.view.ty) (k0_hw7L : HW7 c X_tb) (k0_hw8L : HW8 c X_tb) :
    LoopInvTy_k0_t4 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v225 v227 v228 where
  inv := invH_k0_t4 (F := F) c X_tb X_src G_dst k0_hw7L k0_hw8L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t4 (F := F) 𝒱 c bd E i arg9 harg9 arg10 harg10 arg11 harg11 arg12 harg12 arg13 harg13 arg14 harg14 arg15 harg15 arg16 harg16 arg17 harg17 arg18 harg18 arg19 harg19 arg20 harg20 v225 v227 v228 X_tb X_src k (k0_hw7L k.val k.isLt) (k0_hw8L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t4_succ]
      iexists _; isplitl [HW_dst]; · iexact HW_dst
      ipureintro; rw [h_dst, ← View.writes_append]

abbrev TripH_k0_t5 (c : Dev nD) (X_tb : TbBuf0 (F := F) c tbM0_3) (X_src : BufTy.Contents (Elt F) scM1.view.ty) (f_dst : BufTy.Contents (Elt F) scM2.view.ty) : sProp 𝕄 :=
  iprop(tbPt0 c tbM0_3 X_tb ∗ (scM1.view.loc (c : Thread nD τ) ↦[scM1.view.set]{fullShare} X_src) ∗ (scM2.view.loc (c : Thread nD τ) ↦[scM2.view.set]{fullShare} f_dst))

def tripPcH_k0_t5 (c : Dev nD) (X_tb : TbBuf0 (F := F) c tbM0_3) (X_src : BufTy.Contents (Elt F) scM1.view.ty) (k : Fin k0_t5_loop.trips) (k0_hw9 : k0_chk9 (tbM0_3.view.readAt (Elt F) (Rect.unit (s := S2x16) (k0_off21 k) S1x1.size (k0_off21_inb k)).toLoadRect X_tb (Shape.Idx.first (numel1_S1x1.symm ▸ Nat.one_pos)))) (k0_hw10 : k0_chk10 (tbM0_3.view.readAt (Elt F) (Rect.unit (s := S2x16) (k0_off22 k) S1x1.size (k0_off22_inb k)).toLoadRect X_tb (Shape.Idx.first (numel1_S1x1.symm ▸ Nat.one_pos)))) : List (View.Piece (Elt F) S64x64x128 .f32) :=
  [⟨Rect.unit (s := S64x64x128) (k0_off25 k) S1x64x128.size (k0_off25_inb k),
    k0_pay24 (scM1.view.readAt (Elt F) (Rect.unit (s := S128x64x128) (k0_off23 (tbM0_3.view.readAt (Elt F) (Rect.unit (s := S2x16) (k0_off21 k) S1x1.size (k0_off21_inb k)).toLoadRect X_tb (Shape.Idx.first (numel1_S1x1.symm ▸ Nat.one_pos)))) S1x64x128.size (k0_off23_inb (tbM0_3.view.readAt (Elt F) (Rect.unit (s := S2x16) (k0_off21 k) S1x1.size (k0_off21_inb k)).toLoadRect X_tb (Shape.Idx.first (numel1_S1x1.symm ▸ Nat.one_pos))) k0_hw9)).toLoadRect X_src)
      (scM1.view.readAt (Elt F) (Rect.unit (s := S128x64x128) (k0_off24 (tbM0_3.view.readAt (Elt F) (Rect.unit (s := S2x16) (k0_off22 k) S1x1.size (k0_off22_inb k)).toLoadRect X_tb (Shape.Idx.first (numel1_S1x1.symm ▸ Nat.one_pos)))) S1x64x128.size (k0_off24_inb (tbM0_3.view.readAt (Elt F) (Rect.unit (s := S2x16) (k0_off22 k) S1x1.size (k0_off22_inb k)).toLoadRect X_tb (Shape.Idx.first (numel1_S1x1.symm ▸ Nat.one_pos))) k0_hw10)).toLoadRect X_src)⟩]

theorem tripH_k0_t5 (X_tb : TbBuf0 (F := F) c tbM0_3) (X_src : BufTy.Contents (Elt F) scM1.view.ty) (k : Fin k0_t5_loop.trips) (k0_hw9 : k0_chk9 (tbM0_3.view.readAt (Elt F) (Rect.unit (s := S2x16) (k0_off21 k) S1x1.size (k0_off21_inb k)).toLoadRect X_tb (Shape.Idx.first (numel1_S1x1.symm ▸ Nat.one_pos)))) (k0_hw10 : k0_chk10 (tbM0_3.view.readAt (Elt F) (Rect.unit (s := S2x16) (k0_off22 k) S1x1.size (k0_off22_inb k)).toLoadRect X_tb (Shape.Idx.first (numel1_S1x1.symm ▸ Nat.one_pos)))) (f_dst : BufTy.Contents (Elt F) scM2.view.ty) :
    TripH_k0_t5 (F := F) c X_tb X_src f_dst
      ⊢ wp frame (wpE (defs₀ (F := F)) 𝒱 (c : Thread nD τ) bd) E ((k0_t5_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) k PUnit.unit)
          (fun _ => TripH_k0_t5 (F := F) c X_tb X_src (scM2.view.writes (Elt F) f_dst (tripPcH_k0_t5 (F := F) c X_tb X_src k k0_hw9 k0_hw10))) := by
  have hk : k.val < 16 := Nat.lt_of_lt_of_le k.isLt k0_t5_abs.2.1
  unfold k0_t5_body
  iintro ⟨HR_tb, HR_src, HW_dst⟩
  sl_exec (disch := first | sl_exact k0_hw9 | sl_exact k0_hw10)
  sl_step
  isplitl [HR_tb]; · iexact HR_tb
  isplitl [HR_src]; · iexact HR_src
  iexact HW_dst

def pbH_k0_t5 (c : Dev nD) (X_tb : TbBuf0 (F := F) c tbM0_3) (X_src : BufTy.Contents (Elt F) scM1.view.ty) (k0_hw9L : HW9 c X_tb) (k0_hw10L : HW10 c X_tb) : ℕ → List (View.Piece (Elt F) S64x64x128 .f32)
  | 0 => []
  | k + 1 =>
    if h : k < k0_t5_loop.trips then
      tripPcH_k0_t5 (F := F) c X_tb X_src ⟨k, h⟩ (k0_hw9L k h) (k0_hw10L k h) ++ pbH_k0_t5 c X_tb X_src k0_hw9L k0_hw10L k
    else pbH_k0_t5 c X_tb X_src k0_hw9L k0_hw10L k

theorem pbH_k0_t5_succ (c : Dev nD) (X_tb : TbBuf0 (F := F) c tbM0_3) (X_src : BufTy.Contents (Elt F) scM1.view.ty) (k0_hw9L : HW9 c X_tb) (k0_hw10L : HW10 c X_tb) (k : Fin k0_t5_loop.trips) :
    pbH_k0_t5 (F := F) c X_tb X_src k0_hw9L k0_hw10L (k.val + 1)
      = tripPcH_k0_t5 (F := F) c X_tb X_src k (k0_hw9L k.val k.isLt) (k0_hw10L k.val k.isLt) ++ pbH_k0_t5 (F := F) c X_tb X_src k0_hw9L k0_hw10L k.val := by
  rw [pbH_k0_t5.eq_2]; exact dif_pos k.isLt

abbrev invH_k0_t5 (c : Dev nD) (X_tb : TbBuf0 (F := F) c tbM0_3) (X_src : BufTy.Contents (Elt F) scM1.view.ty) (G_dst : BufTy.Contents (Elt F) scM2.view.ty) (k0_hw9L : HW9 c X_tb) (k0_hw10L : HW10 c X_tb) (k : ℕ) (_u : PUnit) : sProp 𝕄 :=
  iprop(tbPt0 c tbM0_3 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t5 (F := F) c X_tb X_src k0_hw9L k0_hw10L k)⌝))

set_option warn.classDefReducibility false in
@[sl_loop] def loopInvH_k0_t5 (X_tb : TbBuf0 (F := F) c tbM0_3) (X_src : BufTy.Contents (Elt F) scM1.view.ty) (G_dst : BufTy.Contents (Elt F) scM2.view.ty) (k0_hw9L : HW9 c X_tb) (k0_hw10L : HW10 c X_tb) :
    LoopInvTy_k0_t5 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 where
  inv := invH_k0_t5 (F := F) c X_tb X_src G_dst k0_hw9L k0_hw10L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t5 (F := F) 𝒱 c bd E i arg9 harg9 arg10 harg10 arg11 harg11 arg12 harg12 arg13 harg13 arg14 harg14 arg15 harg15 arg16 harg16 arg17 harg17 arg18 harg18 arg19 harg19 arg20 harg20 X_tb X_src k (k0_hw9L k.val k.isLt) (k0_hw10L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t5_succ]
      iexists _; isplitl [HW_dst]; · iexact HW_dst
      ipureintro; rw [h_dst, ← View.writes_append]

abbrev TripH_k0_t6 (c : Dev nD) (X_tb : TbBuf0 (F := F) c tbM0_4) (X_src : BufTy.Contents (Elt F) scM2.view.ty) (f_dst : BufTy.Contents (Elt F) scM1.view.ty) : sProp 𝕄 :=
  iprop(tbPt0 c tbM0_4 X_tb ∗ (scM2.view.loc (c : Thread nD τ) ↦[scM2.view.set]{fullShare} X_src) ∗ (scM1.view.loc (c : Thread nD τ) ↦[scM1.view.set]{fullShare} f_dst))

def tripPcH_k0_t6 (c : Dev nD) (X_tb : TbBuf0 (F := F) c tbM0_4) (X_src : BufTy.Contents (Elt F) scM2.view.ty) (k : Fin k0_t6_loop.trips) (k0_hw11 : k0_chk11 (tbM0_4.view.readAt (Elt F) (Rect.unit (s := S2x8) (k0_off26 k) S1x1.size (k0_off26_inb k)).toLoadRect X_tb (Shape.Idx.first (numel1_S1x1.symm ▸ Nat.one_pos)))) (k0_hw12 : k0_chk12 (tbM0_4.view.readAt (Elt F) (Rect.unit (s := S2x8) (k0_off27 k) S1x1.size (k0_off27_inb k)).toLoadRect X_tb (Shape.Idx.first (numel1_S1x1.symm ▸ Nat.one_pos)))) : List (View.Piece (Elt F) S128x64x128 .f32) :=
  [⟨Rect.unit (s := S128x64x128) (k0_off30 k) S1x64x128.size (k0_off30_inb k),
    k0_pay26 (scM2.view.readAt (Elt F) (Rect.unit (s := S64x64x128) (k0_off28 (tbM0_4.view.readAt (Elt F) (Rect.unit (s := S2x8) (k0_off26 k) S1x1.size (k0_off26_inb k)).toLoadRect X_tb (Shape.Idx.first (numel1_S1x1.symm ▸ Nat.one_pos)))) S1x64x128.size (k0_off28_inb (tbM0_4.view.readAt (Elt F) (Rect.unit (s := S2x8) (k0_off26 k) S1x1.size (k0_off26_inb k)).toLoadRect X_tb (Shape.Idx.first (numel1_S1x1.symm ▸ Nat.one_pos))) k0_hw11)).toLoadRect X_src)
      (scM2.view.readAt (Elt F) (Rect.unit (s := S64x64x128) (k0_off29 (tbM0_4.view.readAt (Elt F) (Rect.unit (s := S2x8) (k0_off27 k) S1x1.size (k0_off27_inb k)).toLoadRect X_tb (Shape.Idx.first (numel1_S1x1.symm ▸ Nat.one_pos)))) S1x64x128.size (k0_off29_inb (tbM0_4.view.readAt (Elt F) (Rect.unit (s := S2x8) (k0_off27 k) S1x1.size (k0_off27_inb k)).toLoadRect X_tb (Shape.Idx.first (numel1_S1x1.symm ▸ Nat.one_pos))) k0_hw12)).toLoadRect X_src)⟩]

theorem tripH_k0_t6 (c0_i32_157 : BitVec 32) (c8_i32 : BitVec 32) (X_tb : TbBuf0 (F := F) c tbM0_4) (X_src : BufTy.Contents (Elt F) scM2.view.ty) (k : Fin k0_t6_loop.trips) (k0_hw11 : k0_chk11 (tbM0_4.view.readAt (Elt F) (Rect.unit (s := S2x8) (k0_off26 k) S1x1.size (k0_off26_inb k)).toLoadRect X_tb (Shape.Idx.first (numel1_S1x1.symm ▸ Nat.one_pos)))) (k0_hw12 : k0_chk12 (tbM0_4.view.readAt (Elt F) (Rect.unit (s := S2x8) (k0_off27 k) S1x1.size (k0_off27_inb k)).toLoadRect X_tb (Shape.Idx.first (numel1_S1x1.symm ▸ Nat.one_pos)))) (f_dst : BufTy.Contents (Elt F) scM1.view.ty) :
    TripH_k0_t6 (F := F) c X_tb X_src f_dst
      ⊢ wp frame (wpE (defs₀ (F := F)) 𝒱 (c : Thread nD τ) bd) E ((k0_t6_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32) k PUnit.unit)
          (fun _ => TripH_k0_t6 (F := F) c X_tb X_src (scM1.view.writes (Elt F) f_dst (tripPcH_k0_t6 (F := F) c X_tb X_src k k0_hw11 k0_hw12))) := by
  have hk : k.val < 8 := Nat.lt_of_lt_of_le k.isLt k0_t6_abs.2.1
  unfold k0_t6_body
  iintro ⟨HR_tb, HR_src, HW_dst⟩
  sl_exec (disch := first | sl_exact k0_hw11 | sl_exact k0_hw12)
  sl_step
  isplitl [HR_tb]; · iexact HR_tb
  isplitl [HR_src]; · iexact HR_src
  iexact HW_dst

def pbH_k0_t6 (c : Dev nD) (X_tb : TbBuf0 (F := F) c tbM0_4) (X_src : BufTy.Contents (Elt F) scM2.view.ty) (k0_hw11L : HW11 c X_tb) (k0_hw12L : HW12 c X_tb) : ℕ → List (View.Piece (Elt F) S128x64x128 .f32)
  | 0 => []
  | k + 1 =>
    if h : k < k0_t6_loop.trips then
      tripPcH_k0_t6 (F := F) c X_tb X_src ⟨k, h⟩ (k0_hw11L k h) (k0_hw12L k h) ++ pbH_k0_t6 c X_tb X_src k0_hw11L k0_hw12L k
    else pbH_k0_t6 c X_tb X_src k0_hw11L k0_hw12L k

theorem pbH_k0_t6_succ (c : Dev nD) (X_tb : TbBuf0 (F := F) c tbM0_4) (X_src : BufTy.Contents (Elt F) scM2.view.ty) (k0_hw11L : HW11 c X_tb) (k0_hw12L : HW12 c X_tb) (k : Fin k0_t6_loop.trips) :
    pbH_k0_t6 (F := F) c X_tb X_src k0_hw11L k0_hw12L (k.val + 1)
      = tripPcH_k0_t6 (F := F) c X_tb X_src k (k0_hw11L k.val k.isLt) (k0_hw12L k.val k.isLt) ++ pbH_k0_t6 (F := F) c X_tb X_src k0_hw11L k0_hw12L k.val := by
  rw [pbH_k0_t6.eq_2]; exact dif_pos k.isLt

abbrev invH_k0_t6 (c : Dev nD) (X_tb : TbBuf0 (F := F) c tbM0_4) (X_src : BufTy.Contents (Elt F) scM2.view.ty) (G_dst : BufTy.Contents (Elt F) scM1.view.ty) (k0_hw11L : HW11 c X_tb) (k0_hw12L : HW12 c X_tb) (k : ℕ) (_u : PUnit) : sProp 𝕄 :=
  iprop(tbPt0 c tbM0_4 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t6 (F := F) c X_tb X_src k0_hw11L k0_hw12L k)⌝))

set_option warn.classDefReducibility false in
@[sl_loop] def loopInvH_k0_t6 (c0_i32_157 : BitVec 32) (c8_i32 : BitVec 32) (X_tb : TbBuf0 (F := F) c tbM0_4) (X_src : BufTy.Contents (Elt F) scM2.view.ty) (G_dst : BufTy.Contents (Elt F) scM1.view.ty) (k0_hw11L : HW11 c X_tb) (k0_hw12L : HW12 c X_tb) :
    LoopInvTy_k0_t6 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32 where
  inv := invH_k0_t6 (F := F) c X_tb X_src G_dst k0_hw11L k0_hw12L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t6 (F := F) 𝒱 c bd E i arg9 harg9 arg10 harg10 arg11 harg11 arg12 harg12 arg13 harg13 arg14 harg14 arg15 harg15 arg16 harg16 arg17 harg17 arg18 harg18 arg19 harg19 arg20 harg20 c0_i32_157 c8_i32 X_tb X_src k (k0_hw11L k.val k.isLt) (k0_hw12L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t6_succ]
      iexists _; isplitl [HW_dst]; · iexact HW_dst
      ipureintro; rw [h_dst, ← View.writes_append]

abbrev TripH_k0_t7 (c : Dev nD) (X_tb : TbBuf0 (F := F) c tbM0_5) (X_src : BufTy.Contents (Elt F) scM1.view.ty) (f_dst : BufTy.Contents (Elt F) scM2.view.ty) : sProp 𝕄 :=
  iprop(tbPt0 c tbM0_5 X_tb ∗ (scM1.view.loc (c : Thread nD τ) ↦[scM1.view.set]{fullShare} X_src) ∗ (scM2.view.loc (c : Thread nD τ) ↦[scM2.view.set]{fullShare} f_dst))

def tripPcH_k0_t7 (c : Dev nD) (X_tb : TbBuf0 (F := F) c tbM0_5) (X_src : BufTy.Contents (Elt F) scM1.view.ty) (k : Fin k0_t7_loop.trips) (k0_hw13 : k0_chk13 (tbM0_5.view.readAt (Elt F) (Rect.unit (s := S2x4) (k0_off31 k) S1x1.size (k0_off31_inb k)).toLoadRect X_tb (Shape.Idx.first (numel1_S1x1.symm ▸ Nat.one_pos)))) (k0_hw14 : k0_chk14 (tbM0_5.view.readAt (Elt F) (Rect.unit (s := S2x4) (k0_off32 k) S1x1.size (k0_off32_inb k)).toLoadRect X_tb (Shape.Idx.first (numel1_S1x1.symm ▸ Nat.one_pos)))) : List (View.Piece (Elt F) S64x64x128 .f32) :=
  [⟨Rect.unit (s := S64x64x128) (k0_off35 k) S1x64x128.size (k0_off35_inb k),
    k0_pay28 (scM1.view.readAt (Elt F) (Rect.unit (s := S128x64x128) (k0_off33 (tbM0_5.view.readAt (Elt F) (Rect.unit (s := S2x4) (k0_off31 k) S1x1.size (k0_off31_inb k)).toLoadRect X_tb (Shape.Idx.first (numel1_S1x1.symm ▸ Nat.one_pos)))) S1x64x128.size (k0_off33_inb (tbM0_5.view.readAt (Elt F) (Rect.unit (s := S2x4) (k0_off31 k) S1x1.size (k0_off31_inb k)).toLoadRect X_tb (Shape.Idx.first (numel1_S1x1.symm ▸ Nat.one_pos))) k0_hw13)).toLoadRect X_src)
      (scM1.view.readAt (Elt F) (Rect.unit (s := S128x64x128) (k0_off34 (tbM0_5.view.readAt (Elt F) (Rect.unit (s := S2x4) (k0_off32 k) S1x1.size (k0_off32_inb k)).toLoadRect X_tb (Shape.Idx.first (numel1_S1x1.symm ▸ Nat.one_pos)))) S1x64x128.size (k0_off34_inb (tbM0_5.view.readAt (Elt F) (Rect.unit (s := S2x4) (k0_off32 k) S1x1.size (k0_off32_inb k)).toLoadRect X_tb (Shape.Idx.first (numel1_S1x1.symm ▸ Nat.one_pos))) k0_hw14)).toLoadRect X_src)⟩]

theorem tripH_k0_t7 (c0_i32_157 : BitVec 32) (c8_i32 : BitVec 32) (X_tb : TbBuf0 (F := F) c tbM0_5) (X_src : BufTy.Contents (Elt F) scM1.view.ty) (k : Fin k0_t7_loop.trips) (k0_hw13 : k0_chk13 (tbM0_5.view.readAt (Elt F) (Rect.unit (s := S2x4) (k0_off31 k) S1x1.size (k0_off31_inb k)).toLoadRect X_tb (Shape.Idx.first (numel1_S1x1.symm ▸ Nat.one_pos)))) (k0_hw14 : k0_chk14 (tbM0_5.view.readAt (Elt F) (Rect.unit (s := S2x4) (k0_off32 k) S1x1.size (k0_off32_inb k)).toLoadRect X_tb (Shape.Idx.first (numel1_S1x1.symm ▸ Nat.one_pos)))) (f_dst : BufTy.Contents (Elt F) scM2.view.ty) :
    TripH_k0_t7 (F := F) c X_tb X_src f_dst
      ⊢ wp frame (wpE (defs₀ (F := F)) 𝒱 (c : Thread nD τ) bd) E ((k0_t7_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32) k PUnit.unit)
          (fun _ => TripH_k0_t7 (F := F) c X_tb X_src (scM2.view.writes (Elt F) f_dst (tripPcH_k0_t7 (F := F) c X_tb X_src k k0_hw13 k0_hw14))) := by
  have hk : k.val < 4 := Nat.lt_of_lt_of_le k.isLt k0_t7_abs.2.1
  unfold k0_t7_body
  iintro ⟨HR_tb, HR_src, HW_dst⟩
  sl_exec (disch := first | sl_exact k0_hw13 | sl_exact k0_hw14)
  sl_step
  isplitl [HR_tb]; · iexact HR_tb
  isplitl [HR_src]; · iexact HR_src
  iexact HW_dst

def pbH_k0_t7 (c : Dev nD) (X_tb : TbBuf0 (F := F) c tbM0_5) (X_src : BufTy.Contents (Elt F) scM1.view.ty) (k0_hw13L : HW13 c X_tb) (k0_hw14L : HW14 c X_tb) : ℕ → List (View.Piece (Elt F) S64x64x128 .f32)
  | 0 => []
  | k + 1 =>
    if h : k < k0_t7_loop.trips then
      tripPcH_k0_t7 (F := F) c X_tb X_src ⟨k, h⟩ (k0_hw13L k h) (k0_hw14L k h) ++ pbH_k0_t7 c X_tb X_src k0_hw13L k0_hw14L k
    else pbH_k0_t7 c X_tb X_src k0_hw13L k0_hw14L k

theorem pbH_k0_t7_succ (c : Dev nD) (X_tb : TbBuf0 (F := F) c tbM0_5) (X_src : BufTy.Contents (Elt F) scM1.view.ty) (k0_hw13L : HW13 c X_tb) (k0_hw14L : HW14 c X_tb) (k : Fin k0_t7_loop.trips) :
    pbH_k0_t7 (F := F) c X_tb X_src k0_hw13L k0_hw14L (k.val + 1)
      = tripPcH_k0_t7 (F := F) c X_tb X_src k (k0_hw13L k.val k.isLt) (k0_hw14L k.val k.isLt) ++ pbH_k0_t7 (F := F) c X_tb X_src k0_hw13L k0_hw14L k.val := by
  rw [pbH_k0_t7.eq_2]; exact dif_pos k.isLt

abbrev invH_k0_t7 (c : Dev nD) (X_tb : TbBuf0 (F := F) c tbM0_5) (X_src : BufTy.Contents (Elt F) scM1.view.ty) (G_dst : BufTy.Contents (Elt F) scM2.view.ty) (k0_hw13L : HW13 c X_tb) (k0_hw14L : HW14 c X_tb) (k : ℕ) (_u : PUnit) : sProp 𝕄 :=
  iprop(tbPt0 c tbM0_5 X_tb ∗ (scM1.view.loc (c : Thread nD τ) ↦[scM1.view.set]{fullShare} X_src) ∗ (∃ f, (scM2.view.loc (c : Thread nD τ) ↦[scM2.view.set]{fullShare} f) ∗ ⌜f = scM2.view.writes (Elt F) G_dst (pbH_k0_t7 (F := F) c X_tb X_src k0_hw13L k0_hw14L k)⌝))

set_option warn.classDefReducibility false in
@[sl_loop] def loopInvH_k0_t7 (c0_i32_157 : BitVec 32) (c8_i32 : BitVec 32) (X_tb : TbBuf0 (F := F) c tbM0_5) (X_src : BufTy.Contents (Elt F) scM1.view.ty) (G_dst : BufTy.Contents (Elt F) scM2.view.ty) (k0_hw13L : HW13 c X_tb) (k0_hw14L : HW14 c X_tb) :
    LoopInvTy_k0_t7 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 c0_i32_157 c8_i32 where
  inv := invH_k0_t7 (F := F) c X_tb X_src G_dst k0_hw13L k0_hw14L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t7 (F := F) 𝒱 c bd E i arg9 harg9 arg10 harg10 arg11 harg11 arg12 harg12 arg13 harg13 arg14 harg14 arg15 harg15 arg16 harg16 arg17 harg17 arg18 harg18 arg19 harg19 arg20 harg20 c0_i32_157 c8_i32 X_tb X_src k (k0_hw13L k.val k.isLt) (k0_hw14L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t7_succ]
      iexists _; isplitl [HW_dst]; · iexact HW_dst
      ipureintro; rw [h_dst, ← View.writes_append]

abbrev TripH_k0_t8 (c : Dev nD) (X_tb : TbBuf0 (F := F) c tbM0_6) (X_src : BufTy.Contents (Elt F) scM2.view.ty) (f_dst : BufTy.Contents (Elt F) scM1.view.ty) : sProp 𝕄 :=
  iprop(tbPt0 c tbM0_6 X_tb ∗ (scM2.view.loc (c : Thread nD τ) ↦[scM2.view.set]{fullShare} X_src) ∗ (scM1.view.loc (c : Thread nD τ) ↦[scM1.view.set]{fullShare} f_dst))

def tripPcH_k0_t8 (c : Dev nD) (X_tb : TbBuf0 (F := F) c tbM0_6) (X_src : BufTy.Contents (Elt F) scM2.view.ty) (k : Fin k0_t8_loop.trips) (k0_hw15 : k0_chk15 (tbM0_6.view.readAt (Elt F) (Rect.unit (s := S2x2) (k0_off36 k) S1x1.size (k0_off36_inb k)).toLoadRect X_tb (Shape.Idx.first (numel1_S1x1.symm ▸ Nat.one_pos)))) (k0_hw16 : k0_chk16 (tbM0_6.view.readAt (Elt F) (Rect.unit (s := S2x2) (k0_off37 k) S1x1.size (k0_off37_inb k)).toLoadRect X_tb (Shape.Idx.first (numel1_S1x1.symm ▸ Nat.one_pos)))) : List (View.Piece (Elt F) S128x64x128 .f32) :=
  [⟨Rect.unit (s := S128x64x128) (k0_off40 k) S1x64x128.size (k0_off40_inb k),
    k0_pay31 (scM2.view.readAt (Elt F) (Rect.unit (s := S64x64x128) (k0_off38 (tbM0_6.view.readAt (Elt F) (Rect.unit (s := S2x2) (k0_off36 k) S1x1.size (k0_off36_inb k)).toLoadRect X_tb (Shape.Idx.first (numel1_S1x1.symm ▸ Nat.one_pos)))) S1x64x128.size (k0_off38_inb (tbM0_6.view.readAt (Elt F) (Rect.unit (s := S2x2) (k0_off36 k) S1x1.size (k0_off36_inb k)).toLoadRect X_tb (Shape.Idx.first (numel1_S1x1.symm ▸ Nat.one_pos))) k0_hw15)).toLoadRect X_src)
      (scM2.view.readAt (Elt F) (Rect.unit (s := S64x64x128) (k0_off39 (tbM0_6.view.readAt (Elt F) (Rect.unit (s := S2x2) (k0_off37 k) S1x1.size (k0_off37_inb k)).toLoadRect X_tb (Shape.Idx.first (numel1_S1x1.symm ▸ Nat.one_pos)))) S1x64x128.size (k0_off39_inb (tbM0_6.view.readAt (Elt F) (Rect.unit (s := S2x2) (k0_off37 k) S1x1.size (k0_off37_inb k)).toLoadRect X_tb (Shape.Idx.first (numel1_S1x1.symm ▸ Nat.one_pos))) k0_hw16)).toLoadRect X_src)⟩]

theorem tripH_k0_t8 (v316 : FVec F S4x64x128 .f32) (X_tb : TbBuf0 (F := F) c tbM0_6) (X_src : BufTy.Contents (Elt F) scM2.view.ty) (k : Fin k0_t8_loop.trips) (k0_hw15 : k0_chk15 (tbM0_6.view.readAt (Elt F) (Rect.unit (s := S2x2) (k0_off36 k) S1x1.size (k0_off36_inb k)).toLoadRect X_tb (Shape.Idx.first (numel1_S1x1.symm ▸ Nat.one_pos)))) (k0_hw16 : k0_chk16 (tbM0_6.view.readAt (Elt F) (Rect.unit (s := S2x2) (k0_off37 k) S1x1.size (k0_off37_inb k)).toLoadRect X_tb (Shape.Idx.first (numel1_S1x1.symm ▸ Nat.one_pos)))) (f_dst : BufTy.Contents (Elt F) scM1.view.ty) :
    TripH_k0_t8 (F := F) c X_tb X_src f_dst
      ⊢ wp frame (wpE (defs₀ (F := F)) 𝒱 (c : Thread nD τ) bd) E ((k0_t8_body (F := F) i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v316) k PUnit.unit)
          (fun _ => TripH_k0_t8 (F := F) c X_tb X_src (scM1.view.writes (Elt F) f_dst (tripPcH_k0_t8 (F := F) c X_tb X_src k k0_hw15 k0_hw16))) := by
  have hk : k.val < 2 := Nat.lt_of_lt_of_le k.isLt k0_t8_abs.2.1
  unfold k0_t8_body
  iintro ⟨HR_tb, HR_src, HW_dst⟩
  sl_exec (disch := first | sl_exact k0_hw15 | sl_exact k0_hw16)
  sl_step
  isplitl [HR_tb]; · iexact HR_tb
  isplitl [HR_src]; · iexact HR_src
  iexact HW_dst

def pbH_k0_t8 (c : Dev nD) (X_tb : TbBuf0 (F := F) c tbM0_6) (X_src : BufTy.Contents (Elt F) scM2.view.ty) (k0_hw15L : HW15 c X_tb) (k0_hw16L : HW16 c X_tb) : ℕ → List (View.Piece (Elt F) S128x64x128 .f32)
  | 0 => []
  | k + 1 =>
    if h : k < k0_t8_loop.trips then
      tripPcH_k0_t8 (F := F) c X_tb X_src ⟨k, h⟩ (k0_hw15L k h) (k0_hw16L k h) ++ pbH_k0_t8 c X_tb X_src k0_hw15L k0_hw16L k
    else pbH_k0_t8 c X_tb X_src k0_hw15L k0_hw16L k

theorem pbH_k0_t8_succ (c : Dev nD) (X_tb : TbBuf0 (F := F) c tbM0_6) (X_src : BufTy.Contents (Elt F) scM2.view.ty) (k0_hw15L : HW15 c X_tb) (k0_hw16L : HW16 c X_tb) (k : Fin k0_t8_loop.trips) :
    pbH_k0_t8 (F := F) c X_tb X_src k0_hw15L k0_hw16L (k.val + 1)
      = tripPcH_k0_t8 (F := F) c X_tb X_src k (k0_hw15L k.val k.isLt) (k0_hw16L k.val k.isLt) ++ pbH_k0_t8 (F := F) c X_tb X_src k0_hw15L k0_hw16L k.val := by
  rw [pbH_k0_t8.eq_2]; exact dif_pos k.isLt

abbrev invH_k0_t8 (c : Dev nD) (X_tb : TbBuf0 (F := F) c tbM0_6) (X_src : BufTy.Contents (Elt F) scM2.view.ty) (G_dst : BufTy.Contents (Elt F) scM1.view.ty) (k0_hw15L : HW15 c X_tb) (k0_hw16L : HW16 c X_tb) (k : ℕ) (_u : PUnit) : sProp 𝕄 :=
  iprop(tbPt0 c tbM0_6 X_tb ∗ (scM2.view.loc (c : Thread nD τ) ↦[scM2.view.set]{fullShare} X_src) ∗ (∃ f, (scM1.view.loc (c : Thread nD τ) ↦[scM1.view.set]{fullShare} f) ∗ ⌜f = scM1.view.writes (Elt F) G_dst (pbH_k0_t8 (F := F) c X_tb X_src k0_hw15L k0_hw16L k)⌝))

set_option warn.classDefReducibility false in
@[sl_loop] def loopInvH_k0_t8 (v316 : FVec F S4x64x128 .f32) (X_tb : TbBuf0 (F := F) c tbM0_6) (X_src : BufTy.Contents (Elt F) scM2.view.ty) (G_dst : BufTy.Contents (Elt F) scM1.view.ty) (k0_hw15L : HW15 c X_tb) (k0_hw16L : HW16 c X_tb) :
    LoopInvTy_k0_t8 (F := F) Unit ℕ (UR sig nD τ) ℕ 𝒱 c bd E i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2 v316 where
  inv := invH_k0_t8 (F := F) c X_tb X_src G_dst k0_hw15L k0_hw16L
  step k acc := by
    iintro ⟨HR_tb, HR_src, ⟨%f_dst, HW_dst, %h_dst⟩⟩
    iapply (wp_wand_r Idealize.ShloMosaic.frame (wpE (defs₀ (F := F)) 𝒱 (c : Thread nD τ) bd) E)
    isplitl [HR_tb HR_src HW_dst]
    · iapply (tripH_k0_t8 (F := F) 𝒱 c bd E i arg9 harg9 arg10 harg10 arg11 harg11 arg12 harg12 arg13 harg13 arg14 harg14 arg15 harg15 arg16 harg16 arg17 harg17 arg18 harg18 arg19 harg19 arg20 harg20 v316 X_tb X_src k (k0_hw15L k.val k.isLt) (k0_hw16L k.val k.isLt) f_dst)
      isplitl [HR_tb]; · iexact HR_tb
      isplitl [HR_src]; · iexact HR_src
      iexact HW_dst
    · iintro %_ ⟨HR_tb, HR_src, HW_dst⟩
      isplitl [HR_tb]; · iexact HR_tb
      isplitl [HR_src]; · iexact HR_src
      rw [pbH_k0_t8_succ]
      iexists _; isplitl [HW_dst]; · iexact HW_dst
      ipureintro; rw [h_dst, ← View.writes_append]

end Cert.Kernel.Hand

end
-- ==== Proof.K.Run.lean ====
import proofs.«411912_j30219389895125_3_alg».proof.Proof.K.LoopsH

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem sc_in (c : Dev nD) (b : Ref sig (c : Thread nD τ).2.kind) (q : PosShare TreeShare) (f : Buf (Elt F) ((c : Thread nD τ).loc b)) :
    ((((c : Thread nD τ).loc b) ↦{q} f : sProp 𝕄)) ⊢ ((Memref.whole b).view.loc (c : Thread nD τ) ↦[(Memref.whole b).view.set]{q} f) := by
  iintro H; simp only [View.set_whole]; iexact H

theorem sc_out (c : Dev nD) (b : Ref sig (c : Thread nD τ).2.kind) (q : PosShare TreeShare) (f : Buf (Elt F) ((c : Thread nD τ).loc b)) :
    ((Memref.whole b).view.loc (c : Thread nD τ) ↦[(Memref.whole b).view.set]{q} f : sProp 𝕄) ⊢ (((c : Thread nD τ).loc b) ↦{q} f) := by
  iintro H; simp only [View.set_whole]; iexact H

set_option maxHeartbeats 4000000 in

noncomputable def kernelRun0_A_of (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) (k0_hw1L : HW1 c xt0) (k0_hw2L : HW2 c xt0) (k0_hw3L : HW3 c xt0) (k0_hw4L : HW4 c xt0) (k0_hw5L : HW5 c xt1) (k0_hw6L : HW6 c xt1) (k0_hw7L : HW7 c xt2) (k0_hw8L : HW8 c xt2) (k0_hw9L : HW9 c xt3) (k0_hw10L : HW10 c xt3) (k0_hw11L : HW11 c xt4) (k0_hw12L : HW12 c xt4) (k0_hw13L : HW13 c xt5) (k0_hw14L : HW14 c xt5) (k0_hw15L : HW15 c xt6) (k0_hw16L : HW16 c xt6) (k0_hw17 : HW17 c xt7) (k0_hw18 : HW18 c xt7) :
    { L11 : List (View.Piece (Elt F) S128x64 .f32) //
      ∀ (E : Set ℕ) (K : PUnit → sProp 𝕄),
        iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ d, owns (c : Thread nD τ) arg20 fullShare d)
            ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
            ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
            ∗ (iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ f, arg20.view.loc (c : Thread nD τ) ↦[arg20.view.set]{fullShare} arg20.view.writes (Elt F) f L11)
                ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
                ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) -∗ K ⟨⟩))
          ⊢ wp frame (wpE (defs₀ (F := F)) Variants.none c none) E (cc0__fused_kernel i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT0, HT1, HT2, HT3, HT4, HT5, HT6, HT7, ⟨%g0, HS0⟩, ⟨%g1, HS1⟩, ⟨%g2, HS2⟩, Hk⟩
    obtain rfl := harg9.eq_unread hf0; obtain rfl := harg10.eq_unread hf1; obtain rfl := harg11.eq_unread hf2; obtain rfl := harg12.eq_unread hf3; obtain rfl := harg13.eq_unread hf4; obtain rfl := harg14.eq_unread hf5; obtain rfl := harg15.eq_unread hf6; obtain rfl := harg16.eq_unread hf7; obtain rfl := harg17.eq_unread hf8; obtain rfl := harg18.eq_unread hf9; obtain rfl := harg19.eq_unread hf10
    ihave HS0 := (sc_in c cc0_scratch0 fullShare g0) $$ HS0
    ihave HS1 := (sc_in c cc0_scratch1 fullShare g1) $$ HS1
    ihave HS2 := (sc_in c cc0_scratch2 fullShare g2) $$ HS2
    sl_exec_parts (disch := first | sl_exact k0_hw17 | sl_exact k0_hw18)
    sl_step
    ihave HS0 := (sc_out c cc0_scratch0 fullShare _) $$ HS0
    ihave HS1 := (sc_out c cc0_scratch1 fullShare _) $$ HS1
    ihave HS2 := (sc_out c cc0_scratch2 fullShare _) $$ HS2
    iapply Hk
    isplitl [H0]
    · iexists _; isplitr; · ipureintro; exact harg9.read_unread _
      iexact H0
    isplitl [H1]
    · iexists _; isplitr; · ipureintro; exact harg10.read_unread _
      iexact H1
    isplitl [H2]
    · iexists _; isplitr; · ipureintro; exact harg11.read_unread _
      iexact H2
    isplitl [H3]
    · iexists _; isplitr; · ipureintro; exact harg12.read_unread _
      iexact H3
    isplitl [H4]
    · iexists _; isplitr; · ipureintro; exact harg13.read_unread _
      iexact H4
    isplitl [H5]
    · iexists _; isplitr; · ipureintro; exact harg14.read_unread _
      iexact H5
    isplitl [H6]
    · iexists _; isplitr; · ipureintro; exact harg15.read_unread _
      iexact H6
    isplitl [H7]
    · iexists _; isplitr; · ipureintro; exact harg16.read_unread _
      iexact H7
    isplitl [H8]
    · iexists _; isplitr; · ipureintro; exact harg17.read_unread _
      iexact H8
    isplitl [H9]
    · iexists _; isplitr; · ipureintro; exact harg18.read_unread _
      iexact H9
    isplitl [H10]
    · iexists _; isplitr; · ipureintro; exact harg19.read_unread _
      iexact H10
    isplitl [H11]; · iexists _; iexact H11
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HS0]; · iexists _; iexact HS0
    isplitl [HS1]; · iexists _; iexact HS1
    iexists _; iexact HS2

noncomputable def kernelRun0_A (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7) (hH : Hyps c xt0 xt1 xt2 xt3 xt4 xt5 xt6 xt7) :
    { L11 : List (View.Piece (Elt F) S128x64 .f32) //
      ∀ (E : Set ℕ) (K : PUnit → sProp 𝕄),
        iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ d, owns (c : Thread nD τ) arg20 fullShare d)
            ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
            ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)
            ∗ (iprop(owns (c : Thread nD τ) arg9 fullShare x0 ∗ owns (c : Thread nD τ) arg10 fullShare x1 ∗ owns (c : Thread nD τ) arg11 fullShare x2 ∗ owns (c : Thread nD τ) arg12 fullShare x3 ∗ owns (c : Thread nD τ) arg13 fullShare x4 ∗ owns (c : Thread nD τ) arg14 fullShare x5 ∗ owns (c : Thread nD τ) arg15 fullShare x6 ∗ owns (c : Thread nD τ) arg16 fullShare x7 ∗ owns (c : Thread nD τ) arg17 fullShare x8 ∗ owns (c : Thread nD τ) arg18 fullShare x9 ∗ owns (c : Thread nD τ) arg19 fullShare x10 ∗ (∃ f, arg20.view.loc (c : Thread nD τ) ↦[arg20.view.set]{fullShare} arg20.view.writes (Elt F) f L11)
                ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5 ∗ tbPt0 c tbM0_6 xt6 ∗ tbPt0 c tbM0_7 xt7
                ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) -∗ K ⟨⟩))
          ⊢ wp frame (wpE (defs₀ (F := F)) Variants.none c none) E (cc0__fused_kernel i tbM0_0 htbM0_0 tbM0_1 htbM0_1 tbM0_2 htbM0_2 tbM0_3 htbM0_3 tbM0_4 htbM0_4 tbM0_5 htbM0_5 tbM0_6 htbM0_6 tbM0_7 htbM0_7 arg9 harg9 arg10 harg10 arg11 harg11 arg12 harg12 arg13 harg13 arg14 harg14 arg15 harg15 arg16 harg16 arg17 harg17 arg18 harg18 arg19 harg19 arg20 harg20 scM0 hscM0 scM1 hscM1 scM2 hscM2) K } :=
  kernelRun0_A_of c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH.h1 hH.h2 hH.h3 hH.h4 hH.h5 hH.h6 hH.h7 hH.h8 hH.h9 hH.h10 hH.h11 hH.h12 hH.h13 hH.h14 hH.h15 hH.h16 hH.h17 hH.h18

end Cert.Kernel.Hand

end
-- ==== Proof.K.Frame.lean ====
import proofs.«411912_j30219389895125_3_alg».proof.Proof.K.Kit
import proofs.«411912_j30219389895125_3_alg».proof.Proof.K.Points
import proofs.«411912_j30219389895125_3_alg».proof.Proof.K.Assumed
import proofs.«411912_j30219389895125_3_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7)
    (hH : Hyps c xt0 xt1 xt2 xt3 xt4 xt5 xt6 xt7) (y : S128x64.Idx) :
    ∃ pc ∈ (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1, y ∈ pc.1.set :=
  View.cover_of_wholeMem (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1 (by sl_whole_mem) y

def out0_A_11 (c : Dev nD) (i : grid0.Coords) (arg9 : Memref sig .tc .vmem S256x128 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S128x64x64 .f32) (harg12 : arg12.IsWhole) (arg13 : Memref sig .tc .vmem S64x64x64 .f32) (harg13 : arg13.IsWhole) (arg14 : Memref sig .tc .vmem S32x64x64 .f32) (harg14 : arg14.IsWhole) (arg15 : Memref sig .tc .vmem S16x64x64 .f32) (harg15 : arg15.IsWhole) (arg16 : Memref sig .tc .vmem S8x64x64 .f32) (harg16 : arg16.IsWhole) (arg17 : Memref sig .tc .vmem S4x64x64 .f32) (harg17 : arg17.IsWhole) (arg18 : Memref sig .tc .vmem S2x64x64 .f32) (harg18 : arg18.IsWhole) (arg19 : Memref sig .tc .vmem S1x64x64 .f32) (harg19 : arg19.IsWhole) (arg20 : Memref sig .tc .vmem S128x64 .f32) (harg20 : arg20.IsWhole)
    (x0 : Vec F S256x128 .f32) (x1 : Vec F S256x64 .f32) (x2 : Vec F S256x64 .f32) (x3 : Vec F S128x64x64 .f32) (x4 : Vec F S64x64x64 .f32) (x5 : Vec F S32x64x64 .f32) (x6 : Vec F S16x64x64 .f32) (x7 : Vec F S8x64x64 .f32) (x8 : Vec F S4x64x64 .f32) (x9 : Vec F S2x64x64 .f32) (x10 : Vec F S1x64x64 .f32)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (xt6 : TbBuf0 (F := F) c tbM0_6) (xt7 : TbBuf0 (F := F) c tbM0_7)
    (hH : Hyps c xt0 xt1 xt2 xt3 xt4 xt5 xt6 xt7) : Vec F S128x64 .f32 :=
  VO0_11.read (Elt F) (VO0_11.writes (Elt F) VO0_11.junk (kernelRun0_A c i arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xt0 xt1 xt2 xt3 xt4 xt5 xt6 xt7 hH).1)

variable (hH : ∀ c : Dev nD, Hyps c (tbl m 0) (tbl m 1) (tbl m 2) (tbl m 3) (tbl m 4) (tbl m 5) (tbl m 6) (tbl m 7))

def outsAt0 (c : Dev nD) (t : Fin (cfgM m).N) : Vec F S128x64 .f32 :=
  out0_A_11 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (tbl m 1) (tbl m 2) (tbl m 3) (tbl m 4) (tbl m 5) (tbl m 6) (tbl m 7) (hH c)

def dats (_ : Fin 1) (c : Dev nD) : Pipeline.Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m hH c t)
  Φ _ := iprop(Pipeline.ΦA spec0 c ∗ Pipeline.ΦT pre0 (tbl m) c)
  q _ := fullShare
  owed _ := 0

theorem A_eq (c : Dev nD) (w : Fin (cfgM m).W) : (dats m hH 0 c).A w = V m c (Pipeline.arrRef spec0 w) := by
  dsimp only [dats]

theorem after0_0 (c : Dev nD) (t : Fin (cfgM m).N) : (dats m hH 0 c).after 0 t = iblk m c 0 t := by dsimp only [dats]; try rfl
theorem after0_1 (c : Dev nD) (t : Fin (cfgM m).N) : (dats m hH 0 c).after 1 t = iblk m c 1 t := by dsimp only [dats]; try rfl
theorem after0_2 (c : Dev nD) (t : Fin (cfgM m).N) : (dats m hH 0 c).after 2 t = iblk m c 2 t := by dsimp only [dats]; try rfl
theorem after0_3 (c : Dev nD) (t : Fin (cfgM m).N) : (dats m hH 0 c).after 3 t = iblk m c 3 t := by dsimp only [dats]; try rfl
theorem after0_4 (c : Dev nD) (t : Fin (cfgM m).N) : (dats m hH 0 c).after 4 t = iblk m c 4 t := by dsimp only [dats]; try rfl
theorem after0_5 (c : Dev nD) (t : Fin (cfgM m).N) : (dats m hH 0 c).after 5 t = iblk m c 5 t := by dsimp only [dats]; try rfl
theorem after0_6 (c : Dev nD) (t : Fin (cfgM m).N) : (dats m hH 0 c).after 6 t = iblk m c 6 t := by dsimp only [dats]; try rfl
theorem after0_7 (c : Dev nD) (t : Fin (cfgM m).N) : (dats m hH 0 c).after 7 t = iblk m c 7 t := by dsimp only [dats]; try rfl
theorem after0_8 (c : Dev nD) (t : Fin (cfgM m).N) : (dats m hH 0 c).after 8 t = iblk m c 8 t := by dsimp only [dats]; try rfl
theorem after0_9 (c : Dev nD) (t : Fin (cfgM m).N) : (dats m hH 0 c).after 9 t = iblk m c 9 t := by dsimp only [dats]; try rfl
theorem after0_10 (c : Dev nD) (t : Fin (cfgM m).N) : (dats m hH 0 c).after 10 t = iblk m c 10 t := by dsimp only [dats]; try rfl
theorem after0_11 (c : Dev nD) (t : Fin (cfgM m).N) : (dats m hH 0 c).after 11 t = (outsAt0 m hH c t) := by dsimp only [dats]; try rfl

theorem before0_0 (c : Dev nD) (t : Fin (cfgM m).N) (d) : (dats m hH 0 c).before 0 t d = iblk m c 0 t :=
  before0_of m 0 (dats m hH 0 c) (A_eq m hH c 0) (after0_0 m hH c) t d
theorem before0_1 (c : Dev nD) (t : Fin (cfgM m).N) (d) : (dats m hH 0 c).before 1 t d = iblk m c 1 t :=
  before0_of m 1 (dats m hH 0 c) (A_eq m hH c 1) (after0_1 m hH c) t d
theorem before0_2 (c : Dev nD) (t : Fin (cfgM m).N) (d) : (dats m hH 0 c).before 2 t d = iblk m c 2 t :=
  before0_of m 2 (dats m hH 0 c) (A_eq m hH c 2) (after0_2 m hH c) t d
theorem before0_3 (c : Dev nD) (t : Fin (cfgM m).N) (d) : (dats m hH 0 c).before 3 t d = iblk m c 3 t :=
  before0_of m 3 (dats m hH 0 c) (A_eq m hH c 3) (after0_3 m hH c) t d
theorem before0_4 (c : Dev nD) (t : Fin (cfgM m).N) (d) : (dats m hH 0 c).before 4 t d = iblk m c 4 t :=
  before0_of m 4 (dats m hH 0 c) (A_eq m hH c 4) (after0_4 m hH c) t d
theorem before0_5 (c : Dev nD) (t : Fin (cfgM m).N) (d) : (dats m hH 0 c).before 5 t d = iblk m c 5 t :=
  before0_of m 5 (dats m hH 0 c) (A_eq m hH c 5) (after0_5 m hH c) t d
theorem before0_6 (c : Dev nD) (t : Fin (cfgM m).N) (d) : (dats m hH 0 c).before 6 t d = iblk m c 6 t :=
  before0_of m 6 (dats m hH 0 c) (A_eq m hH c 6) (after0_6 m hH c) t d
theorem before0_7 (c : Dev nD) (t : Fin (cfgM m).N) (d) : (dats m hH 0 c).before 7 t d = iblk m c 7 t :=
  before0_of m 7 (dats m hH 0 c) (A_eq m hH c 7) (after0_7 m hH c) t d
theorem before0_8 (c : Dev nD) (t : Fin (cfgM m).N) (d) : (dats m hH 0 c).before 8 t d = iblk m c 8 t :=
  before0_of m 8 (dats m hH 0 c) (A_eq m hH c 8) (after0_8 m hH c) t d
theorem before0_9 (c : Dev nD) (t : Fin (cfgM m).N) (d) : (dats m hH 0 c).before 9 t d = iblk m c 9 t :=
  before0_of m 9 (dats m hH 0 c) (A_eq m hH c 9) (after0_9 m hH c) t d
theorem before0_10 (c : Dev nD) (t : Fin (cfgM m).N) (d) : (dats m hH 0 c).before 10 t d = iblk m c 10 t :=
  before0_of m 10 (dats m hH 0 c) (A_eq m hH c 10) (after0_10 m hH c) t d

def bodyPre (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d))
    ∗ (∃ d, owns (c : Thread nD τ) (ms0_3 m t) fullShare ((dats m hH 0 c).before 3 t d))
    ∗ (∃ d, owns (c : Thread nD τ) (ms0_4 m t) fullShare ((dats m hH 0 c).before 4 t d))
    ∗ (∃ d, owns (c : Thread nD τ) (ms0_5 m t) fullShare ((dats m hH 0 c).before 5 t d))
    ∗ (∃ d, owns (c : Thread nD τ) (ms0_6 m t) fullShare ((dats m hH 0 c).before 6 t d))
    ∗ (∃ d, owns (c : Thread nD τ) (ms0_7 m t) fullShare ((dats m hH 0 c).before 7 t d))
    ∗ (∃ d, owns (c : Thread nD τ) (ms0_8 m t) fullShare ((dats m hH 0 c).before 8 t d))
    ∗ (∃ d, owns (c : Thread nD τ) (ms0_9 m t) fullShare ((dats m hH 0 c).before 9 t d))
    ∗ (∃ d, owns (c : Thread nD τ) (ms0_10 m t) fullShare ((dats m hH 0 c).before 10 t d))
    ∗ (∃ d, owns (c : Thread nD τ) (ms0_11 m t) fullShare ((dats m hH 0 c).before 11 t d)))

def bodyPost (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t)
    ∗ owns (c : Thread nD τ) (ms0_3 m t) fullShare ((dats m hH 0 c).after 3 t)
    ∗ owns (c : Thread nD τ) (ms0_4 m t) fullShare ((dats m hH 0 c).after 4 t)
    ∗ owns (c : Thread nD τ) (ms0_5 m t) fullShare ((dats m hH 0 c).after 5 t)
    ∗ owns (c : Thread nD τ) (ms0_6 m t) fullShare ((dats m hH 0 c).after 6 t)
    ∗ owns (c : Thread nD τ) (ms0_7 m t) fullShare ((dats m hH 0 c).after 7 t)
    ∗ owns (c : Thread nD τ) (ms0_8 m t) fullShare ((dats m hH 0 c).after 8 t)
    ∗ owns (c : Thread nD τ) (ms0_9 m t) fullShare ((dats m hH 0 c).after 9 t)
    ∗ owns (c : Thread nD τ) (ms0_10 m t) fullShare ((dats m hH 0 c).after 10 t)
    ∗ owns (c : Thread nD τ) (ms0_11 m t) fullShare ((dats m hH 0 c).after 11 t))

theorem sound_body (c : Dev nD) (t : Fin (cfgM m).N) :
    bodyPre m hH c t ⊢ wp frame (wpE (defs₀ (F := F)) Variants.none c none) Set.univ (bodyAt0 (adm m) t) (fun _ => bodyPost m hH c t) := by
  unfold bodyPre bodyPost bodyAt0
  simp only [before0_0, before0_1, before0_2, before0_3, before0_4, before0_5, before0_6, before0_7, before0_8, before0_9, before0_10]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11]
  rw [show (dats m hH 0 c).Φ t.castSucc = iprop(Pipeline.ΦA spec0 c ∗ Pipeline.ΦT pre0 (tbl m) c) from rfl, PhiT0_eq]
  unfold Pipeline.ΦA
  rw [scopedRest0_eq]
  unfold outsAt0
  unfold out0_A_11
  iintro ⟨⟨⟨⟨HS0, HS1, HS2⟩, HR⟩, ⟨HT0, HT1, HT2, HT3, HT4, HT5, HT6, HT7⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (tbl m 1) (tbl m 2) (tbl m 3) (tbl m 4) (tbl m 5) (tbl m 6) (tbl m 7) (hH c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HS0]; · iexact HS0
  isplitl [HS1]; · iexact HS1
  isplitl [HS2]; · iexact HS2
  iintro ⟨H0, H1, H2, H3, H4, H5, H6, H7, H8, H9, H10, ⟨%e11, H11⟩, HT0, HT1, HT2, HT3, HT4, HT5, HT6, HT7, HS0, HS1, HS2⟩
  isplitl [HS0 HS1 HS2 HR HT0 HT1 HT2 HT3 HT4 HT5 HT6 HT7]
  · isplitl [HS0 HS1 HS2 HR]
    · isplitl [HS0 HS1 HS2]
      · isplitl [HS0]; · iexact HS0
        isplitl [HS1]; · iexact HS1
        iexact HS2
      iexact HR
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)

theorem body_obligation (c : Dev nD) : BodyObligation (dats (F := F) m hH 0 c) (defs₀ (F := F)) Variants.none () Set.univ := fun t => by
  rw [bigSep_W0, bigSep_W0]
  exact sound_body m hH c t

set_option backward.isDefEq.respectTransparency.types false in
set_option maxHeartbeats 8000000 in
theorem run_main : θ_run defs (onTc (τ := τ) (main (F := F))) (s₀ m ρ) (Pipeline.FramePost (Pipeline.pin pcfgs fun _ => adm m) (dats m hH) 0 (Pipeline.afterTail pcfgs (fun _ => adm m) (dats m hH) 0 (V0 m) [hostOps1])) :=
  Pipeline.θ_run_frameP_around pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V_pre m) (hΦ := fun _ _ => rfl)

theorem frame (hH : ∀ c : Dev nD, Hyps c (tbl m 0) (tbl m 1) (tbl m 2) (tbl m 3) (tbl m 4) (tbl m 5) (tbl m 6) (tbl m 7)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m hH) (A_eq m hH) (run_main m ρ hH)

end Cert.Kernel.Hand

end
-- ==== Proof.K.HostTabs.lean ====
import proofs.«411912_j30219389895125_3_alg».proof.Proof.K.Kit
import proofs.«411912_j30219389895125_3_alg».proof.Proof.K.Assumed
import Idealize.ShloMosaic.Lib.StableHlo.Run
import Idealize.ShloMosaic.Lib.StableHlo.Predicate
import Idealize.ShloMosaic.Lib.ValueIdx
import Idealize.ShloMosaic.Lib.ValueLayout

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx

variable {F : FTy → Type} [FloatOps F]

def clipW (hi : ℕ) (w : BitVec 32) : BitVec 32 := IntOp.minsi (BitVec.ofNat 32 hi) (IntOp.maxsi 0#32 w)

theorem clipW_toInt (hi : ℕ) (h : hi < 2 ^ 31) (w : BitVec 32) : (clipW hi w).toInt = min (max w.toInt 0) (hi : ℤ) := by
  have hH : (BitVec.ofNat 32 hi).toInt = hi := StableHlo.Predicate.toInt_ofNat_small hi h
  have h0 : (0#32 : BitVec 32).toInt = 0 := by decide
  have hmax : (IntOp.maxsi 0#32 w).toInt = max w.toInt 0 := by
    unfold IntOp.maxsi
    split <;> rename_i hc <;> simp only [BitVec.slt, h0, decide_eq_true_eq] at hc <;> omega
  unfold clipW IntOp.minsi
  split <;> rename_i hc <;> simp only [BitVec.slt, hH, hmax, decide_eq_true_eq] at hc <;> omega

theorem clipW_toInt_nonneg (hi : ℕ) (h : hi < 2 ^ 31) (w : BitVec 32) : 0 ≤ (clipW hi w).toInt := by
  rw [clipW_toInt hi h]; omega

theorem clipW_toNat (hi : ℕ) (h : hi < 2 ^ 31) (w : BitVec 32) : (clipW hi w).toNat = min w.toInt.toNat hi := by
  have e := clipW_toInt hi h w
  have hlt := (clipW hi w).isLt
  rw [BitVec.toInt_eq_toNat_cond] at e
  split at e <;> omega

-- A table whose word at `(s, f)` is a clamp into `[0, hi]` has every word below any `R` above `hi`.
theorem lt_of_clip {n hi R : ℕ} (hh : hi < 2 ^ 31) (hR : hi < R) {g : (⟨2, ![2, n]⟩ : Shape).Idx → BitVec 32}
    {a : (⟨2, ![n, 2]⟩ : Shape).Idx → BitVec 32} (hg : ∀ s f, g (ix2 s f) = clipW hi (a (ix2 f s)))
    (i : (⟨2, ![2, n]⟩ : Shape).Idx) : (g i).toNat < R := by
  obtain ⟨s, f, rfl⟩ : ∃ (s : Fin 2) (f : Fin n), i = ix2 s f := ⟨i 0, i 1, eq_ix2 i⟩
  rw [hg, clipW_toNat hi hh]; omega

variable (m : (ℓ : Loc nD τ sig) → Buf (Elt F) ℓ)

theorem tbl_word_1 (s : Fin 2) (f : Fin 128) :
    tbl m 0 (ix2 s f) = clipW 255 (m (((0 : Dev nD) : Thread nD τ).loc main_arg12) (ix2 f s)) := by
  show (V m (0 : Dev nD) main_v6 : S2x128.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_2 (s : Fin 2) (f : Fin 64) :
    tbl m 1 (ix2 s f) = clipW 127 (m (((0 : Dev nD) : Thread nD τ).loc main_arg13) (ix2 f s)) := by
  show (V m (0 : Dev nD) main_v8 : S2x64.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_3 (s : Fin 2) (f : Fin 32) :
    tbl m 2 (ix2 s f) = clipW 63 (m (((0 : Dev nD) : Thread nD τ).loc main_arg14) (ix2 f s)) := by
  show (V m (0 : Dev nD) main_v10 : S2x32.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_4 (s : Fin 2) (f : Fin 16) :
    tbl m 3 (ix2 s f) = clipW 31 (m (((0 : Dev nD) : Thread nD τ).loc main_arg15) (ix2 f s)) := by
  show (V m (0 : Dev nD) main_v12 : S2x16.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_5 (s : Fin 2) (f : Fin 8) :
    tbl m 4 (ix2 s f) = clipW 15 (m (((0 : Dev nD) : Thread nD τ).loc main_arg16) (ix2 f s)) := by
  show (V m (0 : Dev nD) main_v14 : S2x8.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_6 (s : Fin 2) (f : Fin 4) :
    tbl m 5 (ix2 s f) = clipW 7 (m (((0 : Dev nD) : Thread nD τ).loc main_arg17) (ix2 f s)) := by
  show (V m (0 : Dev nD) main_v16 : S2x4.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_7 (s : Fin 2) (f : Fin 2) :
    tbl m 6 (ix2 s f) = clipW 3 (m (((0 : Dev nD) : Thread nD τ).loc main_arg18) (ix2 f s)) := by
  show (V m (0 : Dev nD) main_v18 : S2x2.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

theorem tbl_word_8 (s : Fin 2) (f : Fin 1) :
    tbl m 7 (ix2 s f) = clipW 1 (m (((0 : Dev nD) : Thread nD τ).loc main_arg19) (ix2 f s)) := by
  show (V m (0 : Dev nD) main_v20 : S2x1.Idx → BitVec 32) (ix2 s f) = _
  dsimp only [V, V0]
  simp only [List.flatten_cons, List.flatten_nil, List.append_nil, List.cons_append, List.nil_append]
  open StableHlo in after_results_simp
  simp only [StableHlo.TRef.ofBuf, StableHlo.TRef.toBuf, cast_eq]
  rw [transpose_ix2_apply]
  rfl

-- With `w < R`, row `w` of an `[R, 64, 128]` array is in range on every axis.
theorem chk_rows (R : ℕ) (w : BitVec 32) (hw : w.toNat < R) :
    ∀ a, (![(Scalar.indexCast w).toNat, 0, 0] : Fin 3 → ℕ) a + S1x64x128.size a ≤ (⟨3, ![R, 64, 128]⟩ : Shape).size a := by
  intro a
  have : (Scalar.indexCast w).toNat = w.toNat := rfl
  match a with
  | ⟨0, _⟩ => show (Scalar.indexCast w).toNat + 1 ≤ R; omega
  | ⟨1, _⟩ => show 0 + 64 ≤ 64; omega
  | ⟨2, _⟩ => show 0 + 128 ≤ 128; omega

-- Clamped words stay below the row counts, and each range condition asks just that of one word of its table.
theorem hyps_all (c : Dev nD) :
    Hyps c (tbl m 0) (tbl m 1) (tbl m 2) (tbl m 3) (tbl m 4) (tbl m 5) (tbl m 6) (tbl m 7) := by
  have h0 := lt_of_clip (R := 256) (by decide) (by decide) (tbl_word_1 m)
  have h1 := lt_of_clip (R := 128) (by decide) (by decide) (tbl_word_2 m)
  have h2 := lt_of_clip (R := 64) (by decide) (by decide) (tbl_word_3 m)
  have h3 := lt_of_clip (R := 128) (by decide) (by decide) (tbl_word_4 m)
  have h4 := lt_of_clip (R := 64) (by decide) (by decide) (tbl_word_5 m)
  have h5 := lt_of_clip (R := 128) (by decide) (by decide) (tbl_word_6 m)
  have h6 := lt_of_clip (R := 64) (by decide) (by decide) (tbl_word_7 m)
  have h7 := lt_of_clip (R := 128) (by decide) (by decide) (tbl_word_8 m)
  generalize tbl m 0 = x0 at h0 ⊢
  generalize tbl m 1 = x1 at h1 ⊢
  generalize tbl m 2 = x2 at h2 ⊢
  generalize tbl m 3 = x3 at h3 ⊢
  generalize tbl m 4 = x4 at h4 ⊢
  generalize tbl m 5 = x5 at h5 ⊢
  generalize tbl m 6 = x6 at h6 ⊢
  generalize tbl m 7 = x7 at h7 ⊢
  unfold Hyps
  exact ⟨fun _ _ => chk_rows 256 _ (h0 _), fun _ _ => chk_rows 256 _ (h0 _), fun _ _ => chk_rows 256 _ (h0 _),
    fun _ _ => chk_rows 256 _ (h0 _), fun _ _ => chk_rows 128 _ (h1 _), fun _ _ => chk_rows 128 _ (h1 _),
    fun _ _ => chk_rows 64 _ (h2 _), fun _ _ => chk_rows 64 _ (h2 _), fun _ _ => chk_rows 128 _ (h3 _),
    fun _ _ => chk_rows 128 _ (h3 _), fun _ _ => chk_rows 64 _ (h4 _), fun _ _ => chk_rows 64 _ (h4 _),
    fun _ _ => chk_rows 128 _ (h5 _), fun _ _ => chk_rows 128 _ (h5 _), fun _ _ => chk_rows 64 _ (h6 _),
    fun _ _ => chk_rows 64 _ (h6 _), chk_rows 128 _ (h7 _), chk_rows 128 _ (h7 _)⟩

end Cert.Kernel.Hand

end
-- ==== Proof.Ref.Ops.lean ====
import Idealize.ShloMosaic.PureOps.Ideal
import Idealize.ShloMosaic.PureOps.Ideal.Laws
import Idealize.ShloMosaic.PureOps.Reduce
import Idealize.ShloMosaic.PureOps.ShapeOps
import Idealize.ShloMosaic.PureOps.Contract
import Idealize.ShloMosaic.Lib.ValueIdx
import Idealize.ShloMosaic.Lib.IdealHost
import Idealize.ShloMosaic.Lib.Affine
import Idealize.ShloMosaic.Lib.Pipeline.Value
import proofs.«411912_j30219389895125_3_alg».proof.Proof.Spec

noncomputable section

namespace Cert.RefOps

open Idealize.ShloMosaic Idealize.ShloMosaic.ValueIdx
open scoped BigOperators

theorem gather_rows_apply {α : Type} {N B C M P w : Nat}
    (d : GatherDims ⟨3, ![N, B, C]⟩ ⟨3, ![M, P, 1]⟩ ⟨4, ![M, P, B, C]⟩)
    (hoff : d.offsetDims = [2, 3]) (hcoll : d.collapsedSliceDims = [0]) (hob : d.operandBatchingDims = [])
    (hsim : d.startIndexMap = [0]) (hivd : d.indexVectorDim = 2)
    (x : (⟨3, ![N, B, C]⟩ : Shape).Idx → α) (idx : IVec ⟨3, ![M, P, 1]⟩ w) (e : Fin M) (s : Fin P) (b : Fin B) (j : Fin C)
    (hN : 0 < N) :
    Host.gather d x idx (ix4 e s b j)
      = x (ix3 ⟨min (idx (ix3 e s (0 : Fin 1))).toInt.toNat (N - 1), by omega⟩ b j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [2, 3] := hoff
    obtain rfl : cd = [0] := hcoll
    obtain rfl : ob = [] := hob
    obtain rfl : sm = [0] := hsim
    obtain rfl : iv = 2 := hivd
    replace hsl : ss 0 = 1 := hsl
    funext a
    match a with
    | ⟨0, _⟩ =>
      apply Fin.ext
      show GatherDims.start _ (ix4 e s b j) idx 0 + GatherDims.batchCoord _ (ix4 e s b j) 0 + GatherDims.offCoord _ (ix4 e s b j) 0
        = min (idx (ix3 e s (0 : Fin 1))).toInt.toNat (N - 1)
      rw [GatherDims.batchCoord_eq_zero _ _ _ List.not_mem_nil,
        GatherDims.offCoord_eq_zero _ _ _ (by decide : (0 : Fin 3) ∉ (List.finRange 3).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext c
      match c with
      | ⟨0, _⟩ => exact Fin.ext rfl
      | ⟨1, _⟩ => exact Fin.ext rfl
      | ⟨2, _⟩ => exact Fin.ext rfl
    | ⟨1, _⟩ =>
      apply Fin.ext
      show GatherDims.start _ (ix4 e s b j) idx 1 + GatherDims.batchCoord _ (ix4 e s b j) 1 + GatherDims.offCoord _ (ix4 e s b j) 1
        = b.val
      rw [GatherDims.batchCoord_eq_zero _ _ _ List.not_mem_nil]
      simp only [Nat.add_zero]
      unfold GatherDims.start
      rw [dif_neg (by decide : (1 : Fin 3) ∉ [0]), Nat.zero_add]
      unfold GatherDims.offCoord
      refine (dif_pos (by decide : (1 : Fin 3) ∈ (List.finRange 3).filter (· ∉ [0] ++ []))).trans ?_
      rfl
    | ⟨2, _⟩ =>
      apply Fin.ext
      show GatherDims.start _ (ix4 e s b j) idx 2 + GatherDims.batchCoord _ (ix4 e s b j) 2 + GatherDims.offCoord _ (ix4 e s b j) 2
        = j.val
      rw [GatherDims.batchCoord_eq_zero _ _ _ List.not_mem_nil]
      simp only [Nat.add_zero]
      unfold GatherDims.start
      rw [dif_neg (by decide : (2 : Fin 3) ∉ [0]), Nat.zero_add]
      unfold GatherDims.offCoord
      refine (dif_pos (by decide : (2 : Fin 3) ∈ (List.finRange 3).filter (· ∉ [0] ++ []))).trans ?_
      rfl

theorem reduceAdd_pair_apply {M B C : Nat} {u : Shape} (x : FVec Ideal ⟨4, ![M, 2, B, C]⟩ .f32) (init : u.Idx → Ideal .f32)
    (h' : (⟨4, ![M, 2, B, C]⟩ : Shape).ReducesTo [1] ⟨3, ![M, B, C]⟩) (hu : 0 < u.numel) (e : Fin M) (b : Fin B) (j : Fin C) :
    Host.reduceAdd x init h' hu (ix3 e b j)
      = init (Shape.Idx.first hu) + (x (ix4 e (0 : Fin 2) b j) + x (ix4 e (1 : Fin 2) b j)) := by
  have h : (⟨4, ![M, 2, B, C]⟩ : Shape).Reduces [1] ⟨3, ![M, B, C]⟩ := ⟨h'.1, Nat.zero_lt_succ 2, h'.2⟩
  refine (hostReduceAdd_apply x init h' hu _).trans ?_
  refine (Ideal.hostReduceAdd_single h' h x _ _).trans ?_
  refine congrArg (init (Shape.Idx.first hu) + ·) ?_
  refine (Fin.sum_univ_two (fun k : Fin 2 => x (h.lift (ix3 e b j) k))).trans ?_
  have e0 : h.lift (ix3 e b j) (0 : Fin 2) = ix4 e (0 : Fin 2) b j := by
    funext c
    match c with
    | ⟨0, _⟩ => exact Fin.ext rfl
    | ⟨1, _⟩ => exact Fin.ext rfl
    | ⟨2, _⟩ => exact Fin.ext rfl
    | ⟨3, _⟩ => exact Fin.ext rfl
  have e1 : h.lift (ix3 e b j) (1 : Fin 2) = ix4 e (1 : Fin 2) b j := by
    funext c
    match c with
    | ⟨0, _⟩ => exact Fin.ext rfl
    | ⟨1, _⟩ => exact Fin.ext rfl
    | ⟨2, _⟩ => exact Fin.ext rfl
    | ⟨3, _⟩ => exact Fin.ext rfl
  show x (h.lift (ix3 e b j) (0 : Fin 2)) + x (h.lift (ix3 e b j) (1 : Fin 2)) = _
  rw [e0, e1]

theorem reduceMax_last_apply {A B K : Nat} {u : Shape} (x : FVec Ideal ⟨3, ![A, B, K]⟩ .f32) (init : u.Idx → Ideal .f32)
    (h' : (⟨3, ![A, B, K]⟩ : Shape).ReducesTo [2] ⟨2, ![A, B]⟩) (hu : 0 < u.numel) (a : Fin A) (b : Fin B) :
    Host.reduce FloatOps.maximumf x init h' hu (ix2 a b)
      = (Finset.univ : Finset (Fin K)).fold max (init (Shape.Idx.first hu)) (fun k => x (ix3 a b k)) := by
  have h : (⟨3, ![A, B, K]⟩ : Shape).Reduces [2] ⟨2, ![A, B]⟩ := ⟨h'.1, Nat.zero_lt_succ 1, h'.2⟩
  refine (Host.reduce_eq_fold_single FloatOps.maximumf x init h' h hu _).trans ?_
  have hf : (x ∘ h.lift (ix2 a b)) = fun k : Fin K => x (ix3 a b k) := by
    funext k
    refine congrArg x ?_
    funext c
    match c with
    | ⟨0, _⟩ => exact Fin.ext rfl
    | ⟨1, _⟩ => exact Fin.ext rfl
    | ⟨2, _⟩ => exact Fin.ext rfl
  rw [hf]
  rfl

theorem bcast_newLast_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

theorem bcast_unitLast_apply {α : Type} {a b c : Nat}
    (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j (0 : Fin 1)) := by
  refine broadcastInDim_apply _ h x _ _ (fun ax => ?_)
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem wrap_nonneg_apply {s : Shape} (idx alt z : IVec s 32) (i : s.Idx) (hz : z i = 0#32) (h : 0 ≤ (idx i).toInt) :
    select (cmpi .slt idx z) alt idx i = idx i := by
  show Scalar.select (IntOp.cmpi .slt (idx i) (z i)) (alt i) (idx i) = idx i
  have hc : IntOp.cmpi .slt (idx i) (z i) = 0#1 := by
    refine eq_zero_of_ne_one (fun h1 => ?_)
    have h2 := IntOp.cmpi_slt.mp h1
    rw [hz, BitVec.toInt_zero] at h2
    omega
  rw [hc, select_zero]

theorem dot_batch_apply {A B J K : Nat} (d : DotDims ⟨3, ![A, B, K]⟩ ⟨3, ![A, J, K]⟩ ⟨3, ![A, B, J]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule)
    (lhs : FVec Ideal ⟨3, ![A, B, K]⟩ .f32) (rhs : FVec Ideal ⟨3, ![A, J, K]⟩ .f32) (a : Fin A) (b : Fin B) (j : Fin J) :
    FloatOps.dotGeneral d prec sched lhs rhs (ix3 a b j) = ∑ k : Fin K, lhs (ix3 a b k) * rhs (ix3 a j k) := by
  rw [Ideal.dotGeneral_apply]
  cases d with
  | mk lc rc ln rn lb rb wf =>
    obtain rfl : lc = [2] := hlc
    obtain rfl : rc = [2] := hrc
    obtain rfl : ln = [1] := hln
    obtain rfl : rn = [1] := hrn
    obtain rfl : lb = [0] := hlb
    obtain rfl : rb = [0] := hrb
    let D : DotDims ⟨3, ![A, B, K]⟩ ⟨3, ![A, J, K]⟩ ⟨3, ![A, B, J]⟩ := ⟨[2], [2], [1], [1], [0], [0], wf⟩
    have hr : D.contr.rank = 1 := rfl
    have hs : D.contr.size ⟨0, by rw [hr]; exact Nat.one_pos⟩ = K := rfl
    show ∑ k : D.contr.Idx, lhs (D.lhsIdx (ix3 a b j) k) * rhs (D.rhsIdx (ix3 a b j) k) = _
    rw [← Equiv.sum_comp (contrEquiv1 D K hr hs).symm]
    refine Finset.sum_congr rfl fun k _ => ?_
    have el : D.lhsIdx (ix3 a b j) ((contrEquiv1 D K hr hs).symm k) = ix3 a b k := by
      funext c
      apply Fin.ext
      match c with
      | ⟨0, _⟩ => rfl
      | ⟨1, _⟩ => rfl
      | ⟨2, _⟩ => rfl
    have er : D.rhsIdx (ix3 a b j) ((contrEquiv1 D K hr hs).symm k) = ix3 a j k := by
      funext c
      apply Fin.ext
      match c with
      | ⟨0, _⟩ => rfl
      | ⟨1, _⟩ => rfl
      | ⟨2, _⟩ => rfl
    rw [el, er]

open Cert.Spec

theorem pairSum_apply {Fp Fn : Nat} (hFp : 0 < Fp)
    (dg : GatherDims ⟨3, ![Fp, 2048, 64]⟩ ⟨3, ![Fn, 2, 1]⟩ ⟨4, ![Fn, 2, 2048, 64]⟩)
    (hoff : dg.offsetDims = [2, 3]) (hcoll : dg.collapsedSliceDims = [0]) (hob : dg.operandBatchingDims = [])
    (hsim : dg.startIndexMap = [0]) (hivd : dg.indexVectorDim = 2)
    (hbz : (⟨0, ![]⟩ : Shape).BroadcastsInDim ⟨2, ![Fn, 2]⟩ ![])
    (hb : (⟨2, ![Fn, 2]⟩ : Shape).BroadcastsInDim ⟨3, ![Fn, 2, 1]⟩ ![0, 1])
    (hr : (⟨4, ![Fn, 2, 2048, 64]⟩ : Shape).ReducesTo [1] ⟨3, ![Fn, 2048, 64]⟩)
    (hu : 0 < (⟨0, ![]⟩ : Shape).numel)
    (prev : FVec Ideal ⟨3, ![Fp, 2048, 64]⟩ .f32) (idx alt : IVec ⟨2, ![Fn, 2]⟩ 32)
    (hidx : ∀ i, 0 ≤ (idx i).toInt) (f : Fin Fn) (b : Fin 2048) (k : Fin 64) :
    Host.reduceAdd (Host.gather dg prev (broadcastInDim ⟨3, ![Fn, 2, 1]⟩ ![0, 1] hb
        (select (cmpi .slt idx (broadcastInDim ⟨2, ![Fn, 2]⟩ ![] hbz (constantI ⟨0, ![]⟩ 32 0#32))) alt idx)))
        (constant (F := Ideal) ⟨0, ![]⟩ .f32 0x00000000#32) hr hu (ix3 f b k)
      = prev (ix3 (row hFp (idx (ix2 f 0))) b k) + prev (ix3 (row hFp (idx (ix2 f 1))) b k) := by
  have hw : ∀ s : Fin 2, broadcastInDim ⟨3, ![Fn, 2, 1]⟩ ![0, 1] hb
      (select (cmpi .slt idx (broadcastInDim ⟨2, ![Fn, 2]⟩ ![] hbz (constantI ⟨0, ![]⟩ 32 0#32))) alt idx) (ix3 f s (0 : Fin 1))
      = idx (ix2 f s) := fun s =>
    (bcast_newLast_apply hb _ f s 0).trans
      (wrap_nonneg_apply idx alt _ (ix2 f s) (broadcastInDim_scalar_apply hbz _ _) (hidx _))
  have hg : ∀ s : Fin 2, Host.gather dg prev (broadcastInDim ⟨3, ![Fn, 2, 1]⟩ ![0, 1] hb
      (select (cmpi .slt idx (broadcastInDim ⟨2, ![Fn, 2]⟩ ![] hbz (constantI ⟨0, ![]⟩ 32 0#32))) alt idx)) (ix4 f s b k)
      = prev (ix3 (row hFp (idx (ix2 f s))) b k) := fun s =>
    (gather_rows_apply dg hoff hcoll hob hsim hivd prev _ f s b k hFp).trans
      (congrArg (fun r => prev (ix3 r b k)) (Fin.ext (by
        show min _ (Fp - 1) = cl Fp (idx (ix2 f s))
        rw [hw s]
        rfl)))
  refine (reduceAdd_pair_apply _ _ hr hu f b k).trans ?_
  rw [hg 0, hg 1]
  show Ideal.ofBits .f32 0x00000000#32 + _ = _
  rw [Ideal.ofBits_zero_f32, zero_add]

theorem rowMax_apply {Fn : Nat} (hrm : (⟨3, ![Fn, 2048, 64]⟩ : Shape).ReducesTo [2] ⟨2, ![Fn, 2048]⟩)
    (hb2 : (⟨2, ![Fn, 2048]⟩ : Shape).BroadcastsInDim ⟨3, ![Fn, 2048, 1]⟩ ![0, 1])
    (hu : 0 < (⟨0, ![]⟩ : Shape).numel) (H : FVec Ideal ⟨3, ![Fn, 2048, 64]⟩ .f32) (f : Fin Fn) (b : Fin 2048) (u1 : Fin 1) :
    broadcastInDim ⟨3, ![Fn, 2048, 1]⟩ ![0, 1] hb2
        (Host.reduce FloatOps.maximumf H (constant (F := Ideal) ⟨0, ![]⟩ .f32 0xFF800000#32) hrm hu) (ix3 f b u1)
      = vmax (fun k => H (ix3 f b k)) := by
  refine (bcast_newLast_apply hb2 _ f b u1).trans ?_
  refine (reduceMax_last_apply H _ hrm hu f b).trans ?_
  rfl

theorem lvl_of_parts {Fp Fn : Nat} (hFp : 0 < Fp) (prev : Fin Fp → Fin 2048 → Fin 64 → EReal)
    (idx : Fin Fn → Fin 2 → BitVec 32)
    (dd : DotDims ⟨3, ![Fn, 2048, 64]⟩ ⟨3, ![Fn, 64, 64]⟩ ⟨3, ![Fn, 2048, 64]⟩)
    (hlc : dd.lhsContracting = [2]) (hrc : dd.rhsContracting = [2]) (hln : dd.lhsNonContracting = [1])
    (hrn : dd.rhsNonContracting = [1]) (hlb : dd.lhsBatch = [0]) (hrb : dd.rhsBatch = [0])
    (hb3 : (⟨3, ![Fn, 2048, 1]⟩ : Shape).BroadcastsInDim ⟨3, ![Fn, 2048, 64]⟩ ![0, 1, 2])
    (H : FVec Ideal ⟨3, ![Fn, 2048, 64]⟩ .f32) (Mx : FVec Ideal ⟨3, ![Fn, 2048, 1]⟩ .f32)
    (W : FVec Ideal ⟨3, ![Fn, 64, 64]⟩ .f32)
    (hH : ∀ f b k, H (ix3 f b k) = prev (row hFp (idx f 0)) b k + prev (row hFp (idx f 1)) b k)
    (hM : ∀ f b, Mx (ix3 f b (0 : Fin 1)) = vmax (fun k => H (ix3 f b k)))
    (f : Fin Fn) (b : Fin 2048) (j : Fin 64) :
    addf (Host.log (Host.dotGeneral dd none (Host.exp (subf H (broadcastInDim ⟨3, ![Fn, 2048, 64]⟩ ![0, 1, 2] hb3 Mx))) W))
        (broadcastInDim ⟨3, ![Fn, 2048, 64]⟩ ![0, 1, 2] hb3 Mx) (ix3 f b j)
      = lvl hFp prev idx (fun f j k => W (ix3 f j k)) f b j := by
  have hbm : ∀ k : Fin 64, broadcastInDim ⟨3, ![Fn, 2048, 64]⟩ ![0, 1, 2] hb3 Mx (ix3 f b k)
      = vmax (fun k => H (ix3 f b k)) := fun k => (bcast_unitLast_apply hb3 Mx f b k).trans (hM f b)
  have hfun : (fun k => H (ix3 f b k))
      = fun k => prev (row hFp (idx f 0)) b k + prev (row hFp (idx f 1)) b k := funext (hH f b)
  show Ideal.log (FloatOps.dotGeneral dd none .single
        (Host.exp (subf H (broadcastInDim ⟨3, ![Fn, 2048, 64]⟩ ![0, 1, 2] hb3 Mx))) W (ix3 f b j))
      + broadcastInDim ⟨3, ![Fn, 2048, 64]⟩ ![0, 1, 2] hb3 Mx (ix3 f b j) = _
  rw [dot_batch_apply dd hlc hrc hln hrn hlb hrb, hbm j]
  unfold lvl lse
  rw [← hfun]
  refine congrArg (fun s => Ideal.log s + vmax fun k => H (ix3 f b k)) ?_
  refine Finset.sum_congr rfl fun k _ => ?_
  show Ideal.exp (H (ix3 f b k) - broadcastInDim ⟨3, ![Fn, 2048, 64]⟩ ![0, 1, 2] hb3 Mx (ix3 f b k)) * W (ix3 f j k) = _
  rw [hbm k, mul_comm]

section
variable {n : Nat} (hr : (⟨3, ![n, 64, 64]⟩ : Shape).ReducesTo [2] ⟨2, ![n, 64]⟩)
    (hb0 : (⟨0, ![]⟩ : Shape).BroadcastsInDim ⟨2, ![n, 64]⟩ ![])
    (hb1 : (⟨2, ![n, 64]⟩ : Shape).BroadcastsInDim ⟨3, ![n, 64, 1]⟩ ![0, 1])
    (hb2 : (⟨3, ![n, 64, 1]⟩ : Shape).BroadcastsInDim ⟨3, ![n, 64, 64]⟩ ![0, 1, 2])
    (hu : 0 < (⟨0, ![]⟩ : Shape).numel) (x : FVec Ideal ⟨3, ![n, 64, 64]⟩ .f32)

def expShift : FVec Ideal ⟨3, ![n, 64, 64]⟩ .f32 :=
  Host.exp (F := Ideal) (φ := .f32) (subf (F := Ideal) (φ := .f32) x
    (broadcastInDim ⟨3, ![n, 64, 64]⟩ ![0, 1, 2] hb2 (broadcastInDim ⟨3, ![n, 64, 1]⟩ ![0, 1] hb1
      (maximumf (F := Ideal) (φ := .f32) (broadcastInDim ⟨2, ![n, 64]⟩ ![] hb0 (constant (F := Ideal) ⟨0, ![]⟩ .f32 0xFF800000#32))
        (Host.reduce FloatOps.maximumf x (constant (F := Ideal) ⟨0, ![]⟩ .f32 0xFF800000#32) hr hu)))))

def softmaxW : FVec Ideal ⟨3, ![n, 64, 64]⟩ .f32 :=
  Host.divf (F := Ideal) (φ := .f32) (expShift hr hb0 hb1 hb2 hu x)
    (broadcastInDim ⟨3, ![n, 64, 64]⟩ ![0, 1, 2] hb2 (broadcastInDim ⟨3, ![n, 64, 1]⟩ ![0, 1] hb1
      (Host.reduceAdd (F := Ideal) (φ := .f32) (expShift hr hb0 hb1 hb2 hu x) (constant (F := Ideal) ⟨0, ![]⟩ .f32 0x00000000#32) hr hu)))
end

def lvlOut {n : Nat} (dd : DotDims ⟨3, ![n, 2048, 64]⟩ ⟨3, ![n, 64, 64]⟩ ⟨3, ![n, 2048, 64]⟩)
    (hb3 : (⟨3, ![n, 2048, 1]⟩ : Shape).BroadcastsInDim ⟨3, ![n, 2048, 64]⟩ ![0, 1, 2])
    (H : FVec Ideal ⟨3, ![n, 2048, 64]⟩ .f32) (Mx : FVec Ideal ⟨3, ![n, 2048, 1]⟩ .f32) (W : FVec Ideal ⟨3, ![n, 64, 64]⟩ .f32) :
    FVec Ideal ⟨3, ![n, 2048, 64]⟩ .f32 :=
  addf (F := Ideal) (φ := .f32)
    (Host.log (F := Ideal) (φ := .f32) (Host.dotGeneral (F := Ideal) (φ₁ := .f32) (φ₂ := .f32) dd none
      (Host.exp (F := Ideal) (φ := .f32) (subf (F := Ideal) (φ := .f32) H (broadcastInDim ⟨3, ![n, 2048, 64]⟩ ![0, 1, 2] hb3 Mx))) W))
    (broadcastInDim ⟨3, ![n, 2048, 64]⟩ ![0, 1, 2] hb3 Mx)

-- With pair sums `H` of nonnegative index words and their row maxima `Mx`, the level's output is the specification's level.
theorem lvlOut_apply {Fp Fn : Nat} (hFp : 0 < Fp)
    (dd : DotDims ⟨3, ![Fn, 2048, 64]⟩ ⟨3, ![Fn, 64, 64]⟩ ⟨3, ![Fn, 2048, 64]⟩)
    (hlc : dd.lhsContracting = [2]) (hrc : dd.rhsContracting = [2]) (hln : dd.lhsNonContracting = [1])
    (hrn : dd.rhsNonContracting = [1]) (hlb : dd.lhsBatch = [0]) (hrb : dd.rhsBatch = [0])
    (hb3 : (⟨3, ![Fn, 2048, 1]⟩ : Shape).BroadcastsInDim ⟨3, ![Fn, 2048, 64]⟩ ![0, 1, 2])
    (dg : GatherDims ⟨3, ![Fp, 2048, 64]⟩ ⟨3, ![Fn, 2, 1]⟩ ⟨4, ![Fn, 2, 2048, 64]⟩)
    (hoff : dg.offsetDims = [2, 3]) (hcoll : dg.collapsedSliceDims = [0]) (hob : dg.operandBatchingDims = [])
    (hsim : dg.startIndexMap = [0]) (hivd : dg.indexVectorDim = 2)
    (hbz : (⟨0, ![]⟩ : Shape).BroadcastsInDim ⟨2, ![Fn, 2]⟩ ![])
    (hb : (⟨2, ![Fn, 2]⟩ : Shape).BroadcastsInDim ⟨3, ![Fn, 2, 1]⟩ ![0, 1])
    (hr : (⟨4, ![Fn, 2, 2048, 64]⟩ : Shape).ReducesTo [1] ⟨3, ![Fn, 2048, 64]⟩)
    (hu : 0 < (⟨0, ![]⟩ : Shape).numel)
    (hrm : (⟨3, ![Fn, 2048, 64]⟩ : Shape).ReducesTo [2] ⟨2, ![Fn, 2048]⟩)
    (hb2 : (⟨2, ![Fn, 2048]⟩ : Shape).BroadcastsInDim ⟨3, ![Fn, 2048, 1]⟩ ![0, 1])
    (prev : FVec Ideal ⟨3, ![Fp, 2048, 64]⟩ .f32) (idx alt : IVec ⟨2, ![Fn, 2]⟩ 32)
    (H : FVec Ideal ⟨3, ![Fn, 2048, 64]⟩ .f32) (Mx : FVec Ideal ⟨3, ![Fn, 2048, 1]⟩ .f32) (W : FVec Ideal ⟨3, ![Fn, 64, 64]⟩ .f32)
    (hH : H = Host.reduceAdd (Host.gather dg prev (broadcastInDim ⟨3, ![Fn, 2, 1]⟩ ![0, 1] hb
        (select (cmpi .slt idx (broadcastInDim ⟨2, ![Fn, 2]⟩ ![] hbz (constantI ⟨0, ![]⟩ 32 0#32))) alt idx)))
        (constant (F := Ideal) ⟨0, ![]⟩ .f32 0x00000000#32) hr hu)
    (hM : Mx = broadcastInDim ⟨3, ![Fn, 2048, 1]⟩ ![0, 1] hb2
        (Host.reduce FloatOps.maximumf H (constant (F := Ideal) ⟨0, ![]⟩ .f32 0xFF800000#32) hrm hu))
    (hidx : ∀ i, 0 ≤ (idx i).toInt) (f : Fin Fn) (b : Fin 2048) (j : Fin 64) :
    lvlOut dd hb3 H Mx W (ix3 f b j)
      = lvl hFp (fun p b k => prev (ix3 p b k)) (fun f s => idx (ix2 f s)) (fun f j k => W (ix3 f j k)) f b j :=
  lvl_of_parts hFp _ _ dd hlc hrc hln hrn hlb hrb hb3 H Mx W
    (fun f b k => by rw [hH]; exact pairSum_apply hFp dg hoff hcoll hob hsim hivd hbz hb hr hu prev idx alt hidx f b k)
    (fun f b => by rw [hM]; exact rowMax_apply hrm hb2 hu H f b 0) f b j

end Cert.RefOps

end
-- ==== Proof.Ref.Base.lean ====
import proofs.«411912_j30219389895125_3_alg».proof.Proof.Gen.ReferenceIdeal.Run
import proofs.«411912_j30219389895125_3_alg».proof.Proof.Spec
-- ==== Proof.Ref.Leaves.lean ====
import proofs.«411912_j30219389895125_3_alg».proof.Proof.Ref.Base
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx Idealize.SL.Sem

def selR (isi : S256x1.Idx → BitVec 32) : S256x1.Idx → BitVec 32 :=
  select (cmpi .slt isi (broadcastInDim S256x1 ![] bcast_S_S256x1 (constantI S_ 32 0#32)))
    (addi isi (broadcastInDim S256x1 ![] bcast_S_S256x1 (constantI S_ 32 256#32))) isi

def xvR (x : S2048x1x256.Idx → EReal) (isi : S256x1.Idx → BitVec 32) : S256x2048.Idx → EReal :=
  shapeCast S256x2048 (transpose S256x1x2048x1 [2, 1, 0, 3]
    (Host.gather gather_S2048x1x256_S256x1x1_S2048x1x256x1_01_2_n_n_2_2_204811 x
      (broadcastInDim S256x1x1 ![0, 1] bcast_S256x1_S256x1x1_0_1 (selR isi)))
    transposes_S2048x1x256x1_S256x1x2048x1_2_1_0_3) shapeCasts_S256x1x2048x1_S256x2048

def zR (x : S2048x1x256.Idx → EReal) (mu ls : S256x64.Idx → EReal) (isi : S256x1.Idx → BitVec 32) :
    S256x2048x64.Idx → EReal :=
  mulf (F := Ideal) (φ := .f32) (subf (F := Ideal) (φ := .f32)
      (broadcastInDim S256x2048x64 ![0, 1, 2] bcast_S256x2048x1_S256x2048x64_0_1_2
        (broadcastInDim S256x2048x1 ![0, 1] bcast_S256x2048_S256x2048x1_0_1 (xvR x isi)))
      (broadcastInDim S256x2048x64 ![0, 1, 2] bcast_S256x1x64_S256x2048x64_0_1_2
        (broadcastInDim S256x1x64 ![0, 2] bcast_S256x64_S256x1x64_0_2 mu)))
    (broadcastInDim S256x2048x64 ![0, 1, 2] bcast_S256x1x64_S256x2048x64_0_1_2
      (broadcastInDim S256x1x64 ![0, 2] bcast_S256x64_S256x1x64_0_2 (Host.exp (F := Ideal) (φ := .f32) (Host.negf (F := Ideal) (φ := .f32) ls))))

def leavesR (x : S2048x1x256.Idx → EReal) (mu ls : S256x64.Idx → EReal) (isi : S256x1.Idx → BitVec 32) :
    S256x2048x64.Idx → EReal :=
  subf (F := Ideal) (φ := .f32) (subf (F := Ideal) (φ := .f32)
      (mulf (F := Ideal) (φ := .f32) (mulf (F := Ideal) (φ := .f32)
          (broadcastInDim S256x2048x64 ![] bcast_S_S256x2048x64 (constant (F := Ideal) S_ .f32 0xBF000000#32))
          (zR x mu ls isi)) (zR x mu ls isi))
      (broadcastInDim S256x2048x64 ![0, 1, 2] bcast_S256x1x64_S256x2048x64_0_1_2
        (broadcastInDim S256x1x64 ![0, 2] bcast_S256x64_S256x1x64_0_2 ls)))
    (broadcastInDim S256x2048x64 ![] bcast_S_S256x2048x64 (constant (F := Ideal) S_ .f32 0x3F6B3F8E#32))

theorem leaves_res_main_v34 (V0 : Valuation τ sig (Elt Ideal)) :
    Cert.ReferenceIdeal.Value.res_main_v34 V0
      = Host.reduceAdd (Host.gather gather_S256x2048x64_S128x2x1_S128x2x2048x64_23_0_n_n_0_2_1204864
          (leavesR (V0 (Proc.devRef .tc main_arg0)) (V0 (Proc.devRef .tc main_arg1)) (V0 (Proc.devRef .tc main_arg2))
            (V0 (Proc.devRef .tc main_arg11)))
          (broadcastInDim S128x2x1 ![0, 1] bcast_S128x2_S128x2x1_0_1
            (select (cmpi .slt (V0 (Proc.devRef .tc main_arg12)) (broadcastInDim S128x2 ![] bcast_S_S128x2 (constantI S_ 32 0#32)))
              (addi (V0 (Proc.devRef .tc main_arg12)) (broadcastInDim S128x2 ![] bcast_S_S128x2 (constantI S_ 32 256#32)))
              (V0 (Proc.devRef .tc main_arg12)))))
        (constant (F := Ideal) S_ .f32 0x00000000#32) reducesTo_S128x2x2048x64_S128x2048x64_d1 h_S_ := rfl

section Reads
variable {α : Type}

theorem bcast_batch_apply (v : S256x1x64.Idx → α) (d : Fin 256) (b : Fin 2048) (k : Fin 64) :
    broadcastInDim S256x2048x64 ![0, 1, 2] bcast_S256x1x64_S256x2048x64_0_1_2 v (ix3 d b k) = v (ix3 d 0 k) :=
  broadcastInDim_apply _ _ v (ix3 d b k) (ix3 d 0 k)
    (fun a => match a with | ⟨0, _⟩ => rfl | ⟨1, _⟩ => rfl | ⟨2, _⟩ => rfl)

theorem bcast_param_apply (v : S256x64.Idx → α) (d : Fin 256) (k : Fin 64) :
    broadcastInDim S256x1x64 ![0, 2] bcast_S256x64_S256x1x64_0_2 v (ix3 d 0 k) = v (ix2 d k) :=
  broadcastInDim_apply _ _ v (ix3 d 0 k) (ix2 d k)
    (fun a => match a with | ⟨0, _⟩ => rfl | ⟨1, _⟩ => rfl)

theorem bcast_unit_apply (v : S256x2048x1.Idx → α) (d : Fin 256) (b : Fin 2048) (k : Fin 64) :
    broadcastInDim S256x2048x64 ![0, 1, 2] bcast_S256x2048x1_S256x2048x64_0_1_2 v (ix3 d b k) = v (ix3 d b 0) :=
  broadcastInDim_apply _ _ v (ix3 d b k) (ix3 d b 0)
    (fun a => match a with | ⟨0, _⟩ => rfl | ⟨1, _⟩ => rfl | ⟨2, _⟩ => rfl)

theorem bcast_col_apply (v : S256x2048.Idx → α) (d : Fin 256) (b : Fin 2048) :
    broadcastInDim S256x2048x1 ![0, 1] bcast_S256x2048_S256x2048x1_0_1 v (ix3 d b 0) = v (ix2 d b) :=
  broadcastInDim_apply _ _ v (ix3 d b 0) (ix2 d b)
    (fun a => match a with | ⟨0, _⟩ => rfl | ⟨1, _⟩ => rfl)

theorem bcast_word_apply (v : S256x1.Idx → α) (d : Fin 256) :
    broadcastInDim S256x1x1 ![0, 1] bcast_S256x1_S256x1x1_0_1 v (ix3 d 0 0) = v (ix2 d 0) :=
  broadcastInDim_apply _ _ v (ix3 d 0 0) (ix2 d 0)
    (fun a => match a with | ⟨0, _⟩ => rfl | ⟨1, _⟩ => rfl)

theorem reshape_apply (v : S256x1x2048x1.Idx → α) (d : Fin 256) (b : Fin 2048) :
    shapeCast S256x2048 v shapeCasts_S256x1x2048x1_S256x2048 (ix2 d b) = v (ix4 d 0 b 0) := by
  refine shapeCast_apply v _ (ix2 d b) (ix4 d 0 b 0) ?_
  rw [Shape.rowMajor_val_four, Shape.rowMajor_val_two]
  show ((d.val * 1 + 0) * 2048 + b.val) * 1 + 0 = d.val * 2048 + b.val
  omega

theorem transpose_leaf_apply (v : S2048x1x256x1.Idx → α) (d : Fin 256) (b : Fin 2048) :
    transpose S256x1x2048x1 [2, 1, 0, 3] v transposes_S2048x1x256x1_S256x1x2048x1_2_1_0_3 (ix4 d 0 b 0) = v (ix4 b 0 d 0) :=
  transpose_apply _ v _ (ix4 d 0 b 0) (ix4 b 0 d 0)
    (fun a => match a with | ⟨0, _⟩ => rfl | ⟨1, _⟩ => rfl | ⟨2, _⟩ => rfl | ⟨3, _⟩ => rfl)

end Reads

section Gather
variable {α : Type}

theorem gather_col_apply (x : S2048x1x256.Idx → α) (idx : IVec S256x1x1 32) (d : Fin 256) (b : Fin 2048)
    (w : BitVec 32) (hw : idx (ix3 d 0 0) = w) :
    Host.gather gather_S2048x1x256_S256x1x1_S2048x1x256x1_01_2_n_n_2_2_204811 x idx (ix4 b 0 d 0)
      = x (ix3 b 0 ⟨min w.toInt.toNat 255, by omega⟩) := by
  subst hw
  unfold Host.gather
  refine congrArg x (funext fun a => Fin.ext ?_)
  match a with
  | ⟨0, _⟩ =>
    show gather_S2048x1x256_S256x1x1_S2048x1x256x1_01_2_n_n_2_2_204811.start (ix4 b 0 d 0) idx 0
        + gather_S2048x1x256_S256x1x1_S2048x1x256x1_01_2_n_n_2_2_204811.batchCoord (ix4 b 0 d 0) 0
        + gather_S2048x1x256_S256x1x1_S2048x1x256x1_01_2_n_n_2_2_204811.offCoord (ix4 b 0 d 0) 0 = b.val
    rw [GatherDims.batchCoord_eq_zero _ _ _ List.not_mem_nil]
    unfold GatherDims.start
    rw [dif_neg (show (0 : Fin 3) ∉ gather_S2048x1x256_S256x1x1_S2048x1x256x1_01_2_n_n_2_2_204811.startIndexMap from by decide)]
    simp only [Nat.add_zero, Nat.zero_add]
    rfl
  | ⟨1, _⟩ => rfl
  | ⟨2, _⟩ =>
    show gather_S2048x1x256_S256x1x1_S2048x1x256x1_01_2_n_n_2_2_204811.start (ix4 b 0 d 0) idx 2
        + gather_S2048x1x256_S256x1x1_S2048x1x256x1_01_2_n_n_2_2_204811.batchCoord (ix4 b 0 d 0) 2
        + gather_S2048x1x256_S256x1x1_S2048x1x256x1_01_2_n_n_2_2_204811.offCoord (ix4 b 0 d 0) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S2048x1x256_S256x1x1_S2048x1x256x1_01_2_n_n_2_2_204811.startIndexMap from
      List.mem_singleton.mpr rfl)]
    have hsi : gather_S2048x1x256_S256x1x1_S2048x1x256x1_01_2_n_n_2_2_204811.siIdx (ix4 b 0 d 0)
        ⟨List.idxOf (2 : Fin 3) gather_S2048x1x256_S256x1x1_S2048x1x256x1_01_2_n_n_2_2_204811.startIndexMap,
          List.idxOf_lt_length_iff.2 (List.mem_singleton.mpr rfl)⟩ = ix3 d 0 0 := by
      funext c; refine Fin.ext ?_
      match c with
      | ⟨0, _⟩ => rfl
      | ⟨1, _⟩ => rfl
      | ⟨2, _⟩ => rfl
    rw [hsi]
    rfl

end Gather

theorem selR_apply (isi : S256x1.Idx → BitVec 32) (i : S256x1.Idx) (h : 0 ≤ (isi i).toInt) : selR isi i = isi i := by
  unfold selR
  rw [select_apply]
  have hc : ¬ (cmpi .slt isi (broadcastInDim S256x1 ![] bcast_S_S256x1 (constantI S_ 32 0#32)) i = 1#1) := by
    show ¬ (IntOp.cmpi .slt (isi i) 0#32 = 1#1)
    rw [IntOp.cmpi_slt]
    have z : (0#32 : BitVec 32).toInt = 0 := by decide
    rw [z]; omega
  unfold Scalar.select
  exact if_neg hc

theorem leavesR_apply (x : S2048x1x256.Idx → EReal) (mu ls : S256x64.Idx → EReal) (isi : S256x1.Idx → BitVec 32)
    (h : ∀ i, 0 ≤ (isi i).toInt) (d : Fin 256) (b : Fin 2048) (k : Fin 64) :
    leavesR x mu ls isi (ix3 d b k)
      = Cert.Spec.leaf (x (ix3 b 0 (Cert.Spec.row (by decide : 0 < 256) (isi (ix2 d 0))))) (mu (ix2 d k)) (ls (ix2 d k)) := by
  have hx : xvR x isi (ix2 d b) = x (ix3 b 0 (Cert.Spec.row (by decide : 0 < 256) (isi (ix2 d 0)))) := by
    unfold xvR
    rw [reshape_apply, transpose_leaf_apply,
      gather_col_apply x _ d b (isi (ix2 d 0)) (by rw [bcast_word_apply, selR_apply isi _ (h _)])]
    rfl
  have hz : zR x mu ls isi (ix3 d b k)
      = (x (ix3 b 0 (Cert.Spec.row (by decide : 0 < 256) (isi (ix2 d 0)))) - mu (ix2 d k))
          * Ideal.exp (-(ls (ix2 d k))) := by
    unfold zR
    rw [mulf_apply, subf_apply, bcast_unit_apply, bcast_col_apply, hx, bcast_batch_apply, bcast_param_apply,
      bcast_batch_apply, bcast_param_apply]
    rfl
  unfold leavesR Cert.Spec.leaf
  rw [subf_apply, subf_apply, mulf_apply, mulf_apply, hz, bcast_batch_apply, bcast_param_apply]
  rfl

end Cert.ReferenceIdeal.Hand

end
-- ==== Proof.Ref.Lvl1.lean ====
import proofs.«411912_j30219389895125_3_alg».proof.Proof.Ref.Ops
import proofs.«411912_j30219389895125_3_alg».proof.Proof.Ref.Leaves

noncomputable section

namespace Cert.ReferenceIdeal.Hand

open Cert.ReferenceIdeal Cert.ReferenceIdeal.Gen Cert.ReferenceIdeal.Value Idealize.ShloMosaic Idealize.ShloMosaic.ValueIdx Idealize.SL.Sem

def wpR_1 (x : S128x64x64.Idx → EReal) : S128x64x64.Idx → EReal :=
  Cert.RefOps.softmaxW reducesTo_S128x64x64_S128x64_d2 bcast_S_S128x64 bcast_S128x64_S128x64x1_0_1 bcast_S128x64x1_S128x64x64_0_1_2 h_S_ x

def outR_1 (V0 : Valuation τ sig (Elt Ideal)) : S128x2048x64.Idx → EReal :=
  Cert.RefOps.lvlOut dot_S128x2048x64_S128x64x64_S128x2048x64_2_2_1_1_0_0 bcast_S128x2048x1_S128x2048x64_0_1_2 (res_main_v34 V0) (res_main_v47 V0) (wpR_1 (V0 (Proc.devRef .tc main_arg3)))

theorem outR_1_apply (V0 : Valuation τ sig (Elt Ideal))
    (hidx : ∀ i : S128x2.Idx, 0 ≤ (V0 (Proc.devRef .tc main_arg12) i).toInt) (f : Fin 128) (b : Fin 2048) (j : Fin 64) :
    outR_1 V0 (ix3 f b j)
      = Cert.Spec.lvl (by decide : 0 < 256) (fun p b k => leavesR (V0 (Proc.devRef .tc main_arg0)) (V0 (Proc.devRef .tc main_arg1))
        (V0 (Proc.devRef .tc main_arg2)) (V0 (Proc.devRef .tc main_arg11)) (ix3 p b k))
          (fun f s => V0 (Proc.devRef .tc main_arg12) (ix2 f s))
          (fun f j k => wpR_1 (V0 (Proc.devRef .tc main_arg3)) (ix3 f j k)) f b j :=
  Cert.RefOps.lvlOut_apply (by decide) dot_S128x2048x64_S128x64x64_S128x2048x64_2_2_1_1_0_0 rfl rfl rfl rfl rfl rfl bcast_S128x2048x1_S128x2048x64_0_1_2
    gather_S256x2048x64_S128x2x1_S128x2x2048x64_23_0_n_n_0_2_1204864 rfl rfl rfl rfl rfl bcast_S_S128x2 bcast_S128x2_S128x2x1_0_1 reducesTo_S128x2x2048x64_S128x2048x64_d1 h_S_
    reducesTo_S128x2048x64_S128x2048_d2 bcast_S128x2048_S128x2048x1_0_1 (leavesR (V0 (Proc.devRef .tc main_arg0)) (V0 (Proc.devRef .tc main_arg1))
        (V0 (Proc.devRef .tc main_arg2)) (V0 (Proc.devRef .tc main_arg11))) (V0 (Proc.devRef .tc main_arg12)) _ (res_main_v34 V0) (res_main_v47 V0) _ (leaves_res_main_v34 V0) rfl hidx f b j

end Cert.ReferenceIdeal.Hand

end
-- ==== Proof.Ref.Lvl2.lean ====
import proofs.«411912_j30219389895125_3_alg».proof.Proof.Ref.Lvl1

noncomputable section

namespace Cert.ReferenceIdeal.Hand

open Cert.ReferenceIdeal Cert.ReferenceIdeal.Gen Cert.ReferenceIdeal.Value Idealize.ShloMosaic Idealize.ShloMosaic.ValueIdx Idealize.SL.Sem

def wpR_2 (x : S64x64x64.Idx → EReal) : S64x64x64.Idx → EReal :=
  Cert.RefOps.softmaxW reducesTo_S64x64x64_S64x64_d2 bcast_S_S64x64 bcast_S64x64_S64x64x1_0_1 bcast_S64x64x1_S64x64x64_0_1_2 h_S_ x

def outR_2 (V0 : Valuation τ sig (Elt Ideal)) : S64x2048x64.Idx → EReal :=
  Cert.RefOps.lvlOut dot_S64x2048x64_S64x64x64_S64x2048x64_2_2_1_1_0_0 bcast_S64x2048x1_S64x2048x64_0_1_2 (res_main_v62 V0) (res_main_v75 V0) (wpR_2 (V0 (Proc.devRef .tc main_arg4)))

theorem outR_2_apply (V0 : Valuation τ sig (Elt Ideal))
    (hidx : ∀ i : S64x2.Idx, 0 ≤ (V0 (Proc.devRef .tc main_arg13) i).toInt) (f : Fin 64) (b : Fin 2048) (j : Fin 64) :
    outR_2 V0 (ix3 f b j)
      = Cert.Spec.lvl (by decide : 0 < 128) (fun p b k => outR_1 V0 (ix3 p b k))
          (fun f s => V0 (Proc.devRef .tc main_arg13) (ix2 f s))
          (fun f j k => wpR_2 (V0 (Proc.devRef .tc main_arg4)) (ix3 f j k)) f b j :=
  Cert.RefOps.lvlOut_apply (by decide) dot_S64x2048x64_S64x64x64_S64x2048x64_2_2_1_1_0_0 rfl rfl rfl rfl rfl rfl bcast_S64x2048x1_S64x2048x64_0_1_2
    gather_S128x2048x64_S64x2x1_S64x2x2048x64_23_0_n_n_0_2_1204864 rfl rfl rfl rfl rfl bcast_S_S64x2 bcast_S64x2_S64x2x1_0_1 reducesTo_S64x2x2048x64_S64x2048x64_d1 h_S_
    reducesTo_S64x2048x64_S64x2048_d2 bcast_S64x2048_S64x2048x1_0_1 (outR_1 V0) (V0 (Proc.devRef .tc main_arg13)) _ (res_main_v62 V0) (res_main_v75 V0) _ rfl rfl hidx f b j

end Cert.ReferenceIdeal.Hand

end
-- ==== Proof.Ref.Lvl3.lean ====
import proofs.«411912_j30219389895125_3_alg».proof.Proof.Ref.Lvl2

noncomputable section

namespace Cert.ReferenceIdeal.Hand

open Cert.ReferenceIdeal Cert.ReferenceIdeal.Gen Cert.ReferenceIdeal.Value Idealize.ShloMosaic Idealize.ShloMosaic.ValueIdx Idealize.SL.Sem

def wpR_3 (x : S32x64x64.Idx → EReal) : S32x64x64.Idx → EReal :=
  Cert.RefOps.softmaxW reducesTo_S32x64x64_S32x64_d2 bcast_S_S32x64 bcast_S32x64_S32x64x1_0_1 bcast_S32x64x1_S32x64x64_0_1_2 h_S_ x

def outR_3 (V0 : Valuation τ sig (Elt Ideal)) : S32x2048x64.Idx → EReal :=
  Cert.RefOps.lvlOut dot_S32x2048x64_S32x64x64_S32x2048x64_2_2_1_1_0_0 bcast_S32x2048x1_S32x2048x64_0_1_2 (res_main_v90 V0) (res_main_v103 V0) (wpR_3 (V0 (Proc.devRef .tc main_arg5)))

theorem outR_3_apply (V0 : Valuation τ sig (Elt Ideal))
    (hidx : ∀ i : S32x2.Idx, 0 ≤ (V0 (Proc.devRef .tc main_arg14) i).toInt) (f : Fin 32) (b : Fin 2048) (j : Fin 64) :
    outR_3 V0 (ix3 f b j)
      = Cert.Spec.lvl (by decide : 0 < 64) (fun p b k => outR_2 V0 (ix3 p b k))
          (fun f s => V0 (Proc.devRef .tc main_arg14) (ix2 f s))
          (fun f j k => wpR_3 (V0 (Proc.devRef .tc main_arg5)) (ix3 f j k)) f b j :=
  Cert.RefOps.lvlOut_apply (by decide) dot_S32x2048x64_S32x64x64_S32x2048x64_2_2_1_1_0_0 rfl rfl rfl rfl rfl rfl bcast_S32x2048x1_S32x2048x64_0_1_2
    gather_S64x2048x64_S32x2x1_S32x2x2048x64_23_0_n_n_0_2_1204864 rfl rfl rfl rfl rfl bcast_S_S32x2 bcast_S32x2_S32x2x1_0_1 reducesTo_S32x2x2048x64_S32x2048x64_d1 h_S_
    reducesTo_S32x2048x64_S32x2048_d2 bcast_S32x2048_S32x2048x1_0_1 (outR_2 V0) (V0 (Proc.devRef .tc main_arg14)) _ (res_main_v90 V0) (res_main_v103 V0) _ rfl rfl hidx f b j

end Cert.ReferenceIdeal.Hand

end
-- ==== Proof.Ref.Lvl4.lean ====
import proofs.«411912_j30219389895125_3_alg».proof.Proof.Ref.Lvl3

noncomputable section

namespace Cert.ReferenceIdeal.Hand

open Cert.ReferenceIdeal Cert.ReferenceIdeal.Gen Cert.ReferenceIdeal.Value Idealize.ShloMosaic Idealize.ShloMosaic.ValueIdx Idealize.SL.Sem

def wpR_4 (x : S16x64x64.Idx → EReal) : S16x64x64.Idx → EReal :=
  Cert.RefOps.softmaxW reducesTo_S16x64x64_S16x64_d2 bcast_S_S16x64 bcast_S16x64_S16x64x1_0_1 bcast_S16x64x1_S16x64x64_0_1_2 h_S_ x

def outR_4 (V0 : Valuation τ sig (Elt Ideal)) : S16x2048x64.Idx → EReal :=
  Cert.RefOps.lvlOut dot_S16x2048x64_S16x64x64_S16x2048x64_2_2_1_1_0_0 bcast_S16x2048x1_S16x2048x64_0_1_2 (res_main_v118 V0) (res_main_v131 V0) (wpR_4 (V0 (Proc.devRef .tc main_arg6)))

theorem outR_4_apply (V0 : Valuation τ sig (Elt Ideal))
    (hidx : ∀ i : S16x2.Idx, 0 ≤ (V0 (Proc.devRef .tc main_arg15) i).toInt) (f : Fin 16) (b : Fin 2048) (j : Fin 64) :
    outR_4 V0 (ix3 f b j)
      = Cert.Spec.lvl (by decide : 0 < 32) (fun p b k => outR_3 V0 (ix3 p b k))
          (fun f s => V0 (Proc.devRef .tc main_arg15) (ix2 f s))
          (fun f j k => wpR_4 (V0 (Proc.devRef .tc main_arg6)) (ix3 f j k)) f b j :=
  Cert.RefOps.lvlOut_apply (by decide) dot_S16x2048x64_S16x64x64_S16x2048x64_2_2_1_1_0_0 rfl rfl rfl rfl rfl rfl bcast_S16x2048x1_S16x2048x64_0_1_2
    gather_S32x2048x64_S16x2x1_S16x2x2048x64_23_0_n_n_0_2_1204864 rfl rfl rfl rfl rfl bcast_S_S16x2 bcast_S16x2_S16x2x1_0_1 reducesTo_S16x2x2048x64_S16x2048x64_d1 h_S_
    reducesTo_S16x2048x64_S16x2048_d2 bcast_S16x2048_S16x2048x1_0_1 (outR_3 V0) (V0 (Proc.devRef .tc main_arg15)) _ (res_main_v118 V0) (res_main_v131 V0) _ rfl rfl hidx f b j

end Cert.ReferenceIdeal.Hand

end
-- ==== Proof.Ref.Lvl5.lean ====
import proofs.«411912_j30219389895125_3_alg».proof.Proof.Ref.Lvl4

noncomputable section

namespace Cert.ReferenceIdeal.Hand

open Cert.ReferenceIdeal Cert.ReferenceIdeal.Gen Cert.ReferenceIdeal.Value Idealize.ShloMosaic Idealize.ShloMosaic.ValueIdx Idealize.SL.Sem

def wpR_5 (x : S8x64x64.Idx → EReal) : S8x64x64.Idx → EReal :=
  Cert.RefOps.softmaxW reducesTo_S8x64x64_S8x64_d2 bcast_S_S8x64 bcast_S8x64_S8x64x1_0_1 bcast_S8x64x1_S8x64x64_0_1_2 h_S_ x

def outR_5 (V0 : Valuation τ sig (Elt Ideal)) : S8x2048x64.Idx → EReal :=
  Cert.RefOps.lvlOut dot_S8x2048x64_S8x64x64_S8x2048x64_2_2_1_1_0_0 bcast_S8x2048x1_S8x2048x64_0_1_2 (res_main_v146 V0) (res_main_v159 V0) (wpR_5 (V0 (Proc.devRef .tc main_arg7)))

theorem outR_5_apply (V0 : Valuation τ sig (Elt Ideal))
    (hidx : ∀ i : S8x2.Idx, 0 ≤ (V0 (Proc.devRef .tc main_arg16) i).toInt) (f : Fin 8) (b : Fin 2048) (j : Fin 64) :
    outR_5 V0 (ix3 f b j)
      = Cert.Spec.lvl (by decide : 0 < 16) (fun p b k => outR_4 V0 (ix3 p b k))
          (fun f s => V0 (Proc.devRef .tc main_arg16) (ix2 f s))
          (fun f j k => wpR_5 (V0 (Proc.devRef .tc main_arg7)) (ix3 f j k)) f b j :=
  Cert.RefOps.lvlOut_apply (by decide) dot_S8x2048x64_S8x64x64_S8x2048x64_2_2_1_1_0_0 rfl rfl rfl rfl rfl rfl bcast_S8x2048x1_S8x2048x64_0_1_2
    gather_S16x2048x64_S8x2x1_S8x2x2048x64_23_0_n_n_0_2_1204864 rfl rfl rfl rfl rfl bcast_S_S8x2 bcast_S8x2_S8x2x1_0_1 reducesTo_S8x2x2048x64_S8x2048x64_d1 h_S_
    reducesTo_S8x2048x64_S8x2048_d2 bcast_S8x2048_S8x2048x1_0_1 (outR_4 V0) (V0 (Proc.devRef .tc main_arg16)) _ (res_main_v146 V0) (res_main_v159 V0) _ rfl rfl hidx f b j

end Cert.ReferenceIdeal.Hand

end
-- ==== Proof.Ref.Lvl6.lean ====
import proofs.«411912_j30219389895125_3_alg».proof.Proof.Ref.Lvl5

noncomputable section

namespace Cert.ReferenceIdeal.Hand

open Cert.ReferenceIdeal Cert.ReferenceIdeal.Gen Cert.ReferenceIdeal.Value Idealize.ShloMosaic Idealize.ShloMosaic.ValueIdx Idealize.SL.Sem

def wpR_6 (x : S4x64x64.Idx → EReal) : S4x64x64.Idx → EReal :=
  Cert.RefOps.softmaxW reducesTo_S4x64x64_S4x64_d2 bcast_S_S4x64 bcast_S4x64_S4x64x1_0_1 bcast_S4x64x1_S4x64x64_0_1_2 h_S_ x

def outR_6 (V0 : Valuation τ sig (Elt Ideal)) : S4x2048x64.Idx → EReal :=
  Cert.RefOps.lvlOut dot_S4x2048x64_S4x64x64_S4x2048x64_2_2_1_1_0_0 bcast_S4x2048x1_S4x2048x64_0_1_2 (res_main_v174 V0) (res_main_v187 V0) (wpR_6 (V0 (Proc.devRef .tc main_arg8)))

theorem outR_6_apply (V0 : Valuation τ sig (Elt Ideal))
    (hidx : ∀ i : S4x2.Idx, 0 ≤ (V0 (Proc.devRef .tc main_arg17) i).toInt) (f : Fin 4) (b : Fin 2048) (j : Fin 64) :
    outR_6 V0 (ix3 f b j)
      = Cert.Spec.lvl (by decide : 0 < 8) (fun p b k => outR_5 V0 (ix3 p b k))
          (fun f s => V0 (Proc.devRef .tc main_arg17) (ix2 f s))
          (fun f j k => wpR_6 (V0 (Proc.devRef .tc main_arg8)) (ix3 f j k)) f b j :=
  Cert.RefOps.lvlOut_apply (by decide) dot_S4x2048x64_S4x64x64_S4x2048x64_2_2_1_1_0_0 rfl rfl rfl rfl rfl rfl bcast_S4x2048x1_S4x2048x64_0_1_2
    gather_S8x2048x64_S4x2x1_S4x2x2048x64_23_0_n_n_0_2_1204864 rfl rfl rfl rfl rfl bcast_S_S4x2 bcast_S4x2_S4x2x1_0_1 reducesTo_S4x2x2048x64_S4x2048x64_d1 h_S_
    reducesTo_S4x2048x64_S4x2048_d2 bcast_S4x2048_S4x2048x1_0_1 (outR_5 V0) (V0 (Proc.devRef .tc main_arg17)) _ (res_main_v174 V0) (res_main_v187 V0) _ rfl rfl hidx f b j

end Cert.ReferenceIdeal.Hand

end
-- ==== Proof.Ref.Lvl7.lean ====
import proofs.«411912_j30219389895125_3_alg».proof.Proof.Ref.Lvl6

noncomputable section

namespace Cert.ReferenceIdeal.Hand

open Cert.ReferenceIdeal Cert.ReferenceIdeal.Gen Cert.ReferenceIdeal.Value Idealize.ShloMosaic Idealize.ShloMosaic.ValueIdx Idealize.SL.Sem

def wpR_7 (x : S2x64x64.Idx → EReal) : S2x64x64.Idx → EReal :=
  Cert.RefOps.softmaxW reducesTo_S2x64x64_S2x64_d2 bcast_S_S2x64 bcast_S2x64_S2x64x1_0_1 bcast_S2x64x1_S2x64x64_0_1_2 h_S_ x

def outR_7 (V0 : Valuation τ sig (Elt Ideal)) : S2x2048x64.Idx → EReal :=
  Cert.RefOps.lvlOut dot_S2x2048x64_S2x64x64_S2x2048x64_2_2_1_1_0_0 bcast_S2x2048x1_S2x2048x64_0_1_2 (res_main_v202 V0) (res_main_v215 V0) (wpR_7 (V0 (Proc.devRef .tc main_arg9)))

theorem outR_7_apply (V0 : Valuation τ sig (Elt Ideal))
    (hidx : ∀ i : S2x2.Idx, 0 ≤ (V0 (Proc.devRef .tc main_arg18) i).toInt) (f : Fin 2) (b : Fin 2048) (j : Fin 64) :
    outR_7 V0 (ix3 f b j)
      = Cert.Spec.lvl (by decide : 0 < 4) (fun p b k => outR_6 V0 (ix3 p b k))
          (fun f s => V0 (Proc.devRef .tc main_arg18) (ix2 f s))
          (fun f j k => wpR_7 (V0 (Proc.devRef .tc main_arg9)) (ix3 f j k)) f b j :=
  Cert.RefOps.lvlOut_apply (by decide) dot_S2x2048x64_S2x64x64_S2x2048x64_2_2_1_1_0_0 rfl rfl rfl rfl rfl rfl bcast_S2x2048x1_S2x2048x64_0_1_2
    gather_S4x2048x64_S2x2x1_S2x2x2048x64_23_0_n_n_0_2_1204864 rfl rfl rfl rfl rfl bcast_S_S2x2 bcast_S2x2_S2x2x1_0_1 reducesTo_S2x2x2048x64_S2x2048x64_d1 h_S_
    reducesTo_S2x2048x64_S2x2048_d2 bcast_S2x2048_S2x2048x1_0_1 (outR_6 V0) (V0 (Proc.devRef .tc main_arg18)) _ (res_main_v202 V0) (res_main_v215 V0) _ rfl rfl hidx f b j

end Cert.ReferenceIdeal.Hand

end
-- ==== Proof.Ref.Lvl8.lean ====
import proofs.«411912_j30219389895125_3_alg».proof.Proof.Ref.Lvl7

noncomputable section

namespace Cert.ReferenceIdeal.Hand

open Cert.ReferenceIdeal Cert.ReferenceIdeal.Gen Cert.ReferenceIdeal.Value Idealize.ShloMosaic Idealize.ShloMosaic.ValueIdx Idealize.SL.Sem

def wpR_8 (x : S1x64x64.Idx → EReal) : S1x64x64.Idx → EReal :=
  Cert.RefOps.softmaxW reducesTo_S1x64x64_S1x64_d2 bcast_S_S1x64 bcast_S1x64_S1x64x1_0_1 bcast_S1x64x1_S1x64x64_0_1_2 h_S_ x

def outR_8 (V0 : Valuation τ sig (Elt Ideal)) : S1x2048x64.Idx → EReal :=
  Cert.RefOps.lvlOut dot_S1x2048x64_S1x64x64_S1x2048x64_2_2_1_1_0_0 bcast_S1x2048x1_S1x2048x64_0_1_2 (res_main_v230 V0) (res_main_v243 V0) (wpR_8 (V0 (Proc.devRef .tc main_arg10)))

theorem outR_8_apply (V0 : Valuation τ sig (Elt Ideal))
    (hidx : ∀ i : S1x2.Idx, 0 ≤ (V0 (Proc.devRef .tc main_arg19) i).toInt) (f : Fin 1) (b : Fin 2048) (j : Fin 64) :
    outR_8 V0 (ix3 f b j)
      = Cert.Spec.lvl (by decide : 0 < 2) (fun p b k => outR_7 V0 (ix3 p b k))
          (fun f s => V0 (Proc.devRef .tc main_arg19) (ix2 f s))
          (fun f j k => wpR_8 (V0 (Proc.devRef .tc main_arg10)) (ix3 f j k)) f b j :=
  Cert.RefOps.lvlOut_apply (by decide) dot_S1x2048x64_S1x64x64_S1x2048x64_2_2_1_1_0_0 rfl rfl rfl rfl rfl rfl bcast_S1x2048x1_S1x2048x64_0_1_2
    gather_S2x2048x64_S1x2x1_S1x2x2048x64_23_0_n_n_0_2_1204864 rfl rfl rfl rfl rfl bcast_S_S1x2 bcast_S1x2_S1x2x1_0_1 reducesTo_S1x2x2048x64_S1x2048x64_d1 h_S_
    reducesTo_S1x2048x64_S1x2048_d2 bcast_S1x2048_S1x2048x1_0_1 (outR_7 V0) (V0 (Proc.devRef .tc main_arg19)) _ (res_main_v230 V0) (res_main_v243 V0) _ rfl rfl hidx f b j

end Cert.ReferenceIdeal.Hand

end
-- ==== Proof.Ref.Value.lean ====
import proofs.«411912_j30219389895125_3_alg».proof.Proof.Ref.Lvl8

noncomputable section

namespace Cert.ReferenceIdeal.Hand

open Cert.ReferenceIdeal Cert.ReferenceIdeal.Gen Cert.ReferenceIdeal.Value Idealize.ShloMosaic Idealize.ShloMosaic.ValueIdx
open Idealize.ShloMosaic.TcCoe Idealize.SL.Sem Idealize.ShloMosaic.StableHlo

def argsV (V0 : Valuation τ sig (Elt Ideal)) : Cert.Spec.Args where
  x b d := V0 (Proc.devRef .tc main_arg0) (ix3 b 0 d)
  mu d k := V0 (Proc.devRef .tc main_arg1) (ix2 d k)
  ls d k := V0 (Proc.devRef .tc main_arg2) (ix2 d k)
  isi d := V0 (Proc.devRef .tc main_arg11) (ix2 d 0)
  idx1 f s := V0 (Proc.devRef .tc main_arg12) (ix2 f s)
  idx2 f s := V0 (Proc.devRef .tc main_arg13) (ix2 f s)
  idx3 f s := V0 (Proc.devRef .tc main_arg14) (ix2 f s)
  idx4 f s := V0 (Proc.devRef .tc main_arg15) (ix2 f s)
  idx5 f s := V0 (Proc.devRef .tc main_arg16) (ix2 f s)
  idx6 f s := V0 (Proc.devRef .tc main_arg17) (ix2 f s)
  idx7 f s := V0 (Proc.devRef .tc main_arg18) (ix2 f s)
  idx8 f s := V0 (Proc.devRef .tc main_arg19) (ix2 f s)
  wp1 f j k := wpR_1 (V0 (Proc.devRef .tc main_arg3)) (ix3 f j k)
  wp2 f j k := wpR_2 (V0 (Proc.devRef .tc main_arg4)) (ix3 f j k)
  wp3 f j k := wpR_3 (V0 (Proc.devRef .tc main_arg5)) (ix3 f j k)
  wp4 f j k := wpR_4 (V0 (Proc.devRef .tc main_arg6)) (ix3 f j k)
  wp5 f j k := wpR_5 (V0 (Proc.devRef .tc main_arg7)) (ix3 f j k)
  wp6 f j k := wpR_6 (V0 (Proc.devRef .tc main_arg8)) (ix3 f j k)
  wp7 f j k := wpR_7 (V0 (Proc.devRef .tc main_arg9)) (ix3 f j k)
  wp8 f j k := wpR_8 (V0 (Proc.devRef .tc main_arg10)) (ix3 f j k)

def argsR (m' : (ℓ : Loc nD τ sig) → Buf (Elt Ideal) ℓ) (c : Dev nD) : Cert.Spec.Args where
  x b d := m' ((c.tc : Thread nD τ).loc main_arg0) (ix3 b 0 d)
  mu d k := m' ((c.tc : Thread nD τ).loc main_arg1) (ix2 d k)
  ls d k := m' ((c.tc : Thread nD τ).loc main_arg2) (ix2 d k)
  isi d := m' ((c.tc : Thread nD τ).loc main_arg11) (ix2 d 0)
  idx1 f s := m' ((c.tc : Thread nD τ).loc main_arg12) (ix2 f s)
  idx2 f s := m' ((c.tc : Thread nD τ).loc main_arg13) (ix2 f s)
  idx3 f s := m' ((c.tc : Thread nD τ).loc main_arg14) (ix2 f s)
  idx4 f s := m' ((c.tc : Thread nD τ).loc main_arg15) (ix2 f s)
  idx5 f s := m' ((c.tc : Thread nD τ).loc main_arg16) (ix2 f s)
  idx6 f s := m' ((c.tc : Thread nD τ).loc main_arg17) (ix2 f s)
  idx7 f s := m' ((c.tc : Thread nD τ).loc main_arg18) (ix2 f s)
  idx8 f s := m' ((c.tc : Thread nD τ).loc main_arg19) (ix2 f s)
  wp1 f j k := wpR_1 (m' ((c.tc : Thread nD τ).loc main_arg3)) (ix3 f j k)
  wp2 f j k := wpR_2 (m' ((c.tc : Thread nD τ).loc main_arg4)) (ix3 f j k)
  wp3 f j k := wpR_3 (m' ((c.tc : Thread nD τ).loc main_arg5)) (ix3 f j k)
  wp4 f j k := wpR_4 (m' ((c.tc : Thread nD τ).loc main_arg6)) (ix3 f j k)
  wp5 f j k := wpR_5 (m' ((c.tc : Thread nD τ).loc main_arg7)) (ix3 f j k)
  wp6 f j k := wpR_6 (m' ((c.tc : Thread nD τ).loc main_arg8)) (ix3 f j k)
  wp7 f j k := wpR_7 (m' ((c.tc : Thread nD τ).loc main_arg9)) (ix3 f j k)
  wp8 f j k := wpR_8 (m' ((c.tc : Thread nD τ).loc main_arg10)) (ix3 f j k)

section Chain

variable (V0 : Valuation τ sig (Elt Ideal))

def NN : Prop :=
  (∀ i : S256x1.Idx, 0 ≤ (V0 (Proc.devRef .tc main_arg11) i).toInt) ∧
  (∀ i : S128x2.Idx, 0 ≤ (V0 (Proc.devRef .tc main_arg12) i).toInt) ∧
  (∀ i : S64x2.Idx, 0 ≤ (V0 (Proc.devRef .tc main_arg13) i).toInt) ∧
  (∀ i : S32x2.Idx, 0 ≤ (V0 (Proc.devRef .tc main_arg14) i).toInt) ∧
  (∀ i : S16x2.Idx, 0 ≤ (V0 (Proc.devRef .tc main_arg15) i).toInt) ∧
  (∀ i : S8x2.Idx, 0 ≤ (V0 (Proc.devRef .tc main_arg16) i).toInt) ∧
  (∀ i : S4x2.Idx, 0 ≤ (V0 (Proc.devRef .tc main_arg17) i).toInt) ∧
  (∀ i : S2x2.Idx, 0 ≤ (V0 (Proc.devRef .tc main_arg18) i).toInt) ∧
  (∀ i : S1x2.Idx, 0 ≤ (V0 (Proc.devRef .tc main_arg19) i).toInt)

theorem A0_eq (h : NN V0) (d : Fin 256) (b : Fin 2048) (k : Fin 64) :
    leavesR (V0 (Proc.devRef .tc main_arg0)) (V0 (Proc.devRef .tc main_arg1)) (V0 (Proc.devRef .tc main_arg2))
        (V0 (Proc.devRef .tc main_arg11)) (ix3 d b k)
      = Cert.Spec.A0 (argsV V0) d b k :=
  leavesR_apply _ _ _ _ h.1 d b k

theorem A1_eq (h : NN V0) (f : Fin 128) (b : Fin 2048) (j : Fin 64) :
    outR_1 V0 (ix3 f b j) = Cert.Spec.A1 (argsV V0) f b j := by
  rw [outR_1_apply V0 h.2.1 f b j,
    show (fun p b k => leavesR (V0 (Proc.devRef .tc main_arg0)) (V0 (Proc.devRef .tc main_arg1))
        (V0 (Proc.devRef .tc main_arg2)) (V0 (Proc.devRef .tc main_arg11)) (ix3 p b k)) = Cert.Spec.A0 (argsV V0) from
      funext fun p => funext fun b => funext fun k => A0_eq V0 h p b k]
  rfl

theorem A2_eq (h : NN V0) (f : Fin 64) (b : Fin 2048) (j : Fin 64) :
    outR_2 V0 (ix3 f b j) = Cert.Spec.A2 (argsV V0) f b j := by
  rw [outR_2_apply V0 h.2.2.1 f b j,
    show (fun p b k => outR_1 V0 (ix3 p b k)) = Cert.Spec.A1 (argsV V0) from
      funext fun p => funext fun b => funext fun k => A1_eq V0 h p b k]
  rfl

theorem A3_eq (h : NN V0) (f : Fin 32) (b : Fin 2048) (j : Fin 64) :
    outR_3 V0 (ix3 f b j) = Cert.Spec.A3 (argsV V0) f b j := by
  rw [outR_3_apply V0 h.2.2.2.1 f b j,
    show (fun p b k => outR_2 V0 (ix3 p b k)) = Cert.Spec.A2 (argsV V0) from
      funext fun p => funext fun b => funext fun k => A2_eq V0 h p b k]
  rfl

theorem A4_eq (h : NN V0) (f : Fin 16) (b : Fin 2048) (j : Fin 64) :
    outR_4 V0 (ix3 f b j) = Cert.Spec.A4 (argsV V0) f b j := by
  rw [outR_4_apply V0 h.2.2.2.2.1 f b j,
    show (fun p b k => outR_3 V0 (ix3 p b k)) = Cert.Spec.A3 (argsV V0) from
      funext fun p => funext fun b => funext fun k => A3_eq V0 h p b k]
  rfl

theorem A5_eq (h : NN V0) (f : Fin 8) (b : Fin 2048) (j : Fin 64) :
    outR_5 V0 (ix3 f b j) = Cert.Spec.A5 (argsV V0) f b j := by
  rw [outR_5_apply V0 h.2.2.2.2.2.1 f b j,
    show (fun p b k => outR_4 V0 (ix3 p b k)) = Cert.Spec.A4 (argsV V0) from
      funext fun p => funext fun b => funext fun k => A4_eq V0 h p b k]
  rfl

theorem A6_eq (h : NN V0) (f : Fin 4) (b : Fin 2048) (j : Fin 64) :
    outR_6 V0 (ix3 f b j) = Cert.Spec.A6 (argsV V0) f b j := by
  rw [outR_6_apply V0 h.2.2.2.2.2.2.1 f b j,
    show (fun p b k => outR_5 V0 (ix3 p b k)) = Cert.Spec.A5 (argsV V0) from
      funext fun p => funext fun b => funext fun k => A5_eq V0 h p b k]
  rfl

theorem A7_eq (h : NN V0) (f : Fin 2) (b : Fin 2048) (j : Fin 64) :
    outR_7 V0 (ix3 f b j) = Cert.Spec.A7 (argsV V0) f b j := by
  rw [outR_7_apply V0 h.2.2.2.2.2.2.2.1 f b j,
    show (fun p b k => outR_6 V0 (ix3 p b k)) = Cert.Spec.A6 (argsV V0) from
      funext fun p => funext fun b => funext fun k => A6_eq V0 h p b k]
  rfl

theorem A8_eq (h : NN V0) (f : Fin 1) (b : Fin 2048) (j : Fin 64) :
    outR_8 V0 (ix3 f b j) = Cert.Spec.A8 (argsV V0) f b j := by
  rw [outR_8_apply V0 h.2.2.2.2.2.2.2.2 f b j,
    show (fun p b k => outR_7 V0 (ix3 p b k)) = Cert.Spec.A7 (argsV V0) from
      funext fun p => funext fun b => funext fun k => A7_eq V0 h p b k]
  rfl

theorem result_apply (h : NN V0) (i : S2048x1x64.Idx) :
    transpose S2048x1x64 [1, 0, 2] (outR_8 V0) transposes_S1x2048x64_S2048x1x64_1_0_2 i
      = Cert.Spec.out (argsV V0) ⟨(i 0).val, (i 0).isLt⟩ ⟨(i 2).val, (i 2).isLt⟩ := by
  obtain ⟨a, u, j, rfl⟩ : ∃ (a : Fin 2048) (u : Fin 1) (j : Fin 64), i = ix3 a u j := ⟨i 0, i 1, i 2, eq_ix3 i⟩
  refine (transpose_apply _ (outR_8 V0) _ (ix3 a u j) (ix3 (0 : Fin 1) a j) (fun ax => ?_)).trans ?_
  · match ax with
    | ⟨0, _⟩ => rfl
    | ⟨1, _⟩ =>
      show (0 : ℕ) = u.val
      have := u.isLt
      omega
    | ⟨2, _⟩ => rfl
  · exact A8_eq V0 h 0 a j

end Chain

theorem value_run (m' : (ℓ : Loc nD τ sig) → Buf (Elt Ideal) ℓ) (ρ' : Dev nD → PrngReg)
    (h11 : ∀ (c : Dev nD) (i : S256x1.Idx), 0 ≤ (m' ((c.tc : Thread nD τ).loc main_arg11) i).toInt)
    (h12 : ∀ (c : Dev nD) (i : S128x2.Idx), 0 ≤ (m' ((c.tc : Thread nD τ).loc main_arg12) i).toInt)
    (h13 : ∀ (c : Dev nD) (i : S64x2.Idx), 0 ≤ (m' ((c.tc : Thread nD τ).loc main_arg13) i).toInt)
    (h14 : ∀ (c : Dev nD) (i : S32x2.Idx), 0 ≤ (m' ((c.tc : Thread nD τ).loc main_arg14) i).toInt)
    (h15 : ∀ (c : Dev nD) (i : S16x2.Idx), 0 ≤ (m' ((c.tc : Thread nD τ).loc main_arg15) i).toInt)
    (h16 : ∀ (c : Dev nD) (i : S8x2.Idx), 0 ≤ (m' ((c.tc : Thread nD τ).loc main_arg16) i).toInt)
    (h17 : ∀ (c : Dev nD) (i : S4x2.Idx), 0 ≤ (m' ((c.tc : Thread nD τ).loc main_arg17) i).toInt)
    (h18 : ∀ (c : Dev nD) (i : S2x2.Idx), 0 ≤ (m' ((c.tc : Thread nD τ).loc main_arg18) i).toInt)
    (h19 : ∀ (c : Dev nD) (i : S1x2.Idx), 0 ≤ (m' ((c.tc : Thread nD τ).loc main_arg19) i).toInt) :
    θ_run (defs (F := Ideal)) (onTc (τ := τ) (main (F := Ideal))) ⟨m', fun _ => 0, ρ'⟩ (fun r => ∀ c : Dev nD,
      r.2.mem ((c.tc : Thread nD τ).loc main_v251)
        = (fun i : S2048x1x64.Idx => Cert.Spec.out (argsR m' c) ⟨(i 0).val, (i 0).isLt⟩ ⟨(i 2).val, (i 2).isLt⟩)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)) :=
  (θ_run defs _ _).mono (fun _ h c =>
      ⟨(h c).1.trans (funext fun i =>
          result_apply (launchContents m' c) ⟨h11 c, h12 c, h13 c, h14 c, h15 c, h16 c, h17 c, h18 c, h19 c⟩ i),
        (h c).2⟩)
    (Cert.ReferenceIdeal.Value.run m' ρ')

end Cert.ReferenceIdeal.Hand

end
-- ==== Proof.Equiv.lean ====
import proofs.«411912_j30219389895125_3_alg».proof.Proof.KI.HostVals
import proofs.«411912_j30219389895125_3_alg».proof.Proof.Ref.Value

noncomputable section

namespace Cert.Equiv

open Idealize.ShloMosaic Idealize.ShloMosaic.ValueIdx Idealize.SL Idealize.SL.Sem

theorem wp_eq_1 : Cert.KernelIdeal.Hand.wpK_1 = Cert.ReferenceIdeal.Hand.wpR_1 := rfl

theorem wp_eq_2 : Cert.KernelIdeal.Hand.wpK_2 = Cert.ReferenceIdeal.Hand.wpR_2 := rfl

theorem wp_eq_3 : Cert.KernelIdeal.Hand.wpK_3 = Cert.ReferenceIdeal.Hand.wpR_3 := rfl

theorem wp_eq_4 : Cert.KernelIdeal.Hand.wpK_4 = Cert.ReferenceIdeal.Hand.wpR_4 := rfl

theorem wp_eq_5 : Cert.KernelIdeal.Hand.wpK_5 = Cert.ReferenceIdeal.Hand.wpR_5 := rfl

theorem wp_eq_6 : Cert.KernelIdeal.Hand.wpK_6 = Cert.ReferenceIdeal.Hand.wpR_6 := rfl

theorem wp_eq_7 : Cert.KernelIdeal.Hand.wpK_7 = Cert.ReferenceIdeal.Hand.wpR_7 := rfl

theorem wp_eq_8 : Cert.KernelIdeal.Hand.wpK_8 = Cert.ReferenceIdeal.Hand.wpR_8 := rfl

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Hand.argsR m' c = Cert.KernelIdeal.Hand.argsK m c := by
  obtain ⟨h0, h1, h2, h3, h4, h5, h6, h7, h8, h9, h10, h11, h12, h13, h14, h15, h16, h17, h18, h19⟩ := hagree
  unfold Cert.ReferenceIdeal.Hand.argsR Cert.KernelIdeal.Hand.argsK
  rw [h0, h1, h2, h3, h4, h5, h6, h7, h8, h9, h10, h11, h12, h13, h14, h15, h16, h17, h18, h19,
    wp_eq_1, wp_eq_2, wp_eq_3, wp_eq_4, wp_eq_5, wp_eq_6, wp_eq_7, wp_eq_8]

end Cert.Equiv

end
-- ==== Proof.lean ====
import proofs.«411912_j30219389895125_3_alg».proof.Defs
import proofs.«411912_j30219389895125_3_alg».proof.Proof.Gen.Kernel
import proofs.«411912_j30219389895125_3_alg».proof.Proof.Gen.KernelIdeal
import proofs.«411912_j30219389895125_3_alg».proof.Proof.Gen.ReferenceIdeal
import proofs.«411912_j30219389895125_3_alg».proof.Proof.Gen.Pre_finite_inputs
import proofs.«411912_j30219389895125_3_alg».proof.Proof.PreDecode
import proofs.«411912_j30219389895125_3_alg».proof.Proof.KI.Frame
import proofs.«411912_j30219389895125_3_alg».proof.Proof.KI.HostTabs
import proofs.«411912_j30219389895125_3_alg».proof.Proof.KI.ValueTop
import proofs.«411912_j30219389895125_3_alg».proof.Proof.K.Frame
import proofs.«411912_j30219389895125_3_alg».proof.Proof.K.HostTabs
import proofs.«411912_j30219389895125_3_alg».proof.Proof.Ref.Value
import proofs.«411912_j30219389895125_3_alg».proof.Proof.Equiv

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ (fun c => Cert.Kernel.Hand.hyps_all m c)

theorem frame_ki : Cert.frame_KernelIdeal (hKernelIdeal := Cert.KernelIdeal.Gen.facts) (hPre_finite_inputs := Cert.Pre_finite_inputs.Gen.facts) :=
  fun m ρ _ => Cert.KernelIdeal.Hand.frame m ρ (fun c => Cert.KernelIdeal.Hand.hyps_all m c)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hp hagree
  refine ⟨_, Cert.KernelIdeal.Hand.value_run m ρ, ?_⟩
  have hn := fun c : Dev Cert.KernelIdeal.nD => Cert.PreDecode.idx_nonneg _ _ _ _ _ _ _ _ _ _ _ _ _ _ _ _ _ _ _ _ (hp c)
  have h11 : ∀ (c : Dev Cert.ReferenceIdeal.nD) (i : Cert.ReferenceIdeal.S256x1.Idx), 0 ≤ (m' ((c.tc : Thread Cert.ReferenceIdeal.nD Cert.ReferenceIdeal.τ).loc Cert.ReferenceIdeal.main_arg11) i).toInt := fun c i => by
    rw [(hagree c).2.2.2.2.2.2.2.2.2.2.2.1]
    exact (hn c).1 i
  have h12 : ∀ (c : Dev Cert.ReferenceIdeal.nD) (i : Cert.ReferenceIdeal.S128x2.Idx), 0 ≤ (m' ((c.tc : Thread Cert.ReferenceIdeal.nD Cert.ReferenceIdeal.τ).loc Cert.ReferenceIdeal.main_arg12) i).toInt := fun c i => by
    rw [(hagree c).2.2.2.2.2.2.2.2.2.2.2.2.1]
    exact (hn c).2.1 i
  have h13 : ∀ (c : Dev Cert.ReferenceIdeal.nD) (i : Cert.ReferenceIdeal.S64x2.Idx), 0 ≤ (m' ((c.tc : Thread Cert.ReferenceIdeal.nD Cert.ReferenceIdeal.τ).loc Cert.ReferenceIdeal.main_arg13) i).toInt := fun c i => by
    rw [(hagree c).2.2.2.2.2.2.2.2.2.2.2.2.2.1]
    exact (hn c).2.2.1 i
  have h14 : ∀ (c : Dev Cert.ReferenceIdeal.nD) (i : Cert.ReferenceIdeal.S32x2.Idx), 0 ≤ (m' ((c.tc : Thread Cert.ReferenceIdeal.nD Cert.ReferenceIdeal.τ).loc Cert.ReferenceIdeal.main_arg14) i).toInt := fun c i => by
    rw [(hagree c).2.2.2.2.2.2.2.2.2.2.2.2.2.2.1]
    exact (hn c).2.2.2.1 i
  have h15 : ∀ (c : Dev Cert.ReferenceIdeal.nD) (i : Cert.ReferenceIdeal.S16x2.Idx), 0 ≤ (m' ((c.tc : Thread Cert.ReferenceIdeal.nD Cert.ReferenceIdeal.τ).loc Cert.ReferenceIdeal.main_arg15) i).toInt := fun c i => by
    rw [(hagree c).2.2.2.2.2.2.2.2.2.2.2.2.2.2.2.1]
    exact (hn c).2.2.2.2.1 i
  have h16 : ∀ (c : Dev Cert.ReferenceIdeal.nD) (i : Cert.ReferenceIdeal.S8x2.Idx), 0 ≤ (m' ((c.tc : Thread Cert.ReferenceIdeal.nD Cert.ReferenceIdeal.τ).loc Cert.ReferenceIdeal.main_arg16) i).toInt := fun c i => by
    rw [(hagree c).2.2.2.2.2.2.2.2.2.2.2.2.2.2.2.2.1]
    exact (hn c).2.2.2.2.2.1 i
  have h17 : ∀ (c : Dev Cert.ReferenceIdeal.nD) (i : Cert.ReferenceIdeal.S4x2.Idx), 0 ≤ (m' ((c.tc : Thread Cert.ReferenceIdeal.nD Cert.ReferenceIdeal.τ).loc Cert.ReferenceIdeal.main_arg17) i).toInt := fun c i => by
    rw [(hagree c).2.2.2.2.2.2.2.2.2.2.2.2.2.2.2.2.2.1]
    exact (hn c).2.2.2.2.2.2.1 i
  have h18 : ∀ (c : Dev Cert.ReferenceIdeal.nD) (i : Cert.ReferenceIdeal.S2x2.Idx), 0 ≤ (m' ((c.tc : Thread Cert.ReferenceIdeal.nD Cert.ReferenceIdeal.τ).loc Cert.ReferenceIdeal.main_arg18) i).toInt := fun c i => by
    rw [(hagree c).2.2.2.2.2.2.2.2.2.2.2.2.2.2.2.2.2.2.1]
    exact (hn c).2.2.2.2.2.2.2.1 i
  have h19 : ∀ (c : Dev Cert.ReferenceIdeal.nD) (i : Cert.ReferenceIdeal.S1x2.Idx), 0 ≤ (m' ((c.tc : Thread Cert.ReferenceIdeal.nD Cert.ReferenceIdeal.τ).loc Cert.ReferenceIdeal.main_arg19) i).toInt := fun c i => by
    rw [(hagree c).2.2.2.2.2.2.2.2.2.2.2.2.2.2.2.2.2.2.2]
    exact (hn c).2.2.2.2.2.2.2.2 i
  refine (θ_run Cert.ReferenceIdeal.defs _ _).mono (fun _ h c => ⟨(h c).1.trans ?_, (h c).2⟩)
    (Cert.ReferenceIdeal.Hand.value_run m' ρ' h11 h12 h13 h14 h15 h16 h17 h18 h19)
  rw [Cert.Equiv.args_eq m m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
